-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part3 {F : FTy → Type} [FloatOps F] (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  main_v53

def fn_part2 {F : FTy → Type} [FloatOps F] (main_arg8 : FVec F S512x128 .f32) (main_arg9 : FVec F S128 .f32) (main_arg10 : FVec F S128x8 .f32) (main_arg11 : FVec F S8 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x8 .f32 := Host.absf main_arg10
  let main_cst_16 : FVec F S_ .f32 := constant S_ .f32 0x7F800000#32
  let main_v45 : FVec F S128x8 .f32 := broadcastInDim S128x8 ![] bcast_S_S128x8 main_cst_16
  let main_v46 : IVec S128x8 1 := cmpf .olt main_v44 main_v45
  let main_c_17 : IVec S_ 1 := constantI S_ 1 1#1
  let main_v47 : IVec S_ 1 := (fun x v => Host.reduce IntOp.andi x v reducesTo_S128x8_S_d0_1 h_S_) main_v46 main_c_17
  let main_v48 : IVec S_ 1 := andi main_v43 main_v47
  let main_v49 : FVec F S8 .f32 := Host.absf main_arg11
  let main_cst_18 : FVec F S_ .f32 := constant S_ .f32 0x7F800000#32
  let main_v50 : FVec F S8 .f32 := broadcastInDim S8 ![] bcast_S_S8 main_cst_18
  fn_part3 (F := F) main_v48 main_v49 main_v50

def fn_part1 {F : FTy → Type} [FloatOps F] (main_arg5 : FVec F S4x128 .f32) (main_arg6 : FVec F S4x128 .f32) (main_arg7 : FVec F S4x128 .f32) (main_arg8 : FVec F S512x128 .f32) (main_arg9 : FVec F S128 .f32) (main_arg10 : FVec F S128x8 .f32) (main_arg11 : FVec F S8 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S4x128x128 .f32) (main_arg3 : FVec F S4x128 .f32) (main_arg4 : FVec F S4x128x128 .f32) (main_arg5 : FVec F S4x128 .f32) (main_arg6 : FVec F S4x128 .f32) (main_arg7 : FVec F S4x128 .f32) (main_arg8 : FVec F S512x128 .f32) (main_arg9 : FVec F S128 .f32) (main_arg10 : FVec F S128x8 .f32) (main_arg11 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x8 : Shape := ⟨2, ![128, 8]⟩
abbrev S8 : Shape := ⟨1, ![8]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S2000x128 : Shape := ⟨2, ![2000, 128]⟩
abbrev S1x8 : Shape := ⟨2, ![1, 8]⟩
abbrev S50000x8 : Shape := ⟨2, ![50000, 8]⟩
abbrev S2000x8 : Shape := ⟨2, ![2000, 8]⟩

abbrev nBuf : Space → Nat
  | .hbm => 155
  | .vmem => 105
  | .smem => 0
  | _ => 0

abbrev hbmTy0_0 (i : Nat) : BufTy := match i % 128 with
  | 0 => ⟨S50000x128, .f32⟩
  | 1 => ⟨S2x600000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S4x128, .f32⟩
  | 8 => ⟨S512x128, .f32⟩
  | 9 => ⟨S128, .f32⟩
  | 10 => ⟨S128x8, .f32⟩
  | 11 => ⟨S8, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .f32⟩
  | 26 => ⟨S50000x128, .f32⟩
  | 27 => ⟨S600000x1, .i32⟩
  | 28 => ⟨S50000x128, .f32⟩
  | 29 => ⟨S1x128x128, .f32⟩
  | 30 => ⟨S128x128, .f32⟩
  | 31 => ⟨S1x128, .f32⟩
  | 32 => ⟨S128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S1x128, .f32⟩
  | 39 => ⟨S50000x128, .f32⟩
  | 40 => ⟨S1x128, .f32⟩
  | 41 => ⟨S1x128, .f32⟩
  | 42 => ⟨S1x128, .f32⟩
  | 43 => ⟨S128, .f32⟩
  | 44 => ⟨S1x128, .f32⟩
  | 45 => ⟨S128, .f32⟩
  | 46 => ⟨S1x128, .f32⟩
  | 47 => ⟨S1x128, .f32⟩
  | 48 => ⟨S50000x128, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S1x128x128, .f32⟩
  | 63 => ⟨S128x128, .f32⟩
  | 64 => ⟨S1x128, .f32⟩
  | 65 => ⟨S128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S1x128, .f32⟩
  | 72 => ⟨S50000x128, .f32⟩
  | 73 => ⟨S1x128, .f32⟩
  | 74 => ⟨S1x128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S1x128, .f32⟩
  | 81 => ⟨S50000x128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S_, .f32⟩
  | 92 => ⟨S50000x128, .f32⟩
  | 93 => ⟨S600000x1, .i32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S1x128, .f32⟩
  | 105 => ⟨S50000x128, .f32⟩
  | 106 => ⟨S1x128, .f32⟩
  | 107 => ⟨S1x128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S1x128, .f32⟩
  | 114 => ⟨S50000x128, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S50000x128, .f32⟩

abbrev hbmTy0_1 (i : Nat) : BufTy := match i % 128 with
  | 0 => ⟨S1x128x128, .f32⟩
  | 1 => ⟨S128x128, .f32⟩
  | 2 => ⟨S1x128, .f32⟩
  | 3 => ⟨S128, .f32⟩
  | 4 => ⟨S1x128x128, .f32⟩
  | 5 => ⟨S128x128, .f32⟩
  | 6 => ⟨S1x128, .f32⟩
  | 7 => ⟨S128, .f32⟩
  | 8 => ⟨S1x128, .f32⟩
  | 9 => ⟨S1x128, .f32⟩
  | 10 => ⟨S50000x128, .f32⟩
  | 11 => ⟨S1x128, .f32⟩
  | 12 => ⟨S1x128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S1x128, .f32⟩
  | 19 => ⟨S50000x128, .f32⟩
  | 20 => ⟨S128x128, .f32⟩
  | 21 => ⟨S128x128, .f32⟩
  | 22 => ⟨S128x128, .f32⟩
  | 23 => ⟨S128x128, .f32⟩
  | 24 => ⟨S1x128, .f32⟩
  | 25 => ⟨S1x8, .f32⟩
  | 26 => ⟨S50000x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S2000x128, .f32⟩
  | .local _ .vmem, ⟨75, _⟩ => ⟨S2000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S2000x128, .f32⟩
  | .local _ .vmem, ⟨81, _⟩ => ⟨S2000x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S2000x128, .f32⟩
  | .local _ .vmem, ⟨87, _⟩ => ⟨S2000x128, .f32⟩
  | .local _ .vmem, ⟨88, _⟩ => ⟨S2000x128, .f32⟩
  | .local _ .vmem, ⟨89, _⟩ => ⟨S2000x128, .f32⟩
  | .local _ .vmem, ⟨90, _⟩ => ⟨S2000x128, .f32⟩
  | .local _ .vmem, ⟨91, _⟩ => ⟨S2000x128, .f32⟩
  | .local _ .vmem, ⟨92, _⟩ => ⟨S2000x128, .f32⟩
  | .local _ .vmem, ⟨93, _⟩ => ⟨S2000x128, .f32⟩
  | .local _ .vmem, ⟨94, _⟩ => ⟨S2000x128, .f32⟩
  | .local _ .vmem, ⟨95, _⟩ => ⟨S2000x128, .f32⟩
  | .local _ .vmem, ⟨96, _⟩ => ⟨S128x128, .f32⟩
  | .local _ .vmem, ⟨97, _⟩ => ⟨S128x128, .f32⟩
  | .local _ .vmem, ⟨98, _⟩ => ⟨S128x128, .f32⟩
  | .local _ .vmem, ⟨99, _⟩ => ⟨S128x128, .f32⟩
  | .local _ .vmem, ⟨100, _⟩ => ⟨S1x128, .f32⟩
  | .local _ .vmem, ⟨101, _⟩ => ⟨S128x8, .f32⟩
  | .local _ .vmem, ⟨102, _⟩ => ⟨S1x8, .f32⟩
  | .local _ .vmem, ⟨103, _⟩ => ⟨S2000x8, .f32⟩
  | .local _ .vmem, ⟨104, _⟩ => ⟨S2000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_1 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_4 : Ref sig .tc := ⟨.hbm, 82, rfl⟩
abbrev main_v60 : Ref sig .tc := ⟨.hbm, 83, rfl⟩
abbrev main_v61 : Ref sig .tc := ⟨.hbm, 84, rfl⟩
abbrev main_c_5 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80_0 : Ref sig .tc := ⟨.hbm, 105, rfl⟩
abbrev main_v80_1 : Ref sig .tc := ⟨.hbm, 106, rfl⟩
abbrev main_v80_2 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_7 : Ref sig .tc := ⟨.hbm, 115, rfl⟩
abbrev main_v88 : Ref sig .tc := ⟨.hbm, 116, rfl⟩
abbrev main_v89 : Ref sig .tc := ⟨.hbm, 117, rfl⟩
abbrev main_c_8 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_9 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108_0 : Ref sig .tc := ⟨.hbm, 138, rfl⟩
abbrev main_v108_1 : Ref sig .tc := ⟨.hbm, 139, rfl⟩
abbrev main_v108_2 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_stg3_1 : Ref sig .tc := ⟨.vmem, 95, rfl⟩
abbrev cc8_stg4_0 : Ref sig .tc := ⟨.vmem, 96, rfl⟩
abbrev cc8_stg5_0 : Ref sig .tc := ⟨.vmem, 97, rfl⟩
abbrev cc8_stg6_0 : Ref sig .tc := ⟨.vmem, 98, rfl⟩
abbrev cc8_stg7_0 : Ref sig .tc := ⟨.vmem, 99, rfl⟩
abbrev cc8_stg8_0 : Ref sig .tc := ⟨.vmem, 100, rfl⟩
abbrev cc8_stg9_0 : Ref sig .tc := ⟨.vmem, 101, rfl⟩
abbrev cc8_stg10_0 : Ref sig .tc := ⟨.vmem, 102, rfl⟩
abbrev cc8_stg11_0 : Ref sig .tc := ⟨.vmem, 103, rfl⟩
abbrev cc8_stg11_1 : Ref sig .tc := ⟨.vmem, 104, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem2_1 : DmaSem sig := 85
abbrev cc8_sem3_0 : DmaSem sig := 86
abbrev cc8_sem3_1 : DmaSem sig := 87
abbrev cc8_sem4_0 : DmaSem sig := 88
abbrev cc8_sem5_0 : DmaSem sig := 89
abbrev cc8_sem6_0 : DmaSem sig := 90
abbrev cc8_sem7_0 : DmaSem sig := 91
abbrev cc8_sem8_0 : DmaSem sig := 92
abbrev cc8_sem9_0 : DmaSem sig := 93
abbrev cc8_sem10_0 : DmaSem sig := 94
abbrev cc8_sem11_0 : DmaSem sig := 95
abbrev cc8_sem11_1 : DmaSem sig := 96

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v45 : BitVec 1 := Scalar.cmpi .eq arg0 c24_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_27 : BitVec 32 := 0#32
  let v48 : BitVec 1 := Scalar.cmpi .ne v47 c0_i32_27
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_27 : BitVec 32 := 0#32
  let v48 : BitVec 1 := Scalar.cmpi .ne v47 c0_i32_27
  v48

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def k6_cond2 (i : grid6.Coords) : BitVec 1 :=
  let arg0 : BitVec 32 := BitVec.ofNat 32 (i 0).val
  let c24_i32 : BitVec 32 := 24#32
  let v46 : BitVec 1 := Scalar.cmpi .eq arg0 c24_i32
  let v47 : BitVec 32 := Scalar.extui v46
  let c0_i32_27 : BitVec 32 := 0#32
  let v48 : BitVec 1 := Scalar.cmpi .ne v47 c0_i32_27
  v48

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S128x8 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x8 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 2 → Memref sig .tc .vmem S2000x8 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S512x128_S128x128_0_0 : S512x128.Slices ![0, 0] S128x128
  slices_S512x128_S128x128_128_0 : S512x128.Slices ![128, 0] S128x128
  slices_S512x128_S128x128_256_0 : S512x128.Slices ![256, 0] S128x128
  slices_S512x128_S128x128_384_0 : S512x128.Slices ![384, 0] S128x128
  shapeCasts_S8_S1x8 : S8.ShapeCasts S1x8
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x128.size a ≤ S50000x128.size a
  hwx6_1 : ∀ i : grid6.Coords, EltTy.bits .f32 = 32 ∨ (Rect.block (s := S50000x128) S2000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x128.size a ≤ S50000x128.size a
  hwx6_6 : ∀ i : grid6.Coords, EltTy.bits .f32 = 32 ∨ (Rect.block (s := S50000x128) S2000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x128.size a ≤ S50000x128.size a
  hwx7_5 : ∀ i : grid7.Coords, EltTy.bits .f32 = 32 ∨ (Rect.block (s := S50000x128) S2000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x128.size a ≤ S50000x128.size a
  hwx8_1 : ∀ i : grid8.Coords, EltTy.bits .f32 = 32 ∨ (Rect.block (s := S50000x128) S2000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S50000x128.size a
  hwx8_2 : ∀ i : grid8.Coords, EltTy.bits .f32 = 32 ∨ (Rect.block (s := S50000x128) S2000x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S50000x128.size a
  hwx8_3 : ∀ i : grid8.Coords, EltTy.bits .f32 = 32 ∨ (Rect.block (s := S50000x128) S2000x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .f32 = 32 ∨ (Rect.block (s := S128x128) S128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .f32 = 32 ∨ (Rect.block (s := S128x128) S128x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S128x8.size a ≤ S128x8.size a
  hwx8_9 : ∀ i : grid8.Coords, EltTy.bits .f32 = 32 ∨ (Rect.block (s := S128x8) S128x8.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x8.size a ≤ S1x8.size a
  hwx8_10 : ∀ i : grid8.Coords, EltTy.bits .f32 = 32 ∨ (Rect.block (s := S1x8) S1x8.size (cc8_transform_10 i) (hinb8_10 i)).WholeWords (EltTy.packing .f32)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S2000x8.size a ≤ S50000x8.size a
  hwx8_11 : ∀ i : grid8.Coords, EltTy.bits .f32 = 32 ∨ (Rect.block (s := S50000x8) S2000x8.size (cc8_transform_11 i) (hinb8_11 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v24_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v52_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v52_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v79) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v80_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v80_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v80_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v80_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80_1) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80_2) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v86) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v87) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v87) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v97) S2000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v103) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v108_0) S2000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v108_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v108_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v108_0) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108_1) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108_2) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v113) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v114) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S2000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v31) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v59) S2000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v87) S2000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v115) S2000x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v116) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v117) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v118) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v119) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v120) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_arg10) S128x8.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v121) S1x8.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v122) S2000x8.size cc8_transform_11 reads8_11 true false 2 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S4x128x128 : Shape := ⟨3, ![4, 128, 128]⟩
abbrev S4x128 : Shape := ⟨2, ![4, 128]⟩
abbrev S512x128 : Shape := ⟨2, ![512, 128]⟩
abbrev S128 : Shape := ⟨1, ![128]⟩
abbrev S128x8 : Shape := ⟨2, ![128, 8]⟩
abbrev S8 : Shape := ⟨1, ![8]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S50000x512 : Shape := ⟨2, ![50000, 512]⟩
abbrev S50000x8 : Shape := ⟨2, ![50000, 8]⟩
abbrev S1x8 : Shape := ⟨2, ![1, 8]⟩

abbrev nBuf : Space → Nat
  | .hbm => 364
  | .vmem => 0
  | .smem => 0
  | _ => 0

abbrev hbmTy0_0 (i : Nat) : BufTy := match i % 128 with
  | 0 => ⟨S50000x128, .f32⟩
  | 1 => ⟨S2x600000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S4x128, .f32⟩
  | 8 => ⟨S512x128, .f32⟩
  | 9 => ⟨S128, .f32⟩
  | 10 => ⟨S128x8, .f32⟩
  | 11 => ⟨S8, .f32⟩
  | 12 => ⟨S1x600000, .i32⟩
  | 13 => ⟨S600000, .i32⟩
  | 14 => ⟨S1x600000, .i32⟩
  | 15 => ⟨S600000, .i32⟩
  | 16 => ⟨S1x128x128, .f32⟩
  | 17 => ⟨S128x128, .f32⟩
  | 18 => ⟨S1x128, .f32⟩
  | 19 => ⟨S128, .f32⟩
  | 20 => ⟨S1x128x128, .f32⟩
  | 21 => ⟨S128x128, .f32⟩
  | 22 => ⟨S1x128, .f32⟩
  | 23 => ⟨S128, .f32⟩
  | 24 => ⟨S1x128, .f32⟩
  | 25 => ⟨S128, .f32⟩
  | 26 => ⟨S1x128, .f32⟩
  | 27 => ⟨S128, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000x128, .f32⟩
  | 37 => ⟨S_, .f32⟩
  | 38 => ⟨S50000x128, .f32⟩
  | 39 => ⟨S600000x1, .i32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S50000x128, .f32⟩
  | 69 => ⟨S50000x128, .f32⟩
  | 70 => ⟨S50000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S1x128x128, .f32⟩
  | 101 => ⟨S128x128, .f32⟩
  | 102 => ⟨S1x128, .f32⟩
  | 103 => ⟨S128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S_, .f32⟩
  | 122 => ⟨S50000x128, .f32⟩
  | 123 => ⟨S600000x1, .i32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S50000x128, .f32⟩
  | 25 => ⟨S50000x128, .f32⟩
  | 26 => ⟨S50000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128x128, .f32⟩
  | 57 => ⟨S128x128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S128, .f32⟩
  | 66 => ⟨S1x128, .f32⟩
  | 67 => ⟨S128, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S50000x128, .f32⟩
  | 79 => ⟨S600000x1, .i32⟩
  | 80 => ⟨S50000x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S50000x128, .f32⟩
  | 109 => ⟨S50000x128, .f32⟩
  | 110 => ⟨S50000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_2 (i : Nat) : BufTy := match i % 128 with
  | 0 => ⟨S128, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000x128, .f32⟩
  | 33 => ⟨S_, .f32⟩
  | 34 => ⟨S50000x128, .f32⟩
  | 35 => ⟨S600000x1, .i32⟩
  | 36 => ⟨S50000x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S50000x512, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x8, .f32⟩
  | 105 => ⟨S1x8, .f32⟩
  | 106 => ⟨S50000x8, .f32⟩
  | 107 => ⟨S50000x8, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_cst_2 : Ref sig .tc := ⟨.hbm, 58, rfl⟩
abbrev main_v38 : Ref sig .tc := ⟨.hbm, 59, rfl⟩
abbrev main_v39 : Ref sig .tc := ⟨.hbm, 60, rfl⟩
abbrev main_c_3 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_cst_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_cst_1 : Ref sig .tc := ⟨.hbm, 72, rfl⟩
abbrev main_call2_v8 : Ref sig .tc := ⟨.hbm, 73, rfl⟩
abbrev main_call2_cst_2 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_cst_3 : Ref sig .tc := ⟨.hbm, 78, rfl⟩
abbrev main_call2_v12 : Ref sig .tc := ⟨.hbm, 79, rfl⟩
abbrev main_call2_cst_4 : Ref sig .tc := ⟨.hbm, 80, rfl⟩
abbrev main_call2_call0_v0 : Ref sig .tc := ⟨.hbm, 81, rfl⟩
abbrev main_call2_call0_v1 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_4 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_c_5 : Ref sig .tc := ⟨.hbm, 112, rfl⟩
abbrev main_v68 : Ref sig .tc := ⟨.hbm, 113, rfl⟩
abbrev main_v69 : Ref sig .tc := ⟨.hbm, 114, rfl⟩
abbrev main_c_6 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_7 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_call3_cst : Ref sig .tc := ⟨.hbm, 130, rfl⟩
abbrev main_call3_v0 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call4_cst : Ref sig .tc := ⟨.hbm, 137, rfl⟩
abbrev main_call4_v0 : Ref sig .tc := ⟨.hbm, 138, rfl⟩
abbrev main_v88 : Ref sig .tc := ⟨.hbm, 139, rfl⟩
abbrev main_cst_8 : Ref sig .tc := ⟨.hbm, 140, rfl⟩
abbrev main_v89 : Ref sig .tc := ⟨.hbm, 141, rfl⟩
abbrev main_cst_9 : Ref sig .tc := ⟨.hbm, 142, rfl⟩
abbrev main_v90 : Ref sig .tc := ⟨.hbm, 143, rfl⟩
abbrev main_v91 : Ref sig .tc := ⟨.hbm, 144, rfl⟩
abbrev main_c_10 : Ref sig .tc := ⟨.hbm, 145, rfl⟩
abbrev main_call5_cst : Ref sig .tc := ⟨.hbm, 146, rfl⟩
abbrev main_call5_v0 : Ref sig .tc := ⟨.hbm, 147, rfl⟩
abbrev main_call5_v1 : Ref sig .tc := ⟨.hbm, 148, rfl⟩
abbrev main_call5_cst_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_cst_1 : Ref sig .tc := ⟨.hbm, 156, rfl⟩
abbrev main_call5_v8 : Ref sig .tc := ⟨.hbm, 157, rfl⟩
abbrev main_call5_cst_2 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_cst_3 : Ref sig .tc := ⟨.hbm, 162, rfl⟩
abbrev main_call5_v12 : Ref sig .tc := ⟨.hbm, 163, rfl⟩
abbrev main_call5_cst_4 : Ref sig .tc := ⟨.hbm, 164, rfl⟩
abbrev main_call5_call0_v0 : Ref sig .tc := ⟨.hbm, 165, rfl⟩
abbrev main_call5_call0_v1 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_cst_11 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_c_12 : Ref sig .tc := ⟨.hbm, 196, rfl⟩
abbrev main_v120 : Ref sig .tc := ⟨.hbm, 197, rfl⟩
abbrev main_v121 : Ref sig .tc := ⟨.hbm, 198, rfl⟩
abbrev main_c_13 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_cst_14 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_call6_cst : Ref sig .tc := ⟨.hbm, 214, rfl⟩
abbrev main_call6_v0 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_call7_cst : Ref sig .tc := ⟨.hbm, 221, rfl⟩
abbrev main_call7_v0 : Ref sig .tc := ⟨.hbm, 222, rfl⟩
abbrev main_v140 : Ref sig .tc := ⟨.hbm, 223, rfl⟩
abbrev main_cst_15 : Ref sig .tc := ⟨.hbm, 224, rfl⟩
abbrev main_v141 : Ref sig .tc := ⟨.hbm, 225, rfl⟩
abbrev main_cst_16 : Ref sig .tc := ⟨.hbm, 226, rfl⟩
abbrev main_v142 : Ref sig .tc := ⟨.hbm, 227, rfl⟩
abbrev main_v143 : Ref sig .tc := ⟨.hbm, 228, rfl⟩
abbrev main_c_17 : Ref sig .tc := ⟨.hbm, 229, rfl⟩
abbrev main_call8_cst : Ref sig .tc := ⟨.hbm, 230, rfl⟩
abbrev main_call8_v0 : Ref sig .tc := ⟨.hbm, 231, rfl⟩
abbrev main_call8_v1 : Ref sig .tc := ⟨.hbm, 232, rfl⟩
abbrev main_call8_cst_0 : Ref sig .tc := ⟨.hbm, 233, rfl⟩
abbrev main_call8_v2 : Ref sig .tc := ⟨.hbm, 234, rfl⟩
abbrev main_call8_v3 : Ref sig .tc := ⟨.hbm, 235, rfl⟩
abbrev main_call8_v4 : Ref sig .tc := ⟨.hbm, 236, rfl⟩
abbrev main_call8_v5 : Ref sig .tc := ⟨.hbm, 237, rfl⟩
abbrev main_call8_v6 : Ref sig .tc := ⟨.hbm, 238, rfl⟩
abbrev main_call8_v7 : Ref sig .tc := ⟨.hbm, 239, rfl⟩
abbrev main_call8_cst_1 : Ref sig .tc := ⟨.hbm, 240, rfl⟩
abbrev main_call8_v8 : Ref sig .tc := ⟨.hbm, 241, rfl⟩
abbrev main_call8_cst_2 : Ref sig .tc := ⟨.hbm, 242, rfl⟩
abbrev main_call8_v9 : Ref sig .tc := ⟨.hbm, 243, rfl⟩
abbrev main_call8_v10 : Ref sig .tc := ⟨.hbm, 244, rfl⟩
abbrev main_call8_v11 : Ref sig .tc := ⟨.hbm, 245, rfl⟩
abbrev main_call8_cst_3 : Ref sig .tc := ⟨.hbm, 246, rfl⟩
abbrev main_call8_v12 : Ref sig .tc := ⟨.hbm, 247, rfl⟩
abbrev main_call8_cst_4 : Ref sig .tc := ⟨.hbm, 248, rfl⟩
abbrev main_call8_call0_v0 : Ref sig .tc := ⟨.hbm, 249, rfl⟩
abbrev main_call8_call0_v1 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_cst_18 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_v171 : Ref sig .tc := ⟨.hbm, 279, rfl⟩
abbrev main_c_19 : Ref sig .tc := ⟨.hbm, 280, rfl⟩
abbrev main_v172 : Ref sig .tc := ⟨.hbm, 281, rfl⟩
abbrev main_v173 : Ref sig .tc := ⟨.hbm, 282, rfl⟩
abbrev main_c_20 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_cst_21 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_call9_cst : Ref sig .tc := ⟨.hbm, 298, rfl⟩
abbrev main_call9_v0 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_v190 : Ref sig .tc := ⟨.hbm, 303, rfl⟩
abbrev main_v191 : Ref sig .tc := ⟨.hbm, 304, rfl⟩
abbrev main_call10_cst : Ref sig .tc := ⟨.hbm, 305, rfl⟩
abbrev main_call10_v0 : Ref sig .tc := ⟨.hbm, 306, rfl⟩
abbrev main_v192 : Ref sig .tc := ⟨.hbm, 307, rfl⟩
abbrev main_cst_22 : Ref sig .tc := ⟨.hbm, 308, rfl⟩
abbrev main_v193 : Ref sig .tc := ⟨.hbm, 309, rfl⟩
abbrev main_cst_23 : Ref sig .tc := ⟨.hbm, 310, rfl⟩
abbrev main_v194 : Ref sig .tc := ⟨.hbm, 311, rfl⟩
abbrev main_v195 : Ref sig .tc := ⟨.hbm, 312, rfl⟩
abbrev main_c_24 : Ref sig .tc := ⟨.hbm, 313, rfl⟩
abbrev main_call11_cst : Ref sig .tc := ⟨.hbm, 314, rfl⟩
abbrev main_call11_v0 : Ref sig .tc := ⟨.hbm, 315, rfl⟩
abbrev main_call11_v1 : Ref sig .tc := ⟨.hbm, 316, rfl⟩
abbrev main_call11_cst_0 : Ref sig .tc := ⟨.hbm, 317, rfl⟩
abbrev main_call11_v2 : Ref sig .tc := ⟨.hbm, 318, rfl⟩
abbrev main_call11_v3 : Ref sig .tc := ⟨.hbm, 319, rfl⟩
abbrev main_call11_v4 : Ref sig .tc := ⟨.hbm, 320, rfl⟩
abbrev main_call11_v5 : Ref sig .tc := ⟨.hbm, 321, rfl⟩
abbrev main_call11_v6 : Ref sig .tc := ⟨.hbm, 322, rfl⟩
abbrev main_call11_v7 : Ref sig .tc := ⟨.hbm, 323, rfl⟩
abbrev main_call11_cst_1 : Ref sig .tc := ⟨.hbm, 324, rfl⟩
abbrev main_call11_v8 : Ref sig .tc := ⟨.hbm, 325, rfl⟩
abbrev main_call11_cst_2 : Ref sig .tc := ⟨.hbm, 326, rfl⟩
abbrev main_call11_v9 : Ref sig .tc := ⟨.hbm, 327, rfl⟩
abbrev main_call11_v10 : Ref sig .tc := ⟨.hbm, 328, rfl⟩
abbrev main_call11_v11 : Ref sig .tc := ⟨.hbm, 329, rfl⟩
abbrev main_call11_cst_3 : Ref sig .tc := ⟨.hbm, 330, rfl⟩
abbrev main_call11_v12 : Ref sig .tc := ⟨.hbm, 331, rfl⟩
abbrev main_call11_cst_4 : Ref sig .tc := ⟨.hbm, 332, rfl⟩
abbrev main_call11_call0_v0 : Ref sig .tc := ⟨.hbm, 333, rfl⟩
abbrev main_call11_call0_v1 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_cst_25 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_v205 : Ref sig .tc := ⟨.hbm, 345, rfl⟩
abbrev main_v206 : Ref sig .tc := ⟨.hbm, 346, rfl⟩
abbrev main_v207 : Ref sig .tc := ⟨.hbm, 347, rfl⟩
abbrev main_v208 : Ref sig .tc := ⟨.hbm, 348, rfl⟩
abbrev main_v209 : Ref sig .tc := ⟨.hbm, 349, rfl⟩
abbrev main_v210 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_v216 : Ref sig .tc := ⟨.hbm, 356, rfl⟩
abbrev main_call12_cst : Ref sig .tc := ⟨.hbm, 357, rfl⟩
abbrev main_call12_v0 : Ref sig .tc := ⟨.hbm, 358, rfl⟩
abbrev main_v217 : Ref sig .tc := ⟨.hbm, 359, rfl⟩
abbrev main_v218 : Ref sig .tc := ⟨.hbm, 360, rfl⟩
abbrev main_v219 : Ref sig .tc := ⟨.hbm, 361, rfl⟩
abbrev main_v220 : Ref sig .tc := ⟨.hbm, 362, rfl⟩
abbrev main_v221 : Ref sig .tc := ⟨.hbm, 363, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x128_S50000x128_S50000x512_d1 : Shape.Concatenates [S50000x128, S50000x128, S50000x128, S50000x128] S50000x512 1
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x512_S512x128_S50000x128_1_0_0_1_n_n_wf : DotDims.WF S50000x512 S512x128 S50000x128 [1] [0] [0] [1] [] []
  dot_S50000x128_S128x8_S50000x8_1_0_0_1_n_n_wf : DotDims.WF S50000x128 S128x8 S50000x8 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.KI.Stats0Runs.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.Value
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ
abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 24 :=
  (by decide +kernel : ∀ t : Fin grid0.N, cond0_1 (grid0.coords t) ↔ t.val = 24)
theorem hz0 : (![0, 0] : Fin 2 → Nat) = fun _ => 0 := funext fun a => by fin_cases a <;> rfl
-- a store through the whole shape, made last, decides what the buffer reads
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)
section
variable (x0 x1 : Vec F S2000x128 .f32) (x2 : Vec F S128x128 .f32) (x3 : Vec F S1x128 .f32) (x4 : Vec F S128x128 .f32) (x5 s q : Vec F S1x128 .f32)
def h2Of0 : Vec F S2000x128 .f32 := k0_pay7 x0 x1 x2 x3 x4 x5
def sumOf0 : Vec F S1x128 .f32 := k0_pay1 (k0_pay8 x0 x1 x2 x3 x4 x5 s)
def sqOf0 : Vec F S1x128 .f32 := k0_pay2 (k0_pay7 x0 x1 x2 x3 x4 x5) q
def meanOf0 : Vec F S1x128 .f32 := k0_pay3 s
def varOf0 : Vec F S1x128 .f32 := k0_pay4 s q
end
variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
-- the first point: the running sums are this block's sums added to zero
theorem run0_A {body} (hb : body = cc0__gin_mlp_stats_kernel (F := F)) (hc0 : cond0_0 i) (hc1 : ¬cond0_1 i) (x0 x1 : Vec F S2000x128 .f32) (x2 : Vec F S128x128 .f32) (x3 : Vec F S1x128 .f32) (x4 : Vec F S128x128 .f32) (x5 xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ (∃ d, owns c.tc arg10 fullShare d) ∗ (∃ d, owns c.tc arg11 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of0 x0 x1 x2 x3 x4 x5) ∗ owns c.tc arg8 fullShare xi7 ∗ owns c.tc arg9 fullShare xi8
            ∗ owns c.tc arg10 fullShare (sumOf0 x0 x1 x2 x3 x4 x5 k0_pay5) ∗ owns c.tc arg11 fullShare (sqOf0 x0 x1 x2 x3 x4 x5 k0_pay6)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc0__gin_mlp_stats_kernel_eq_skeleton]; unfold cc0__gin_mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0 hf1 hf2 hf3 hf4 hf5 hf7 hf8
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz0 _ _ _).trans ?_; sl_unfold_words
       simp only [h2Of0, sumOf0, sqOf0, meanOf0, varOf0, View.readAt_eq_ld, View.ld_unit_zero (S := S2000x128) hz0, View.ld_unit_zero (S := S128x128) hz0, View.ld_unit_zero (S := S1x128) hz0, View.readCov_unit_zero (S := S1x128) _ hz0])
    | rfl
-- a middle point: the block's sums are added to the running sums found
theorem run0_B {body} (hb : body = cc0__gin_mlp_stats_kernel (F := F)) (hc0 : ¬cond0_0 i) (hc1 : ¬cond0_1 i) (x0 x1 : Vec F S2000x128 .f32) (x2 : Vec F S128x128 .f32) (x3 : Vec F S1x128 .f32) (x4 : Vec F S128x128 .f32) (x5 s q xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of0 x0 x1 x2 x3 x4 x5) ∗ owns c.tc arg8 fullShare xi7 ∗ owns c.tc arg9 fullShare xi8
            ∗ owns c.tc arg10 fullShare (sumOf0 x0 x1 x2 x3 x4 x5 s) ∗ owns c.tc arg11 fullShare (sqOf0 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc0__gin_mlp_stats_kernel_eq_skeleton]; unfold cc0__gin_mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0 hf1 hf2 hf3 hf4 hf5 hf7 hf8 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz0 _ _ _).trans ?_; sl_unfold_words
       simp only [h2Of0, sumOf0, sqOf0, meanOf0, varOf0, View.readAt_eq_ld, View.ld_unit_zero (S := S2000x128) hz0, View.ld_unit_zero (S := S128x128) hz0, View.ld_unit_zero (S := S1x128) hz0, View.readCov_unit_zero (S := S1x128) _ hz0])
    | rfl
-- the last point: as a middle point, and the mean and variance are those of the final sums
theorem run0_C {body} (hb : body = cc0__gin_mlp_stats_kernel (F := F)) (hc0 : ¬cond0_0 i) (hc1 : cond0_1 i) (x0 x1 : Vec F S2000x128 .f32) (x2 : Vec F S128x128 .f32) (x3 : Vec F S1x128 .f32) (x4 : Vec F S128x128 .f32) (x5 s q : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ (∃ d, owns c.tc arg8 fullShare d) ∗ (∃ d, owns c.tc arg9 fullShare d)
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of0 x0 x1 x2 x3 x4 x5)
            ∗ owns c.tc arg8 fullShare (meanOf0 (sumOf0 x0 x1 x2 x3 x4 x5 s))
            ∗ owns c.tc arg9 fullShare (varOf0 (sumOf0 x0 x1 x2 x3 x4 x5 s) (sqOf0 x0 x1 x2 x3 x4 x5 q))
            ∗ owns c.tc arg10 fullShare (sumOf0 x0 x1 x2 x3 x4 x5 s) ∗ owns c.tc arg11 fullShare (sqOf0 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc0__gin_mlp_stats_kernel_eq_skeleton]; unfold cc0__gin_mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz0 _ _ _).trans ?_; sl_unfold_words
       simp only [h2Of0, sumOf0, sqOf0, meanOf0, varOf0, View.readAt_eq_ld, View.ld_unit_zero (S := S2000x128) hz0, View.ld_unit_zero (S := S128x128) hz0, View.ld_unit_zero (S := S1x128) hz0, View.readCov_unit_zero (S := S1x128) _ hz0])
    | rfl
end Cert.KernelIdeal.Hand
end
-- ==== Proof.KI.Stats0.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Stats0Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
theorem idleAt0 : ∀ (t : Fin cfg0.N) (w : Fin cfg0.W), 7 ≤ w.val → ¬cond0_1 (grid0.coords t) →
    cfg0.idle w (grid0.coords t) = true ∧ (cfg0.win w).flush t = false := by decide +kernel
theorem liveAt0 : ∀ (t : Fin cfg0.N) (w : Fin cfg0.W), 7 ≤ w.val → cond0_1 (grid0.coords t) →
    cfg0.idle w (grid0.coords t) = false := by decide +kernel
abbrev scM0_0 : Memref sig .tc .vmem S1x128 .f32 := Memref.whole cc0_scratch0
abbrev scM0_1 : Memref sig .tc .vmem S1x128 .f32 := Memref.whole cc0_scratch1
-- the kernel's invariant around what the two scratch rows hold
def inv0 (c : Dev nD) (S : sProp 𝕄) : sProp 𝕄 :=
  iprop(iprop(S ∗ Pipeline.scopedRestBut (Ix := Unit) (Name := ℕ) (U := UR sig nD τ) (Lvl := ℕ) (Val := Elt F) spec0 c [cc0_scratch0, cc0_scratch1]) ∗ (∃ r, prngReg c r))
def acc0 (c : Dev nD) (s q : Vec F S1x128 .f32) : sProp 𝕄 :=
  inv0 c iprop(owns (c : Thread nD τ) scM0_0 fullShare s ∗ owns (c : Thread nD τ) scM0_1 fullShare q)
theorem PhiA0_eq (c : Dev nD) : (Pipeline.ΦA spec0 c : sProp 𝕄)
    = inv0 c iprop((∃ d, owns (c : Thread nD τ) scM0_0 fullShare d) ∗ (∃ d, owns (c : Thread nD τ) scM0_1 fullShare d)) := by
  unfold Pipeline.ΦA inv0; rw [scopedRest0_split]; simp only [scM0_0, scM0_1, owns_whole]; try rfl
theorem out0 (c : Dev nD) (s q : Vec F S1x128 .f32) : acc0 c s q ⊢ (Pipeline.ΦA spec0 c : sProp 𝕄) := by
  rw [PhiA0_eq]; unfold acc0 inv0
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev xb0_0 (c : Dev nD) (t : Fin cfg0.N) : Vec F S2000x128 .f32 := iblk0 V c 0 t
abbrev xb0_1 (c : Dev nD) (t : Fin cfg0.N) : Vec F S2000x128 .f32 := iblk0 V c 1 t
abbrev xb0_2 (c : Dev nD) (t : Fin cfg0.N) : Vec F S128x128 .f32 := iblk0 V c 2 t
abbrev xb0_3 (c : Dev nD) (t : Fin cfg0.N) : Vec F S1x128 .f32 := iblk0 V c 3 t
abbrev xb0_4 (c : Dev nD) (t : Fin cfg0.N) : Vec F S128x128 .f32 := iblk0 V c 4 t
abbrev xb0_5 (c : Dev nD) (t : Fin cfg0.N) : Vec F S1x128 .f32 := iblk0 V c 5 t
def sumAt0 (c : Dev nD) : (n : ℕ) → n < cfg0.N → Vec F S1x128 .f32
  | 0, hn => sumOf0 (xb0_0 V c ⟨0, hn⟩) (xb0_1 V c ⟨0, hn⟩) (xb0_2 V c ⟨0, hn⟩) (xb0_3 V c ⟨0, hn⟩) (xb0_4 V c ⟨0, hn⟩) (xb0_5 V c ⟨0, hn⟩) k0_pay5
  | n + 1, hn => sumOf0 (xb0_0 V c ⟨n + 1, hn⟩) (xb0_1 V c ⟨n + 1, hn⟩) (xb0_2 V c ⟨n + 1, hn⟩) (xb0_3 V c ⟨n + 1, hn⟩) (xb0_4 V c ⟨n + 1, hn⟩) (xb0_5 V c ⟨n + 1, hn⟩) (sumAt0 c n (Nat.lt_of_succ_lt hn))
def sqAt0 (c : Dev nD) : (n : ℕ) → n < cfg0.N → Vec F S1x128 .f32
  | 0, hn => sqOf0 (xb0_0 V c ⟨0, hn⟩) (xb0_1 V c ⟨0, hn⟩) (xb0_2 V c ⟨0, hn⟩) (xb0_3 V c ⟨0, hn⟩) (xb0_4 V c ⟨0, hn⟩) (xb0_5 V c ⟨0, hn⟩) k0_pay6
  | n + 1, hn => sqOf0 (xb0_0 V c ⟨n + 1, hn⟩) (xb0_1 V c ⟨n + 1, hn⟩) (xb0_2 V c ⟨n + 1, hn⟩) (xb0_3 V c ⟨n + 1, hn⟩) (xb0_4 V c ⟨n + 1, hn⟩) (xb0_5 V c ⟨n + 1, hn⟩) (sqAt0 c n (Nat.lt_of_succ_lt hn))
def PhiS0 (c : Dev nD) : (n : ℕ) → n ≤ cfg0.N → sProp 𝕄
  | 0, _ => Pipeline.ΦA spec0 c
  | n + 1, hn => acc0 c (sumAt0 V c n hn) (sqAt0 V c n hn)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => h2Of0 (xb0_0 V c t) (xb0_1 V c t) (xb0_2 V c t) (xb0_3 V c t) (xb0_4 V c t) (xb0_5 V c t)
    | ⟨7, _⟩ => meanOf0 (sumAt0 V c t.val t.isLt)
    | ⟨8, _⟩ => varOf0 (sumAt0 V c t.val t.isLt) (sqAt0 V c t.val t.isLt)
  Φ t := PhiS0 V c t.val (Nat.le_of_lt_succ t.isLt)
  q _ := fullShare
  owed _ := 0
theorem A_eq0 (c : Dev nD) (w : Fin cfg0.W) : (dat0 V c).A w = V c (Pipeline.arrRef spec0 w) := by
  dsimp only [dat0]
theorem after0_6 (c : Dev nD) (t : Fin cfg0.N) : (dat0 V c).after 6 t = h2Of0 (xb0_0 V c t) (xb0_1 V c t) (xb0_2 V c t) (xb0_3 V c t) (xb0_4 V c t) (xb0_5 V c t) := by dsimp only [dat0]
theorem after0_7 (c : Dev nD) (t : Fin cfg0.N) : (dat0 V c).after 7 t = meanOf0 (sumAt0 V c t.val t.isLt) := by dsimp only [dat0]
theorem after0_8 (c : Dev nD) (t : Fin cfg0.N) : (dat0 V c).after 8 t = varOf0 (sumAt0 V c t.val t.isLt) (sqAt0 V c t.val t.isLt) := by dsimp only [dat0]
-- at the first point the scratch rows are reset, afterwards they carry the previous point's sums
theorem step0_zero (c : Dev nD) (t : Fin cfg0.N) (h : t.val = 0) :
    (dat0 V c).Φ t.castSucc = Pipeline.ΦA spec0 c
      ∧ sumAt0 V c t.val t.isLt = sumOf0 (xb0_0 V c t) (xb0_1 V c t) (xb0_2 V c t) (xb0_3 V c t) (xb0_4 V c t) (xb0_5 V c t) k0_pay5
      ∧ sqAt0 V c t.val t.isLt = sqOf0 (xb0_0 V c t) (xb0_1 V c t) (xb0_2 V c t) (xb0_3 V c t) (xb0_4 V c t) (xb0_5 V c t) k0_pay6 := by
  obtain ⟨n, hn⟩ := t
  cases n with
  | zero => exact ⟨rfl, rfl, rfl⟩
  | succ n => exact absurd h (Nat.succ_ne_zero n)
theorem step0_pos (c : Dev nD) (t : Fin cfg0.N) (h : t.val ≠ 0) : ∃ s q,
    (dat0 V c).Φ t.castSucc = acc0 c s q
      ∧ sumAt0 V c t.val t.isLt = sumOf0 (xb0_0 V c t) (xb0_1 V c t) (xb0_2 V c t) (xb0_3 V c t) (xb0_4 V c t) (xb0_5 V c t) s
      ∧ sqAt0 V c t.val t.isLt = sqOf0 (xb0_0 V c t) (xb0_1 V c t) (xb0_2 V c t) (xb0_3 V c t) (xb0_4 V c t) (xb0_5 V c t) q := by
  obtain ⟨n, hn⟩ := t
  cases n with
  | zero => exact absurd rfl h
  | succ n => exact ⟨sumAt0 V c n (Nat.lt_of_succ_lt hn), sqAt0 V c n (Nat.lt_of_succ_lt hn), rfl, rfl, rfl⟩
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
abbrev held0 (c : Dev nD) (t : Fin cfg0.N) (w : Fin cfg0.W) : sProp 𝕄 :=
  iprop(∃ d, owns (c : Thread nD τ) ((cfg0.win w).stage (cfg0.slots t w)) fullShare ((dat0 V c).before w t d))
abbrev left0 (c : Dev nD) (t : Fin cfg0.N) (w : Fin cfg0.W) : sProp 𝕄 :=
  owns (c : Thread nD τ) ((cfg0.win w).stage (cfg0.slots t w)) fullShare ((dat0 V c).after w t)
theorem leavesIdle0 (c : Dev nD) (t : Fin cfg0.N) (w : Fin cfg0.W) (hw : 7 ≤ w.val) (hc1 : ¬cond0_1 (grid0.coords t)) :
    (dat0 V c).leavesExact w t = held0 V c t w :=
  (dat0 V c).leavesExact_idle w t (idleAt0 t w hw hc1).1 (idleAt0 t w hw hc1).2
theorem leaves0_7 (c : Dev nD) (t : Fin cfg0.N) (hc1 : cond0_1 (grid0.coords t)) :
    (dat0 V c).leavesExact 7 t = owns (c : Thread nD τ) (st0_7 t : Memref sig .tc .vmem S1x128 .f32) fullShare (meanOf0 (sumAt0 V c t.val t.isLt)) := by
  unfold Dat.leavesExact; rw [liveAt0 t 7 (by decide) hc1, after0_7]
theorem leaves0_8 (c : Dev nD) (t : Fin cfg0.N) (hc1 : cond0_1 (grid0.coords t)) :
    (dat0 V c).leavesExact 8 t = owns (c : Thread nD τ) (st0_8 t : Memref sig .tc .vmem S1x128 .f32) fullShare (varOf0 (sumAt0 V c t.val t.isLt) (sqAt0 V c t.val t.isLt)) := by
  unfold Dat.leavesExact; rw [liveAt0 t 8 (by decide) hc1, after0_8]
def bodyPre0 (c : Dev nD) (t : Fin cfg0.N) : sProp 𝕄 :=
  iprop((dat0 V c).Φ t.castSucc ∗ (dat0 V c).owesAt () t.castSucc
    ∗ held0 V c t 0 ∗ held0 V c t 1 ∗ held0 V c t 2 ∗ held0 V c t 3 ∗ held0 V c t 4 ∗ held0 V c t 5 ∗ held0 V c t 6 ∗ held0 V c t 7 ∗ held0 V c t 8)
def bodyPost0 (c : Dev nD) (t : Fin cfg0.N) : sProp 𝕄 :=
  iprop((dat0 V c).Φ t.succ ∗ (dat0 V c).owesAt () t.succ
    ∗ left0 V c t 0 ∗ left0 V c t 1 ∗ left0 V c t 2 ∗ left0 V c t 3 ∗ left0 V c t 4 ∗ left0 V c t 5 ∗ left0 V c t 6
    ∗ (dat0 V c).leavesExact 7 t ∗ (dat0 V c).leavesExact 8 t)
set_option maxHeartbeats 4800000 in
-- the three control cases differ only in what windows 7, 8 and the scratch rows hold before and after
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).owesAt () t.succ = (dat0 V c).owesAt () t.castSucc from rfl,
    show (dat0 V c).Φ t.succ = acc0 c (sumAt0 V c t.val t.isLt) (sqAt0 V c t.val t.isLt) from rfl]
  have hz := hcond0_0 t
  have hl := hcond0_1 t
  by_cases hc0 : cond0_0 (grid0.coords t)
  on_goal 1 =>
    have hc1 : ¬cond0_1 (grid0.coords t) := fun h => absurd ((hz.mp hc0).symm.trans (hl.mp h)) (by decide)
    obtain ⟨ea, eb, ec⟩ := step0_zero V c t (hz.mp hc0)
    rw [leavesIdle0 V c t 7 (by decide) hc1, leavesIdle0 V c t 8 (by decide) hc1, ea, eb, ec, PhiA0_eq]
  on_goal 2 =>
    obtain ⟨s, q, ea, eb, ec⟩ := step0_pos V c t (mt hz.mpr hc0)
    by_cases hc1 : cond0_1 (grid0.coords t)
    on_goal 1 => rw [leaves0_7 V c t hc1, leaves0_8 V c t hc1]
    on_goal 2 => rw [leavesIdle0 V c t 7 (by decide) hc1, leavesIdle0 V c t 8 (by decide) hc1]
    all_goals rw [ea, eb, ec]
  all_goals
    simp only [held0, left0, before0_0, before0_1, before0_2, before0_3, before0_4, before0_5]
    unfold acc0 inv0
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run0_B (body := cc0__gin_mlp_stats_kernel) c _ _ _ _ _ _ _ _ _ _ _ _ _ _ _ _ _ _ _ _ _ _ _ rfl hc0 hc1 _ _ _ _ _ _ _ _ _ _ _ _)
  on_goal 2 => iapply (run0_C (body := cc0__gin_mlp_stats_kernel) c _ _ _ _ _ _ _ _ _ _ _ _ _ _ _ _ _ _ _ _ _ _ _ rfl hc0 hc1 _ _ _ _ _ _ _ _ _ _)
  on_goal 1 => iapply (run0_A (body := cc0__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation0 (c : Dev nD) : BodyObligation (dat0 (F := F) V c) (defs₀ (F := F)) Variants.none () Set.univ := fun t => by
  rw [bigSep_W0, bigSep_W0]
  exact sound_body0 V c t
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _
theorem Phi_out0 (c : Dev nD) (t : Fin (cfg0.N + 1)) (ht : t.val ≠ 0) : (dat0 V c).Φ t ⊢ (Pipeline.ΦA spec0 c : sProp 𝕄) := by
  obtain ⟨n, hn⟩ := t
  cases n with
  | zero => exact absurd rfl ht
  | succ n => exact out0 c _ _
theorem hout0 (c : Dev nD) : (dat0 V c).Φ (Fin.last cfg0.N) ⊢ (Pipeline.ΦA spec0 c : sProp 𝕄) :=
  Phi_out0 V c _ (by rw [Fin.val_last]; have : cfg0.N = 25 := N_0; omega)
end Cert.KernelIdeal.Hand
end
-- ==== Proof.KI.Stats2Runs.lean ====
import proofs.«166660_j61229053772418_1_alg».proof.Proof.KI.Stats0Runs
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F] [Named F]
local notation "𝕄" => MT nD τ sig Unit (Elt F) ℕ (UR sig nD τ) ℕ
abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 24 :=
  (by decide +kernel : ∀ t : Fin grid2.N, cond2_1 (grid2.coords t) ↔ t.val = 24)
theorem hz2 : (![0, 0] : Fin 2 → Nat) = fun _ => 0 := funext fun a => by fin_cases a <;> rfl
section
variable (x0 x1 : Vec F S2000x128 .f32) (x2 : Vec F S128x128 .f32) (x3 : Vec F S1x128 .f32) (x4 : Vec F S128x128 .f32) (x5 s q : Vec F S1x128 .f32)
def h2Of2 : Vec F S2000x128 .f32 := k2_pay7 x0 x1 x2 x3 x4 x5
def sumOf2 : Vec F S1x128 .f32 := k2_pay1 s (k2_pay8 x0 x1 x2 x3 x4 x5)
def sqOf2 : Vec F S1x128 .f32 := k2_pay2 (k2_pay7 x0 x1 x2 x3 x4 x5) q
def meanOf2 : Vec F S1x128 .f32 := k2_pay3 s
def varOf2 : Vec F S1x128 .f32 := k2_pay4 s q
end
variable (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
-- the first point: the running sums are this block's sums added to zero
theorem run2_A {body} (hb : body = cc2__gin_mlp_stats_kernel (F := F)) (hc0 : cond2_0 i) (hc1 : ¬cond2_1 i) (x0 x1 : Vec F S2000x128 .f32) (x2 : Vec F S128x128 .f32) (x3 : Vec F S1x128 .f32) (x4 : Vec F S128x128 .f32) (x5 xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ (∃ d, owns c.tc arg10 fullShare d) ∗ (∃ d, owns c.tc arg11 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of2 x0 x1 x2 x3 x4 x5) ∗ owns c.tc arg8 fullShare xi7 ∗ owns c.tc arg9 fullShare xi8
            ∗ owns c.tc arg10 fullShare (sumOf2 x0 x1 x2 x3 x4 x5 k2_pay5) ∗ owns c.tc arg11 fullShare (sqOf2 x0 x1 x2 x3 x4 x5 k2_pay6)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc2__gin_mlp_stats_kernel_eq_skeleton]; unfold cc2__gin_mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0 hf1 hf2 hf3 hf4 hf5 hf7 hf8
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz2 _ _ _).trans ?_; sl_unfold_words
       simp only [h2Of2, sumOf2, sqOf2, meanOf2, varOf2, View.readAt_eq_ld, View.ld_unit_zero (S := S2000x128) hz2, View.ld_unit_zero (S := S128x128) hz2, View.ld_unit_zero (S := S1x128) hz2, View.readCov_unit_zero (S := S1x128) _ hz2])
    | rfl
-- a middle point: the block's sums are added to the running sums found
theorem run2_B {body} (hb : body = cc2__gin_mlp_stats_kernel (F := F)) (hc0 : ¬cond2_0 i) (hc1 : ¬cond2_1 i) (x0 x1 : Vec F S2000x128 .f32) (x2 : Vec F S128x128 .f32) (x3 : Vec F S1x128 .f32) (x4 : Vec F S128x128 .f32) (x5 s q xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of2 x0 x1 x2 x3 x4 x5) ∗ owns c.tc arg8 fullShare xi7 ∗ owns c.tc arg9 fullShare xi8
            ∗ owns c.tc arg10 fullShare (sumOf2 x0 x1 x2 x3 x4 x5 s) ∗ owns c.tc arg11 fullShare (sqOf2 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc2__gin_mlp_stats_kernel_eq_skeleton]; unfold cc2__gin_mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0 hf1 hf2 hf3 hf4 hf5 hf7 hf8 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz2 _ _ _).trans ?_; sl_unfold_words
       simp only [h2Of2, sumOf2, sqOf2, meanOf2, varOf2, View.readAt_eq_ld, View.ld_unit_zero (S := S2000x128) hz2, View.ld_unit_zero (S := S128x128) hz2, View.ld_unit_zero (S := S1x128) hz2, View.readCov_unit_zero (S := S1x128) _ hz2])
    | rfl
-- the last point: as a middle point, and the mean and variance are those of the final sums
theorem run2_C {body} (hb : body = cc2__gin_mlp_stats_kernel (F := F)) (hc0 : ¬cond2_0 i) (hc1 : cond2_1 i) (x0 x1 : Vec F S2000x128 .f32) (x2 : Vec F S128x128 .f32) (x3 : Vec F S1x128 .f32) (x4 : Vec F S128x128 .f32) (x5 s q : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ (∃ d, owns c.tc arg8 fullShare d) ∗ (∃ d, owns c.tc arg9 fullShare d)
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of2 x0 x1 x2 x3 x4 x5)
            ∗ owns c.tc arg8 fullShare (meanOf2 (sumOf2 x0 x1 x2 x3 x4 x5 s))
            ∗ owns c.tc arg9 fullShare (varOf2 (sumOf2 x0 x1 x2 x3 x4 x5 s) (sqOf2 x0 x1 x2 x3 x4 x5 q))
            ∗ owns c.tc arg10 fullShare (sumOf2 x0 x1 x2 x3 x4 x5 s) ∗ owns c.tc arg11 fullShare (sqOf2 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc2__gin_mlp_stats_kernel_eq_skeleton]; unfold cc2__gin_mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz2 _ _ _).trans ?_; sl_unfold_words
       simp only [h2Of2, sumOf2, sqOf2, meanOf2, varOf2, View.readAt_eq_ld, View.ld_unit_zero (S := S2000x128) hz2, View.ld_unit_zero (S := S128x128) hz2, View.ld_unit_zero (S := S1x128) hz2, View.readCov_unit_zero (S := S1x128) _ hz2])
    | rfl
end Cert.KernelIdeal.Hand
end
-- ==== Proof.KI.Stats2.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Stats2Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
theorem idleAt2 : ∀ (t : Fin cfg2.N) (w : Fin cfg2.W), 7 ≤ w.val → ¬cond2_1 (grid2.coords t) →
    cfg2.idle w (grid2.coords t) = true ∧ (cfg2.win w).flush t = false := by decide +kernel
theorem liveAt2 : ∀ (t : Fin cfg2.N) (w : Fin cfg2.W), 7 ≤ w.val → cond2_1 (grid2.coords t) →
    cfg2.idle w (grid2.coords t) = false := by decide +kernel
abbrev scM2_0 : Memref sig .tc .vmem S1x128 .f32 := Memref.whole cc2_scratch0
abbrev scM2_1 : Memref sig .tc .vmem S1x128 .f32 := Memref.whole cc2_scratch1
def inv2 (c : Dev nD) (S : sProp 𝕄) : sProp 𝕄 :=
  iprop(iprop(S ∗ Pipeline.scopedRestBut (Ix := Unit) (Name := ℕ) (U := UR sig nD τ) (Lvl := ℕ) (Val := Elt F) spec2 c [cc2_scratch0, cc2_scratch1]) ∗ (∃ r, prngReg c r))
def acc2 (c : Dev nD) (s q : Vec F S1x128 .f32) : sProp 𝕄 :=
  inv2 c iprop(owns (c : Thread nD τ) scM2_0 fullShare s ∗ owns (c : Thread nD τ) scM2_1 fullShare q)
theorem PhiA2_eq (c : Dev nD) : (Pipeline.ΦA spec2 c : sProp 𝕄)
    = inv2 c iprop((∃ d, owns (c : Thread nD τ) scM2_0 fullShare d) ∗ (∃ d, owns (c : Thread nD τ) scM2_1 fullShare d)) := by
  unfold Pipeline.ΦA inv2; rw [scopedRest2_split]; simp only [scM2_0, scM2_1, owns_whole]; try rfl
theorem out2 (c : Dev nD) (s q : Vec F S1x128 .f32) : acc2 c s q ⊢ (Pipeline.ΦA spec2 c : sProp 𝕄) := by
  rw [PhiA2_eq]; unfold acc2 inv2
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev xb2_0 (c : Dev nD) (t : Fin cfg2.N) : Vec F S2000x128 .f32 := iblk2 V c 0 t
abbrev xb2_1 (c : Dev nD) (t : Fin cfg2.N) : Vec F S2000x128 .f32 := iblk2 V c 1 t
abbrev xb2_2 (c : Dev nD) (t : Fin cfg2.N) : Vec F S128x128 .f32 := iblk2 V c 2 t
abbrev xb2_3 (c : Dev nD) (t : Fin cfg2.N) : Vec F S1x128 .f32 := iblk2 V c 3 t
abbrev xb2_4 (c : Dev nD) (t : Fin cfg2.N) : Vec F S128x128 .f32 := iblk2 V c 4 t
abbrev xb2_5 (c : Dev nD) (t : Fin cfg2.N) : Vec F S1x128 .f32 := iblk2 V c 5 t
def sumAt2 (c : Dev nD) : (n : ℕ) → n < cfg2.N → Vec F S1x128 .f32
  | 0, hn => sumOf2 (xb2_0 V c ⟨0, hn⟩) (xb2_1 V c ⟨0, hn⟩) (xb2_2 V c ⟨0, hn⟩) (xb2_3 V c ⟨0, hn⟩) (xb2_4 V c ⟨0, hn⟩) (xb2_5 V c ⟨0, hn⟩) k2_pay5
  | n + 1, hn => sumOf2 (xb2_0 V c ⟨n + 1, hn⟩) (xb2_1 V c ⟨n + 1, hn⟩) (xb2_2 V c ⟨n + 1, hn⟩) (xb2_3 V c ⟨n + 1, hn⟩) (xb2_4 V c ⟨n + 1, hn⟩) (xb2_5 V c ⟨n + 1, hn⟩) (sumAt2 c n (Nat.lt_of_succ_lt hn))
def sqAt2 (c : Dev nD) : (n : ℕ) → n < cfg2.N → Vec F S1x128 .f32
  | 0, hn => sqOf2 (xb2_0 V c ⟨0, hn⟩) (xb2_1 V c ⟨0, hn⟩) (xb2_2 V c ⟨0, hn⟩) (xb2_3 V c ⟨0, hn⟩) (xb2_4 V c ⟨0, hn⟩) (xb2_5 V c ⟨0, hn⟩) k2_pay6
  | n + 1, hn => sqOf2 (xb2_0 V c ⟨n + 1, hn⟩) (xb2_1 V c ⟨n + 1, hn⟩) (xb2_2 V c ⟨n + 1, hn⟩) (xb2_3 V c ⟨n + 1, hn⟩) (xb2_4 V c ⟨n + 1, hn⟩) (xb2_5 V c ⟨n + 1, hn⟩) (sqAt2 c n (Nat.lt_of_succ_lt hn))
def PhiS2 (c : Dev nD) : (n : ℕ) → n ≤ cfg2.N → sProp 𝕄
  | 0, _ => Pipeline.ΦA spec2 c
  | n + 1, hn => acc2 c (sumAt2 V c n hn) (sqAt2 V c n hn)
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => h2Of2 (xb2_0 V c t) (xb2_1 V c t) (xb2_2 V c t) (xb2_3 V c t) (xb2_4 V c t) (xb2_5 V c t)
    | ⟨7, _⟩ => meanOf2 (sumAt2 V c t.val t.isLt)
    | ⟨8, _⟩ => varOf2 (sumAt2 V c t.val t.isLt) (sqAt2 V c t.val t.isLt)
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem after2_6 (c : Dev nD) (t : Fin cfg2.N) : (dat2 V c).after 6 t = h2Of2 (xb2_0 V c t) (xb2_1 V c t) (xb2_2 V c t) (xb2_3 V c t) (xb2_4 V c t) (xb2_5 V c t) := by dsimp only [dat2]
theorem after2_7 (c : Dev nD) (t : Fin cfg2.N) : (dat2 V c).after 7 t = meanOf2 (sumAt2 V c t.val t.isLt) := by dsimp only [dat2]
theorem after2_8 (c : Dev nD) (t : Fin cfg2.N) : (dat2 V c).after 8 t = varOf2 (sumAt2 V c t.val t.isLt) (sqAt2 V c t.val t.isLt) := by dsimp only [dat2]
theorem step2_zero (c : Dev nD) (t : Fin cfg2.N) (h : t.val = 0) :
    (dat2 V c).Φ t.castSucc = Pipeline.ΦA spec2 c
      ∧ sumAt2 V c t.val t.isLt = sumOf2 (xb2_0 V c t) (xb2_1 V c t) (xb2_2 V c t) (xb2_3 V c t) (xb2_4 V c t) (xb2_5 V c t) k2_pay5
      ∧ sqAt2 V c t.val t.isLt = sqOf2 (xb2_0 V c t) (xb2_1 V c t) (xb2_2 V c t) (xb2_3 V c t) (xb2_4 V c t) (xb2_5 V c t) k2_pay6 := by
  obtain ⟨n, hn⟩ := t
  cases n with
  | zero => exact ⟨rfl, rfl, rfl⟩
  | succ n => exact absurd h (Nat.succ_ne_zero n)
theorem step2_pos (c : Dev nD) (t : Fin cfg2.N) (h : t.val ≠ 0) : ∃ s q,
    (dat2 V c).Φ t.castSucc = acc2 c s q
      ∧ sumAt2 V c t.val t.isLt = sumOf2 (xb2_0 V c t) (xb2_1 V c t) (xb2_2 V c t) (xb2_3 V c t) (xb2_4 V c t) (xb2_5 V c t) s
      ∧ sqAt2 V c t.val t.isLt = sqOf2 (xb2_0 V c t) (xb2_1 V c t) (xb2_2 V c t) (xb2_3 V c t) (xb2_4 V c t) (xb2_5 V c t) q := by
  obtain ⟨n, hn⟩ := t
  cases n with
  | zero => exact absurd rfl h
  | succ n => exact ⟨sumAt2 V c n (Nat.lt_of_succ_lt hn), sqAt2 V c n (Nat.lt_of_succ_lt hn), rfl, rfl, rfl⟩
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
abbrev held2 (c : Dev nD) (t : Fin cfg2.N) (w : Fin cfg2.W) : sProp 𝕄 :=
  iprop(∃ d, owns (c : Thread nD τ) ((cfg2.win w).stage (cfg2.slots t w)) fullShare ((dat2 V c).before w t d))
abbrev left2 (c : Dev nD) (t : Fin cfg2.N) (w : Fin cfg2.W) : sProp 𝕄 :=
  owns (c : Thread nD τ) ((cfg2.win w).stage (cfg2.slots t w)) fullShare ((dat2 V c).after w t)
theorem leavesIdle2 (c : Dev nD) (t : Fin cfg2.N) (w : Fin cfg2.W) (hw : 7 ≤ w.val) (hc1 : ¬cond2_1 (grid2.coords t)) :
    (dat2 V c).leavesExact w t = held2 V c t w :=
  (dat2 V c).leavesExact_idle w t (idleAt2 t w hw hc1).1 (idleAt2 t w hw hc1).2
theorem leaves2_7 (c : Dev nD) (t : Fin cfg2.N) (hc1 : cond2_1 (grid2.coords t)) :
    (dat2 V c).leavesExact 7 t = owns (c : Thread nD τ) (st2_7 t : Memref sig .tc .vmem S1x128 .f32) fullShare (meanOf2 (sumAt2 V c t.val t.isLt)) := by
  unfold Dat.leavesExact; rw [liveAt2 t 7 (by decide) hc1, after2_7]
theorem leaves2_8 (c : Dev nD) (t : Fin cfg2.N) (hc1 : cond2_1 (grid2.coords t)) :
    (dat2 V c).leavesExact 8 t = owns (c : Thread nD τ) (st2_8 t : Memref sig .tc .vmem S1x128 .f32) fullShare (varOf2 (sumAt2 V c t.val t.isLt) (sqAt2 V c t.val t.isLt)) := by
  unfold Dat.leavesExact; rw [liveAt2 t 8 (by decide) hc1, after2_8]
def bodyPre2 (c : Dev nD) (t : Fin cfg2.N) : sProp 𝕄 :=
  iprop((dat2 V c).Φ t.castSucc ∗ (dat2 V c).owesAt () t.castSucc
    ∗ held2 V c t 0 ∗ held2 V c t 1 ∗ held2 V c t 2 ∗ held2 V c t 3 ∗ held2 V c t 4 ∗ held2 V c t 5 ∗ held2 V c t 6 ∗ held2 V c t 7 ∗ held2 V c t 8)
def bodyPost2 (c : Dev nD) (t : Fin cfg2.N) : sProp 𝕄 :=
  iprop((dat2 V c).Φ t.succ ∗ (dat2 V c).owesAt () t.succ
    ∗ left2 V c t 0 ∗ left2 V c t 1 ∗ left2 V c t 2 ∗ left2 V c t 3 ∗ left2 V c t 4 ∗ left2 V c t 5 ∗ left2 V c t 6
    ∗ (dat2 V c).leavesExact 7 t ∗ (dat2 V c).leavesExact 8 t)
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).owesAt () t.succ = (dat2 V c).owesAt () t.castSucc from rfl,
    show (dat2 V c).Φ t.succ = acc2 c (sumAt2 V c t.val t.isLt) (sqAt2 V c t.val t.isLt) from rfl]
  have hz := hcond2_0 t
  have hl := hcond2_1 t
  by_cases hc0 : cond2_0 (grid2.coords t)
  on_goal 1 =>
    have hc1 : ¬cond2_1 (grid2.coords t) := fun h => absurd ((hz.mp hc0).symm.trans (hl.mp h)) (by decide)
    obtain ⟨ea, eb, ec⟩ := step2_zero V c t (hz.mp hc0)
    rw [leavesIdle2 V c t 7 (by decide) hc1, leavesIdle2 V c t 8 (by decide) hc1, ea, eb, ec, PhiA2_eq]
  on_goal 2 =>
    obtain ⟨s, q, ea, eb, ec⟩ := step2_pos V c t (mt hz.mpr hc0)
    by_cases hc1 : cond2_1 (grid2.coords t)
    on_goal 1 => rw [leaves2_7 V c t hc1, leaves2_8 V c t hc1]
    on_goal 2 => rw [leavesIdle2 V c t 7 (by decide) hc1, leavesIdle2 V c t 8 (by decide) hc1]
    all_goals rw [ea, eb, ec]
  all_goals
    simp only [held2, left2, before2_0, before2_1, before2_2, before2_3, before2_4, before2_5]
    unfold acc2 inv2
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run2_B (body := cc2__gin_mlp_stats_kernel) c _ _ _ _ _ _ _ _ _ _ _ _ _ _ _ _ _ _ _ _ _ _ _ rfl hc0 hc1 _ _ _ _ _ _ _ _ _ _ _ _)
  on_goal 2 => iapply (run2_C (body := cc2__gin_mlp_stats_kernel) c _ _ _ _ _ _ _ _ _ _ _ _ _ _ _ _ _ _ _ _ _ _ _ rfl hc0 hc1 _ _ _ _ _ _ _ _ _ _)
  on_goal 1 => iapply (run2_A (body := cc2__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation2 (c : Dev nD) : BodyObligation (dat2 (F := F) V c) (defs₀ (F := F)) Variants.none () Set.univ := fun t => by
  rw [bigSep_W2, bigSep_W2]
  exact sound_body2 V c t
theorem hin2 (c : Dev nD) : (Pipeline.ΦA spec2 c : sProp 𝕄) ⊢ (dat2 V c).Φ 0 := by
  rw [show (dat2 V c).Φ 0 = Pipeline.ΦA spec2 c from rfl]
  try exact Idealize.SL.BI.Entails.refl _
theorem Phi_out2 (c : Dev nD) (t : Fin (cfg2.N + 1)) (ht : t.val ≠ 0) : (dat2 V c).Φ t ⊢ (Pipeline.ΦA spec2 c : sProp 𝕄) := by
  obtain ⟨n, hn⟩ := t
  cases n with
  | zero => exact absurd rfl ht
  | succ n => exact out2 c _ _
theorem hout2 (c : Dev nD) : (dat2 V c).Φ (Fin.last cfg2.N) ⊢ (Pipeline.ΦA spec2 c : sProp 𝕄) :=
  Phi_out2 V c _ (by rw [Fin.val_last]; have : cfg2.N = 25 := N_2; omega)
end Cert.KernelIdeal.Hand
end
-- ==== Proof.KI.Stats4.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Stats2Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
theorem idleAt4 : ∀ (t : Fin cfg4.N) (w : Fin cfg4.W), 7 ≤ w.val → ¬cond2_1 (grid4.coords t) →
    cfg4.idle w (grid4.coords t) = true ∧ (cfg4.win w).flush t = false := by decide +kernel
theorem liveAt4 : ∀ (t : Fin cfg4.N) (w : Fin cfg4.W), 7 ≤ w.val → cond2_1 (grid4.coords t) →
    cfg4.idle w (grid4.coords t) = false := by decide +kernel
abbrev scM4_0 : Memref sig .tc .vmem S1x128 .f32 := Memref.whole cc4_scratch0
abbrev scM4_1 : Memref sig .tc .vmem S1x128 .f32 := Memref.whole cc4_scratch1
def inv4 (c : Dev nD) (S : sProp 𝕄) : sProp 𝕄 :=
  iprop(iprop(S ∗ Pipeline.scopedRestBut (Ix := Unit) (Name := ℕ) (U := UR sig nD τ) (Lvl := ℕ) (Val := Elt F) spec4 c [cc4_scratch0, cc4_scratch1]) ∗ (∃ r, prngReg c r))
def acc4 (c : Dev nD) (s q : Vec F S1x128 .f32) : sProp 𝕄 :=
  inv4 c iprop(owns (c : Thread nD τ) scM4_0 fullShare s ∗ owns (c : Thread nD τ) scM4_1 fullShare q)
theorem PhiA4_eq (c : Dev nD) : (Pipeline.ΦA spec4 c : sProp 𝕄)
    = inv4 c iprop((∃ d, owns (c : Thread nD τ) scM4_0 fullShare d) ∗ (∃ d, owns (c : Thread nD τ) scM4_1 fullShare d)) := by
  unfold Pipeline.ΦA inv4; rw [scopedRest4_split]; simp only [scM4_0, scM4_1, owns_whole]; try rfl
theorem out4 (c : Dev nD) (s q : Vec F S1x128 .f32) : acc4 c s q ⊢ (Pipeline.ΦA spec4 c : sProp 𝕄) := by
  rw [PhiA4_eq]; unfold acc4 inv4
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev xb4_0 (c : Dev nD) (t : Fin cfg4.N) : Vec F S2000x128 .f32 := iblk4 V c 0 t
abbrev xb4_1 (c : Dev nD) (t : Fin cfg4.N) : Vec F S2000x128 .f32 := iblk4 V c 1 t
abbrev xb4_2 (c : Dev nD) (t : Fin cfg4.N) : Vec F S128x128 .f32 := iblk4 V c 2 t
abbrev xb4_3 (c : Dev nD) (t : Fin cfg4.N) : Vec F S1x128 .f32 := iblk4 V c 3 t
abbrev xb4_4 (c : Dev nD) (t : Fin cfg4.N) : Vec F S128x128 .f32 := iblk4 V c 4 t
abbrev xb4_5 (c : Dev nD) (t : Fin cfg4.N) : Vec F S1x128 .f32 := iblk4 V c 5 t
def sumAt4 (c : Dev nD) : (n : ℕ) → n < cfg4.N → Vec F S1x128 .f32
  | 0, hn => sumOf2 (xb4_0 V c ⟨0, hn⟩) (xb4_1 V c ⟨0, hn⟩) (xb4_2 V c ⟨0, hn⟩) (xb4_3 V c ⟨0, hn⟩) (xb4_4 V c ⟨0, hn⟩) (xb4_5 V c ⟨0, hn⟩) k2_pay5
  | n + 1, hn => sumOf2 (xb4_0 V c ⟨n + 1, hn⟩) (xb4_1 V c ⟨n + 1, hn⟩) (xb4_2 V c ⟨n + 1, hn⟩) (xb4_3 V c ⟨n + 1, hn⟩) (xb4_4 V c ⟨n + 1, hn⟩) (xb4_5 V c ⟨n + 1, hn⟩) (sumAt4 c n (Nat.lt_of_succ_lt hn))
def sqAt4 (c : Dev nD) : (n : ℕ) → n < cfg4.N → Vec F S1x128 .f32
  | 0, hn => sqOf2 (xb4_0 V c ⟨0, hn⟩) (xb4_1 V c ⟨0, hn⟩) (xb4_2 V c ⟨0, hn⟩) (xb4_3 V c ⟨0, hn⟩) (xb4_4 V c ⟨0, hn⟩) (xb4_5 V c ⟨0, hn⟩) k2_pay6
  | n + 1, hn => sqOf2 (xb4_0 V c ⟨n + 1, hn⟩) (xb4_1 V c ⟨n + 1, hn⟩) (xb4_2 V c ⟨n + 1, hn⟩) (xb4_3 V c ⟨n + 1, hn⟩) (xb4_4 V c ⟨n + 1, hn⟩) (xb4_5 V c ⟨n + 1, hn⟩) (sqAt4 c n (Nat.lt_of_succ_lt hn))
def PhiS4 (c : Dev nD) : (n : ℕ) → n ≤ cfg4.N → sProp 𝕄
  | 0, _ => Pipeline.ΦA spec4 c
  | n + 1, hn => acc4 c (sumAt4 V c n hn) (sqAt4 V c n hn)
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => h2Of2 (xb4_0 V c t) (xb4_1 V c t) (xb4_2 V c t) (xb4_3 V c t) (xb4_4 V c t) (xb4_5 V c t)
    | ⟨7, _⟩ => meanOf2 (sumAt4 V c t.val t.isLt)
    | ⟨8, _⟩ => varOf2 (sumAt4 V c t.val t.isLt) (sqAt4 V c t.val t.isLt)
  Φ t := PhiS4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem after4_6 (c : Dev nD) (t : Fin cfg4.N) : (dat4 V c).after 6 t = h2Of2 (xb4_0 V c t) (xb4_1 V c t) (xb4_2 V c t) (xb4_3 V c t) (xb4_4 V c t) (xb4_5 V c t) := by dsimp only [dat4]
theorem after4_7 (c : Dev nD) (t : Fin cfg4.N) : (dat4 V c).after 7 t = meanOf2 (sumAt4 V c t.val t.isLt) := by dsimp only [dat4]
theorem after4_8 (c : Dev nD) (t : Fin cfg4.N) : (dat4 V c).after 8 t = varOf2 (sumAt4 V c t.val t.isLt) (sqAt4 V c t.val t.isLt) := by dsimp only [dat4]
theorem step4_zero (c : Dev nD) (t : Fin cfg4.N) (h : t.val = 0) :
    (dat4 V c).Φ t.castSucc = Pipeline.ΦA spec4 c
      ∧ sumAt4 V c t.val t.isLt = sumOf2 (xb4_0 V c t) (xb4_1 V c t) (xb4_2 V c t) (xb4_3 V c t) (xb4_4 V c t) (xb4_5 V c t) k2_pay5
      ∧ sqAt4 V c t.val t.isLt = sqOf2 (xb4_0 V c t) (xb4_1 V c t) (xb4_2 V c t) (xb4_3 V c t) (xb4_4 V c t) (xb4_5 V c t) k2_pay6 := by
  obtain ⟨n, hn⟩ := t
  cases n with
  | zero => exact ⟨rfl, rfl, rfl⟩
  | succ n => exact absurd h (Nat.succ_ne_zero n)
theorem step4_pos (c : Dev nD) (t : Fin cfg4.N) (h : t.val ≠ 0) : ∃ s q,
    (dat4 V c).Φ t.castSucc = acc4 c s q
      ∧ sumAt4 V c t.val t.isLt = sumOf2 (xb4_0 V c t) (xb4_1 V c t) (xb4_2 V c t) (xb4_3 V c t) (xb4_4 V c t) (xb4_5 V c t) s
      ∧ sqAt4 V c t.val t.isLt = sqOf2 (xb4_0 V c t) (xb4_1 V c t) (xb4_2 V c t) (xb4_3 V c t) (xb4_4 V c t) (xb4_5 V c t) q := by
  obtain ⟨n, hn⟩ := t
  cases n with
  | zero => exact absurd rfl h
  | succ n => exact ⟨sumAt4 V c n (Nat.lt_of_succ_lt hn), sqAt4 V c n (Nat.lt_of_succ_lt hn), rfl, rfl, rfl⟩
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d
abbrev held4 (c : Dev nD) (t : Fin cfg4.N) (w : Fin cfg4.W) : sProp 𝕄 :=
  iprop(∃ d, owns (c : Thread nD τ) ((cfg4.win w).stage (cfg4.slots t w)) fullShare ((dat4 V c).before w t d))
abbrev left4 (c : Dev nD) (t : Fin cfg4.N) (w : Fin cfg4.W) : sProp 𝕄 :=
  owns (c : Thread nD τ) ((cfg4.win w).stage (cfg4.slots t w)) fullShare ((dat4 V c).after w t)
theorem leavesIdle4 (c : Dev nD) (t : Fin cfg4.N) (w : Fin cfg4.W) (hw : 7 ≤ w.val) (hc1 : ¬cond2_1 (grid4.coords t)) :
    (dat4 V c).leavesExact w t = held4 V c t w :=
  (dat4 V c).leavesExact_idle w t (idleAt4 t w hw hc1).1 (idleAt4 t w hw hc1).2
theorem leaves4_7 (c : Dev nD) (t : Fin cfg4.N) (hc1 : cond2_1 (grid4.coords t)) :
    (dat4 V c).leavesExact 7 t = owns (c : Thread nD τ) (st4_7 t : Memref sig .tc .vmem S1x128 .f32) fullShare (meanOf2 (sumAt4 V c t.val t.isLt)) := by
  unfold Dat.leavesExact; rw [liveAt4 t 7 (by decide) hc1, after4_7]
theorem leaves4_8 (c : Dev nD) (t : Fin cfg4.N) (hc1 : cond2_1 (grid4.coords t)) :
    (dat4 V c).leavesExact 8 t = owns (c : Thread nD τ) (st4_8 t : Memref sig .tc .vmem S1x128 .f32) fullShare (varOf2 (sumAt4 V c t.val t.isLt) (sqAt4 V c t.val t.isLt)) := by
  unfold Dat.leavesExact; rw [liveAt4 t 8 (by decide) hc1, after4_8]
def bodyPre4 (c : Dev nD) (t : Fin cfg4.N) : sProp 𝕄 :=
  iprop((dat4 V c).Φ t.castSucc ∗ (dat4 V c).owesAt () t.castSucc
    ∗ held4 V c t 0 ∗ held4 V c t 1 ∗ held4 V c t 2 ∗ held4 V c t 3 ∗ held4 V c t 4 ∗ held4 V c t 5 ∗ held4 V c t 6 ∗ held4 V c t 7 ∗ held4 V c t 8)
def bodyPost4 (c : Dev nD) (t : Fin cfg4.N) : sProp 𝕄 :=
  iprop((dat4 V c).Φ t.succ ∗ (dat4 V c).owesAt () t.succ
    ∗ left4 V c t 0 ∗ left4 V c t 1 ∗ left4 V c t 2 ∗ left4 V c t 3 ∗ left4 V c t 4 ∗ left4 V c t 5 ∗ left4 V c t 6
    ∗ (dat4 V c).leavesExact 7 t ∗ (dat4 V c).leavesExact 8 t)
set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).owesAt () t.succ = (dat4 V c).owesAt () t.castSucc from rfl,
    show (dat4 V c).Φ t.succ = acc4 c (sumAt4 V c t.val t.isLt) (sqAt4 V c t.val t.isLt) from rfl]
  have hz := hcond2_0 t
  have hl := hcond2_1 t
  by_cases hc0 : cond2_0 (grid4.coords t)
  on_goal 1 =>
    have hc1 : ¬cond2_1 (grid4.coords t) := fun h => absurd ((hz.mp hc0).symm.trans (hl.mp h)) (by decide)
    obtain ⟨ea, eb, ec⟩ := step4_zero V c t (hz.mp hc0)
    rw [leavesIdle4 V c t 7 (by decide) hc1, leavesIdle4 V c t 8 (by decide) hc1, ea, eb, ec, PhiA4_eq]
  on_goal 2 =>
    obtain ⟨s, q, ea, eb, ec⟩ := step4_pos V c t (mt hz.mpr hc0)
    by_cases hc1 : cond2_1 (grid4.coords t)
    on_goal 1 => rw [leaves4_7 V c t hc1, leaves4_8 V c t hc1]
    on_goal 2 => rw [leavesIdle4 V c t 7 (by decide) hc1, leavesIdle4 V c t 8 (by decide) hc1]
    all_goals rw [ea, eb, ec]
  all_goals
    simp only [held4, left4, before4_0, before4_1, before4_2, before4_3, before4_4, before4_5]
    unfold acc4 inv4
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run2_B (body := cc4__gin_mlp_stats_kernel) c _ _ _ _ _ _ _ _ _ _ _ _ _ _ _ _ _ _ _ _ _ _ _ rfl hc0 hc1 _ _ _ _ _ _ _ _ _ _ _ _)
  on_goal 2 => iapply (run2_C (body := cc4__gin_mlp_stats_kernel) c _ _ _ _ _ _ _ _ _ _ _ _ _ _ _ _ _ _ _ _ _ _ _ rfl hc0 hc1 _ _ _ _ _ _ _ _ _ _)
  on_goal 1 => iapply (run2_A (body := cc4__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation4 (c : Dev nD) : BodyObligation (dat4 (F := F) V c) (defs₀ (F := F)) Variants.none () Set.univ := fun t => by
  rw [bigSep_W4, bigSep_W4]
  exact sound_body4 V c t
theorem hin4 (c : Dev nD) : (Pipeline.ΦA spec4 c : sProp 𝕄) ⊢ (dat4 V c).Φ 0 := by
  rw [show (dat4 V c).Φ 0 = Pipeline.ΦA spec4 c from rfl]
  try exact Idealize.SL.BI.Entails.refl _
theorem Phi_out4 (c : Dev nD) (t : Fin (cfg4.N + 1)) (ht : t.val ≠ 0) : (dat4 V c).Φ t ⊢ (Pipeline.ΦA spec4 c : sProp 𝕄) := by
  obtain ⟨n, hn⟩ := t
  cases n with
  | zero => exact absurd rfl ht
  | succ n => exact out4 c _ _
theorem hout4 (c : Dev nD) : (dat4 V c).Φ (Fin.last cfg4.N) ⊢ (Pipeline.ΦA spec4 c : sProp 𝕄) :=
  Phi_out4 V c _ (by rw [Fin.val_last]; have : cfg4.N = 25 := N_4; omega)
end Cert.KernelIdeal.Hand
end
-- ==== Proof.KI.Stats6.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Stats2Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
theorem idleAt6 : ∀ (t : Fin cfg6.N) (w : Fin cfg6.W), 7 ≤ w.val → ¬cond2_1 (grid6.coords t) →
    cfg6.idle w (grid6.coords t) = true ∧ (cfg6.win w).flush t = false := by decide +kernel
theorem liveAt6 : ∀ (t : Fin cfg6.N) (w : Fin cfg6.W), 7 ≤ w.val → cond2_1 (grid6.coords t) →
    cfg6.idle w (grid6.coords t) = false := by decide +kernel
abbrev scM6_0 : Memref sig .tc .vmem S1x128 .f32 := Memref.whole cc6_scratch0
abbrev scM6_1 : Memref sig .tc .vmem S1x128 .f32 := Memref.whole cc6_scratch1
def inv6 (c : Dev nD) (S : sProp 𝕄) : sProp 𝕄 :=
  iprop(iprop(S ∗ Pipeline.scopedRestBut (Ix := Unit) (Name := ℕ) (U := UR sig nD τ) (Lvl := ℕ) (Val := Elt F) spec6 c [cc6_scratch0, cc6_scratch1]) ∗ (∃ r, prngReg c r))
def acc6 (c : Dev nD) (s q : Vec F S1x128 .f32) : sProp 𝕄 :=
  inv6 c iprop(owns (c : Thread nD τ) scM6_0 fullShare s ∗ owns (c : Thread nD τ) scM6_1 fullShare q)
theorem PhiA6_eq (c : Dev nD) : (Pipeline.ΦA spec6 c : sProp 𝕄)
    = inv6 c iprop((∃ d, owns (c : Thread nD τ) scM6_0 fullShare d) ∗ (∃ d, owns (c : Thread nD τ) scM6_1 fullShare d)) := by
  unfold Pipeline.ΦA inv6; rw [scopedRest6_split]; simp only [scM6_0, scM6_1, owns_whole]; try rfl
theorem out6 (c : Dev nD) (s q : Vec F S1x128 .f32) : acc6 c s q ⊢ (Pipeline.ΦA spec6 c : sProp 𝕄) := by
  rw [PhiA6_eq]; unfold acc6 inv6
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
abbrev xb6_0 (c : Dev nD) (t : Fin cfg6.N) : Vec F S2000x128 .f32 := iblk6 V c 0 t
abbrev xb6_1 (c : Dev nD) (t : Fin cfg6.N) : Vec F S2000x128 .f32 := iblk6 V c 1 t
abbrev xb6_2 (c : Dev nD) (t : Fin cfg6.N) : Vec F S128x128 .f32 := iblk6 V c 2 t
abbrev xb6_3 (c : Dev nD) (t : Fin cfg6.N) : Vec F S1x128 .f32 := iblk6 V c 3 t
abbrev xb6_4 (c : Dev nD) (t : Fin cfg6.N) : Vec F S128x128 .f32 := iblk6 V c 4 t
abbrev xb6_5 (c : Dev nD) (t : Fin cfg6.N) : Vec F S1x128 .f32 := iblk6 V c 5 t
def sumAt6 (c : Dev nD) : (n : ℕ) → n < cfg6.N → Vec F S1x128 .f32
  | 0, hn => sumOf2 (xb6_0 V c ⟨0, hn⟩) (xb6_1 V c ⟨0, hn⟩) (xb6_2 V c ⟨0, hn⟩) (xb6_3 V c ⟨0, hn⟩) (xb6_4 V c ⟨0, hn⟩) (xb6_5 V c ⟨0, hn⟩) k2_pay5
  | n + 1, hn => sumOf2 (xb6_0 V c ⟨n + 1, hn⟩) (xb6_1 V c ⟨n + 1, hn⟩) (xb6_2 V c ⟨n + 1, hn⟩) (xb6_3 V c ⟨n + 1, hn⟩) (xb6_4 V c ⟨n + 1, hn⟩) (xb6_5 V c ⟨n + 1, hn⟩) (sumAt6 c n (Nat.lt_of_succ_lt hn))
def sqAt6 (c : Dev nD) : (n : ℕ) → n < cfg6.N → Vec F S1x128 .f32
  | 0, hn => sqOf2 (xb6_0 V c ⟨0, hn⟩) (xb6_1 V c ⟨0, hn⟩) (xb6_2 V c ⟨0, hn⟩) (xb6_3 V c ⟨0, hn⟩) (xb6_4 V c ⟨0, hn⟩) (xb6_5 V c ⟨0, hn⟩) k2_pay6
  | n + 1, hn => sqOf2 (xb6_0 V c ⟨n + 1, hn⟩) (xb6_1 V c ⟨n + 1, hn⟩) (xb6_2 V c ⟨n + 1, hn⟩) (xb6_3 V c ⟨n + 1, hn⟩) (xb6_4 V c ⟨n + 1, hn⟩) (xb6_5 V c ⟨n + 1, hn⟩) (sqAt6 c n (Nat.lt_of_succ_lt hn))
def PhiS6 (c : Dev nD) : (n : ℕ) → n ≤ cfg6.N → sProp 𝕄
  | 0, _ => Pipeline.ΦA spec6 c
  | n + 1, hn => acc6 c (sumAt6 V c n hn) (sqAt6 V c n hn)
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => h2Of2 (xb6_0 V c t) (xb6_1 V c t) (xb6_2 V c t) (xb6_3 V c t) (xb6_4 V c t) (xb6_5 V c t)
    | ⟨7, _⟩ => meanOf2 (sumAt6 V c t.val t.isLt)
    | ⟨8, _⟩ => varOf2 (sumAt6 V c t.val t.isLt) (sqAt6 V c t.val t.isLt)
  Φ t := PhiS6 V c t.val (Nat.le_of_lt_succ t.isLt)
  q _ := fullShare
  owed _ := 0
theorem A_eq6 (c : Dev nD) (w : Fin cfg6.W) : (dat6 V c).A w = V c (Pipeline.arrRef spec6 w) := by
  dsimp only [dat6]
theorem after6_6 (c : Dev nD) (t : Fin cfg6.N) : (dat6 V c).after 6 t = h2Of2 (xb6_0 V c t) (xb6_1 V c t) (xb6_2 V c t) (xb6_3 V c t) (xb6_4 V c t) (xb6_5 V c t) := by dsimp only [dat6]
theorem after6_7 (c : Dev nD) (t : Fin cfg6.N) : (dat6 V c).after 7 t = meanOf2 (sumAt6 V c t.val t.isLt) := by dsimp only [dat6]
theorem after6_8 (c : Dev nD) (t : Fin cfg6.N) : (dat6 V c).after 8 t = varOf2 (sumAt6 V c t.val t.isLt) (sqAt6 V c t.val t.isLt) := by dsimp only [dat6]
theorem step6_zero (c : Dev nD) (t : Fin cfg6.N) (h : t.val = 0) :
    (dat6 V c).Φ t.castSucc = Pipeline.ΦA spec6 c
      ∧ sumAt6 V c t.val t.isLt = sumOf2 (xb6_0 V c t) (xb6_1 V c t) (xb6_2 V c t) (xb6_3 V c t) (xb6_4 V c t) (xb6_5 V c t) k2_pay5
      ∧ sqAt6 V c t.val t.isLt = sqOf2 (xb6_0 V c t) (xb6_1 V c t) (xb6_2 V c t) (xb6_3 V c t) (xb6_4 V c t) (xb6_5 V c t) k2_pay6 := by
  obtain ⟨n, hn⟩ := t
  cases n with
  | zero => exact ⟨rfl, rfl, rfl⟩
  | succ n => exact absurd h (Nat.succ_ne_zero n)
theorem step6_pos (c : Dev nD) (t : Fin cfg6.N) (h : t.val ≠ 0) : ∃ s q,
    (dat6 V c).Φ t.castSucc = acc6 c s q
      ∧ sumAt6 V c t.val t.isLt = sumOf2 (xb6_0 V c t) (xb6_1 V c t) (xb6_2 V c t) (xb6_3 V c t) (xb6_4 V c t) (xb6_5 V c t) s
      ∧ sqAt6 V c t.val t.isLt = sqOf2 (xb6_0 V c t) (xb6_1 V c t) (xb6_2 V c t) (xb6_3 V c t) (xb6_4 V c t) (xb6_5 V c t) q := by
  obtain ⟨n, hn⟩ := t
  cases n with
  | zero => exact absurd rfl h
  | succ n => exact ⟨sumAt6 V c n (Nat.lt_of_succ_lt hn), sqAt6 V c n (Nat.lt_of_succ_lt hn), rfl, rfl, rfl⟩
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d
theorem before6_5 (c : Dev nD) (t : Fin cfg6.N) (d) : (dat6 V c).before 5 t d = iblk6 V c 5 t :=
  (dat6 V c).before_in_eq_fetched 5 rfl (fun _ => rfl) (fun _ _ _ => rfl) (fun _ => rfl) t d
abbrev held6 (c : Dev nD) (t : Fin cfg6.N) (w : Fin cfg6.W) : sProp 𝕄 :=
  iprop(∃ d, owns (c : Thread nD τ) ((cfg6.win w).stage (cfg6.slots t w)) fullShare ((dat6 V c).before w t d))
abbrev left6 (c : Dev nD) (t : Fin cfg6.N) (w : Fin cfg6.W) : sProp 𝕄 :=
  owns (c : Thread nD τ) ((cfg6.win w).stage (cfg6.slots t w)) fullShare ((dat6 V c).after w t)
theorem leavesIdle6 (c : Dev nD) (t : Fin cfg6.N) (w : Fin cfg6.W) (hw : 7 ≤ w.val) (hc1 : ¬cond2_1 (grid6.coords t)) :
    (dat6 V c).leavesExact w t = held6 V c t w :=
  (dat6 V c).leavesExact_idle w t (idleAt6 t w hw hc1).1 (idleAt6 t w hw hc1).2
theorem leaves6_7 (c : Dev nD) (t : Fin cfg6.N) (hc1 : cond2_1 (grid6.coords t)) :
    (dat6 V c).leavesExact 7 t = owns (c : Thread nD τ) (st6_7 t : Memref sig .tc .vmem S1x128 .f32) fullShare (meanOf2 (sumAt6 V c t.val t.isLt)) := by
  unfold Dat.leavesExact; rw [liveAt6 t 7 (by decide) hc1, after6_7]
theorem leaves6_8 (c : Dev nD) (t : Fin cfg6.N) (hc1 : cond2_1 (grid6.coords t)) :
    (dat6 V c).leavesExact 8 t = owns (c : Thread nD τ) (st6_8 t : Memref sig .tc .vmem S1x128 .f32) fullShare (varOf2 (sumAt6 V c t.val t.isLt) (sqAt6 V c t.val t.isLt)) := by
  unfold Dat.leavesExact; rw [liveAt6 t 8 (by decide) hc1, after6_8]
def bodyPre6 (c : Dev nD) (t : Fin cfg6.N) : sProp 𝕄 :=
  iprop((dat6 V c).Φ t.castSucc ∗ (dat6 V c).owesAt () t.castSucc
    ∗ held6 V c t 0 ∗ held6 V c t 1 ∗ held6 V c t 2 ∗ held6 V c t 3 ∗ held6 V c t 4 ∗ held6 V c t 5 ∗ held6 V c t 6 ∗ held6 V c t 7 ∗ held6 V c t 8)
def bodyPost6 (c : Dev nD) (t : Fin cfg6.N) : sProp 𝕄 :=
  iprop((dat6 V c).Φ t.succ ∗ (dat6 V c).owesAt () t.succ
    ∗ left6 V c t 0 ∗ left6 V c t 1 ∗ left6 V c t 2 ∗ left6 V c t 3 ∗ left6 V c t 4 ∗ left6 V c t 5 ∗ left6 V c t 6
    ∗ (dat6 V c).leavesExact 7 t ∗ (dat6 V c).leavesExact 8 t)
set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show (dat6 V c).owesAt () t.succ = (dat6 V c).owesAt () t.castSucc from rfl,
    show (dat6 V c).Φ t.succ = acc6 c (sumAt6 V c t.val t.isLt) (sqAt6 V c t.val t.isLt) from rfl]
  have hz := hcond2_0 t
  have hl := hcond2_1 t
  by_cases hc0 : cond2_0 (grid6.coords t)
  on_goal 1 =>
    have hc1 : ¬cond2_1 (grid6.coords t) := fun h => absurd ((hz.mp hc0).symm.trans (hl.mp h)) (by decide)
    obtain ⟨ea, eb, ec⟩ := step6_zero V c t (hz.mp hc0)
    rw [leavesIdle6 V c t 7 (by decide) hc1, leavesIdle6 V c t 8 (by decide) hc1, ea, eb, ec, PhiA6_eq]
  on_goal 2 =>
    obtain ⟨s, q, ea, eb, ec⟩ := step6_pos V c t (mt hz.mpr hc0)
    by_cases hc1 : cond2_1 (grid6.coords t)
    on_goal 1 => rw [leaves6_7 V c t hc1, leaves6_8 V c t hc1]
    on_goal 2 => rw [leavesIdle6 V c t 7 (by decide) hc1, leavesIdle6 V c t 8 (by decide) hc1]
    all_goals rw [ea, eb, ec]
  all_goals
    simp only [held6, left6, before6_0, before6_1, before6_2, before6_3, before6_4, before6_5]
    unfold acc6 inv6
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run2_B (body := cc6__gin_mlp_stats_kernel) c _ _ _ _ _ _ _ _ _ _ _ _ _ _ _ _ _ _ _ _ _ _ _ rfl hc0 hc1 _ _ _ _ _ _ _ _ _ _ _ _)
  on_goal 2 => iapply (run2_C (body := cc6__gin_mlp_stats_kernel) c _ _ _ _ _ _ _ _ _ _ _ _ _ _ _ _ _ _ _ _ _ _ _ rfl hc0 hc1 _ _ _ _ _ _ _ _ _ _)
  on_goal 1 => iapply (run2_A (body := cc6__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation6 (c : Dev nD) : BodyObligation (dat6 (F := F) V c) (defs₀ (F := F)) Variants.none () Set.univ := fun t => by
  rw [bigSep_W6, bigSep_W6]
  exact sound_body6 V c t
theorem hin6 (c : Dev nD) : (Pipeline.ΦA spec6 c : sProp 𝕄) ⊢ (dat6 V c).Φ 0 := by
  rw [show (dat6 V c).Φ 0 = Pipeline.ΦA spec6 c from rfl]
  try exact Idealize.SL.BI.Entails.refl _
theorem Phi_out6 (c : Dev nD) (t : Fin (cfg6.N + 1)) (ht : t.val ≠ 0) : (dat6 V c).Φ t ⊢ (Pipeline.ΦA spec6 c : sProp 𝕄) := by
  obtain ⟨n, hn⟩ := t
  cases n with
  | zero => exact absurd rfl ht
  | succ n => exact out6 c _ _
theorem hout6 (c : Dev nD) : (dat6 V c).Φ (Fin.last cfg6.N) ⊢ (Pipeline.ΦA spec6 c : sProp 𝕄) :=
  Phi_out6 V c _ (by rw [Fin.val_last]; have : cfg6.N = 25 := N_6; omega)
end Cert.KernelIdeal.Hand
end
-- ==== Proof.KI.Bn1.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev r1_big : Rect S2000x128 := Rect.unit (s := S2000x128) ![0, 0] S2000x128.size inb_S2000x128_S2000x128_0_0
abbrev r1_row : Rect S1x128 := Rect.unit (s := S1x128) ![0, 0] S1x128.size inb_S1x128_S1x128_0_0
def out1_5 (x0 : Vec F S2000x128 .f32) (x1 x2 x3 x4 : Vec F S1x128 .f32) : Vec F S2000x128 .f32 :=
  View.canon [⟨r1_big, k1_pay1 (View.ld x2 r1_row) (View.ld x0 r1_big) (View.ld x1 r1_row) (View.ld x3 r1_row) (View.ld x4 r1_row)⟩]
set_option maxHeartbeats 1000000 in
-- the body's one store lays the payload over the whole output block, so the block reads as that one piece's canonical contents
theorem sound_kernel1 {body} (hb : body = cc1__bn_kernel (F := F)) (c : Dev nD) (E : Set ℕ) {i : grid1.Coords} {arg1 arg6 : Memref sig .tc .vmem S2000x128 .f32} {arg2 arg3 arg4 arg5 : Memref sig .tc .vmem S1x128 .f32}
    {harg1 : arg1.IsWhole} {harg2 : arg2.IsWhole} {harg3 : arg3.IsWhole} {harg4 : arg4.IsWhole} {harg5 : arg5.IsWhole} {harg6 : arg6.IsWhole}
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (body i arg1 harg1 arg2 harg2 arg3 harg3 arg4 harg4 arg5 harg5 arg6 harg6) K := by
  subst hb
  simp only [cc1__bn_kernel_eq_skeleton]; unfold cc1__bn_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap
  isplitl [H1]; swap
  isplitl [H2]; swap
  isplitl [H3]; swap
  isplitl [H4]; swap
  · iexists _; isplitr
    swap; · iexact H5
    ipureintro
    exact View.read_writes_eq_canon _ _ _ (View.cover_of_tiled _ S2000x128.size (by rfl))
  all_goals
    iexists _; isplitr; · ipureintro; rfl
    iassumption
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0
theorem A_eq1 (c : Dev nD) (w : Fin cfg1.W) : (dat1 V c).A w = V c (Pipeline.arrRef spec1 w) := rfl
theorem after1 (c : Dev nD) (t : Fin cfg1.N) : (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t := by
  refine ⟨?_, ?_, ?_, ?_, ?_⟩ <;> dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
-- what the body finds in each input window at a point is that window's block of the entry arrays
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) := by
  refine ⟨?_, ?_, ?_, ?_, ?_⟩ <;>
    exact fun d => Eq.trans ((dat1 V c).before_in_eq_fetched _ rfl (fun _ => rfl) (fun _ _ _ => rfl) (fun _ => by dsimp only [dat1]; rfl) t d) rfl
-- the body's triple at the inputs' blocks, framed by the invariant and the tallies, which it does not touch
theorem body_obligation1 (c : Dev nD) : BodyObligation (dat1 (F := F) V c) (defs₀ (F := F)) Variants.none () Set.univ := fun t => by
  obtain ⟨e0, e1, e2, e3, e4⟩ := before1 V c t
  obtain ⟨g0, g1, g2, g3, g4⟩ := after1 V c t
  rw [bigSep_W1, bigSep_W1, show (dat1 V c).Φ t.succ = (dat1 V c).Φ t.castSucc from rfl, show (dat1 V c).owesAt () t.succ = (dat1 V c).owesAt () t.castSucc from rfl]
  simp only [e0, e1, e2, e3, e4, g0, g1, g2, g3, g4, after1_5]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc1__bn_kernel) rfl c Set.univ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.KernelIdeal.Hand
-- ==== Proof.KI.Bn3.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Bn1
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
  Φ _ := Pipeline.ΦA spec3 c
  q _ := fullShare
  owed _ := 0
theorem A_eq3 (c : Dev nD) (w : Fin cfg3.W) : (dat3 V c).A w = V c (Pipeline.arrRef spec3 w) := rfl
theorem after3 (c : Dev nD) (t : Fin cfg3.N) : (dat3 V c).after 0 t = iblk3 V c 0 t ∧ (dat3 V c).after 1 t = iblk3 V c 1 t ∧ (dat3 V c).after 2 t = iblk3 V c 2 t
    ∧ (dat3 V c).after 3 t = iblk3 V c 3 t ∧ (dat3 V c).after 4 t = iblk3 V c 4 t := by
  refine ⟨?_, ?_, ?_, ?_, ?_⟩ <;> dsimp only [dat3]
theorem after3_5 (c : Dev nD) (t : Fin cfg3.N) : (dat3 V c).after 5 t = out1_5 (iblk3 V c 0 t) (iblk3 V c 1 t) (iblk3 V c 2 t) (iblk3 V c 3 t) (iblk3 V c 4 t) := by dsimp only [dat3]
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;>
    exact fun d => Eq.trans ((dat3 V c).before_in_eq_fetched _ rfl (fun _ => rfl) (fun _ _ _ => rfl) (fun _ => by dsimp only [dat3]; rfl) t d) rfl
theorem body_obligation3 (c : Dev nD) : BodyObligation (dat3 (F := F) V c) (defs₀ (F := F)) Variants.none () Set.univ := fun t => by
  obtain ⟨e0, e1, e2, e3, e4⟩ := before3 V c t
  obtain ⟨g0, g1, g2, g3, g4⟩ := after3 V c t
  rw [bigSep_W3, bigSep_W3, show (dat3 V c).Φ t.succ = (dat3 V c).Φ t.castSucc from rfl, show (dat3 V c).owesAt () t.succ = (dat3 V c).owesAt () t.castSucc from rfl]
  simp only [e0, e1, e2, e3, e4, g0, g1, g2, g3, g4, after3_5]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc3__bn_kernel) rfl c Set.univ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.KernelIdeal.Hand
-- ==== Proof.KI.Bn5.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Bn1
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
  Φ _ := Pipeline.ΦA spec5 c
  q _ := fullShare
  owed _ := 0
theorem A_eq5 (c : Dev nD) (w : Fin cfg5.W) : (dat5 V c).A w = V c (Pipeline.arrRef spec5 w) := rfl
theorem after5 (c : Dev nD) (t : Fin cfg5.N) : (dat5 V c).after 0 t = iblk5 V c 0 t ∧ (dat5 V c).after 1 t = iblk5 V c 1 t ∧ (dat5 V c).after 2 t = iblk5 V c 2 t
    ∧ (dat5 V c).after 3 t = iblk5 V c 3 t ∧ (dat5 V c).after 4 t = iblk5 V c 4 t := by
  refine ⟨?_, ?_, ?_, ?_, ?_⟩ <;> dsimp only [dat5]
theorem after5_5 (c : Dev nD) (t : Fin cfg5.N) : (dat5 V c).after 5 t = out1_5 (iblk5 V c 0 t) (iblk5 V c 1 t) (iblk5 V c 2 t) (iblk5 V c 3 t) (iblk5 V c 4 t) := by dsimp only [dat5]
theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t)
      ∧ (∀ d, (dat5 V c).before 3 t d = iblk5 V c 3 t) ∧ (∀ d, (dat5 V c).before 4 t d = iblk5 V c 4 t) := by
  refine ⟨?_, ?_, ?_, ?_, ?_⟩ <;>
    exact fun d => Eq.trans ((dat5 V c).before_in_eq_fetched _ rfl (fun _ => rfl) (fun _ _ _ => rfl) (fun _ => by dsimp only [dat5]; rfl) t d) rfl
theorem body_obligation5 (c : Dev nD) : BodyObligation (dat5 (F := F) V c) (defs₀ (F := F)) Variants.none () Set.univ := fun t => by
  obtain ⟨e0, e1, e2, e3, e4⟩ := before5 V c t
  obtain ⟨g0, g1, g2, g3, g4⟩ := after5 V c t
  rw [bigSep_W5, bigSep_W5, show (dat5 V c).Φ t.succ = (dat5 V c).Φ t.castSucc from rfl, show (dat5 V c).owesAt () t.succ = (dat5 V c).owesAt () t.castSucc from rfl]
  simp only [e0, e1, e2, e3, e4, g0, g1, g2, g3, g4, after5_5]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc5__bn_kernel) rfl c Set.univ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.KernelIdeal.Hand
-- ==== Proof.KI.Bn7.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KI.Bn1
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out1_5 (iblk7 V c 0 t) (iblk7 V c 1 t) (iblk7 V c 2 t) (iblk7 V c 3 t) (iblk7 V c 4 t)
  Φ _ := Pipeline.ΦA spec7 c
  q _ := fullShare
  owed _ := 0
theorem A_eq7 (c : Dev nD) (w : Fin cfg7.W) : (dat7 V c).A w = V c (Pipeline.arrRef spec7 w) := rfl
theorem after7 (c : Dev nD) (t : Fin cfg7.N) : (dat7 V c).after 0 t = iblk7 V c 0 t ∧ (dat7 V c).after 1 t = iblk7 V c 1 t ∧ (dat7 V c).after 2 t = iblk7 V c 2 t
    ∧ (dat7 V c).after 3 t = iblk7 V c 3 t ∧ (dat7 V c).after 4 t = iblk7 V c 4 t := by
  refine ⟨?_, ?_, ?_, ?_, ?_⟩ <;> dsimp only [dat7]
theorem after7_5 (c : Dev nD) (t : Fin cfg7.N) : (dat7 V c).after 5 t = out1_5 (iblk7 V c 0 t) (iblk7 V c 1 t) (iblk7 V c 2 t) (iblk7 V c 3 t) (iblk7 V c 4 t) := by dsimp only [dat7]
theorem before7 (c : Dev nD) (t : Fin cfg7.N) :
    (∀ d, (dat7 V c).before 0 t d = iblk7 V c 0 t) ∧ (∀ d, (dat7 V c).before 1 t d = iblk7 V c 1 t) ∧ (∀ d, (dat7 V c).before 2 t d = iblk7 V c 2 t)
      ∧ (∀ d, (dat7 V c).before 3 t d = iblk7 V c 3 t) ∧ (∀ d, (dat7 V c).before 4 t d = iblk7 V c 4 t) := by
  refine ⟨?_, ?_, ?_, ?_, ?_⟩ <;>
    exact fun d => Eq.trans ((dat7 V c).before_in_eq_fetched _ rfl (fun _ => rfl) (fun _ _ _ => rfl) (fun _ => by dsimp only [dat7]; rfl) t d) rfl
theorem body_obligation7 (c : Dev nD) : BodyObligation (dat7 (F := F) V c) (defs₀ (F := F)) Variants.none () Set.univ := fun t => by
  obtain ⟨e0, e1, e2, e3, e4⟩ := before7 V c t
  obtain ⟨g0, g1, g2, g3, g4⟩ := after7 V c t
  rw [bigSep_W7, bigSep_W7, show (dat7 V c).Φ t.succ = (dat7 V c).Φ t.castSucc from rfl, show (dat7 V c).owesAt () t.succ = (dat7 V c).owesAt () t.castSucc from rfl]
  simp only [e0, e1, e2, e3, e4, g0, g1, g2, g3, g4, after7_5]
  show _ ⊢ wp _ _ _ (bodyAt7 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc7__bn_kernel) rfl c Set.univ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.KernelIdeal.Hand
-- ==== Proof.KI.Head8.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (V : (c : Dev nD) → (b : Ref sig .tc) → Buf (Elt F) ((c : Thread nD τ).loc b))
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))
abbrev r8_a : Rect S2000x128 := Rect.unit (s := S2000x128) ![0, 0] S2000x128.size inb_S2000x128_S2000x128_0_0
abbrev r8_b : Rect S128x128 := Rect.unit (s := S128x128) ![0, 0] S128x128.size inb_S128x128_S128x128_0_0
abbrev r8_c : Rect S1x128 := Rect.unit (s := S1x128) ![0, 0] S1x128.size inb_S1x128_S1x128_0_0
abbrev r8_d : Rect S128x8 := Rect.unit (s := S128x8) ![0, 0] S128x8.size inb_S128x8_S128x8_0_0
abbrev r8_e : Rect S1x8 := Rect.unit (s := S1x8) ![0, 0] S1x8.size inb_S1x8_S1x8_0_0
abbrev r8_o : Rect S2000x8 := Rect.unit (s := S2000x8) ![0, 0] S2000x8.size inb_S2000x8_S2000x8_0_0
def pre8 (x0 x1 x2 x3 : Vec F S2000x128 .f32) (x4 x5 x6 x7 : Vec F S128x128 .f32) (x8 : Vec F S1x128 .f32) : FVec F S2000x128 .f32 :=
  k8_pay2 (View.ld x0 r8_a) (View.ld x4 r8_b) (View.ld x1 r8_a) (View.ld x5 r8_b) (View.ld x2 r8_a) (View.ld x6 r8_b)
    (View.ld x3 r8_a) (View.ld x7 r8_b) (View.ld x8 r8_c)
def out8_11 (x0 x1 x2 x3 : Vec F S2000x128 .f32) (x4 x5 x6 x7 : Vec F S128x128 .f32) (x8 : Vec F S1x128 .f32) (x9 : Vec F S128x8 .f32) (x10 : Vec F S1x8 .f32) : Vec F S2000x8 .f32 :=
  View.canon [⟨r8_o, k8_pay1 (pre8 x0 x1 x2 x3 x4 x5 x6 x7 x8) (k8_pay3 (F := F)) (View.ld x9 r8_d) (View.ld x10 r8_e)⟩]
set_option maxHeartbeats 4000000 in
-- The body's triple over arbitrary operand contents: the operands come back unchanged, the output holds the payload.
theorem sound_kernel8 (c : Dev nD) (E : Set ℕ) {i : grid8.Coords} {arg1 arg2 arg3 arg4 : Memref sig .tc .vmem S2000x128 .f32} {arg5 arg6 arg7 arg8 : Memref sig .tc .vmem S128x128 .f32}
    {arg9 : Memref sig .tc .vmem S1x128 .f32} {arg10 : Memref sig .tc .vmem S128x8 .f32} {arg11 : Memref sig .tc .vmem S1x8 .f32} {arg12 : Memref sig .tc .vmem S2000x8 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    {harg9 : arg9.IsWhole} {harg10 : arg10.IsWhole} {harg11 : arg11.IsWhole} {harg12 : arg12.IsWhole}
    (x0 x1 x2 x3 : Vec F S2000x128 .f32) (x4 x5 x6 x7 : Vec F S128x128 .f32) (x8 : Vec F S1x128 .f32) (x9 : Vec F S128x8 .f32) (x10 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out8_11 x0 x1 x2 x3 x4 x5 x6 x7 x8 x9 x10)) -∗ K ⟨⟩))
      ⊢ wp frame (wpE (defs₀ (F := F)) Variants.none c none) E (cc8__jk_head_kernel i arg1 harg1 arg2 harg2 arg3 harg3 arg4 harg4 arg5 harg5 arg6 harg6 arg7 harg7 arg8 harg8 arg9 harg9 arg10 harg10 arg11 harg11 arg12 harg12) K := by
  simp only [cc8__jk_head_kernel_eq_skeleton]; unfold cc8__jk_head_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (View.cover_of_tiled _ S2000x8.size (by rfl))
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => out8_11 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
  Φ _ := Pipeline.ΦA spec8 c
  q _ := fullShare
  owed _ := 0
theorem A_eq8 (c : Dev nD) (w : Fin cfg8.W) : (dat8 V c).A w = V c (Pipeline.arrRef spec8 w) := by
  dsimp only [dat8]
-- Turns the obligation's input conjuncts into the blocks the body's triple is stated over.
theorem before8 (c : Dev nD) : ∀ w : Fin cfg8.W, (cfg8.win w).isOut = false → ∀ t d, (dat8 V c).before w t d = (dat8 V c).fetched w t d
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => fun hw =>
    (dat8 V c).before_in_eq_fetched _ hw (fun _ => rfl) (fun _ _ _ => rfl) fun t => by unfold Dat.blockOf; dsimp only [dat8, iblk8] <;> rfl
  | ⟨11, _⟩ => fun hw => absurd hw.symm Bool.false_ne_true
theorem sound_body8 (c : Dev nD) (t : Fin cfg8.N) :
    iprop((dat8 V c).Φ t.castSucc ∗ (dat8 V c).owesAt () t.castSucc
        ∗ bigSep Finset.univ fun w : Fin cfg8.W => iprop(∃ d, owns (c : Thread nD τ) ((cfg8.win w).stage (cfg8.slots t w)) fullShare ((dat8 V c).before w t d)))
      ⊢ wp frame (wpE (defs₀ (F := F)) Variants.none c none) Set.univ (bodyAt8 t) fun _ =>
        iprop((dat8 V c).Φ t.succ ∗ (dat8 V c).owesAt () t.succ
          ∗ bigSep Finset.univ fun w : Fin cfg8.W => owns (c : Thread nD τ) ((cfg8.win w).stage (cfg8.slots t w)) fullShare ((dat8 V c).after w t)) := by
  rw [bigSep_W8, bigSep_W8]
  simp only [before8 V c 0 rfl, before8 V c 1 rfl, before8 V c 2 rfl, before8 V c 3 rfl, before8 V c 4 rfl, before8 V c 5 rfl, before8 V c 6 rfl, before8 V c 7 rfl, before8 V c 8 rfl, before8 V c 9 rfl, before8 V c 10 rfl]
  rw [show (dat8 V c).owesAt () t.succ = (dat8 V c).owesAt () t.castSucc from rfl]
  generalize (dat8 V c).owesAt () t.castSucc = O
  unfold Dat.fetched Dat.blockOf
  dsimp only [dat8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel8 c Set.univ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  iframe
theorem body_obligation8 (c : Dev nD) : BodyObligation (dat8 (F := F) V c) (defs₀ (F := F)) Variants.none () Set.univ := fun t => by
  have h := sound_body8 V c t
  rw [bigSep_W8, bigSep_W8] at h ⊢
  exact h
end Cert.KernelIdeal.Hand
end
-- ==== Proof.KI.RunChain.lean ====
import proofs.«166660_j61229053772418_1_alg».proof.Proof.Gen.KernelIdeal.Launch
import proofs.«166660_j61229053772418_1_alg».proof.Proof.Gen.KernelIdeal.Skeleton
import proofs.«166660_j61229053772418_1_alg».proof.Proof.Gen.KernelIdeal.Points
import proofs.«166660_j61229053772418_1_alg».proof.Proof.Gen.KernelIdeal.Regions
import proofs.«166660_j61229053772418_1_alg».proof.Proof.KI.Stats0
import proofs.«166660_j61229053772418_1_alg».proof.Proof.KI.Stats2
import proofs.«166660_j61229053772418_1_alg».proof.Proof.KI.Stats4
import proofs.«166660_j61229053772418_1_alg».proof.Proof.KI.Stats6
import proofs.«166660_j61229053772418_1_alg».proof.Proof.KI.Bn1
import proofs.«166660_j61229053772418_1_alg».proof.Proof.KI.Bn3
import proofs.«166660_j61229053772418_1_alg».proof.Proof.KI.Bn5
import proofs.«166660_j61229053772418_1_alg».proof.Proof.KI.Bn7
import proofs.«166660_j61229053772418_1_alg».proof.Proof.KI.Head8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (m : (ℓ : Loc nD τ sig) → Buf (Elt F) ℓ)
abbrev Wv0 : Dev nD → Valuation τ sig (Elt F) := fun c b => m (c, b)
abbrev Wv1 : Dev nD → Valuation τ sig (Elt F) := fun c => StableHlo.after hostOps0 (Wv0 m c)
abbrev Vr1 : (c : Dev nD) → (b : Ref sig .tc) → Buf (Elt F) ((c : Thread nD τ).loc b) := fun c b => Wv1 m c b
def Wv2 (c : Dev nD) : Valuation τ sig (Elt F) :=
  Pipeline.withArrays spec0 c (Wv1 m c) fun w => (dat0 (Vr1 m) c).arrAt w cfg0.N
theorem Wv2_arr (c : Dev nD) (w : Fin cfg0.W) :
    Wv2 m c (Proc.devRef .tc (Pipeline.arrRef spec0 w)) = (dat0 (Vr1 m) c).arrAt w cfg0.N :=
  Pipeline.withArrays_arr spec0 launch0.win.arr_inj c _ _ w
abbrev Wv3 : Dev nD → Valuation τ sig (Elt F) := fun c => StableHlo.after hostOps1 (Wv2 m c)
abbrev Vr3 : (c : Dev nD) → (b : Ref sig .tc) → Buf (Elt F) ((c : Thread nD τ).loc b) := fun c b => Wv3 m c b
def Wv4 (c : Dev nD) : Valuation τ sig (Elt F) :=
  Pipeline.withArrays spec1 c (Wv3 m c) fun w => (dat1 (Vr3 m) c).arrAt w cfg1.N
theorem Wv4_arr (c : Dev nD) (w : Fin cfg1.W) :
    Wv4 m c (Proc.devRef .tc (Pipeline.arrRef spec1 w)) = (dat1 (Vr3 m) c).arrAt w cfg1.N :=
  Pipeline.withArrays_arr spec1 launch1.win.arr_inj c _ _ w
abbrev Wv5 : Dev nD → Valuation τ sig (Elt F) := fun c => StableHlo.after hostOps2 (Wv4 m c)
abbrev Vr5 : (c : Dev nD) → (b : Ref sig .tc) → Buf (Elt F) ((c : Thread nD τ).loc b) := fun c b => Wv5 m c b
def Wv6 (c : Dev nD) : Valuation τ sig (Elt F) :=
  Pipeline.withArrays spec2 c (Wv5 m c) fun w => (dat2 (Vr5 m) c).arrAt w cfg2.N
theorem Wv6_arr (c : Dev nD) (w : Fin cfg2.W) :
    Wv6 m c (Proc.devRef .tc (Pipeline.arrRef spec2 w)) = (dat2 (Vr5 m) c).arrAt w cfg2.N :=
  Pipeline.withArrays_arr spec2 launch2.win.arr_inj c _ _ w
abbrev Wv7 : Dev nD → Valuation τ sig (Elt F) := fun c => StableHlo.after hostOps3 (Wv6 m c)
abbrev Vr7 : (c : Dev nD) → (b : Ref sig .tc) → Buf (Elt F) ((c : Thread nD τ).loc b) := fun c b => Wv7 m c b
def Wv8 (c : Dev nD) : Valuation τ sig (Elt F) :=
  Pipeline.withArrays spec3 c (Wv7 m c) fun w => (dat3 (Vr7 m) c).arrAt w cfg3.N
theorem Wv8_arr (c : Dev nD) (w : Fin cfg3.W) :
    Wv8 m c (Proc.devRef .tc (Pipeline.arrRef spec3 w)) = (dat3 (Vr7 m) c).arrAt w cfg3.N :=
  Pipeline.withArrays_arr spec3 launch3.win.arr_inj c _ _ w
abbrev Wv9 : Dev nD → Valuation τ sig (Elt F) := fun c => StableHlo.after hostOps4 (Wv8 m c)
abbrev Vr9 : (c : Dev nD) → (b : Ref sig .tc) → Buf (Elt F) ((c : Thread nD τ).loc b) := fun c b => Wv9 m c b
def Wv10 (c : Dev nD) : Valuation τ sig (Elt F) :=
  Pipeline.withArrays spec4 c (Wv9 m c) fun w => (dat4 (Vr9 m) c).arrAt w cfg4.N
theorem Wv10_arr (c : Dev nD) (w : Fin cfg4.W) :
    Wv10 m c (Proc.devRef .tc (Pipeline.arrRef spec4 w)) = (dat4 (Vr9 m) c).arrAt w cfg4.N :=
  Pipeline.withArrays_arr spec4 launch4.win.arr_inj c _ _ w
abbrev Wv11 : Dev nD → Valuation τ sig (Elt F) := fun c => StableHlo.after hostOps5 (Wv10 m c)
abbrev Vr11 : (c : Dev nD) → (b : Ref sig .tc) → Buf (Elt F) ((c : Thread nD τ).loc b) := fun c b => Wv11 m c b
def Wv12 (c : Dev nD) : Valuation τ sig (Elt F) :=
  Pipeline.withArrays spec5 c (Wv11 m c) fun w => (dat5 (Vr11 m) c).arrAt w cfg5.N
theorem Wv12_arr (c : Dev nD) (w : Fin cfg5.W) :
    Wv12 m c (Proc.devRef .tc (Pipeline.arrRef spec5 w)) = (dat5 (Vr11 m) c).arrAt w cfg5.N :=
  Pipeline.withArrays_arr spec5 launch5.win.arr_inj c _ _ w
abbrev Wv13 : Dev nD → Valuation τ sig (Elt F) := fun c => StableHlo.after hostOps6 (Wv12 m c)
abbrev Vr13 : (c : Dev nD) → (b : Ref sig .tc) → Buf (Elt F) ((c : Thread nD τ).loc b) := fun c b => Wv13 m c b
def Wv14 (c : Dev nD) : Valuation τ sig (Elt F) :=
  Pipeline.withArrays spec6 c (Wv13 m c) fun w => (dat6 (Vr13 m) c).arrAt w cfg6.N
theorem Wv14_arr (c : Dev nD) (w : Fin cfg6.W) :
    Wv14 m c (Proc.devRef .tc (Pipeline.arrRef spec6 w)) = (dat6 (Vr13 m) c).arrAt w cfg6.N :=
  Pipeline.withArrays_arr spec6 launch6.win.arr_inj c _ _ w
abbrev Wv15 : Dev nD → Valuation τ sig (Elt F) := fun c => StableHlo.after hostOps7 (Wv14 m c)
abbrev Vr15 : (c : Dev nD) → (b : Ref sig .tc) → Buf (Elt F) ((c : Thread nD τ).loc b) := fun c b => Wv15 m c b
def Wv16 (c : Dev nD) : Valuation τ sig (Elt F) :=
  Pipeline.withArrays spec7 c (Wv15 m c) fun w => (dat7 (Vr15 m) c).arrAt w cfg7.N
theorem Wv16_arr (c : Dev nD) (w : Fin cfg7.W) :
    Wv16 m c (Proc.devRef .tc (Pipeline.arrRef spec7 w)) = (dat7 (Vr15 m) c).arrAt w cfg7.N :=
  Pipeline.withArrays_arr spec7 launch7.win.arr_inj c _ _ w
abbrev Wv17 : Dev nD → Valuation τ sig (Elt F) := fun c => StableHlo.after hostOps8 (Wv16 m c)
abbrev Vr17 : (c : Dev nD) → (b : Ref sig .tc) → Buf (Elt F) ((c : Thread nD τ).loc b) := fun c b => Wv17 m c b
def Wv18 (c : Dev nD) : Valuation τ sig (Elt F) :=
  Pipeline.withArrays spec8 c (Wv17 m c) fun w => (dat8 (Vr17 m) c).arrAt w cfg8.N
theorem Wv18_arr (c : Dev nD) (w : Fin cfg8.W) :
    Wv18 m c (Proc.devRef .tc (Pipeline.arrRef spec8 w)) = (dat8 (Vr17 m) c).arrAt w cfg8.N :=
  Pipeline.withArrays_arr spec8 launch8.win.arr_inj c _ _ w
abbrev adm : (p : Fin 9) → (pcfgs (F := F) p).Adm := fun p => (cfgs p).toPCfg_adm
def pdats : (p : Fin 9) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
  | ⟨2, _⟩ => fun c => dat2 (Vr5 m) c
  | ⟨3, _⟩ => fun c => dat3 (Vr7 m) c
  | ⟨4, _⟩ => fun c => dat4 (Vr9 m) c
  | ⟨5, _⟩ => fun c => dat5 (Vr11 m) c
  | ⟨6, _⟩ => fun c => dat6 (Vr13 m) c
  | ⟨7, _⟩ => fun c => dat7 (Vr15 m) c
  | ⟨8, _⟩ => fun c => dat8 (Vr17 m) c
abbrev 𝒱₀ : Variants := Variants.none
abbrev L : GSem nD τ sig → Finset Unit := fun _ => ∅
abbrev lv : GSem nD τ sig → Unit → ℕ := fun _ _ => 0
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
-- One region segment for every pipeline `p`: its exit contents `V'` are its entry contents `V` with the windows' arrays at their final values.
set_option backward.isDefEq.respectTransparency.types false in
def regOf (p : Fin 9) (hl : Pipeline.LaunchFacts (nD := nD) (τ := τ) cfgs p) (V V' : Dev nD → Valuation τ sig (Elt F))
    (hV : ∀ c, V' c = Pipeline.withArrays (cfgs p).spec c (V c) fun w => (pdats m p c).arrAt w (cfgs p).N)
    (hbody : ∀ c, Pipeline.BodyObligationLoose (pdats m p c) defs₀ 𝒱₀ () Set.univ)
    (howed : ∀ c t, (pdats m p c).owed t = 0) (hq : ∀ c w, (pdats m p c).q w = fullShare)
    (hrec : ∀ c x, x ∈ (pdats m p c).recorded 0)
    (hA : ∀ c w, (pdats m p c).A w = V c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ Rd c)
  post c := iprop(StableHlo.held (c : Thread nD τ) (Pipeline.ucRefs τ sig) (V' c) ∗ Rd c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    have hsplit := Pipeline.arrays_of_unscopedBufs (p := p) (pcfgs (F := F)) adm (pdats m) hl.win hl.arr_whole c
      ((pdats m p c).share_full (hq c)) (fun b => V c b) (hA c)
    rw [Pipeline.unscopedBufs_held] at hsplit
    rw [Pipeline.ownSems0_none]
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c)) (fun b => V c b) (fun b => V' c b)
      ((pdats m p c).arrAt · (cfgs p).N)
      (fun w => ((congrFun (hV c) _).trans (Pipeline.withArrays_arr _ hl.win.arr_inj c _ _ w)).symm)
      fun b hb => (congrFun (hV c) _).trans (Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO
-- Replacing arrays by contents they already have changes nothing: at `r` the new contents read as `V`.
theorem withArrays_keep {gr W : ℕ} (win : Fin W → Pipeline.WinSpec sig gr) (hinj : Function.Injective (Pipeline.arrRef win))
    (c : Dev nD) (V : Valuation τ sig (Elt F)) (A : (w : Fin W) → Buf (Elt F) ((win w).arr.view.loc (c : Thread nD τ)))
    (r : Ref sig .tc) (h : ∀ w, Pipeline.arrRef win w = r → A w = V (Pipeline.arrRef win w)) :
    Pipeline.withArrays win c V A r = V r := by
  by_cases hw : ∃ w, Pipeline.arrRef win w = r
  · obtain ⟨w, rfl⟩ := hw
    exact (Pipeline.withArrays_arr win hinj c V A w).trans (h w rfl)
  · exact Pipeline.withArrays_of_ne win c V A r fun w e => hw ⟨w, e⟩
variable (c : Dev nD) (r : Ref sig .tc)
theorem Wv1_of (h : r ∉ hostOps0_W) : Wv1 m c r = Wv0 m c r :=
  StableHlo.after_of_writes_sub hostOps0 _ hostOps0_writes h
theorem Wv2_keep (h : r ∉ ([main_v24_0, main_v24_1, main_v24_2] : List (Ref sig .tc))) :
    Wv2 m c r = Wv1 m c r :=
  withArrays_keep spec0 launch0.win.arr_inj c (Wv1 m c) _ r fun w e => by
    subst e
    fin_cases w <;> first | exact absurd (by decide) h | exact ((dat0 (Vr1 m) c).arrAt_in _ rfl _).trans (A_eq0 (Vr1 m) c _)
theorem Wv3_of (h : r ∉ hostOps1_W) : Wv3 m c r = Wv2 m c r :=
  StableHlo.after_of_writes_sub hostOps1 _ hostOps1_writes h
theorem Wv4_keep (h : r ∉ ([main_v31] : List (Ref sig .tc))) :
    Wv4 m c r = Wv3 m c r :=
  withArrays_keep spec1 launch1.win.arr_inj c (Wv3 m c) _ r fun w e => by
    subst e
    fin_cases w <;> first | exact absurd (by decide) h | exact ((dat1 (Vr3 m) c).arrAt_in _ rfl _).trans (A_eq1 (Vr3 m) c _)
theorem Wv5_of (h : r ∉ hostOps2_W) : Wv5 m c r = Wv4 m c r :=
  StableHlo.after_of_writes_sub hostOps2 _ hostOps2_writes h
theorem Wv6_keep (h : r ∉ ([main_v52_0, main_v52_1, main_v52_2] : List (Ref sig .tc))) :
    Wv6 m c r = Wv5 m c r :=
  withArrays_keep spec2 launch2.win.arr_inj c (Wv5 m c) _ r fun w e => by
    subst e
    fin_cases w <;> first | exact absurd (by decide) h | exact ((dat2 (Vr5 m) c).arrAt_in _ rfl _).trans (A_eq2 (Vr5 m) c _)
theorem Wv7_of (h : r ∉ hostOps3_W) : Wv7 m c r = Wv6 m c r :=
  StableHlo.after_of_writes_sub hostOps3 _ hostOps3_writes h
theorem Wv8_keep (h : r ∉ ([main_v59] : List (Ref sig .tc))) :
    Wv8 m c r = Wv7 m c r :=
  withArrays_keep spec3 launch3.win.arr_inj c (Wv7 m c) _ r fun w e => by
    subst e
    fin_cases w <;> first | exact absurd (by decide) h | exact ((dat3 (Vr7 m) c).arrAt_in _ rfl _).trans (A_eq3 (Vr7 m) c _)
theorem Wv9_of (h : r ∉ hostOps4_W) : Wv9 m c r = Wv8 m c r :=
  StableHlo.after_of_writes_sub hostOps4 _ hostOps4_writes h
theorem Wv10_keep (h : r ∉ ([main_v80_0, main_v80_1, main_v80_2] : List (Ref sig .tc))) :
    Wv10 m c r = Wv9 m c r :=
  withArrays_keep spec4 launch4.win.arr_inj c (Wv9 m c) _ r fun w e => by
    subst e
    fin_cases w <;> first | exact absurd (by decide) h | exact ((dat4 (Vr9 m) c).arrAt_in _ rfl _).trans (A_eq4 (Vr9 m) c _)
theorem Wv11_of (h : r ∉ hostOps5_W) : Wv11 m c r = Wv10 m c r :=
  StableHlo.after_of_writes_sub hostOps5 _ hostOps5_writes h
theorem Wv12_keep (h : r ∉ ([main_v87] : List (Ref sig .tc))) :
    Wv12 m c r = Wv11 m c r :=
  withArrays_keep spec5 launch5.win.arr_inj c (Wv11 m c) _ r fun w e => by
    subst e
    fin_cases w <;> first | exact absurd (by decide) h | exact ((dat5 (Vr11 m) c).arrAt_in _ rfl _).trans (A_eq5 (Vr11 m) c _)
theorem Wv13_of (h : r ∉ hostOps6_W) : Wv13 m c r = Wv12 m c r :=
  StableHlo.after_of_writes_sub hostOps6 _ hostOps6_writes h
theorem Wv14_keep (h : r ∉ ([main_v108_0, main_v108_1, main_v108_2] : List (Ref sig .tc))) :
    Wv14 m c r = Wv13 m c r :=
  withArrays_keep spec6 launch6.win.arr_inj c (Wv13 m c) _ r fun w e => by
    subst e
    fin_cases w <;> first | exact absurd (by decide) h | exact ((dat6 (Vr13 m) c).arrAt_in _ rfl _).trans (A_eq6 (Vr13 m) c _)
theorem Wv15_of (h : r ∉ hostOps7_W) : Wv15 m c r = Wv14 m c r :=
  StableHlo.after_of_writes_sub hostOps7 _ hostOps7_writes h
theorem Wv16_keep (h : r ∉ ([main_v115] : List (Ref sig .tc))) :
    Wv16 m c r = Wv15 m c r :=
  withArrays_keep spec7 launch7.win.arr_inj c (Wv15 m c) _ r fun w e => by
    subst e
    fin_cases w <;> first | exact absurd (by decide) h | exact ((dat7 (Vr15 m) c).arrAt_in _ rfl _).trans (A_eq7 (Vr15 m) c _)
theorem Wv17_of (h : r ∉ hostOps8_W) : Wv17 m c r = Wv16 m c r :=
  StableHlo.after_of_writes_sub hostOps8 _ hostOps8_writes h
theorem Wv18_keep (h : r ∉ ([main_v122] : List (Ref sig .tc))) :
    Wv18 m c r = Wv17 m c r :=
  withArrays_keep spec8 launch8.win.arr_inj c (Wv17 m c) _ r fun w e => by
    subst e
    fin_cases w <;> first | exact absurd (by decide) h | exact ((dat8 (Vr17 m) c).arrAt_in _ rfl _).trans (A_eq8 (Vr17 m) c _)
-- An argument of @main is written by no host stretch and is no region's output, so it ends as launched.
theorem arg_kept {r : Ref sig .tc} (h : r ∈ ([main_arg0, main_arg1, main_arg2, main_arg3, main_arg4, main_arg5, main_arg6, main_arg7, main_arg8, main_arg9, main_arg10, main_arg11] : List (Ref sig .tc))) :
    Wv18 m c r = m ((c : Thread nD τ).loc r) := by
  simp only [List.mem_cons, List.not_mem_nil, or_false] at h
  rcases h with rfl | rfl | rfl | rfl | rfl | rfl | rfl | rfl | rfl | rfl | rfl | rfl <;>
  exact (Wv18_keep m c _ (by decide)).trans <| (Wv17_of m c _ (by decide)).trans <| (Wv16_keep m c _ (by decide)).trans <| (Wv15_of m c _ (by decide)).trans <| (Wv14_keep m c _ (by decide)).trans <| (Wv13_of m c _ (by decide)).trans <| (Wv12_keep m c _ (by decide)).trans <| (Wv11_of m c _ (by decide)).trans <| (Wv10_keep m c _ (by decide)).trans <| (Wv9_of m c _ (by decide)).trans <| (Wv8_keep m c _ (by decide)).trans <| (Wv7_of m c _ (by decide)).trans <| (Wv6_keep m c _ (by decide)).trans <| (Wv5_of m c _ (by decide)).trans <| (Wv4_keep m c _ (by decide)).trans <| (Wv3_of m c _ (by decide)).trans <| (Wv2_keep m c _ (by decide)).trans <| (Wv1_of m c _ (by decide))
theorem Wv18_main_arg0 : Wv18 m c main_arg0 = m ((c : Thread nD τ).loc main_arg0) := arg_kept m c (by decide)
theorem Wv18_main_arg1 : Wv18 m c main_arg1 = m ((c : Thread nD τ).loc main_arg1) := arg_kept m c (by decide)
theorem Wv18_main_arg2 : Wv18 m c main_arg2 = m ((c : Thread nD τ).loc main_arg2) := arg_kept m c (by decide)
theorem Wv18_main_arg3 : Wv18 m c main_arg3 = m ((c : Thread nD τ).loc main_arg3) := arg_kept m c (by decide)
theorem Wv18_main_arg4 : Wv18 m c main_arg4 = m ((c : Thread nD τ).loc main_arg4) := arg_kept m c (by decide)
theorem Wv18_main_arg5 : Wv18 m c main_arg5 = m ((c : Thread nD τ).loc main_arg5) := arg_kept m c (by decide)
theorem Wv18_main_arg6 : Wv18 m c main_arg6 = m ((c : Thread nD τ).loc main_arg6) := arg_kept m c (by decide)
theorem Wv18_main_arg7 : Wv18 m c main_arg7 = m ((c : Thread nD τ).loc main_arg7) := arg_kept m c (by decide)
theorem Wv18_main_arg8 : Wv18 m c main_arg8 = m ((c : Thread nD τ).loc main_arg8) := arg_kept m c (by decide)
theorem Wv18_main_arg9 : Wv18 m c main_arg9 = m ((c : Thread nD τ).loc main_arg9) := arg_kept m c (by decide)
theorem Wv18_main_arg10 : Wv18 m c main_arg10 = m ((c : Thread nD τ).loc main_arg10) := arg_kept m c (by decide)
theorem Wv18_main_arg11 : Wv18 m c main_arg11 = m ((c : Thread nD τ).loc main_arg11) := arg_kept m c (by decide)
theorem Wv18_result : Wv18 m c (Proc.devRef .tc main_v122) = (dat8 (Vr17 m) c).arrAt 11 cfg8.N := Wv18_arr m c 11
end Cert.KernelIdeal.Hand
end
-- ==== Proof.KI.Reg0.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg0 : Pipeline.RegionSeg (pcfgs (F := F)) adm (pdats m) () defs₀ 𝒱₀ L lv 0 :=
  regOf m 0 launch0 (Wv1 m) (Wv2 m) (fun _ => rfl) (fun c => (body_obligation0 (Vr1 m) c).loose) (fun _ _ => rfl) (fun _ _ => rfl)
    (fun _ _ => trivial) (fun _ _ => rfl) (hin0 (Vr1 m)) (hout0 (Vr1 m))
end Cert.KernelIdeal.Hand
end
-- ==== Proof.KI.Reg1.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg1 : Pipeline.RegionSeg (pcfgs (F := F)) adm (pdats m) () defs₀ 𝒱₀ L lv 1 :=
  regOf m 1 launch1 (Wv3 m) (Wv4 m) (fun _ => rfl) (fun c => (body_obligation1 (Vr3 m) c).loose) (fun _ _ => rfl) (fun _ _ => rfl)
    (fun _ _ => trivial) (fun _ _ => rfl) (fun _ => .rfl) (fun _ => .rfl)
end Cert.KernelIdeal.Hand
end
-- ==== Proof.KI.Reg2.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg2 : Pipeline.RegionSeg (pcfgs (F := F)) adm (pdats m) () defs₀ 𝒱₀ L lv 2 :=
  regOf m 2 launch2 (Wv5 m) (Wv6 m) (fun _ => rfl) (fun c => (body_obligation2 (Vr5 m) c).loose) (fun _ _ => rfl) (fun _ _ => rfl)
    (fun _ _ => trivial) (fun _ _ => rfl) (hin2 (Vr5 m)) (hout2 (Vr5 m))
end Cert.KernelIdeal.Hand
end
-- ==== Proof.KI.Reg3.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg3 : Pipeline.RegionSeg (pcfgs (F := F)) adm (pdats m) () defs₀ 𝒱₀ L lv 3 :=
  regOf m 3 launch3 (Wv7 m) (Wv8 m) (fun _ => rfl) (fun c => (body_obligation3 (Vr7 m) c).loose) (fun _ _ => rfl) (fun _ _ => rfl)
    (fun _ _ => trivial) (fun _ _ => rfl) (fun _ => .rfl) (fun _ => .rfl)
end Cert.KernelIdeal.Hand
end
-- ==== Proof.KI.Reg4.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg4 : Pipeline.RegionSeg (pcfgs (F := F)) adm (pdats m) () defs₀ 𝒱₀ L lv 4 :=
  regOf m 4 launch4 (Wv9 m) (Wv10 m) (fun _ => rfl) (fun c => (body_obligation4 (Vr9 m) c).loose) (fun _ _ => rfl) (fun _ _ => rfl)
    (fun _ _ => trivial) (fun _ _ => rfl) (hin4 (Vr9 m)) (hout4 (Vr9 m))
end Cert.KernelIdeal.Hand
end
-- ==== Proof.KI.Reg5.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg5 : Pipeline.RegionSeg (pcfgs (F := F)) adm (pdats m) () defs₀ 𝒱₀ L lv 5 :=
  regOf m 5 launch5 (Wv11 m) (Wv12 m) (fun _ => rfl) (fun c => (body_obligation5 (Vr11 m) c).loose) (fun _ _ => rfl) (fun _ _ => rfl)
    (fun _ _ => trivial) (fun _ _ => rfl) (fun _ => .rfl) (fun _ => .rfl)
end Cert.KernelIdeal.Hand
end
-- ==== Proof.KI.Reg6.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg6 : Pipeline.RegionSeg (pcfgs (F := F)) adm (pdats m) () defs₀ 𝒱₀ L lv 6 :=
  regOf m 6 launch6 (Wv13 m) (Wv14 m) (fun _ => rfl) (fun c => (body_obligation6 (Vr13 m) c).loose) (fun _ _ => rfl) (fun _ _ => rfl)
    (fun _ _ => trivial) (fun _ _ => rfl) (hin6 (Vr13 m)) (hout6 (Vr13 m))
end Cert.KernelIdeal.Hand
end
-- ==== Proof.KI.Reg7.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg7 : Pipeline.RegionSeg (pcfgs (F := F)) adm (pdats m) () defs₀ 𝒱₀ L lv 7 :=
  regOf m 7 launch7 (Wv15 m) (Wv16 m) (fun _ => rfl) (fun c => (body_obligation7 (Vr15 m) c).loose) (fun _ _ => rfl) (fun _ _ => rfl)
    (fun _ _ => trivial) (fun _ _ => rfl) (fun _ => .rfl) (fun _ => .rfl)
end Cert.KernelIdeal.Hand
end
-- ==== Proof.KI.Reg8.lean ====
import proofs.«166660_j61229053772418_1_alg».proof.Proof.KI.RunChain
noncomputable section
namespace Cert.KernelIdeal.Hand
open Cert.KernelIdeal Cert.KernelIdeal.Gen
open Idealize.ShloMosaic Idealize.ShloMosaic.TcCoe
open Idealize.SL Idealize.SL.BI
variable {F : FTy → Type} [FloatOps F] [Named F]
variable (m : (ℓ : Loc nD τ sig) → Buf (Elt F) ℓ)
set_option backward.isDefEq.respectTransparency.types false in
def reg8 : Pipeline.RegionSeg (pcfgs (F := F)) adm (pdats m) () defs₀ 𝒱₀ L lv 8 :=
  regOf m 8 launch8 (Wv17 m) (Wv18 m) (fun _ => rfl) (fun c => (body_obligation8 (Vr17 m) c).loose) (fun _ _ => rfl) (fun _ _ => rfl)
    (fun _ _ => trivial) (fun _ _ => rfl) (fun _ => .rfl) (fun _ => .rfl)
end Cert.KernelIdeal.Hand
end
-- ==== Proof.KI.Run.lean ====
import proofs.«166660_j61229053772418_1_alg».proof.Proof.KI.Reg0
import proofs.«166660_j61229053772418_1_alg».proof.Proof.KI.Reg1
import proofs.«166660_j61229053772418_1_alg».proof.Proof.KI.Reg2
import proofs.«166660_j61229053772418_1_alg».proof.Proof.KI.Reg3
import proofs.«166660_j61229053772418_1_alg».proof.Proof.KI.Reg4
import proofs.«166660_j61229053772418_1_alg».proof.Proof.KI.Reg5
import proofs.«166660_j61229053772418_1_alg».proof.Proof.KI.Reg6
import proofs.«166660_j61229053772418_1_alg».proof.Proof.KI.Reg7
import proofs.«166660_j61229053772418_1_alg».proof.Proof.KI.Reg8
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (m : (ℓ : Loc nD τ sig) → Buf (Elt F) ℓ)
abbrev segs : List (Pipeline.Seg (pcfgs (F := F)) adm (pdats m) () defs₀ 𝒱₀ L lv) :=
  [ .host (hseg hostOps0 hostOps0_sub hostOps0_fresh (Wv0 m)),
    .region (reg0 m),
    .host (hseg hostOps1 hostOps1_sub hostOps1_fresh (Wv2 m)),
    .region (reg1 m),
    .host (hseg hostOps2 hostOps2_sub hostOps2_fresh (Wv4 m)),
    .region (reg2 m),
    .host (hseg hostOps3 hostOps3_sub hostOps3_fresh (Wv6 m)),
    .region (reg3 m),
    .host (hseg hostOps4 hostOps4_sub hostOps4_fresh (Wv8 m)),
    .region (reg4 m),
    .host (hseg hostOps5 hostOps5_sub hostOps5_fresh (Wv10 m)),
    .region (reg5 m),
    .host (hseg hostOps6 hostOps6_sub hostOps6_fresh (Wv12 m)),
    .region (reg6 m),
    .host (hseg hostOps7 hostOps7_sub hostOps7_fresh (Wv14 m)),
    .region (reg7 m),
    .host (hseg hostOps8 hostOps8_sub hostOps8_fresh (Wv16 m)),
    .region (reg8 m) ]
theorem main_run (c : Dev nD) : main (F := F) c = Pipeline.Seg.run (segs m) := (main_chain c).trans (by chain_rfl)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Wv18 m c) ∗ ∃ r, prngReg c r)
set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wv18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rd c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv18 m c b)
    (hfin := fun c s' => by
      iintro ⟨⟨Hh, -⟩, HSI⟩
      unfold StableHlo.held
      imodintro
      iapply (pointsTo_read_all (Pipeline.ucRefs τ sig) (fun b => (((c : Thread nD τ)).1, b)) (Wv18 m c) s')
      isplitl [Hh] <;> iassumption)
    (hQ := fun s h c => h c)
end Cert.KernelIdeal.Hand
end
-- ==== Proof.KB.Stats0Runs.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.Value
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 24 :=
  (by decide +kernel : ∀ t : Fin grid0.N, cond0_1 (grid0.coords t) ↔ t.val = 24)
theorem hz0 : (![0, 0] : Fin 2 → Nat) = fun _ => 0 := funext fun a => by fin_cases a <;> rfl
theorem read_writes_whole_last {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)
section
variable (x0 x1 : Vec F S2000x128 .f32) (x2 : Vec F S128x128 .f32) (x3 : Vec F S1x128 .f32) (x4 : Vec F S128x128 .f32) (x5 s q : Vec F S1x128 .f32)
def h2Of0 : Vec F S2000x128 .f32 := k0_pay7 x0 x1 x2 x3 x4 x5
def sumOf0 : Vec F S1x128 .f32 := k0_pay1 (k0_pay8 x0 x1 x2 x3 x4 x5 s)
def sqOf0 : Vec F S1x128 .f32 := k0_pay2 (k0_pay7 x0 x1 x2 x3 x4 x5) q
def meanOf0 : Vec F S1x128 .f32 := k0_pay3 s
def varOf0 : Vec F S1x128 .f32 := k0_pay4 s q
end
variable (c : Dev nD) (i : grid0.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
theorem run0_A {body} (hb : body = cc0__gin_mlp_stats_kernel (F := F)) (hc0 : cond0_0 i) (hc1 : ¬cond0_1 i) (x0 x1 : Vec F S2000x128 .f32) (x2 : Vec F S128x128 .f32) (x3 : Vec F S1x128 .f32) (x4 : Vec F S128x128 .f32) (x5 xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ (∃ d, owns c.tc arg10 fullShare d) ∗ (∃ d, owns c.tc arg11 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of0 x0 x1 x2 x3 x4 x5) ∗ owns c.tc arg8 fullShare xi7 ∗ owns c.tc arg9 fullShare xi8
            ∗ owns c.tc arg10 fullShare (sumOf0 x0 x1 x2 x3 x4 x5 k0_pay5) ∗ owns c.tc arg11 fullShare (sqOf0 x0 x1 x2 x3 x4 x5 k0_pay6)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc0__gin_mlp_stats_kernel_eq_skeleton]; unfold cc0__gin_mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0 hf1 hf2 hf3 hf4 hf5 hf7 hf8
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz0 _ _ _).trans ?_; sl_unfold_words
       simp only [h2Of0, sumOf0, sqOf0, meanOf0, varOf0, View.readAt_eq_ld, View.ld_unit_zero (S := S2000x128) hz0, View.ld_unit_zero (S := S128x128) hz0, View.ld_unit_zero (S := S1x128) hz0, View.readCov_unit_zero (S := S1x128) _ hz0])
    | rfl
theorem run0_B {body} (hb : body = cc0__gin_mlp_stats_kernel (F := F)) (hc0 : ¬cond0_0 i) (hc1 : ¬cond0_1 i) (x0 x1 : Vec F S2000x128 .f32) (x2 : Vec F S128x128 .f32) (x3 : Vec F S1x128 .f32) (x4 : Vec F S128x128 .f32) (x5 s q xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of0 x0 x1 x2 x3 x4 x5) ∗ owns c.tc arg8 fullShare xi7 ∗ owns c.tc arg9 fullShare xi8
            ∗ owns c.tc arg10 fullShare (sumOf0 x0 x1 x2 x3 x4 x5 s) ∗ owns c.tc arg11 fullShare (sqOf0 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc0__gin_mlp_stats_kernel_eq_skeleton]; unfold cc0__gin_mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0 hf1 hf2 hf3 hf4 hf5 hf7 hf8 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz0 _ _ _).trans ?_; sl_unfold_words
       simp only [h2Of0, sumOf0, sqOf0, meanOf0, varOf0, View.readAt_eq_ld, View.ld_unit_zero (S := S2000x128) hz0, View.ld_unit_zero (S := S128x128) hz0, View.ld_unit_zero (S := S1x128) hz0, View.readCov_unit_zero (S := S1x128) _ hz0])
    | rfl
theorem run0_C {body} (hb : body = cc0__gin_mlp_stats_kernel (F := F)) (hc0 : ¬cond0_0 i) (hc1 : cond0_1 i) (x0 x1 : Vec F S2000x128 .f32) (x2 : Vec F S128x128 .f32) (x3 : Vec F S1x128 .f32) (x4 : Vec F S128x128 .f32) (x5 s q : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ (∃ d, owns c.tc arg8 fullShare d) ∗ (∃ d, owns c.tc arg9 fullShare d)
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of0 x0 x1 x2 x3 x4 x5)
            ∗ owns c.tc arg8 fullShare (meanOf0 (sumOf0 x0 x1 x2 x3 x4 x5 s))
            ∗ owns c.tc arg9 fullShare (varOf0 (sumOf0 x0 x1 x2 x3 x4 x5 s) (sqOf0 x0 x1 x2 x3 x4 x5 q))
            ∗ owns c.tc arg10 fullShare (sumOf0 x0 x1 x2 x3 x4 x5 s) ∗ owns c.tc arg11 fullShare (sqOf0 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc0__gin_mlp_stats_kernel_eq_skeleton]; unfold cc0__gin_mlp_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz0 _ _ _).trans ?_; sl_unfold_words
       simp only [h2Of0, sumOf0, sqOf0, meanOf0, varOf0, View.readAt_eq_ld, View.ld_unit_zero (S := S2000x128) hz0, View.ld_unit_zero (S := S128x128) hz0, View.ld_unit_zero (S := S1x128) hz0, View.readCov_unit_zero (S := S1x128) _ hz0])
    | rfl
end Cert.Kernel.Hand
end
-- ==== Proof.KB.Stats0.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Stats0Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
theorem idleAt0 : ∀ (t : Fin cfg0.N) (w : Fin cfg0.W), 7 ≤ w.val → ¬cond0_1 (grid0.coords t) →
    cfg0.idle w (grid0.coords t) = true ∧ (cfg0.win w).flush t = false := by decide +kernel
theorem liveAt0 : ∀ (t : Fin cfg0.N) (w : Fin cfg0.W), 7 ≤ w.val → cond0_1 (grid0.coords t) →
    cfg0.idle w (grid0.coords t) = false := by decide +kernel
abbrev scM0_0 : Memref sig .tc .vmem S1x128 .f32 := Memref.whole cc0_scratch0
abbrev scM0_1 : Memref sig .tc .vmem S1x128 .f32 := Memref.whole cc0_scratch1
def inv0 (c : Dev nD) (S : sProp 𝕄) : sProp 𝕄 :=
  iprop(iprop(S ∗ Pipeline.scopedRestBut (Ix := Unit) (Name := ℕ) (U := UR sig nD τ) (Lvl := ℕ) (Val := Elt F) spec0 c [cc0_scratch0, cc0_scratch1]) ∗ (∃ r, prngReg c r))
def acc0 (c : Dev nD) (s q : Vec F S1x128 .f32) : sProp 𝕄 :=
  inv0 c iprop(owns (c : Thread nD τ) scM0_0 fullShare s ∗ owns (c : Thread nD τ) scM0_1 fullShare q)
theorem PhiA0_eq (c : Dev nD) : (Pipeline.ΦA spec0 c : sProp 𝕄)
    = inv0 c iprop((∃ d, owns (c : Thread nD τ) scM0_0 fullShare d) ∗ (∃ d, owns (c : Thread nD τ) scM0_1 fullShare d)) := by
  unfold Pipeline.ΦA inv0; rw [scopedRest0_split]; simp only [scM0_0, scM0_1, owns_whole]; try rfl
theorem out0 (c : Dev nD) (s q : Vec F S1x128 .f32) : acc0 c s q ⊢ (Pipeline.ΦA spec0 c : sProp 𝕄) := by
  rw [PhiA0_eq]; unfold acc0 inv0
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
abbrev xb0_0 (c : Dev nD) (t : Fin cfg0.N) : Vec F S2000x128 .f32 := iblk0 V c 0 t
abbrev xb0_1 (c : Dev nD) (t : Fin cfg0.N) : Vec F S2000x128 .f32 := iblk0 V c 1 t
abbrev xb0_2 (c : Dev nD) (t : Fin cfg0.N) : Vec F S128x128 .f32 := iblk0 V c 2 t
abbrev xb0_3 (c : Dev nD) (t : Fin cfg0.N) : Vec F S1x128 .f32 := iblk0 V c 3 t
abbrev xb0_4 (c : Dev nD) (t : Fin cfg0.N) : Vec F S128x128 .f32 := iblk0 V c 4 t
abbrev xb0_5 (c : Dev nD) (t : Fin cfg0.N) : Vec F S1x128 .f32 := iblk0 V c 5 t
def sumAt0 (c : Dev nD) : (n : ℕ) → n < cfg0.N → Vec F S1x128 .f32
  | 0, hn => sumOf0 (xb0_0 V c ⟨0, hn⟩) (xb0_1 V c ⟨0, hn⟩) (xb0_2 V c ⟨0, hn⟩) (xb0_3 V c ⟨0, hn⟩) (xb0_4 V c ⟨0, hn⟩) (xb0_5 V c ⟨0, hn⟩) k0_pay5
  | n + 1, hn => sumOf0 (xb0_0 V c ⟨n + 1, hn⟩) (xb0_1 V c ⟨n + 1, hn⟩) (xb0_2 V c ⟨n + 1, hn⟩) (xb0_3 V c ⟨n + 1, hn⟩) (xb0_4 V c ⟨n + 1, hn⟩) (xb0_5 V c ⟨n + 1, hn⟩) (sumAt0 c n (Nat.lt_of_succ_lt hn))
def sqAt0 (c : Dev nD) : (n : ℕ) → n < cfg0.N → Vec F S1x128 .f32
  | 0, hn => sqOf0 (xb0_0 V c ⟨0, hn⟩) (xb0_1 V c ⟨0, hn⟩) (xb0_2 V c ⟨0, hn⟩) (xb0_3 V c ⟨0, hn⟩) (xb0_4 V c ⟨0, hn⟩) (xb0_5 V c ⟨0, hn⟩) k0_pay6
  | n + 1, hn => sqOf0 (xb0_0 V c ⟨n + 1, hn⟩) (xb0_1 V c ⟨n + 1, hn⟩) (xb0_2 V c ⟨n + 1, hn⟩) (xb0_3 V c ⟨n + 1, hn⟩) (xb0_4 V c ⟨n + 1, hn⟩) (xb0_5 V c ⟨n + 1, hn⟩) (sqAt0 c n (Nat.lt_of_succ_lt hn))
def PhiS0 (c : Dev nD) : (n : ℕ) → n ≤ cfg0.N → sProp 𝕄
  | 0, _ => Pipeline.ΦA spec0 c
  | n + 1, hn => acc0 c (sumAt0 V c n hn) (sqAt0 V c n hn)
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => h2Of0 (xb0_0 V c t) (xb0_1 V c t) (xb0_2 V c t) (xb0_3 V c t) (xb0_4 V c t) (xb0_5 V c t)
    | ⟨7, _⟩ => meanOf0 (sumAt0 V c t.val t.isLt)
    | ⟨8, _⟩ => varOf0 (sumAt0 V c t.val t.isLt) (sqAt0 V c t.val t.isLt)
  Φ t := PhiS0 V c t.val (Nat.le_of_lt_succ t.isLt)
  q _ := fullShare
  owed _ := 0
theorem A_eq0 (c : Dev nD) (w : Fin cfg0.W) : (dat0 V c).A w = V c (Pipeline.arrRef spec0 w) := by
  dsimp only [dat0]
theorem after0_6 (c : Dev nD) (t : Fin cfg0.N) : (dat0 V c).after 6 t = h2Of0 (xb0_0 V c t) (xb0_1 V c t) (xb0_2 V c t) (xb0_3 V c t) (xb0_4 V c t) (xb0_5 V c t) := by dsimp only [dat0]
theorem after0_7 (c : Dev nD) (t : Fin cfg0.N) : (dat0 V c).after 7 t = meanOf0 (sumAt0 V c t.val t.isLt) := by dsimp only [dat0]
theorem after0_8 (c : Dev nD) (t : Fin cfg0.N) : (dat0 V c).after 8 t = varOf0 (sumAt0 V c t.val t.isLt) (sqAt0 V c t.val t.isLt) := by dsimp only [dat0]
theorem step0_zero (c : Dev nD) (t : Fin cfg0.N) (h : t.val = 0) :
    (dat0 V c).Φ t.castSucc = Pipeline.ΦA spec0 c
      ∧ sumAt0 V c t.val t.isLt = sumOf0 (xb0_0 V c t) (xb0_1 V c t) (xb0_2 V c t) (xb0_3 V c t) (xb0_4 V c t) (xb0_5 V c t) k0_pay5
      ∧ sqAt0 V c t.val t.isLt = sqOf0 (xb0_0 V c t) (xb0_1 V c t) (xb0_2 V c t) (xb0_3 V c t) (xb0_4 V c t) (xb0_5 V c t) k0_pay6 := by
  obtain ⟨n, hn⟩ := t
  cases n with
  | zero => exact ⟨rfl, rfl, rfl⟩
  | succ n => exact absurd h (Nat.succ_ne_zero n)
theorem step0_pos (c : Dev nD) (t : Fin cfg0.N) (h : t.val ≠ 0) : ∃ s q,
    (dat0 V c).Φ t.castSucc = acc0 c s q
      ∧ sumAt0 V c t.val t.isLt = sumOf0 (xb0_0 V c t) (xb0_1 V c t) (xb0_2 V c t) (xb0_3 V c t) (xb0_4 V c t) (xb0_5 V c t) s
      ∧ sqAt0 V c t.val t.isLt = sqOf0 (xb0_0 V c t) (xb0_1 V c t) (xb0_2 V c t) (xb0_3 V c t) (xb0_4 V c t) (xb0_5 V c t) q := by
  obtain ⟨n, hn⟩ := t
  cases n with
  | zero => exact absurd rfl h
  | succ n => exact ⟨sumAt0 V c n (Nat.lt_of_succ_lt hn), sqAt0 V c n (Nat.lt_of_succ_lt hn), rfl, rfl, rfl⟩
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d
abbrev held0 (c : Dev nD) (t : Fin cfg0.N) (w : Fin cfg0.W) : sProp 𝕄 :=
  iprop(∃ d, owns (c : Thread nD τ) ((cfg0.win w).stage (cfg0.slots t w)) fullShare ((dat0 V c).before w t d))
abbrev left0 (c : Dev nD) (t : Fin cfg0.N) (w : Fin cfg0.W) : sProp 𝕄 :=
  owns (c : Thread nD τ) ((cfg0.win w).stage (cfg0.slots t w)) fullShare ((dat0 V c).after w t)
theorem leavesIdle0 (c : Dev nD) (t : Fin cfg0.N) (w : Fin cfg0.W) (hw : 7 ≤ w.val) (hc1 : ¬cond0_1 (grid0.coords t)) :
    (dat0 V c).leavesExact w t = held0 V c t w :=
  (dat0 V c).leavesExact_idle w t (idleAt0 t w hw hc1).1 (idleAt0 t w hw hc1).2
theorem leaves0_7 (c : Dev nD) (t : Fin cfg0.N) (hc1 : cond0_1 (grid0.coords t)) :
    (dat0 V c).leavesExact 7 t = owns (c : Thread nD τ) (st0_7 t : Memref sig .tc .vmem S1x128 .f32) fullShare (meanOf0 (sumAt0 V c t.val t.isLt)) := by
  unfold Dat.leavesExact; rw [liveAt0 t 7 (by decide) hc1, after0_7]
theorem leaves0_8 (c : Dev nD) (t : Fin cfg0.N) (hc1 : cond0_1 (grid0.coords t)) :
    (dat0 V c).leavesExact 8 t = owns (c : Thread nD τ) (st0_8 t : Memref sig .tc .vmem S1x128 .f32) fullShare (varOf0 (sumAt0 V c t.val t.isLt) (sqAt0 V c t.val t.isLt)) := by
  unfold Dat.leavesExact; rw [liveAt0 t 8 (by decide) hc1, after0_8]
def bodyPre0 (c : Dev nD) (t : Fin cfg0.N) : sProp 𝕄 :=
  iprop((dat0 V c).Φ t.castSucc ∗ (dat0 V c).owesAt () t.castSucc
    ∗ held0 V c t 0 ∗ held0 V c t 1 ∗ held0 V c t 2 ∗ held0 V c t 3 ∗ held0 V c t 4 ∗ held0 V c t 5 ∗ held0 V c t 6 ∗ held0 V c t 7 ∗ held0 V c t 8)
def bodyPost0 (c : Dev nD) (t : Fin cfg0.N) : sProp 𝕄 :=
  iprop((dat0 V c).Φ t.succ ∗ (dat0 V c).owesAt () t.succ
    ∗ left0 V c t 0 ∗ left0 V c t 1 ∗ left0 V c t 2 ∗ left0 V c t 3 ∗ left0 V c t 4 ∗ left0 V c t 5 ∗ left0 V c t 6
    ∗ (dat0 V c).leavesExact 7 t ∗ (dat0 V c).leavesExact 8 t)
set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).owesAt () t.succ = (dat0 V c).owesAt () t.castSucc from rfl,
    show (dat0 V c).Φ t.succ = acc0 c (sumAt0 V c t.val t.isLt) (sqAt0 V c t.val t.isLt) from rfl]
  have hz := hcond0_0 t
  have hl := hcond0_1 t
  by_cases hc0 : cond0_0 (grid0.coords t)
  on_goal 1 =>
    have hc1 : ¬cond0_1 (grid0.coords t) := fun h => absurd ((hz.mp hc0).symm.trans (hl.mp h)) (by decide)
    obtain ⟨ea, eb, ec⟩ := step0_zero V c t (hz.mp hc0)
    rw [leavesIdle0 V c t 7 (by decide) hc1, leavesIdle0 V c t 8 (by decide) hc1, ea, eb, ec, PhiA0_eq]
  on_goal 2 =>
    obtain ⟨s, q, ea, eb, ec⟩ := step0_pos V c t (mt hz.mpr hc0)
    by_cases hc1 : cond0_1 (grid0.coords t)
    on_goal 1 => rw [leaves0_7 V c t hc1, leaves0_8 V c t hc1]
    on_goal 2 => rw [leavesIdle0 V c t 7 (by decide) hc1, leavesIdle0 V c t 8 (by decide) hc1]
    all_goals rw [ea, eb, ec]
  all_goals
    simp only [held0, left0, before0_0, before0_1, before0_2, before0_3, before0_4, before0_5]
    unfold acc0 inv0
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run0_B (body := cc0__gin_mlp_stats_kernel) c _ _ _ _ _ _ _ _ _ _ _ _ _ _ _ _ _ _ _ _ _ _ _ rfl hc0 hc1 _ _ _ _ _ _ _ _ _ _ _ _)
  on_goal 2 => iapply (run0_C (body := cc0__gin_mlp_stats_kernel) c _ _ _ _ _ _ _ _ _ _ _ _ _ _ _ _ _ _ _ _ _ _ _ rfl hc0 hc1 _ _ _ _ _ _ _ _ _ _)
  on_goal 1 => iapply (run0_A (body := cc0__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation0 (c : Dev nD) : BodyObligation (dat0 (F := F) V c) (defs₀ (F := F)) Variants.none () Set.univ := fun t => by
  rw [bigSep_W0, bigSep_W0]
  exact sound_body0 V c t
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _
theorem Phi_out0 (c : Dev nD) (t : Fin (cfg0.N + 1)) (ht : t.val ≠ 0) : (dat0 V c).Φ t ⊢ (Pipeline.ΦA spec0 c : sProp 𝕄) := by
  obtain ⟨n, hn⟩ := t
  cases n with
  | zero => exact absurd rfl ht
  | succ n => exact out0 c _ _
theorem hout0 (c : Dev nD) : (dat0 V c).Φ (Fin.last cfg0.N) ⊢ (Pipeline.ΦA spec0 c : sProp 𝕄) :=
  Phi_out0 V c _ (by rw [Fin.val_last]; have : cfg0.N = 25 := N_0; omega)
end Cert.Kernel.Hand
end
-- ==== Proof.KB.Stats2Runs.lean ====
import proofs.«166660_j61229053772418_1_alg».proof.Proof.KB.Stats0Runs
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ
abbrev cond2_0 (i : grid2.Coords) : Prop := (Scalar.cmpi .ne (Scalar.extui (Scalar.cmpi .eq (BitVec.ofNat 32 (i 0).val) 0#32)) 0#32) = 1#1
abbrev cond2_1 (i : grid2.Coords) : Prop := k2_cond2 i = 1#1
theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 24 :=
  (by decide +kernel : ∀ t : Fin grid2.N, cond2_1 (grid2.coords t) ↔ t.val = 24)
theorem hz2 : (![0, 0] : Fin 2 → Nat) = fun _ => 0 := funext fun a => by fin_cases a <;> rfl
section
variable (x0 x1 : Vec F S2000x128 .f32) (x2 : Vec F S128x128 .f32) (x3 : Vec F S1x128 .f32) (x4 : Vec F S128x128 .f32) (x5 s q : Vec F S1x128 .f32)
def h2Of2 : Vec F S2000x128 .f32 := k2_pay7 x0 x1 x2 x3 x4 x5
def sumOf2 : Vec F S1x128 .f32 := k2_pay1 s (k2_pay8 x0 x1 x2 x3 x4 x5)
def sqOf2 : Vec F S1x128 .f32 := k2_pay2 (k2_pay7 x0 x1 x2 x3 x4 x5) q
def meanOf2 : Vec F S1x128 .f32 := k2_pay3 s
def varOf2 : Vec F S1x128 .f32 := k2_pay4 s q
end
variable (c : Dev nD) (i : grid2.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole)
theorem run2_A {body} (hb : body = cc2__gin_mlp_stats_kernel (F := F)) (hc0 : cond2_0 i) (hc1 : ¬cond2_1 i) (x0 x1 : Vec F S2000x128 .f32) (x2 : Vec F S128x128 .f32) (x3 : Vec F S1x128 .f32) (x4 : Vec F S128x128 .f32) (x5 xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ (∃ d, owns c.tc arg10 fullShare d) ∗ (∃ d, owns c.tc arg11 fullShare d)
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of2 x0 x1 x2 x3 x4 x5) ∗ owns c.tc arg8 fullShare xi7 ∗ owns c.tc arg9 fullShare xi8
            ∗ owns c.tc arg10 fullShare (sumOf2 x0 x1 x2 x3 x4 x5 k2_pay5) ∗ owns c.tc arg11 fullShare (sqOf2 x0 x1 x2 x3 x4 x5 k2_pay6)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc2__gin_mlp_stats_kernel_eq_skeleton]; unfold cc2__gin_mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
  subst hf0 hf1 hf2 hf3 hf4 hf5 hf7 hf8
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz2 _ _ _).trans ?_; sl_unfold_words
       simp only [h2Of2, sumOf2, sqOf2, meanOf2, varOf2, View.readAt_eq_ld, View.ld_unit_zero (S := S2000x128) hz2, View.ld_unit_zero (S := S128x128) hz2, View.ld_unit_zero (S := S1x128) hz2, View.readCov_unit_zero (S := S1x128) _ hz2])
    | rfl
theorem run2_B {body} (hb : body = cc2__gin_mlp_stats_kernel (F := F)) (hc0 : ¬cond2_0 i) (hc1 : ¬cond2_1 i) (x0 x1 : Vec F S2000x128 .f32) (x2 : Vec F S128x128 .f32) (x3 : Vec F S1x128 .f32) (x4 : Vec F S128x128 .f32) (x5 s q xi7 xi8 : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ owns c.tc arg8 fullShare xi7 ∗ owns c.tc arg9 fullShare xi8
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of2 x0 x1 x2 x3 x4 x5) ∗ owns c.tc arg8 fullShare xi7 ∗ owns c.tc arg9 fullShare xi8
            ∗ owns c.tc arg10 fullShare (sumOf2 x0 x1 x2 x3 x4 x5 s) ∗ owns c.tc arg11 fullShare (sqOf2 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc2__gin_mlp_stats_kernel_eq_skeleton]; unfold cc2__gin_mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
  subst hf0 hf1 hf2 hf3 hf4 hf5 hf7 hf8 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz2 _ _ _).trans ?_; sl_unfold_words
       simp only [h2Of2, sumOf2, sqOf2, meanOf2, varOf2, View.readAt_eq_ld, View.ld_unit_zero (S := S2000x128) hz2, View.ld_unit_zero (S := S128x128) hz2, View.ld_unit_zero (S := S1x128) hz2, View.readCov_unit_zero (S := S1x128) _ hz2])
    | rfl
theorem run2_C {body} (hb : body = cc2__gin_mlp_stats_kernel (F := F)) (hc0 : ¬cond2_0 i) (hc1 : cond2_1 i) (x0 x1 : Vec F S2000x128 .f32) (x2 : Vec F S128x128 .f32) (x3 : Vec F S1x128 .f32) (x4 : Vec F S128x128 .f32) (x5 s q : Vec F S1x128 .f32) (E : Set ℕ) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
        ∗ (∃ d, owns c.tc arg7 fullShare d) ∗ (∃ d, owns c.tc arg8 fullShare d) ∗ (∃ d, owns c.tc arg9 fullShare d)
        ∗ owns c.tc arg10 fullShare s ∗ owns c.tc arg11 fullShare q
        ∗ (iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5
            ∗ owns c.tc arg7 fullShare (h2Of2 x0 x1 x2 x3 x4 x5)
            ∗ owns c.tc arg8 fullShare (meanOf2 (sumOf2 x0 x1 x2 x3 x4 x5 s))
            ∗ owns c.tc arg9 fullShare (varOf2 (sumOf2 x0 x1 x2 x3 x4 x5 s) (sqOf2 x0 x1 x2 x3 x4 x5 q))
            ∗ owns c.tc arg10 fullShare (sumOf2 x0 x1 x2 x3 x4 x5 s) ∗ owns c.tc arg11 fullShare (sqOf2 x0 x1 x2 x3 x4 x5 q)) -∗ K ⟨⟩))
      ⊢ wp frame (wpE (defs₀ (F := F)) Variants.none c none) E (body i arg1 harg1 arg2 harg2 arg3 harg3 arg4 harg4 arg5 harg5 arg6 harg6 arg7 harg7 arg8 harg8 arg9 harg9 arg10 harg10 arg11 harg11) K := by
  subst hb
  simp only [cc2__gin_mlp_stats_kernel_eq_skeleton]; unfold cc2__gin_mlp_stats_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
  subst hf0 hf1 hf2 hf3 hf4 hf5 hfs0 hfs1
  sl_exec (disch := first | exact hc0 | exact hc1)
  sl_step
  iapply Hk
  isplitl [H0]; swap; isplitl [H1]; swap; isplitl [H2]; swap; isplitl [H3]; swap; isplitl [H4]; swap; isplitl [H5]; swap; isplitl [H6]; swap; isplitl [H7]; swap; isplitl [H8]; swap; isplitl [HS0]
  all_goals (iexists _; isplitr; swap; iassumption; ipureintro)
  all_goals first
    | (refine (read_writes_whole_last _ _ hz2 _ _ _).trans ?_; sl_unfold_words
       simp only [h2Of2, sumOf2, sqOf2, meanOf2, varOf2, View.readAt_eq_ld, View.ld_unit_zero (S := S2000x128) hz2, View.ld_unit_zero (S := S128x128) hz2, View.ld_unit_zero (S := S1x128) hz2, View.readCov_unit_zero (S := S1x128) _ hz2])
    | rfl
end Cert.Kernel.Hand
end
-- ==== Proof.KB.Stats2.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Stats2Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
theorem idleAt2 : ∀ (t : Fin cfg2.N) (w : Fin cfg2.W), 7 ≤ w.val → ¬cond2_1 (grid2.coords t) →
    cfg2.idle w (grid2.coords t) = true ∧ (cfg2.win w).flush t = false := by decide +kernel
theorem liveAt2 : ∀ (t : Fin cfg2.N) (w : Fin cfg2.W), 7 ≤ w.val → cond2_1 (grid2.coords t) →
    cfg2.idle w (grid2.coords t) = false := by decide +kernel
abbrev scM2_0 : Memref sig .tc .vmem S1x128 .f32 := Memref.whole cc2_scratch0
abbrev scM2_1 : Memref sig .tc .vmem S1x128 .f32 := Memref.whole cc2_scratch1
def inv2 (c : Dev nD) (S : sProp 𝕄) : sProp 𝕄 :=
  iprop(iprop(S ∗ Pipeline.scopedRestBut (Ix := Unit) (Name := ℕ) (U := UR sig nD τ) (Lvl := ℕ) (Val := Elt F) spec2 c [cc2_scratch0, cc2_scratch1]) ∗ (∃ r, prngReg c r))
def acc2 (c : Dev nD) (s q : Vec F S1x128 .f32) : sProp 𝕄 :=
  inv2 c iprop(owns (c : Thread nD τ) scM2_0 fullShare s ∗ owns (c : Thread nD τ) scM2_1 fullShare q)
theorem PhiA2_eq (c : Dev nD) : (Pipeline.ΦA spec2 c : sProp 𝕄)
    = inv2 c iprop((∃ d, owns (c : Thread nD τ) scM2_0 fullShare d) ∗ (∃ d, owns (c : Thread nD τ) scM2_1 fullShare d)) := by
  unfold Pipeline.ΦA inv2; rw [scopedRest2_split]; simp only [scM2_0, scM2_1, owns_whole]; try rfl
theorem out2 (c : Dev nD) (s q : Vec F S1x128 .f32) : acc2 c s q ⊢ (Pipeline.ΦA spec2 c : sProp 𝕄) := by
  rw [PhiA2_eq]; unfold acc2 inv2
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
abbrev xb2_0 (c : Dev nD) (t : Fin cfg2.N) : Vec F S2000x128 .f32 := iblk2 V c 0 t
abbrev xb2_1 (c : Dev nD) (t : Fin cfg2.N) : Vec F S2000x128 .f32 := iblk2 V c 1 t
abbrev xb2_2 (c : Dev nD) (t : Fin cfg2.N) : Vec F S128x128 .f32 := iblk2 V c 2 t
abbrev xb2_3 (c : Dev nD) (t : Fin cfg2.N) : Vec F S1x128 .f32 := iblk2 V c 3 t
abbrev xb2_4 (c : Dev nD) (t : Fin cfg2.N) : Vec F S128x128 .f32 := iblk2 V c 4 t
abbrev xb2_5 (c : Dev nD) (t : Fin cfg2.N) : Vec F S1x128 .f32 := iblk2 V c 5 t
def sumAt2 (c : Dev nD) : (n : ℕ) → n < cfg2.N → Vec F S1x128 .f32
  | 0, hn => sumOf2 (xb2_0 V c ⟨0, hn⟩) (xb2_1 V c ⟨0, hn⟩) (xb2_2 V c ⟨0, hn⟩) (xb2_3 V c ⟨0, hn⟩) (xb2_4 V c ⟨0, hn⟩) (xb2_5 V c ⟨0, hn⟩) k2_pay5
  | n + 1, hn => sumOf2 (xb2_0 V c ⟨n + 1, hn⟩) (xb2_1 V c ⟨n + 1, hn⟩) (xb2_2 V c ⟨n + 1, hn⟩) (xb2_3 V c ⟨n + 1, hn⟩) (xb2_4 V c ⟨n + 1, hn⟩) (xb2_5 V c ⟨n + 1, hn⟩) (sumAt2 c n (Nat.lt_of_succ_lt hn))
def sqAt2 (c : Dev nD) : (n : ℕ) → n < cfg2.N → Vec F S1x128 .f32
  | 0, hn => sqOf2 (xb2_0 V c ⟨0, hn⟩) (xb2_1 V c ⟨0, hn⟩) (xb2_2 V c ⟨0, hn⟩) (xb2_3 V c ⟨0, hn⟩) (xb2_4 V c ⟨0, hn⟩) (xb2_5 V c ⟨0, hn⟩) k2_pay6
  | n + 1, hn => sqOf2 (xb2_0 V c ⟨n + 1, hn⟩) (xb2_1 V c ⟨n + 1, hn⟩) (xb2_2 V c ⟨n + 1, hn⟩) (xb2_3 V c ⟨n + 1, hn⟩) (xb2_4 V c ⟨n + 1, hn⟩) (xb2_5 V c ⟨n + 1, hn⟩) (sqAt2 c n (Nat.lt_of_succ_lt hn))
def PhiS2 (c : Dev nD) : (n : ℕ) → n ≤ cfg2.N → sProp 𝕄
  | 0, _ => Pipeline.ΦA spec2 c
  | n + 1, hn => acc2 c (sumAt2 V c n hn) (sqAt2 V c n hn)
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => h2Of2 (xb2_0 V c t) (xb2_1 V c t) (xb2_2 V c t) (xb2_3 V c t) (xb2_4 V c t) (xb2_5 V c t)
    | ⟨7, _⟩ => meanOf2 (sumAt2 V c t.val t.isLt)
    | ⟨8, _⟩ => varOf2 (sumAt2 V c t.val t.isLt) (sqAt2 V c t.val t.isLt)
  Φ t := PhiS2 V c t.val (Nat.le_of_lt_succ t.isLt)
  q _ := fullShare
  owed _ := 0
theorem A_eq2 (c : Dev nD) (w : Fin cfg2.W) : (dat2 V c).A w = V c (Pipeline.arrRef spec2 w) := by
  dsimp only [dat2]
theorem after2_6 (c : Dev nD) (t : Fin cfg2.N) : (dat2 V c).after 6 t = h2Of2 (xb2_0 V c t) (xb2_1 V c t) (xb2_2 V c t) (xb2_3 V c t) (xb2_4 V c t) (xb2_5 V c t) := by dsimp only [dat2]
theorem after2_7 (c : Dev nD) (t : Fin cfg2.N) : (dat2 V c).after 7 t = meanOf2 (sumAt2 V c t.val t.isLt) := by dsimp only [dat2]
theorem after2_8 (c : Dev nD) (t : Fin cfg2.N) : (dat2 V c).after 8 t = varOf2 (sumAt2 V c t.val t.isLt) (sqAt2 V c t.val t.isLt) := by dsimp only [dat2]
theorem step2_zero (c : Dev nD) (t : Fin cfg2.N) (h : t.val = 0) :
    (dat2 V c).Φ t.castSucc = Pipeline.ΦA spec2 c
      ∧ sumAt2 V c t.val t.isLt = sumOf2 (xb2_0 V c t) (xb2_1 V c t) (xb2_2 V c t) (xb2_3 V c t) (xb2_4 V c t) (xb2_5 V c t) k2_pay5
      ∧ sqAt2 V c t.val t.isLt = sqOf2 (xb2_0 V c t) (xb2_1 V c t) (xb2_2 V c t) (xb2_3 V c t) (xb2_4 V c t) (xb2_5 V c t) k2_pay6 := by
  obtain ⟨n, hn⟩ := t
  cases n with
  | zero => exact ⟨rfl, rfl, rfl⟩
  | succ n => exact absurd h (Nat.succ_ne_zero n)
theorem step2_pos (c : Dev nD) (t : Fin cfg2.N) (h : t.val ≠ 0) : ∃ s q,
    (dat2 V c).Φ t.castSucc = acc2 c s q
      ∧ sumAt2 V c t.val t.isLt = sumOf2 (xb2_0 V c t) (xb2_1 V c t) (xb2_2 V c t) (xb2_3 V c t) (xb2_4 V c t) (xb2_5 V c t) s
      ∧ sqAt2 V c t.val t.isLt = sqOf2 (xb2_0 V c t) (xb2_1 V c t) (xb2_2 V c t) (xb2_3 V c t) (xb2_4 V c t) (xb2_5 V c t) q := by
  obtain ⟨n, hn⟩ := t
  cases n with
  | zero => exact absurd rfl h
  | succ n => exact ⟨sumAt2 V c n (Nat.lt_of_succ_lt hn), sqAt2 V c n (Nat.lt_of_succ_lt hn), rfl, rfl, rfl⟩
theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d
abbrev held2 (c : Dev nD) (t : Fin cfg2.N) (w : Fin cfg2.W) : sProp 𝕄 :=
  iprop(∃ d, owns (c : Thread nD τ) ((cfg2.win w).stage (cfg2.slots t w)) fullShare ((dat2 V c).before w t d))
abbrev left2 (c : Dev nD) (t : Fin cfg2.N) (w : Fin cfg2.W) : sProp 𝕄 :=
  owns (c : Thread nD τ) ((cfg2.win w).stage (cfg2.slots t w)) fullShare ((dat2 V c).after w t)
theorem leavesIdle2 (c : Dev nD) (t : Fin cfg2.N) (w : Fin cfg2.W) (hw : 7 ≤ w.val) (hc1 : ¬cond2_1 (grid2.coords t)) :
    (dat2 V c).leavesExact w t = held2 V c t w :=
  (dat2 V c).leavesExact_idle w t (idleAt2 t w hw hc1).1 (idleAt2 t w hw hc1).2
theorem leaves2_7 (c : Dev nD) (t : Fin cfg2.N) (hc1 : cond2_1 (grid2.coords t)) :
    (dat2 V c).leavesExact 7 t = owns (c : Thread nD τ) (st2_7 t : Memref sig .tc .vmem S1x128 .f32) fullShare (meanOf2 (sumAt2 V c t.val t.isLt)) := by
  unfold Dat.leavesExact; rw [liveAt2 t 7 (by decide) hc1, after2_7]
theorem leaves2_8 (c : Dev nD) (t : Fin cfg2.N) (hc1 : cond2_1 (grid2.coords t)) :
    (dat2 V c).leavesExact 8 t = owns (c : Thread nD τ) (st2_8 t : Memref sig .tc .vmem S1x128 .f32) fullShare (varOf2 (sumAt2 V c t.val t.isLt) (sqAt2 V c t.val t.isLt)) := by
  unfold Dat.leavesExact; rw [liveAt2 t 8 (by decide) hc1, after2_8]
def bodyPre2 (c : Dev nD) (t : Fin cfg2.N) : sProp 𝕄 :=
  iprop((dat2 V c).Φ t.castSucc ∗ (dat2 V c).owesAt () t.castSucc
    ∗ held2 V c t 0 ∗ held2 V c t 1 ∗ held2 V c t 2 ∗ held2 V c t 3 ∗ held2 V c t 4 ∗ held2 V c t 5 ∗ held2 V c t 6 ∗ held2 V c t 7 ∗ held2 V c t 8)
def bodyPost2 (c : Dev nD) (t : Fin cfg2.N) : sProp 𝕄 :=
  iprop((dat2 V c).Φ t.succ ∗ (dat2 V c).owesAt () t.succ
    ∗ left2 V c t 0 ∗ left2 V c t 1 ∗ left2 V c t 2 ∗ left2 V c t 3 ∗ left2 V c t 4 ∗ left2 V c t 5 ∗ left2 V c t 6
    ∗ (dat2 V c).leavesExact 7 t ∗ (dat2 V c).leavesExact 8 t)
set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).owesAt () t.succ = (dat2 V c).owesAt () t.castSucc from rfl,
    show (dat2 V c).Φ t.succ = acc2 c (sumAt2 V c t.val t.isLt) (sqAt2 V c t.val t.isLt) from rfl]
  have hz := hcond2_0 t
  have hl := hcond2_1 t
  by_cases hc0 : cond2_0 (grid2.coords t)
  on_goal 1 =>
    have hc1 : ¬cond2_1 (grid2.coords t) := fun h => absurd ((hz.mp hc0).symm.trans (hl.mp h)) (by decide)
    obtain ⟨ea, eb, ec⟩ := step2_zero V c t (hz.mp hc0)
    rw [leavesIdle2 V c t 7 (by decide) hc1, leavesIdle2 V c t 8 (by decide) hc1, ea, eb, ec, PhiA2_eq]
  on_goal 2 =>
    obtain ⟨s, q, ea, eb, ec⟩ := step2_pos V c t (mt hz.mpr hc0)
    by_cases hc1 : cond2_1 (grid2.coords t)
    on_goal 1 => rw [leaves2_7 V c t hc1, leaves2_8 V c t hc1]
    on_goal 2 => rw [leavesIdle2 V c t 7 (by decide) hc1, leavesIdle2 V c t 8 (by decide) hc1]
    all_goals rw [ea, eb, ec]
  all_goals
    simp only [held2, left2, before2_0, before2_1, before2_2, before2_3, before2_4, before2_5]
    unfold acc2 inv2
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run2_B (body := cc2__gin_mlp_stats_kernel) c _ _ _ _ _ _ _ _ _ _ _ _ _ _ _ _ _ _ _ _ _ _ _ rfl hc0 hc1 _ _ _ _ _ _ _ _ _ _ _ _)
  on_goal 2 => iapply (run2_C (body := cc2__gin_mlp_stats_kernel) c _ _ _ _ _ _ _ _ _ _ _ _ _ _ _ _ _ _ _ _ _ _ _ rfl hc0 hc1 _ _ _ _ _ _ _ _ _ _)
  on_goal 1 => iapply (run2_A (body := cc2__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation2 (c : Dev nD) : BodyObligation (dat2 (F := F) V c) (defs₀ (F := F)) Variants.none () Set.univ := fun t => by
  rw [bigSep_W2, bigSep_W2]
  exact sound_body2 V c t
theorem hin2 (c : Dev nD) : (Pipeline.ΦA spec2 c : sProp 𝕄) ⊢ (dat2 V c).Φ 0 := by
  rw [show (dat2 V c).Φ 0 = Pipeline.ΦA spec2 c from rfl]
  try exact Idealize.SL.BI.Entails.refl _
theorem Phi_out2 (c : Dev nD) (t : Fin (cfg2.N + 1)) (ht : t.val ≠ 0) : (dat2 V c).Φ t ⊢ (Pipeline.ΦA spec2 c : sProp 𝕄) := by
  obtain ⟨n, hn⟩ := t
  cases n with
  | zero => exact absurd rfl ht
  | succ n => exact out2 c _ _
theorem hout2 (c : Dev nD) : (dat2 V c).Φ (Fin.last cfg2.N) ⊢ (Pipeline.ΦA spec2 c : sProp 𝕄) :=
  Phi_out2 V c _ (by rw [Fin.val_last]; have : cfg2.N = 25 := N_2; omega)
end Cert.Kernel.Hand
end
-- ==== Proof.KB.Stats4.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Stats2Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
theorem idleAt4 : ∀ (t : Fin cfg4.N) (w : Fin cfg4.W), 7 ≤ w.val → ¬cond2_1 (grid4.coords t) →
    cfg4.idle w (grid4.coords t) = true ∧ (cfg4.win w).flush t = false := by decide +kernel
theorem liveAt4 : ∀ (t : Fin cfg4.N) (w : Fin cfg4.W), 7 ≤ w.val → cond2_1 (grid4.coords t) →
    cfg4.idle w (grid4.coords t) = false := by decide +kernel
abbrev scM4_0 : Memref sig .tc .vmem S1x128 .f32 := Memref.whole cc4_scratch0
abbrev scM4_1 : Memref sig .tc .vmem S1x128 .f32 := Memref.whole cc4_scratch1
def inv4 (c : Dev nD) (S : sProp 𝕄) : sProp 𝕄 :=
  iprop(iprop(S ∗ Pipeline.scopedRestBut (Ix := Unit) (Name := ℕ) (U := UR sig nD τ) (Lvl := ℕ) (Val := Elt F) spec4 c [cc4_scratch0, cc4_scratch1]) ∗ (∃ r, prngReg c r))
def acc4 (c : Dev nD) (s q : Vec F S1x128 .f32) : sProp 𝕄 :=
  inv4 c iprop(owns (c : Thread nD τ) scM4_0 fullShare s ∗ owns (c : Thread nD τ) scM4_1 fullShare q)
theorem PhiA4_eq (c : Dev nD) : (Pipeline.ΦA spec4 c : sProp 𝕄)
    = inv4 c iprop((∃ d, owns (c : Thread nD τ) scM4_0 fullShare d) ∗ (∃ d, owns (c : Thread nD τ) scM4_1 fullShare d)) := by
  unfold Pipeline.ΦA inv4; rw [scopedRest4_split]; simp only [scM4_0, scM4_1, owns_whole]; try rfl
theorem out4 (c : Dev nD) (s q : Vec F S1x128 .f32) : acc4 c s q ⊢ (Pipeline.ΦA spec4 c : sProp 𝕄) := by
  rw [PhiA4_eq]; unfold acc4 inv4
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev xb4_0 (c : Dev nD) (t : Fin cfg4.N) : Vec F S2000x128 .f32 := iblk4 V c 0 t
abbrev xb4_1 (c : Dev nD) (t : Fin cfg4.N) : Vec F S2000x128 .f32 := iblk4 V c 1 t
abbrev xb4_2 (c : Dev nD) (t : Fin cfg4.N) : Vec F S128x128 .f32 := iblk4 V c 2 t
abbrev xb4_3 (c : Dev nD) (t : Fin cfg4.N) : Vec F S1x128 .f32 := iblk4 V c 3 t
abbrev xb4_4 (c : Dev nD) (t : Fin cfg4.N) : Vec F S128x128 .f32 := iblk4 V c 4 t
abbrev xb4_5 (c : Dev nD) (t : Fin cfg4.N) : Vec F S1x128 .f32 := iblk4 V c 5 t
def sumAt4 (c : Dev nD) : (n : ℕ) → n < cfg4.N → Vec F S1x128 .f32
  | 0, hn => sumOf2 (xb4_0 V c ⟨0, hn⟩) (xb4_1 V c ⟨0, hn⟩) (xb4_2 V c ⟨0, hn⟩) (xb4_3 V c ⟨0, hn⟩) (xb4_4 V c ⟨0, hn⟩) (xb4_5 V c ⟨0, hn⟩) k2_pay5
  | n + 1, hn => sumOf2 (xb4_0 V c ⟨n + 1, hn⟩) (xb4_1 V c ⟨n + 1, hn⟩) (xb4_2 V c ⟨n + 1, hn⟩) (xb4_3 V c ⟨n + 1, hn⟩) (xb4_4 V c ⟨n + 1, hn⟩) (xb4_5 V c ⟨n + 1, hn⟩) (sumAt4 c n (Nat.lt_of_succ_lt hn))
def sqAt4 (c : Dev nD) : (n : ℕ) → n < cfg4.N → Vec F S1x128 .f32
  | 0, hn => sqOf2 (xb4_0 V c ⟨0, hn⟩) (xb4_1 V c ⟨0, hn⟩) (xb4_2 V c ⟨0, hn⟩) (xb4_3 V c ⟨0, hn⟩) (xb4_4 V c ⟨0, hn⟩) (xb4_5 V c ⟨0, hn⟩) k2_pay6
  | n + 1, hn => sqOf2 (xb4_0 V c ⟨n + 1, hn⟩) (xb4_1 V c ⟨n + 1, hn⟩) (xb4_2 V c ⟨n + 1, hn⟩) (xb4_3 V c ⟨n + 1, hn⟩) (xb4_4 V c ⟨n + 1, hn⟩) (xb4_5 V c ⟨n + 1, hn⟩) (sqAt4 c n (Nat.lt_of_succ_lt hn))
def PhiS4 (c : Dev nD) : (n : ℕ) → n ≤ cfg4.N → sProp 𝕄
  | 0, _ => Pipeline.ΦA spec4 c
  | n + 1, hn => acc4 c (sumAt4 V c n hn) (sqAt4 V c n hn)
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => h2Of2 (xb4_0 V c t) (xb4_1 V c t) (xb4_2 V c t) (xb4_3 V c t) (xb4_4 V c t) (xb4_5 V c t)
    | ⟨7, _⟩ => meanOf2 (sumAt4 V c t.val t.isLt)
    | ⟨8, _⟩ => varOf2 (sumAt4 V c t.val t.isLt) (sqAt4 V c t.val t.isLt)
  Φ t := PhiS4 V c t.val (Nat.le_of_lt_succ t.isLt)
  q _ := fullShare
  owed _ := 0
theorem A_eq4 (c : Dev nD) (w : Fin cfg4.W) : (dat4 V c).A w = V c (Pipeline.arrRef spec4 w) := by
  dsimp only [dat4]
theorem after4_6 (c : Dev nD) (t : Fin cfg4.N) : (dat4 V c).after 6 t = h2Of2 (xb4_0 V c t) (xb4_1 V c t) (xb4_2 V c t) (xb4_3 V c t) (xb4_4 V c t) (xb4_5 V c t) := by dsimp only [dat4]
theorem after4_7 (c : Dev nD) (t : Fin cfg4.N) : (dat4 V c).after 7 t = meanOf2 (sumAt4 V c t.val t.isLt) := by dsimp only [dat4]
theorem after4_8 (c : Dev nD) (t : Fin cfg4.N) : (dat4 V c).after 8 t = varOf2 (sumAt4 V c t.val t.isLt) (sqAt4 V c t.val t.isLt) := by dsimp only [dat4]
theorem step4_zero (c : Dev nD) (t : Fin cfg4.N) (h : t.val = 0) :
    (dat4 V c).Φ t.castSucc = Pipeline.ΦA spec4 c
      ∧ sumAt4 V c t.val t.isLt = sumOf2 (xb4_0 V c t) (xb4_1 V c t) (xb4_2 V c t) (xb4_3 V c t) (xb4_4 V c t) (xb4_5 V c t) k2_pay5
      ∧ sqAt4 V c t.val t.isLt = sqOf2 (xb4_0 V c t) (xb4_1 V c t) (xb4_2 V c t) (xb4_3 V c t) (xb4_4 V c t) (xb4_5 V c t) k2_pay6 := by
  obtain ⟨n, hn⟩ := t
  cases n with
  | zero => exact ⟨rfl, rfl, rfl⟩
  | succ n => exact absurd h (Nat.succ_ne_zero n)
theorem step4_pos (c : Dev nD) (t : Fin cfg4.N) (h : t.val ≠ 0) : ∃ s q,
    (dat4 V c).Φ t.castSucc = acc4 c s q
      ∧ sumAt4 V c t.val t.isLt = sumOf2 (xb4_0 V c t) (xb4_1 V c t) (xb4_2 V c t) (xb4_3 V c t) (xb4_4 V c t) (xb4_5 V c t) s
      ∧ sqAt4 V c t.val t.isLt = sqOf2 (xb4_0 V c t) (xb4_1 V c t) (xb4_2 V c t) (xb4_3 V c t) (xb4_4 V c t) (xb4_5 V c t) q := by
  obtain ⟨n, hn⟩ := t
  cases n with
  | zero => exact absurd rfl h
  | succ n => exact ⟨sumAt4 V c n (Nat.lt_of_succ_lt hn), sqAt4 V c n (Nat.lt_of_succ_lt hn), rfl, rfl, rfl⟩
theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d
theorem before4_4 (c : Dev nD) (t : Fin cfg4.N) (d) : (dat4 V c).before 4 t d = iblk4 V c 4 t :=
  (dat4 V c).before_in_eq_fetched 4 rfl (fun _ => rfl) (fun _ _ _ => rfl) (fun _ => rfl) t d
theorem before4_5 (c : Dev nD) (t : Fin cfg4.N) (d) : (dat4 V c).before 5 t d = iblk4 V c 5 t :=
  (dat4 V c).before_in_eq_fetched 5 rfl (fun _ => rfl) (fun _ _ _ => rfl) (fun _ => rfl) t d
abbrev held4 (c : Dev nD) (t : Fin cfg4.N) (w : Fin cfg4.W) : sProp 𝕄 :=
  iprop(∃ d, owns (c : Thread nD τ) ((cfg4.win w).stage (cfg4.slots t w)) fullShare ((dat4 V c).before w t d))
abbrev left4 (c : Dev nD) (t : Fin cfg4.N) (w : Fin cfg4.W) : sProp 𝕄 :=
  owns (c : Thread nD τ) ((cfg4.win w).stage (cfg4.slots t w)) fullShare ((dat4 V c).after w t)
theorem leavesIdle4 (c : Dev nD) (t : Fin cfg4.N) (w : Fin cfg4.W) (hw : 7 ≤ w.val) (hc1 : ¬cond2_1 (grid4.coords t)) :
    (dat4 V c).leavesExact w t = held4 V c t w :=
  (dat4 V c).leavesExact_idle w t (idleAt4 t w hw hc1).1 (idleAt4 t w hw hc1).2
theorem leaves4_7 (c : Dev nD) (t : Fin cfg4.N) (hc1 : cond2_1 (grid4.coords t)) :
    (dat4 V c).leavesExact 7 t = owns (c : Thread nD τ) (st4_7 t : Memref sig .tc .vmem S1x128 .f32) fullShare (meanOf2 (sumAt4 V c t.val t.isLt)) := by
  unfold Dat.leavesExact; rw [liveAt4 t 7 (by decide) hc1, after4_7]
theorem leaves4_8 (c : Dev nD) (t : Fin cfg4.N) (hc1 : cond2_1 (grid4.coords t)) :
    (dat4 V c).leavesExact 8 t = owns (c : Thread nD τ) (st4_8 t : Memref sig .tc .vmem S1x128 .f32) fullShare (varOf2 (sumAt4 V c t.val t.isLt) (sqAt4 V c t.val t.isLt)) := by
  unfold Dat.leavesExact; rw [liveAt4 t 8 (by decide) hc1, after4_8]
def bodyPre4 (c : Dev nD) (t : Fin cfg4.N) : sProp 𝕄 :=
  iprop((dat4 V c).Φ t.castSucc ∗ (dat4 V c).owesAt () t.castSucc
    ∗ held4 V c t 0 ∗ held4 V c t 1 ∗ held4 V c t 2 ∗ held4 V c t 3 ∗ held4 V c t 4 ∗ held4 V c t 5 ∗ held4 V c t 6 ∗ held4 V c t 7 ∗ held4 V c t 8)
def bodyPost4 (c : Dev nD) (t : Fin cfg4.N) : sProp 𝕄 :=
  iprop((dat4 V c).Φ t.succ ∗ (dat4 V c).owesAt () t.succ
    ∗ left4 V c t 0 ∗ left4 V c t 1 ∗ left4 V c t 2 ∗ left4 V c t 3 ∗ left4 V c t 4 ∗ left4 V c t 5 ∗ left4 V c t 6
    ∗ (dat4 V c).leavesExact 7 t ∗ (dat4 V c).leavesExact 8 t)
set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).owesAt () t.succ = (dat4 V c).owesAt () t.castSucc from rfl,
    show (dat4 V c).Φ t.succ = acc4 c (sumAt4 V c t.val t.isLt) (sqAt4 V c t.val t.isLt) from rfl]
  have hz := hcond2_0 t
  have hl := hcond2_1 t
  by_cases hc0 : cond2_0 (grid4.coords t)
  on_goal 1 =>
    have hc1 : ¬cond2_1 (grid4.coords t) := fun h => absurd ((hz.mp hc0).symm.trans (hl.mp h)) (by decide)
    obtain ⟨ea, eb, ec⟩ := step4_zero V c t (hz.mp hc0)
    rw [leavesIdle4 V c t 7 (by decide) hc1, leavesIdle4 V c t 8 (by decide) hc1, ea, eb, ec, PhiA4_eq]
  on_goal 2 =>
    obtain ⟨s, q, ea, eb, ec⟩ := step4_pos V c t (mt hz.mpr hc0)
    by_cases hc1 : cond2_1 (grid4.coords t)
    on_goal 1 => rw [leaves4_7 V c t hc1, leaves4_8 V c t hc1]
    on_goal 2 => rw [leavesIdle4 V c t 7 (by decide) hc1, leavesIdle4 V c t 8 (by decide) hc1]
    all_goals rw [ea, eb, ec]
  all_goals
    simp only [held4, left4, before4_0, before4_1, before4_2, before4_3, before4_4, before4_5]
    unfold acc4 inv4
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run2_B (body := cc4__gin_mlp_stats_kernel) c _ _ _ _ _ _ _ _ _ _ _ _ _ _ _ _ _ _ _ _ _ _ _ rfl hc0 hc1 _ _ _ _ _ _ _ _ _ _ _ _)
  on_goal 2 => iapply (run2_C (body := cc4__gin_mlp_stats_kernel) c _ _ _ _ _ _ _ _ _ _ _ _ _ _ _ _ _ _ _ _ _ _ _ rfl hc0 hc1 _ _ _ _ _ _ _ _ _ _)
  on_goal 1 => iapply (run2_A (body := cc4__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation4 (c : Dev nD) : BodyObligation (dat4 (F := F) V c) (defs₀ (F := F)) Variants.none () Set.univ := fun t => by
  rw [bigSep_W4, bigSep_W4]
  exact sound_body4 V c t
theorem hin4 (c : Dev nD) : (Pipeline.ΦA spec4 c : sProp 𝕄) ⊢ (dat4 V c).Φ 0 := by
  rw [show (dat4 V c).Φ 0 = Pipeline.ΦA spec4 c from rfl]
  try exact Idealize.SL.BI.Entails.refl _
theorem Phi_out4 (c : Dev nD) (t : Fin (cfg4.N + 1)) (ht : t.val ≠ 0) : (dat4 V c).Φ t ⊢ (Pipeline.ΦA spec4 c : sProp 𝕄) := by
  obtain ⟨n, hn⟩ := t
  cases n with
  | zero => exact absurd rfl ht
  | succ n => exact out4 c _ _
theorem hout4 (c : Dev nD) : (dat4 V c).Φ (Fin.last cfg4.N) ⊢ (Pipeline.ΦA spec4 c : sProp 𝕄) :=
  Phi_out4 V c _ (by rw [Fin.val_last]; have : cfg4.N = 25 := N_4; omega)
end Cert.Kernel.Hand
end
-- ==== Proof.KB.Stats6.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Stats2Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
theorem idleAt6 : ∀ (t : Fin cfg6.N) (w : Fin cfg6.W), 7 ≤ w.val → ¬cond2_1 (grid6.coords t) →
    cfg6.idle w (grid6.coords t) = true ∧ (cfg6.win w).flush t = false := by decide +kernel
theorem liveAt6 : ∀ (t : Fin cfg6.N) (w : Fin cfg6.W), 7 ≤ w.val → cond2_1 (grid6.coords t) →
    cfg6.idle w (grid6.coords t) = false := by decide +kernel
abbrev scM6_0 : Memref sig .tc .vmem S1x128 .f32 := Memref.whole cc6_scratch0
abbrev scM6_1 : Memref sig .tc .vmem S1x128 .f32 := Memref.whole cc6_scratch1
def inv6 (c : Dev nD) (S : sProp 𝕄) : sProp 𝕄 :=
  iprop(iprop(S ∗ Pipeline.scopedRestBut (Ix := Unit) (Name := ℕ) (U := UR sig nD τ) (Lvl := ℕ) (Val := Elt F) spec6 c [cc6_scratch0, cc6_scratch1]) ∗ (∃ r, prngReg c r))
def acc6 (c : Dev nD) (s q : Vec F S1x128 .f32) : sProp 𝕄 :=
  inv6 c iprop(owns (c : Thread nD τ) scM6_0 fullShare s ∗ owns (c : Thread nD τ) scM6_1 fullShare q)
theorem PhiA6_eq (c : Dev nD) : (Pipeline.ΦA spec6 c : sProp 𝕄)
    = inv6 c iprop((∃ d, owns (c : Thread nD τ) scM6_0 fullShare d) ∗ (∃ d, owns (c : Thread nD τ) scM6_1 fullShare d)) := by
  unfold Pipeline.ΦA inv6; rw [scopedRest6_split]; simp only [scM6_0, scM6_1, owns_whole]; try rfl
theorem out6 (c : Dev nD) (s q : Vec F S1x128 .f32) : acc6 c s q ⊢ (Pipeline.ΦA spec6 c : sProp 𝕄) := by
  rw [PhiA6_eq]; unfold acc6 inv6
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg
variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
abbrev xb6_0 (c : Dev nD) (t : Fin cfg6.N) : Vec F S2000x128 .f32 := iblk6 V c 0 t
abbrev xb6_1 (c : Dev nD) (t : Fin cfg6.N) : Vec F S2000x128 .f32 := iblk6 V c 1 t
abbrev xb6_2 (c : Dev nD) (t : Fin cfg6.N) : Vec F S128x128 .f32 := iblk6 V c 2 t
abbrev xb6_3 (c : Dev nD) (t : Fin cfg6.N) : Vec F S1x128 .f32 := iblk6 V c 3 t
abbrev xb6_4 (c : Dev nD) (t : Fin cfg6.N) : Vec F S128x128 .f32 := iblk6 V c 4 t
abbrev xb6_5 (c : Dev nD) (t : Fin cfg6.N) : Vec F S1x128 .f32 := iblk6 V c 5 t
def sumAt6 (c : Dev nD) : (n : ℕ) → n < cfg6.N → Vec F S1x128 .f32
  | 0, hn => sumOf2 (xb6_0 V c ⟨0, hn⟩) (xb6_1 V c ⟨0, hn⟩) (xb6_2 V c ⟨0, hn⟩) (xb6_3 V c ⟨0, hn⟩) (xb6_4 V c ⟨0, hn⟩) (xb6_5 V c ⟨0, hn⟩) k2_pay5
  | n + 1, hn => sumOf2 (xb6_0 V c ⟨n + 1, hn⟩) (xb6_1 V c ⟨n + 1, hn⟩) (xb6_2 V c ⟨n + 1, hn⟩) (xb6_3 V c ⟨n + 1, hn⟩) (xb6_4 V c ⟨n + 1, hn⟩) (xb6_5 V c ⟨n + 1, hn⟩) (sumAt6 c n (Nat.lt_of_succ_lt hn))
def sqAt6 (c : Dev nD) : (n : ℕ) → n < cfg6.N → Vec F S1x128 .f32
  | 0, hn => sqOf2 (xb6_0 V c ⟨0, hn⟩) (xb6_1 V c ⟨0, hn⟩) (xb6_2 V c ⟨0, hn⟩) (xb6_3 V c ⟨0, hn⟩) (xb6_4 V c ⟨0, hn⟩) (xb6_5 V c ⟨0, hn⟩) k2_pay6
  | n + 1, hn => sqOf2 (xb6_0 V c ⟨n + 1, hn⟩) (xb6_1 V c ⟨n + 1, hn⟩) (xb6_2 V c ⟨n + 1, hn⟩) (xb6_3 V c ⟨n + 1, hn⟩) (xb6_4 V c ⟨n + 1, hn⟩) (xb6_5 V c ⟨n + 1, hn⟩) (sqAt6 c n (Nat.lt_of_succ_lt hn))
def PhiS6 (c : Dev nD) : (n : ℕ) → n ≤ cfg6.N → sProp 𝕄
  | 0, _ => Pipeline.ΦA spec6 c
  | n + 1, hn => acc6 c (sumAt6 V c n hn) (sqAt6 V c n hn)
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => h2Of2 (xb6_0 V c t) (xb6_1 V c t) (xb6_2 V c t) (xb6_3 V c t) (xb6_4 V c t) (xb6_5 V c t)
    | ⟨7, _⟩ => meanOf2 (sumAt6 V c t.val t.isLt)
    | ⟨8, _⟩ => varOf2 (sumAt6 V c t.val t.isLt) (sqAt6 V c t.val t.isLt)
  Φ t := PhiS6 V c t.val (Nat.le_of_lt_succ t.isLt)
  q _ := fullShare
  owed _ := 0
theorem A_eq6 (c : Dev nD) (w : Fin cfg6.W) : (dat6 V c).A w = V c (Pipeline.arrRef spec6 w) := by
  dsimp only [dat6]
theorem after6_6 (c : Dev nD) (t : Fin cfg6.N) : (dat6 V c).after 6 t = h2Of2 (xb6_0 V c t) (xb6_1 V c t) (xb6_2 V c t) (xb6_3 V c t) (xb6_4 V c t) (xb6_5 V c t) := by dsimp only [dat6]
theorem after6_7 (c : Dev nD) (t : Fin cfg6.N) : (dat6 V c).after 7 t = meanOf2 (sumAt6 V c t.val t.isLt) := by dsimp only [dat6]
theorem after6_8 (c : Dev nD) (t : Fin cfg6.N) : (dat6 V c).after 8 t = varOf2 (sumAt6 V c t.val t.isLt) (sqAt6 V c t.val t.isLt) := by dsimp only [dat6]
theorem step6_zero (c : Dev nD) (t : Fin cfg6.N) (h : t.val = 0) :
    (dat6 V c).Φ t.castSucc = Pipeline.ΦA spec6 c
      ∧ sumAt6 V c t.val t.isLt = sumOf2 (xb6_0 V c t) (xb6_1 V c t) (xb6_2 V c t) (xb6_3 V c t) (xb6_4 V c t) (xb6_5 V c t) k2_pay5
      ∧ sqAt6 V c t.val t.isLt = sqOf2 (xb6_0 V c t) (xb6_1 V c t) (xb6_2 V c t) (xb6_3 V c t) (xb6_4 V c t) (xb6_5 V c t) k2_pay6 := by
  obtain ⟨n, hn⟩ := t
  cases n with
  | zero => exact ⟨rfl, rfl, rfl⟩
  | succ n => exact absurd h (Nat.succ_ne_zero n)
theorem step6_pos (c : Dev nD) (t : Fin cfg6.N) (h : t.val ≠ 0) : ∃ s q,
    (dat6 V c).Φ t.castSucc = acc6 c s q
      ∧ sumAt6 V c t.val t.isLt = sumOf2 (xb6_0 V c t) (xb6_1 V c t) (xb6_2 V c t) (xb6_3 V c t) (xb6_4 V c t) (xb6_5 V c t) s
      ∧ sqAt6 V c t.val t.isLt = sqOf2 (xb6_0 V c t) (xb6_1 V c t) (xb6_2 V c t) (xb6_3 V c t) (xb6_4 V c t) (xb6_5 V c t) q := by
  obtain ⟨n, hn⟩ := t
  cases n with
  | zero => exact absurd rfl h
  | succ n => exact ⟨sumAt6 V c n (Nat.lt_of_succ_lt hn), sqAt6 V c n (Nat.lt_of_succ_lt hn), rfl, rfl, rfl⟩
theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d
theorem before6_4 (c : Dev nD) (t : Fin cfg6.N) (d) : (dat6 V c).before 4 t d = iblk6 V c 4 t :=
  (dat6 V c).before_in_eq_fetched 4 rfl (fun _ => rfl) (fun _ _ _ => rfl) (fun _ => rfl) t d
theorem before6_5 (c : Dev nD) (t : Fin cfg6.N) (d) : (dat6 V c).before 5 t d = iblk6 V c 5 t :=
  (dat6 V c).before_in_eq_fetched 5 rfl (fun _ => rfl) (fun _ _ _ => rfl) (fun _ => rfl) t d
abbrev held6 (c : Dev nD) (t : Fin cfg6.N) (w : Fin cfg6.W) : sProp 𝕄 :=
  iprop(∃ d, owns (c : Thread nD τ) ((cfg6.win w).stage (cfg6.slots t w)) fullShare ((dat6 V c).before w t d))
abbrev left6 (c : Dev nD) (t : Fin cfg6.N) (w : Fin cfg6.W) : sProp 𝕄 :=
  owns (c : Thread nD τ) ((cfg6.win w).stage (cfg6.slots t w)) fullShare ((dat6 V c).after w t)
theorem leavesIdle6 (c : Dev nD) (t : Fin cfg6.N) (w : Fin cfg6.W) (hw : 7 ≤ w.val) (hc1 : ¬cond2_1 (grid6.coords t)) :
    (dat6 V c).leavesExact w t = held6 V c t w :=
  (dat6 V c).leavesExact_idle w t (idleAt6 t w hw hc1).1 (idleAt6 t w hw hc1).2
theorem leaves6_7 (c : Dev nD) (t : Fin cfg6.N) (hc1 : cond2_1 (grid6.coords t)) :
    (dat6 V c).leavesExact 7 t = owns (c : Thread nD τ) (st6_7 t : Memref sig .tc .vmem S1x128 .f32) fullShare (meanOf2 (sumAt6 V c t.val t.isLt)) := by
  unfold Dat.leavesExact; rw [liveAt6 t 7 (by decide) hc1, after6_7]
theorem leaves6_8 (c : Dev nD) (t : Fin cfg6.N) (hc1 : cond2_1 (grid6.coords t)) :
    (dat6 V c).leavesExact 8 t = owns (c : Thread nD τ) (st6_8 t : Memref sig .tc .vmem S1x128 .f32) fullShare (varOf2 (sumAt6 V c t.val t.isLt) (sqAt6 V c t.val t.isLt)) := by
  unfold Dat.leavesExact; rw [liveAt6 t 8 (by decide) hc1, after6_8]
def bodyPre6 (c : Dev nD) (t : Fin cfg6.N) : sProp 𝕄 :=
  iprop((dat6 V c).Φ t.castSucc ∗ (dat6 V c).owesAt () t.castSucc
    ∗ held6 V c t 0 ∗ held6 V c t 1 ∗ held6 V c t 2 ∗ held6 V c t 3 ∗ held6 V c t 4 ∗ held6 V c t 5 ∗ held6 V c t 6 ∗ held6 V c t 7 ∗ held6 V c t 8)
def bodyPost6 (c : Dev nD) (t : Fin cfg6.N) : sProp 𝕄 :=
  iprop((dat6 V c).Φ t.succ ∗ (dat6 V c).owesAt () t.succ
    ∗ left6 V c t 0 ∗ left6 V c t 1 ∗ left6 V c t 2 ∗ left6 V c t 3 ∗ left6 V c t 4 ∗ left6 V c t 5 ∗ left6 V c t 6
    ∗ (dat6 V c).leavesExact 7 t ∗ (dat6 V c).leavesExact 8 t)
set_option maxHeartbeats 4800000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [show (dat6 V c).owesAt () t.succ = (dat6 V c).owesAt () t.castSucc from rfl,
    show (dat6 V c).Φ t.succ = acc6 c (sumAt6 V c t.val t.isLt) (sqAt6 V c t.val t.isLt) from rfl]
  have hz := hcond2_0 t
  have hl := hcond2_1 t
  by_cases hc0 : cond2_0 (grid6.coords t)
  on_goal 1 =>
    have hc1 : ¬cond2_1 (grid6.coords t) := fun h => absurd ((hz.mp hc0).symm.trans (hl.mp h)) (by decide)
    obtain ⟨ea, eb, ec⟩ := step6_zero V c t (hz.mp hc0)
    rw [leavesIdle6 V c t 7 (by decide) hc1, leavesIdle6 V c t 8 (by decide) hc1, ea, eb, ec, PhiA6_eq]
  on_goal 2 =>
    obtain ⟨s, q, ea, eb, ec⟩ := step6_pos V c t (mt hz.mpr hc0)
    by_cases hc1 : cond2_1 (grid6.coords t)
    on_goal 1 => rw [leaves6_7 V c t hc1, leaves6_8 V c t hc1]
    on_goal 2 => rw [leavesIdle6 V c t 7 (by decide) hc1, leavesIdle6 V c t 8 (by decide) hc1]
    all_goals rw [ea, eb, ec]
  all_goals
    simp only [held6, left6, before6_0, before6_1, before6_2, before6_3, before6_4, before6_5]
    unfold acc6 inv6
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  on_goal 3 => iapply (run2_B (body := cc6__gin_mlp_stats_kernel) c _ _ _ _ _ _ _ _ _ _ _ _ _ _ _ _ _ _ _ _ _ _ _ rfl hc0 hc1 _ _ _ _ _ _ _ _ _ _ _ _)
  on_goal 2 => iapply (run2_C (body := cc6__gin_mlp_stats_kernel) c _ _ _ _ _ _ _ _ _ _ _ _ _ _ _ _ _ _ _ _ _ _ _ rfl hc0 hc1 _ _ _ _ _ _ _ _ _ _)
  on_goal 1 => iapply (run2_A (body := cc6__gin_mlp_stats_kernel) c _ _ _ _ _ _ _ _ _ _ _ _ _ _ _ _ _ _ _ _ _ _ _ rfl hc0 hc1 _ _ _ _ _ _ _ _ _ _)
  any_goals
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · first | iexact H7 | (iexists _; iexact H7)
    isplitl [H8]; · first | iexact H8 | (iexists _; iexact H8)
    isplitl [HS0]; · iexact HS0
    isplitl [HS1]; · iexact HS1
    iintro ⟨H0, H1, H2, H3, H4, H5, H6, H7, H8, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · first | iexact H7 | (iexists _; iexact H7)
    first | iexact H8 | (iexists _; iexact H8)
theorem body_obligation6 (c : Dev nD) : BodyObligation (dat6 (F := F) V c) (defs₀ (F := F)) Variants.none () Set.univ := fun t => by
  rw [bigSep_W6, bigSep_W6]
  exact sound_body6 V c t
theorem hin6 (c : Dev nD) : (Pipeline.ΦA spec6 c : sProp 𝕄) ⊢ (dat6 V c).Φ 0 := by
  rw [show (dat6 V c).Φ 0 = Pipeline.ΦA spec6 c from rfl]
  try exact Idealize.SL.BI.Entails.refl _
theorem Phi_out6 (c : Dev nD) (t : Fin (cfg6.N + 1)) (ht : t.val ≠ 0) : (dat6 V c).Φ t ⊢ (Pipeline.ΦA spec6 c : sProp 𝕄) := by
  obtain ⟨n, hn⟩ := t
  cases n with
  | zero => exact absurd rfl ht
  | succ n => exact out6 c _ _
theorem hout6 (c : Dev nD) : (dat6 V c).Φ (Fin.last cfg6.N) ⊢ (Pipeline.ΦA spec6 c : sProp 𝕄) :=
  Phi_out6 V c _ (by rw [Fin.val_last]; have : cfg6.N = 25 := N_6; omega)
end Cert.Kernel.Hand
end
-- ==== Proof.KB.Bn1.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
abbrev r1_big : Rect S2000x128 := Rect.unit (s := S2000x128) ![0, 0] S2000x128.size inb_S2000x128_S2000x128_0_0
abbrev r1_row : Rect S1x128 := Rect.unit (s := S1x128) ![0, 0] S1x128.size inb_S1x128_S1x128_0_0
def out1_5 (x0 : Vec F S2000x128 .f32) (x1 x2 x3 x4 : Vec F S1x128 .f32) : Vec F S2000x128 .f32 :=
  View.canon [⟨r1_big, k1_pay1 (View.ld x2 r1_row) (View.ld x0 r1_big) (View.ld x1 r1_row) (View.ld x3 r1_row) (View.ld x4 r1_row)⟩]
set_option maxHeartbeats 1000000 in
theorem sound_kernel1 {body} (hb : body = cc1__bn_kernel (F := F)) (c : Dev nD) (E : Set ℕ) {i : grid1.Coords} {arg1 arg6 : Memref sig .tc .vmem S2000x128 .f32} {arg2 arg3 arg4 arg5 : Memref sig .tc .vmem S1x128 .f32}
    {harg1 : arg1.IsWhole} {harg2 : arg2.IsWhole} {harg3 : arg3.IsWhole} {harg4 : arg4.IsWhole} {harg5 : arg5.IsWhole} {harg6 : arg6.IsWhole}
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (body i arg1 harg1 arg2 harg2 arg3 harg3 arg4 harg4 arg5 harg5 arg6 harg6) K := by
  subst hb
  simp only [cc1__bn_kernel_eq_skeleton]; unfold cc1__bn_kernel_skel owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]; swap
  isplitl [H1]; swap
  isplitl [H2]; swap
  isplitl [H3]; swap
  isplitl [H4]; swap
  · iexists _; isplitr
    swap; · iexact H5
    ipureintro
    exact View.read_writes_eq_canon _ _ _ (View.cover_of_tiled _ S2000x128.size (by rfl))
  all_goals
    iexists _; isplitr; · ipureintro; rfl
    iassumption
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0
theorem A_eq1 (c : Dev nD) (w : Fin cfg1.W) : (dat1 V c).A w = V c (Pipeline.arrRef spec1 w) := rfl
theorem after1 (c : Dev nD) (t : Fin cfg1.N) : (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t := by
  refine ⟨?_, ?_, ?_, ?_, ?_⟩ <;> dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) := by
  refine ⟨?_, ?_, ?_, ?_, ?_⟩ <;>
    exact fun d => Eq.trans ((dat1 V c).before_in_eq_fetched _ rfl (fun _ => rfl) (fun _ _ _ => rfl) (fun _ => by dsimp only [dat1]; rfl) t d) rfl
theorem body_obligation1 (c : Dev nD) : BodyObligation (dat1 (F := F) V c) (defs₀ (F := F)) Variants.none () Set.univ := fun t => by
  obtain ⟨e0, e1, e2, e3, e4⟩ := before1 V c t
  obtain ⟨g0, g1, g2, g3, g4⟩ := after1 V c t
  rw [bigSep_W1, bigSep_W1, show (dat1 V c).Φ t.succ = (dat1 V c).Φ t.castSucc from rfl, show (dat1 V c).owesAt () t.succ = (dat1 V c).owesAt () t.castSucc from rfl]
  simp only [e0, e1, e2, e3, e4, g0, g1, g2, g3, g4, after1_5]
  show _ ⊢ wp _ _ _ (bodyAt1 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc1__bn_kernel) rfl c Set.univ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.Kernel.Hand
-- ==== Proof.KB.Bn3.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Bn1
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out1_5 (iblk3 V c 0 t) (iblk3 V c 1 t) (iblk3 V c 2 t) (iblk3 V c 3 t) (iblk3 V c 4 t)
  Φ _ := Pipeline.ΦA spec3 c
  q _ := fullShare
  owed _ := 0
theorem A_eq3 (c : Dev nD) (w : Fin cfg3.W) : (dat3 V c).A w = V c (Pipeline.arrRef spec3 w) := rfl
theorem after3 (c : Dev nD) (t : Fin cfg3.N) : (dat3 V c).after 0 t = iblk3 V c 0 t ∧ (dat3 V c).after 1 t = iblk3 V c 1 t ∧ (dat3 V c).after 2 t = iblk3 V c 2 t
    ∧ (dat3 V c).after 3 t = iblk3 V c 3 t ∧ (dat3 V c).after 4 t = iblk3 V c 4 t := by
  refine ⟨?_, ?_, ?_, ?_, ?_⟩ <;> dsimp only [dat3]
theorem after3_5 (c : Dev nD) (t : Fin cfg3.N) : (dat3 V c).after 5 t = out1_5 (iblk3 V c 0 t) (iblk3 V c 1 t) (iblk3 V c 2 t) (iblk3 V c 3 t) (iblk3 V c 4 t) := by dsimp only [dat3]
theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ (∀ d, (dat3 V c).before 4 t d = iblk3 V c 4 t) := by
  refine ⟨?_, ?_, ?_, ?_, ?_⟩ <;>
    exact fun d => Eq.trans ((dat3 V c).before_in_eq_fetched _ rfl (fun _ => rfl) (fun _ _ _ => rfl) (fun _ => by dsimp only [dat3]; rfl) t d) rfl
theorem body_obligation3 (c : Dev nD) : BodyObligation (dat3 (F := F) V c) (defs₀ (F := F)) Variants.none () Set.univ := fun t => by
  obtain ⟨e0, e1, e2, e3, e4⟩ := before3 V c t
  obtain ⟨g0, g1, g2, g3, g4⟩ := after3 V c t
  rw [bigSep_W3, bigSep_W3, show (dat3 V c).Φ t.succ = (dat3 V c).Φ t.castSucc from rfl, show (dat3 V c).owesAt () t.succ = (dat3 V c).owesAt () t.castSucc from rfl]
  simp only [e0, e1, e2, e3, e4, g0, g1, g2, g3, g4, after3_5]
  show _ ⊢ wp _ _ _ (bodyAt3 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc3__bn_kernel) rfl c Set.univ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.Kernel.Hand
-- ==== Proof.KB.Bn5.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Bn1
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out1_5 (iblk5 V c 0 t) (iblk5 V c 1 t) (iblk5 V c 2 t) (iblk5 V c 3 t) (iblk5 V c 4 t)
  Φ _ := Pipeline.ΦA spec5 c
  q _ := fullShare
  owed _ := 0
theorem A_eq5 (c : Dev nD) (w : Fin cfg5.W) : (dat5 V c).A w = V c (Pipeline.arrRef spec5 w) := rfl
theorem after5 (c : Dev nD) (t : Fin cfg5.N) : (dat5 V c).after 0 t = iblk5 V c 0 t ∧ (dat5 V c).after 1 t = iblk5 V c 1 t ∧ (dat5 V c).after 2 t = iblk5 V c 2 t
    ∧ (dat5 V c).after 3 t = iblk5 V c 3 t ∧ (dat5 V c).after 4 t = iblk5 V c 4 t := by
  refine ⟨?_, ?_, ?_, ?_, ?_⟩ <;> dsimp only [dat5]
theorem after5_5 (c : Dev nD) (t : Fin cfg5.N) : (dat5 V c).after 5 t = out1_5 (iblk5 V c 0 t) (iblk5 V c 1 t) (iblk5 V c 2 t) (iblk5 V c 3 t) (iblk5 V c 4 t) := by dsimp only [dat5]
theorem before5 (c : Dev nD) (t : Fin cfg5.N) :
    (∀ d, (dat5 V c).before 0 t d = iblk5 V c 0 t) ∧ (∀ d, (dat5 V c).before 1 t d = iblk5 V c 1 t) ∧ (∀ d, (dat5 V c).before 2 t d = iblk5 V c 2 t)
      ∧ (∀ d, (dat5 V c).before 3 t d = iblk5 V c 3 t) ∧ (∀ d, (dat5 V c).before 4 t d = iblk5 V c 4 t) := by
  refine ⟨?_, ?_, ?_, ?_, ?_⟩ <;>
    exact fun d => Eq.trans ((dat5 V c).before_in_eq_fetched _ rfl (fun _ => rfl) (fun _ _ _ => rfl) (fun _ => by dsimp only [dat5]; rfl) t d) rfl
theorem body_obligation5 (c : Dev nD) : BodyObligation (dat5 (F := F) V c) (defs₀ (F := F)) Variants.none () Set.univ := fun t => by
  obtain ⟨e0, e1, e2, e3, e4⟩ := before5 V c t
  obtain ⟨g0, g1, g2, g3, g4⟩ := after5 V c t
  rw [bigSep_W5, bigSep_W5, show (dat5 V c).Φ t.succ = (dat5 V c).Φ t.castSucc from rfl, show (dat5 V c).owesAt () t.succ = (dat5 V c).owesAt () t.castSucc from rfl]
  simp only [e0, e1, e2, e3, e4, g0, g1, g2, g3, g4, after5_5]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc5__bn_kernel) rfl c Set.univ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.Kernel.Hand
-- ==== Proof.KB.Bn7.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«166660_j61229053772418_1_alg».proof.Proof.KB.Bn1
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out1_5 (iblk7 V c 0 t) (iblk7 V c 1 t) (iblk7 V c 2 t) (iblk7 V c 3 t) (iblk7 V c 4 t)
  Φ _ := Pipeline.ΦA spec7 c
  q _ := fullShare
  owed _ := 0
theorem A_eq7 (c : Dev nD) (w : Fin cfg7.W) : (dat7 V c).A w = V c (Pipeline.arrRef spec7 w) := rfl
theorem after7 (c : Dev nD) (t : Fin cfg7.N) : (dat7 V c).after 0 t = iblk7 V c 0 t ∧ (dat7 V c).after 1 t = iblk7 V c 1 t ∧ (dat7 V c).after 2 t = iblk7 V c 2 t
    ∧ (dat7 V c).after 3 t = iblk7 V c 3 t ∧ (dat7 V c).after 4 t = iblk7 V c 4 t := by
  refine ⟨?_, ?_, ?_, ?_, ?_⟩ <;> dsimp only [dat7]
theorem after7_5 (c : Dev nD) (t : Fin cfg7.N) : (dat7 V c).after 5 t = out1_5 (iblk7 V c 0 t) (iblk7 V c 1 t) (iblk7 V c 2 t) (iblk7 V c 3 t) (iblk7 V c 4 t) := by dsimp only [dat7]
theorem before7 (c : Dev nD) (t : Fin cfg7.N) :
    (∀ d, (dat7 V c).before 0 t d = iblk7 V c 0 t) ∧ (∀ d, (dat7 V c).before 1 t d = iblk7 V c 1 t) ∧ (∀ d, (dat7 V c).before 2 t d = iblk7 V c 2 t)
      ∧ (∀ d, (dat7 V c).before 3 t d = iblk7 V c 3 t) ∧ (∀ d, (dat7 V c).before 4 t d = iblk7 V c 4 t) := by
  refine ⟨?_, ?_, ?_, ?_, ?_⟩ <;>
    exact fun d => Eq.trans ((dat7 V c).before_in_eq_fetched _ rfl (fun _ => rfl) (fun _ _ _ => rfl) (fun _ => by dsimp only [dat7]; rfl) t d) rfl
theorem body_obligation7 (c : Dev nD) : BodyObligation (dat7 (F := F) V c) (defs₀ (F := F)) Variants.none () Set.univ := fun t => by
  obtain ⟨e0, e1, e2, e3, e4⟩ := before7 V c t
  obtain ⟨g0, g1, g2, g3, g4⟩ := after7 V c t
  rw [bigSep_W7, bigSep_W7, show (dat7 V c).Φ t.succ = (dat7 V c).Φ t.castSucc from rfl, show (dat7 V c).owesAt () t.succ = (dat7 V c).owesAt () t.castSucc from rfl]
  simp only [e0, e1, e2, e3, e4, g0, g1, g2, g3, g4, after7_5]
  show _ ⊢ wp _ _ _ (bodyAt7 t) _
  iintro ⟨HΦ, Ho, ⟨%d0, H0⟩, ⟨%d1, H1⟩, ⟨%d2, H2⟩, ⟨%d3, H3⟩, ⟨%d4, H4⟩, ⟨%d5, H5⟩⟩
  iapply (sound_kernel1 (body := cc7__bn_kernel) rfl c Set.univ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H
end Cert.Kernel.Hand
-- ==== Proof.KB.Head8.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))
abbrev r8_a : Rect S2000x128 := Rect.unit (s := S2000x128) ![0, 0] S2000x128.size inb_S2000x128_S2000x128_0_0
abbrev r8_b : Rect S128x128 := Rect.unit (s := S128x128) ![0, 0] S128x128.size inb_S128x128_S128x128_0_0
abbrev r8_c : Rect S1x128 := Rect.unit (s := S1x128) ![0, 0] S1x128.size inb_S1x128_S1x128_0_0
abbrev r8_d : Rect S128x8 := Rect.unit (s := S128x8) ![0, 0] S128x8.size inb_S128x8_S128x8_0_0
abbrev r8_e : Rect S1x8 := Rect.unit (s := S1x8) ![0, 0] S1x8.size inb_S1x8_S1x8_0_0
abbrev r8_o : Rect S2000x8 := Rect.unit (s := S2000x8) ![0, 0] S2000x8.size inb_S2000x8_S2000x8_0_0
def pre8 (x0 x1 x2 x3 : Vec F S2000x128 .f32) (x4 x5 x6 x7 : Vec F S128x128 .f32) (x8 : Vec F S1x128 .f32) : FVec F S2000x128 .f32 :=
  k8_pay2 (View.ld x0 r8_a) (View.ld x4 r8_b) (View.ld x1 r8_a) (View.ld x5 r8_b) (View.ld x2 r8_a) (View.ld x6 r8_b)
    (View.ld x3 r8_a) (View.ld x7 r8_b) (View.ld x8 r8_c)
def out8_11 (x0 x1 x2 x3 : Vec F S2000x128 .f32) (x4 x5 x6 x7 : Vec F S128x128 .f32) (x8 : Vec F S1x128 .f32) (x9 : Vec F S128x8 .f32) (x10 : Vec F S1x8 .f32) : Vec F S2000x8 .f32 :=
  View.canon [⟨r8_o, k8_pay1 (pre8 x0 x1 x2 x3 x4 x5 x6 x7 x8) (k8_pay3 (F := F)) (View.ld x9 r8_d) (View.ld x10 r8_e)⟩]
set_option maxHeartbeats 4000000 in
theorem sound_kernel8 (c : Dev nD) (E : Set ℕ) {i : grid8.Coords} {arg1 arg2 arg3 arg4 : Memref sig .tc .vmem S2000x128 .f32} {arg5 arg6 arg7 arg8 : Memref sig .tc .vmem S128x128 .f32}
    {arg9 : Memref sig .tc .vmem S1x128 .f32} {arg10 : Memref sig .tc .vmem S128x8 .f32} {arg11 : Memref sig .tc .vmem S1x8 .f32} {arg12 : Memref sig .tc .vmem S2000x8 .f32}
    {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole}
    {harg9 : arg9.IsWhole} {harg10 : arg10.IsWhole} {harg11 : arg11.IsWhole} {harg12 : arg12.IsWhole}
    (x0 x1 x2 x3 : Vec F S2000x128 .f32) (x4 x5 x6 x7 : Vec F S128x128 .f32) (x8 : Vec F S1x128 .f32) (x9 : Vec F S128x8 .f32) (x10 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out8_11 x0 x1 x2 x3 x4 x5 x6 x7 x8 x9 x10)) -∗ K ⟨⟩))
      ⊢ wp frame (wpE (defs₀ (F := F)) Variants.none c none) E (cc8__jk_head_kernel i arg1 harg1 arg2 harg2 arg3 harg3 arg4 harg4 arg5 harg5 arg6 harg6 arg7 harg7 arg8 harg8 arg9 harg9 arg10 harg10 arg11 harg11 arg12 harg12) K := by
  simp only [cc8__jk_head_kernel_eq_skeleton]; unfold cc8__jk_head_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (View.cover_of_tiled _ S2000x8.size (by rfl))
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => out8_11 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
  Φ _ := Pipeline.ΦA spec8 c
  q _ := fullShare
  owed _ := 0
theorem A_eq8 (c : Dev nD) (w : Fin cfg8.W) : (dat8 V c).A w = V c (Pipeline.arrRef spec8 w) := by
  dsimp only [dat8]
theorem before8 (c : Dev nD) : ∀ w : Fin cfg8.W, (cfg8.win w).isOut = false → ∀ t d, (dat8 V c).before w t d = (dat8 V c).fetched w t d
  | ⟨0, _⟩ | ⟨1, _⟩ | ⟨2, _⟩ | ⟨3, _⟩ | ⟨4, _⟩ | ⟨5, _⟩ | ⟨6, _⟩ | ⟨7, _⟩ | ⟨8, _⟩ | ⟨9, _⟩ | ⟨10, _⟩ => fun hw =>
    (dat8 V c).before_in_eq_fetched _ hw (fun _ => rfl) (fun _ _ _ => rfl) fun t => by unfold Dat.blockOf; dsimp only [dat8, iblk8] <;> rfl
  | ⟨11, _⟩ => fun hw => absurd hw.symm Bool.false_ne_true
theorem sound_body8 (c : Dev nD) (t : Fin cfg8.N) :
    iprop((dat8 V c).Φ t.castSucc ∗ (dat8 V c).owesAt () t.castSucc
        ∗ bigSep Finset.univ fun w : Fin cfg8.W => iprop(∃ d, owns (c : Thread nD τ) ((cfg8.win w).stage (cfg8.slots t w)) fullShare ((dat8 V c).before w t d)))
      ⊢ wp frame (wpE (defs₀ (F := F)) Variants.none c none) Set.univ (bodyAt8 t) fun _ =>
        iprop((dat8 V c).Φ t.succ ∗ (dat8 V c).owesAt () t.succ
          ∗ bigSep Finset.univ fun w : Fin cfg8.W => owns (c : Thread nD τ) ((cfg8.win w).stage (cfg8.slots t w)) fullShare ((dat8 V c).after w t)) := by
  rw [bigSep_W8, bigSep_W8]
  simp only [before8 V c 0 rfl, before8 V c 1 rfl, before8 V c 2 rfl, before8 V c 3 rfl, before8 V c 4 rfl, before8 V c 5 rfl, before8 V c 6 rfl, before8 V c 7 rfl, before8 V c 8 rfl, before8 V c 9 rfl, before8 V c 10 rfl]
  rw [show (dat8 V c).owesAt () t.succ = (dat8 V c).owesAt () t.castSucc from rfl]
  generalize (dat8 V c).owesAt () t.castSucc = O
  unfold Dat.fetched Dat.blockOf
  dsimp only [dat8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel8 c Set.univ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  iframe
theorem body_obligation8 (c : Dev nD) : BodyObligation (dat8 (F := F) V c) (defs₀ (F := F)) Variants.none () Set.univ := fun t => by
  have h := sound_body8 V c t
  rw [bigSep_W8, bigSep_W8] at h ⊢
  exact h
end Cert.Kernel.Hand
end
-- ==== Proof.KB.RunChain.lean ====
import proofs.«166660_j61229053772418_1_alg».proof.Proof.Gen.Kernel.Launch
import proofs.«166660_j61229053772418_1_alg».proof.Proof.Gen.Kernel.Skeleton
import proofs.«166660_j61229053772418_1_alg».proof.Proof.Gen.Kernel.Points
import proofs.«166660_j61229053772418_1_alg».proof.Proof.Gen.Kernel.Regions
import proofs.«166660_j61229053772418_1_alg».proof.Proof.KB.Stats0
import proofs.«166660_j61229053772418_1_alg».proof.Proof.KB.Stats2
import proofs.«166660_j61229053772418_1_alg».proof.Proof.KB.Stats4
import proofs.«166660_j61229053772418_1_alg».proof.Proof.KB.Stats6
import proofs.«166660_j61229053772418_1_alg».proof.Proof.KB.Bn1
import proofs.«166660_j61229053772418_1_alg».proof.Proof.KB.Bn3
import proofs.«166660_j61229053772418_1_alg».proof.Proof.KB.Bn5
import proofs.«166660_j61229053772418_1_alg».proof.Proof.KB.Bn7
import proofs.«166660_j61229053772418_1_alg».proof.Proof.KB.Head8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)
abbrev Wv0 : Dev nD → Valuation τ sig (Elt F) := fun c b => m (c, b)
abbrev Wv1 : Dev nD → Valuation τ sig (Elt F) := fun c => StableHlo.after hostOps0 (Wv0 m c)
abbrev Vr1 : (c : Dev nD) → (b : Ref sig .tc) → Buf (Elt F) ((c : Thread nD τ).loc b) := fun c b => Wv1 m c b
def Wv2 (c : Dev nD) : Valuation τ sig (Elt F) :=
  Pipeline.withArrays spec0 c (Wv1 m c) fun w => (dat0 (Vr1 m) c).arrAt w cfg0.N
theorem Wv2_arr (c : Dev nD) (w : Fin cfg0.W) :
    Wv2 m c (Proc.devRef .tc (Pipeline.arrRef spec0 w)) = (dat0 (Vr1 m) c).arrAt w cfg0.N :=
  Pipeline.withArrays_arr spec0 launch0.win.arr_inj c _ _ w
abbrev Wv3 : Dev nD → Valuation τ sig (Elt F) := fun c => StableHlo.after hostOps1 (Wv2 m c)
abbrev Vr3 : (c : Dev nD) → (b : Ref sig .tc) → Buf (Elt F) ((c : Thread nD τ).loc b) := fun c b => Wv3 m c b
def Wv4 (c : Dev nD) : Valuation τ sig (Elt F) :=
  Pipeline.withArrays spec1 c (Wv3 m c) fun w => (dat1 (Vr3 m) c).arrAt w cfg1.N
theorem Wv4_arr (c : Dev nD) (w : Fin cfg1.W) :
    Wv4 m c (Proc.devRef .tc (Pipeline.arrRef spec1 w)) = (dat1 (Vr3 m) c).arrAt w cfg1.N :=
  Pipeline.withArrays_arr spec1 launch1.win.arr_inj c _ _ w
abbrev Wv5 : Dev nD → Valuation τ sig (Elt F) := fun c => StableHlo.after hostOps2 (Wv4 m c)
abbrev Vr5 : (c : Dev nD) → (b : Ref sig .tc) → Buf (Elt F) ((c : Thread nD τ).loc b) := fun c b => Wv5 m c b
def Wv6 (c : Dev nD) : Valuation τ sig (Elt F) :=
  Pipeline.withArrays spec2 c (Wv5 m c) fun w => (dat2 (Vr5 m) c).arrAt w cfg2.N
theorem Wv6_arr (c : Dev nD) (w : Fin cfg2.W) :
    Wv6 m c (Proc.devRef .tc (Pipeline.arrRef spec2 w)) = (dat2 (Vr5 m) c).arrAt w cfg2.N :=
  Pipeline.withArrays_arr spec2 launch2.win.arr_inj c _ _ w
abbrev Wv7 : Dev nD → Valuation τ sig (Elt F) := fun c => StableHlo.after hostOps3 (Wv6 m c)
abbrev Vr7 : (c : Dev nD) → (b : Ref sig .tc) → Buf (Elt F) ((c : Thread nD τ).loc b) := fun c b => Wv7 m c b
def Wv8 (c : Dev nD) : Valuation τ sig (Elt F) :=
  Pipeline.withArrays spec3 c (Wv7 m c) fun w => (dat3 (Vr7 m) c).arrAt w cfg3.N
theorem Wv8_arr (c : Dev nD) (w : Fin cfg3.W) :
    Wv8 m c (Proc.devRef .tc (Pipeline.arrRef spec3 w)) = (dat3 (Vr7 m) c).arrAt w cfg3.N :=
  Pipeline.withArrays_arr spec3 launch3.win.arr_inj c _ _ w
abbrev Wv9 : Dev nD → Valuation τ sig (Elt F) := fun c => StableHlo.after hostOps4 (Wv8 m c)
abbrev Vr9 : (c : Dev nD) → (b : Ref sig .tc) → Buf (Elt F) ((c : Thread nD τ).loc b) := fun c b => Wv9 m c b
def Wv10 (c : Dev nD) : Valuation τ sig (Elt F) :=
  Pipeline.withArrays spec4 c (Wv9 m c) fun w => (dat4 (Vr9 m) c).arrAt w cfg4.N
theorem Wv10_arr (c : Dev nD) (w : Fin cfg4.W) :
    Wv10 m c (Proc.devRef .tc (Pipeline.arrRef spec4 w)) = (dat4 (Vr9 m) c).arrAt w cfg4.N :=
  Pipeline.withArrays_arr spec4 launch4.win.arr_inj c _ _ w
abbrev Wv11 : Dev nD → Valuation τ sig (Elt F) := fun c => StableHlo.after hostOps5 (Wv10 m c)
abbrev Vr11 : (c : Dev nD) → (b : Ref sig .tc) → Buf (Elt F) ((c : Thread nD τ).loc b) := fun c b => Wv11 m c b
def Wv12 (c : Dev nD) : Valuation τ sig (Elt F) :=
  Pipeline.withArrays spec5 c (Wv11 m c) fun w => (dat5 (Vr11 m) c).arrAt w cfg5.N
theorem Wv12_arr (c : Dev nD) (w : Fin cfg5.W) :
    Wv12 m c (Proc.devRef .tc (Pipeline.arrRef spec5 w)) = (dat5 (Vr11 m) c).arrAt w cfg5.N :=
  Pipeline.withArrays_arr spec5 launch5.win.arr_inj c _ _ w
abbrev Wv13 : Dev nD → Valuation τ sig (Elt F) := fun c => StableHlo.after hostOps6 (Wv12 m c)
abbrev Vr13 : (c : Dev nD) → (b : Ref sig .tc) → Buf (Elt F) ((c : Thread nD τ).loc b) := fun c b => Wv13 m c b
def Wv14 (c : Dev nD) : Valuation τ sig (Elt F) :=
  Pipeline.withArrays spec6 c (Wv13 m c) fun w => (dat6 (Vr13 m) c).arrAt w cfg6.N
theorem Wv14_arr (c : Dev nD) (w : Fin cfg6.W) :
    Wv14 m c (Proc.devRef .tc (Pipeline.arrRef spec6 w)) = (dat6 (Vr13 m) c).arrAt w cfg6.N :=
  Pipeline.withArrays_arr spec6 launch6.win.arr_inj c _ _ w
abbrev Wv15 : Dev nD → Valuation τ sig (Elt F) := fun c => StableHlo.after hostOps7 (Wv14 m c)
abbrev Vr15 : (c : Dev nD) → (b : Ref sig .tc) → Buf (Elt F) ((c : Thread nD τ).loc b) := fun c b => Wv15 m c b
def Wv16 (c : Dev nD) : Valuation τ sig (Elt F) :=
  Pipeline.withArrays spec7 c (Wv15 m c) fun w => (dat7 (Vr15 m) c).arrAt w cfg7.N
theorem Wv16_arr (c : Dev nD) (w : Fin cfg7.W) :
    Wv16 m c (Proc.devRef .tc (Pipeline.arrRef spec7 w)) = (dat7 (Vr15 m) c).arrAt w cfg7.N :=
  Pipeline.withArrays_arr spec7 launch7.win.arr_inj c _ _ w
abbrev Wv17 : Dev nD → Valuation τ sig (Elt F) := fun c => StableHlo.after hostOps8 (Wv16 m c)
abbrev Vr17 : (c : Dev nD) → (b : Ref sig .tc) → Buf (Elt F) ((c : Thread nD τ).loc b) := fun c b => Wv17 m c b
def Wv18 (c : Dev nD) : Valuation τ sig (Elt F) :=
  Pipeline.withArrays spec8 c (Wv17 m c) fun w => (dat8 (Vr17 m) c).arrAt w cfg8.N
theorem Wv18_arr (c : Dev nD) (w : Fin cfg8.W) :
    Wv18 m c (Proc.devRef .tc (Pipeline.arrRef spec8 w)) = (dat8 (Vr17 m) c).arrAt w cfg8.N :=
  Pipeline.withArrays_arr spec8 launch8.win.arr_inj c _ _ w
abbrev adm : (p : Fin 9) → (pcfgs (F := F) p).Adm := fun p => (cfgs p).toPCfg_adm
def pdats : (p : Fin 9) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
  | ⟨2, _⟩ => fun c => dat2 (Vr5 m) c
  | ⟨3, _⟩ => fun c => dat3 (Vr7 m) c
  | ⟨4, _⟩ => fun c => dat4 (Vr9 m) c
  | ⟨5, _⟩ => fun c => dat5 (Vr11 m) c
  | ⟨6, _⟩ => fun c => dat6 (Vr13 m) c
  | ⟨7, _⟩ => fun c => dat7 (Vr15 m) c
  | ⟨8, _⟩ => fun c => dat8 (Vr17 m) c
abbrev 𝒱₀ : Variants := Variants.none
abbrev L : GSem nD τ sig → Finset Unit := fun _ => ∅
abbrev lv : GSem nD τ sig → Unit → ℕ := fun _ _ => 0
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
set_option backward.isDefEq.respectTransparency.types false in
def regOf (p : Fin 9) (hl : Pipeline.LaunchFacts (nD := nD) (τ := τ) cfgs p) (V V' : Dev nD → Valuation τ sig (Elt F))
    (hV : ∀ c, V' c = Pipeline.withArrays (cfgs p).spec c (V c) fun w => (pdats m p c).arrAt w (cfgs p).N)
    (hbody : ∀ c, Pipeline.BodyObligationLoose (pdats m p c) defs₀ 𝒱₀ () Set.univ)
    (howed : ∀ c t, (pdats m p c).owed t = 0) (hq : ∀ c w, (pdats m p c).q w = fullShare)
    (hrec : ∀ c x, x ∈ (pdats m p c).recorded 0)
    (hA : ∀ c w, (pdats m p c).A w = V c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ Rd c)
  post c := iprop(StableHlo.held (c : Thread nD τ) (Pipeline.ucRefs τ sig) (V' c) ∗ Rd c)
  X c := iprop(∃ r, prngReg c r)
  Y c := iprop(∃ r, prngReg c r)
  Z c := Pipeline.unscopedRest (Ix := Unit) (Name := ℕ) (U := UR sig nD τ) (Lvl := ℕ) (cfgs p).spec c fun b => V c b
  hentry c := by
    have hsplit := Pipeline.arrays_of_unscopedBufs (p := p) (pcfgs (F := F)) adm (pdats m) hl.win hl.arr_whole c
      ((pdats m p c).share_full (hq c)) (fun b => V c b) (hA c)
    rw [Pipeline.unscopedBufs_held] at hsplit
    rw [Pipeline.ownSems0_none]
    unfold Pipeline.Dat.owesAt Pipeline.owesWithin
    rw [howed c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun x _ => Or.inl (hrec c x)
      iexact HO
    isplitl [Hp]; · iexact Hp
    iexact Hrest
  hin c := by
    refine .trans ?_ (hin c); unfold Pipeline.ΦA
    iintro ⟨Hp, -, Hr⟩
    isplitl [Hr]; · iexact Hr
    iexact Hp
  hout c := by
    rw [Pipeline.ownSems0_none]
    refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c)) (fun b => V c b) (fun b => V' c b)
      ((pdats m p c).arrAt · (cfgs p).N)
      (fun w => ((congrFun (hV c) _).trans (Pipeline.withArrays_arr _ hl.win.arr_inj c _ _ w)).symm)
      fun b hb => (congrFun (hV c) _).trans (Pipeline.withArrays_of_ne _ c _ _ b fun w e => hb (Finset.mem_image.mpr ⟨w, Finset.mem_univ _, e⟩))
    rw [Pipeline.unscopedBufs_held] at hjoin
    unfold Pipeline.Dat.owesAt Pipeline.owesWithin
    rw [howed c]
    iintro ⟨Ha, HO, HY, Hrest⟩
    imodintro
    isplitl [Ha Hrest]
    · iapply hjoin; isplitl [Ha] <;> iassumption
    isplitl [HY]; · iexact HY
    icases HO with ⟨%W, -, HO⟩; iexists W; iexact HO
theorem withArrays_keep {gr W : ℕ} (win : Fin W → Pipeline.WinSpec sig gr) (hinj : Function.Injective (Pipeline.arrRef win))
    (c : Dev nD) (V : Valuation τ sig (Elt F)) (A : (w : Fin W) → Buf (Elt F) ((win w).arr.view.loc (c : Thread nD τ)))
    (r : Ref sig .tc) (h : ∀ w, Pipeline.arrRef win w = r → A w = V (Pipeline.arrRef win w)) :
    Pipeline.withArrays win c V A r = V r := by
  by_cases hw : ∃ w, Pipeline.arrRef win w = r
  · obtain ⟨w, rfl⟩ := hw
    exact (Pipeline.withArrays_arr win hinj c V A w).trans (h w rfl)
  · exact Pipeline.withArrays_of_ne win c V A r fun w e => hw ⟨w, e⟩
variable (c : Dev nD) (r : Ref sig .tc)
theorem Wv1_of (h : r ∉ hostOps0_W) : Wv1 m c r = Wv0 m c r :=
  StableHlo.after_of_writes_sub hostOps0 _ hostOps0_writes h
theorem Wv2_keep (h : r ∉ ([main_v24_0, main_v24_1, main_v24_2] : List (Ref sig .tc))) :
    Wv2 m c r = Wv1 m c r :=
  withArrays_keep spec0 launch0.win.arr_inj c (Wv1 m c) _ r fun w e => by
    subst e
    fin_cases w <;> first | exact absurd (by decide) h | exact ((dat0 (Vr1 m) c).arrAt_in _ rfl _).trans (A_eq0 (Vr1 m) c _)
theorem Wv3_of (h : r ∉ hostOps1_W) : Wv3 m c r = Wv2 m c r :=
  StableHlo.after_of_writes_sub hostOps1 _ hostOps1_writes h
theorem Wv4_keep (h : r ∉ ([main_v31] : List (Ref sig .tc))) :
    Wv4 m c r = Wv3 m c r :=
  withArrays_keep spec1 launch1.win.arr_inj c (Wv3 m c) _ r fun w e => by
    subst e
    fin_cases w <;> first | exact absurd (by decide) h | exact ((dat1 (Vr3 m) c).arrAt_in _ rfl _).trans (A_eq1 (Vr3 m) c _)
theorem Wv5_of (h : r ∉ hostOps2_W) : Wv5 m c r = Wv4 m c r :=
  StableHlo.after_of_writes_sub hostOps2 _ hostOps2_writes h
theorem Wv6_keep (h : r ∉ ([main_v52_0, main_v52_1, main_v52_2] : List (Ref sig .tc))) :
    Wv6 m c r = Wv5 m c r :=
  withArrays_keep spec2 launch2.win.arr_inj c (Wv5 m c) _ r fun w e => by
    subst e
    fin_cases w <;> first | exact absurd (by decide) h | exact ((dat2 (Vr5 m) c).arrAt_in _ rfl _).trans (A_eq2 (Vr5 m) c _)
theorem Wv7_of (h : r ∉ hostOps3_W) : Wv7 m c r = Wv6 m c r :=
  StableHlo.after_of_writes_sub hostOps3 _ hostOps3_writes h
theorem Wv8_keep (h : r ∉ ([main_v59] : List (Ref sig .tc))) :
    Wv8 m c r = Wv7 m c r :=
  withArrays_keep spec3 launch3.win.arr_inj c (Wv7 m c) _ r fun w e => by
    subst e
    fin_cases w <;> first | exact absurd (by decide) h | exact ((dat3 (Vr7 m) c).arrAt_in _ rfl _).trans (A_eq3 (Vr7 m) c _)
theorem Wv9_of (h : r ∉ hostOps4_W) : Wv9 m c r = Wv8 m c r :=
  StableHlo.after_of_writes_sub hostOps4 _ hostOps4_writes h
theorem Wv10_keep (h : r ∉ ([main_v80_0, main_v80_1, main_v80_2] : List (Ref sig .tc))) :
    Wv10 m c r = Wv9 m c r :=
  withArrays_keep spec4 launch4.win.arr_inj c (Wv9 m c) _ r fun w e => by
    subst e
    fin_cases w <;> first | exact absurd (by decide) h | exact ((dat4 (Vr9 m) c).arrAt_in _ rfl _).trans (A_eq4 (Vr9 m) c _)
theorem Wv11_of (h : r ∉ hostOps5_W) : Wv11 m c r = Wv10 m c r :=
  StableHlo.after_of_writes_sub hostOps5 _ hostOps5_writes h
theorem Wv12_keep (h : r ∉ ([main_v87] : List (Ref sig .tc))) :
    Wv12 m c r = Wv11 m c r :=
  withArrays_keep spec5 launch5.win.arr_inj c (Wv11 m c) _ r fun w e => by
    subst e
    fin_cases w <;> first | exact absurd (by decide) h | exact ((dat5 (Vr11 m) c).arrAt_in _ rfl _).trans (A_eq5 (Vr11 m) c _)
theorem Wv13_of (h : r ∉ hostOps6_W) : Wv13 m c r = Wv12 m c r :=
  StableHlo.after_of_writes_sub hostOps6 _ hostOps6_writes h
theorem Wv14_keep (h : r ∉ ([main_v108_0, main_v108_1, main_v108_2] : List (Ref sig .tc))) :
    Wv14 m c r = Wv13 m c r :=
  withArrays_keep spec6 launch6.win.arr_inj c (Wv13 m c) _ r fun w e => by
    subst e
    fin_cases w <;> first | exact absurd (by decide) h | exact ((dat6 (Vr13 m) c).arrAt_in _ rfl _).trans (A_eq6 (Vr13 m) c _)
theorem Wv15_of (h : r ∉ hostOps7_W) : Wv15 m c r = Wv14 m c r :=
  StableHlo.after_of_writes_sub hostOps7 _ hostOps7_writes h
theorem Wv16_keep (h : r ∉ ([main_v115] : List (Ref sig .tc))) :
    Wv16 m c r = Wv15 m c r :=
  withArrays_keep spec7 launch7.win.arr_inj c (Wv15 m c) _ r fun w e => by
    subst e
    fin_cases w <;> first | exact absurd (by decide) h | exact ((dat7 (Vr15 m) c).arrAt_in _ rfl _).trans (A_eq7 (Vr15 m) c _)
theorem Wv17_of (h : r ∉ hostOps8_W) : Wv17 m c r = Wv16 m c r :=
  StableHlo.after_of_writes_sub hostOps8 _ hostOps8_writes h
theorem Wv18_keep (h : r ∉ ([main_v122] : List (Ref sig .tc))) :
    Wv18 m c r = Wv17 m c r :=
  withArrays_keep spec8 launch8.win.arr_inj c (Wv17 m c) _ r fun w e => by
    subst e
    fin_cases w <;> first | exact absurd (by decide) h | exact ((dat8 (Vr17 m) c).arrAt_in _ rfl _).trans (A_eq8 (Vr17 m) c _)
theorem arg_kept {r : Ref sig .tc} (h : r ∈ ([main_arg0, main_arg1, main_arg2, main_arg3, main_arg4, main_arg5, main_arg6, main_arg7, main_arg8, main_arg9, main_arg10, main_arg11] : List (Ref sig .tc))) :
    Wv18 m c r = m ((c : Thread nD τ).loc r) := by
  simp only [List.mem_cons, List.not_mem_nil, or_false] at h
  rcases h with rfl | rfl | rfl | rfl | rfl | rfl | rfl | rfl | rfl | rfl | rfl | rfl <;>
  exact (Wv18_keep m c _ (by decide)).trans <| (Wv17_of m c _ (by decide)).trans <| (Wv16_keep m c _ (by decide)).trans <| (Wv15_of m c _ (by decide)).trans <| (Wv14_keep m c _ (by decide)).trans <| (Wv13_of m c _ (by decide)).trans <| (Wv12_keep m c _ (by decide)).trans <| (Wv11_of m c _ (by decide)).trans <| (Wv10_keep m c _ (by decide)).trans <| (Wv9_of m c _ (by decide)).trans <| (Wv8_keep m c _ (by decide)).trans <| (Wv7_of m c _ (by decide)).trans <| (Wv6_keep m c _ (by decide)).trans <| (Wv5_of m c _ (by decide)).trans <| (Wv4_keep m c _ (by decide)).trans <| (Wv3_of m c _ (by decide)).trans <| (Wv2_keep m c _ (by decide)).trans <| (Wv1_of m c _ (by decide))
theorem Wv18_main_arg0 : Wv18 m c main_arg0 = m ((c : Thread nD τ).loc main_arg0) := arg_kept m c (by decide)
theorem Wv18_main_arg1 : Wv18 m c main_arg1 = m ((c : Thread nD τ).loc main_arg1) := arg_kept m c (by decide)
theorem Wv18_main_arg2 : Wv18 m c main_arg2 = m ((c : Thread nD τ).loc main_arg2) := arg_kept m c (by decide)
theorem Wv18_main_arg3 : Wv18 m c main_arg3 = m ((c : Thread nD τ).loc main_arg3) := arg_kept m c (by decide)
theorem Wv18_main_arg4 : Wv18 m c main_arg4 = m ((c : Thread nD τ).loc main_arg4) := arg_kept m c (by decide)
theorem Wv18_main_arg5 : Wv18 m c main_arg5 = m ((c : Thread nD τ).loc main_arg5) := arg_kept m c (by decide)
theorem Wv18_main_arg6 : Wv18 m c main_arg6 = m ((c : Thread nD τ).loc main_arg6) := arg_kept m c (by decide)
theorem Wv18_main_arg7 : Wv18 m c main_arg7 = m ((c : Thread nD τ).loc main_arg7) := arg_kept m c (by decide)
theorem Wv18_main_arg8 : Wv18 m c main_arg8 = m ((c : Thread nD τ).loc main_arg8) := arg_kept m c (by decide)
theorem Wv18_main_arg9 : Wv18 m c main_arg9 = m ((c : Thread nD τ).loc main_arg9) := arg_kept m c (by decide)
theorem Wv18_main_arg10 : Wv18 m c main_arg10 = m ((c : Thread nD τ).loc main_arg10) := arg_kept m c (by decide)
theorem Wv18_main_arg11 : Wv18 m c main_arg11 = m ((c : Thread nD τ).loc main_arg11) := arg_kept m c (by decide)
theorem Wv18_result : Wv18 m c (Proc.devRef .tc main_v122) = (dat8 (Vr17 m) c).arrAt 11 cfg8.N := Wv18_arr m c 11
end Cert.Kernel.Hand
end
-- ==== Proof.KB.Reg0.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg0 : Pipeline.RegionSeg (pcfgs (F := F)) adm (pdats m) () defs₀ 𝒱₀ L lv 0 :=
  regOf m 0 launch0 (Wv1 m) (Wv2 m) (fun _ => rfl) (fun c => (body_obligation0 (Vr1 m) c).loose) (fun _ _ => rfl) (fun _ _ => rfl)
    (fun _ _ => trivial) (fun _ _ => rfl) (hin0 (Vr1 m)) (hout0 (Vr1 m))
end Cert.Kernel.Hand
end
-- ==== Proof.KB.Reg1.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg1 : Pipeline.RegionSeg (pcfgs (F := F)) adm (pdats m) () defs₀ 𝒱₀ L lv 1 :=
  regOf m 1 launch1 (Wv3 m) (Wv4 m) (fun _ => rfl) (fun c => (body_obligation1 (Vr3 m) c).loose) (fun _ _ => rfl) (fun _ _ => rfl)
    (fun _ _ => trivial) (fun _ _ => rfl) (fun _ => .rfl) (fun _ => .rfl)
end Cert.Kernel.Hand
end
-- ==== Proof.KB.Reg2.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg2 : Pipeline.RegionSeg (pcfgs (F := F)) adm (pdats m) () defs₀ 𝒱₀ L lv 2 :=
  regOf m 2 launch2 (Wv5 m) (Wv6 m) (fun _ => rfl) (fun c => (body_obligation2 (Vr5 m) c).loose) (fun _ _ => rfl) (fun _ _ => rfl)
    (fun _ _ => trivial) (fun _ _ => rfl) (hin2 (Vr5 m)) (hout2 (Vr5 m))
end Cert.Kernel.Hand
end
-- ==== Proof.KB.Reg3.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg3 : Pipeline.RegionSeg (pcfgs (F := F)) adm (pdats m) () defs₀ 𝒱₀ L lv 3 :=
  regOf m 3 launch3 (Wv7 m) (Wv8 m) (fun _ => rfl) (fun c => (body_obligation3 (Vr7 m) c).loose) (fun _ _ => rfl) (fun _ _ => rfl)
    (fun _ _ => trivial) (fun _ _ => rfl) (fun _ => .rfl) (fun _ => .rfl)
end Cert.Kernel.Hand
end
-- ==== Proof.KB.Reg4.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg4 : Pipeline.RegionSeg (pcfgs (F := F)) adm (pdats m) () defs₀ 𝒱₀ L lv 4 :=
  regOf m 4 launch4 (Wv9 m) (Wv10 m) (fun _ => rfl) (fun c => (body_obligation4 (Vr9 m) c).loose) (fun _ _ => rfl) (fun _ _ => rfl)
    (fun _ _ => trivial) (fun _ _ => rfl) (hin4 (Vr9 m)) (hout4 (Vr9 m))
end Cert.Kernel.Hand
end
-- ==== Proof.KB.Reg5.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg5 : Pipeline.RegionSeg (pcfgs (F := F)) adm (pdats m) () defs₀ 𝒱₀ L lv 5 :=
  regOf m 5 launch5 (Wv11 m) (Wv12 m) (fun _ => rfl) (fun c => (body_obligation5 (Vr11 m) c).loose) (fun _ _ => rfl) (fun _ _ => rfl)
    (fun _ _ => trivial) (fun _ _ => rfl) (fun _ => .rfl) (fun _ => .rfl)
end Cert.Kernel.Hand
end
-- ==== Proof.KB.Reg6.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg6 : Pipeline.RegionSeg (pcfgs (F := F)) adm (pdats m) () defs₀ 𝒱₀ L lv 6 :=
  regOf m 6 launch6 (Wv13 m) (Wv14 m) (fun _ => rfl) (fun c => (body_obligation6 (Vr13 m) c).loose) (fun _ _ => rfl) (fun _ _ => rfl)
    (fun _ _ => trivial) (fun _ _ => rfl) (hin6 (Vr13 m)) (hout6 (Vr13 m))
end Cert.Kernel.Hand
end
-- ==== Proof.KB.Reg7.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg7 : Pipeline.RegionSeg (pcfgs (F := F)) adm (pdats m) () defs₀ 𝒱₀ L lv 7 :=
  regOf m 7 launch7 (Wv15 m) (Wv16 m) (fun _ => rfl) (fun c => (body_obligation7 (Vr15 m) c).loose) (fun _ _ => rfl) (fun _ _ => rfl)
    (fun _ _ => trivial) (fun _ _ => rfl) (fun _ => .rfl) (fun _ => .rfl)
end Cert.Kernel.Hand
end
-- ==== Proof.KB.Reg8.lean ====
import proofs.«166660_j61229053772418_1_alg».proof.Proof.KB.RunChain
noncomputable section
namespace Cert.Kernel.Hand
open Cert.Kernel Cert.Kernel.Gen
open Idealize.ShloMosaic Idealize.ShloMosaic.TcCoe
open Idealize.SL Idealize.SL.BI
variable {F : FTy → Type} [FloatOps F]
variable (m : (ℓ : Loc nD τ sig) → Buf (Elt F) ℓ)
set_option backward.isDefEq.respectTransparency.types false in
def reg8 : Pipeline.RegionSeg (pcfgs (F := F)) adm (pdats m) () defs₀ 𝒱₀ L lv 8 :=
  regOf m 8 launch8 (Wv17 m) (Wv18 m) (fun _ => rfl) (fun c => (body_obligation8 (Vr17 m) c).loose) (fun _ _ => rfl) (fun _ _ => rfl)
    (fun _ _ => trivial) (fun _ _ => rfl) (fun _ => .rfl) (fun _ => .rfl)
end Cert.Kernel.Hand
end
-- ==== Proof.KB.Run.lean ====
import proofs.«166660_j61229053772418_1_alg».proof.Proof.KB.Reg0
import proofs.«166660_j61229053772418_1_alg».proof.Proof.KB.Reg1
import proofs.«166660_j61229053772418_1_alg».proof.Proof.KB.Reg2
import proofs.«166660_j61229053772418_1_alg».proof.Proof.KB.Reg3
import proofs.«166660_j61229053772418_1_alg».proof.Proof.KB.Reg4
import proofs.«166660_j61229053772418_1_alg».proof.Proof.KB.Reg5
import proofs.«166660_j61229053772418_1_alg».proof.Proof.KB.Reg6
import proofs.«166660_j61229053772418_1_alg».proof.Proof.KB.Reg7
import proofs.«166660_j61229053772418_1_alg».proof.Proof.KB.Reg8
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)
abbrev segs : List (Pipeline.Seg (pcfgs (F := F)) adm (pdats m) () defs₀ 𝒱₀ L lv) :=
  [ .host (hseg hostOps0 hostOps0_sub hostOps0_fresh (Wv0 m)),
    .region (reg0 m),
    .host (hseg hostOps1 hostOps1_sub hostOps1_fresh (Wv2 m)),
    .region (reg1 m),
    .host (hseg hostOps2 hostOps2_sub hostOps2_fresh (Wv4 m)),
    .region (reg2 m),
    .host (hseg hostOps3 hostOps3_sub hostOps3_fresh (Wv6 m)),
    .region (reg3 m),
    .host (hseg hostOps4 hostOps4_sub hostOps4_fresh (Wv8 m)),
    .region (reg4 m),
    .host (hseg hostOps5 hostOps5_sub hostOps5_fresh (Wv10 m)),
    .region (reg5 m),
    .host (hseg hostOps6 hostOps6_sub hostOps6_fresh (Wv12 m)),
    .region (reg6 m),
    .host (hseg hostOps7 hostOps7_sub hostOps7_fresh (Wv14 m)),
    .region (reg7 m),
    .host (hseg hostOps8 hostOps8_sub hostOps8_fresh (Wv16 m)),
    .region (reg8 m) ]
theorem main_run (c : Dev nD) : main (F := F) c = Pipeline.Seg.run (segs m) := (main_chain c).trans (by chain_rfl)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tlast (c : Dev nD) : sProp 𝕄 := iprop(StableHlo.held (c : Thread nD τ) (Pipeline.ucRefs τ sig) (Wv18 m c) ∗ ∃ r, prngReg c r)
set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wv18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wv0 m c) ∗ Rd c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (Wv0 m c)
        from Pipeline.unscopedBufs_held c (Wv0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wv18 m c b)
    (hfin := fun c s' => by
      iintro ⟨⟨Hh, -⟩, HSI⟩
      unfold StableHlo.held
      imodintro
      iapply (pointsTo_read_all (Pipeline.ucRefs τ sig) (fun b => (((c : Thread nD τ)).1, b)) (Wv18 m c) s')
      isplitl [Hh] <;> iassumption)
    (hQ := fun s h c => h c)
end Cert.Kernel.Hand
end
-- ==== Proof.KernelClaims.lean ====
import proofs.«166660_j61229053772418_1_alg».proof.Defs
import proofs.«166660_j61229053772418_1_alg».proof.Proof.Gen.Kernel
import proofs.«166660_j61229053772418_1_alg».proof.Proof.Gen.KernelIdeal
import proofs.«166660_j61229053772418_1_alg».proof.Proof.Gen.Pre_finite_inputs
import proofs.«166660_j61229053772418_1_alg».proof.Proof.KI.Run
import proofs.«166660_j61229053772418_1_alg».proof.Proof.KB.Run
noncomputable section
namespace Cert.Proof.KernelClaims
open Idealize.ShloMosaic Idealize.ShloMosaic.TcCoe Idealize.SL.Sem
theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c => ⟨
      (h c _ (Cert.Kernel.Hand.mem_uc Cert.Kernel.main_arg0 (by decide))).trans (Cert.Kernel.Hand.Wv18_main_arg0 m c),
      (h c _ (Cert.Kernel.Hand.mem_uc Cert.Kernel.main_arg1 (by decide))).trans (Cert.Kernel.Hand.Wv18_main_arg1 m c),
      (h c _ (Cert.Kernel.Hand.mem_uc Cert.Kernel.main_arg2 (by decide))).trans (Cert.Kernel.Hand.Wv18_main_arg2 m c),
      (h c _ (Cert.Kernel.Hand.mem_uc Cert.Kernel.main_arg3 (by decide))).trans (Cert.Kernel.Hand.Wv18_main_arg3 m c),
      (h c _ (Cert.Kernel.Hand.mem_uc Cert.Kernel.main_arg4 (by decide))).trans (Cert.Kernel.Hand.Wv18_main_arg4 m c),
      (h c _ (Cert.Kernel.Hand.mem_uc Cert.Kernel.main_arg5 (by decide))).trans (Cert.Kernel.Hand.Wv18_main_arg5 m c),
      (h c _ (Cert.Kernel.Hand.mem_uc Cert.Kernel.main_arg6 (by decide))).trans (Cert.Kernel.Hand.Wv18_main_arg6 m c),
      (h c _ (Cert.Kernel.Hand.mem_uc Cert.Kernel.main_arg7 (by decide))).trans (Cert.Kernel.Hand.Wv18_main_arg7 m c),
      (h c _ (Cert.Kernel.Hand.mem_uc Cert.Kernel.main_arg8 (by decide))).trans (Cert.Kernel.Hand.Wv18_main_arg8 m c),
      (h c _ (Cert.Kernel.Hand.mem_uc Cert.Kernel.main_arg9 (by decide))).trans (Cert.Kernel.Hand.Wv18_main_arg9 m c),
      (h c _ (Cert.Kernel.Hand.mem_uc Cert.Kernel.main_arg10 (by decide))).trans (Cert.Kernel.Hand.Wv18_main_arg10 m c),
      (h c _ (Cert.Kernel.Hand.mem_uc Cert.Kernel.main_arg11 (by decide))).trans (Cert.Kernel.Hand.Wv18_main_arg11 m c)⟩)
    (Cert.Kernel.Hand.run (F := Bits) m ρ)
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v122)
          = Cert.KernelIdeal.Hand.Wv18 (F := Ideal) m c (Proc.devRef .tc Cert.KernelIdeal.main_v122)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono (fun r h c => ⟨
      h c _ (Cert.KernelIdeal.Hand.mem_uc Cert.KernelIdeal.main_v122 (by decide)),
      (h c _ (Cert.KernelIdeal.Hand.mem_uc Cert.KernelIdeal.main_arg0 (by decide))).trans (Cert.KernelIdeal.Hand.Wv18_main_arg0 m c),
      (h c _ (Cert.KernelIdeal.Hand.mem_uc Cert.KernelIdeal.main_arg1 (by decide))).trans (Cert.KernelIdeal.Hand.Wv18_main_arg1 m c),
      (h c _ (Cert.KernelIdeal.Hand.mem_uc Cert.KernelIdeal.main_arg2 (by decide))).trans (Cert.KernelIdeal.Hand.Wv18_main_arg2 m c),
      (h c _ (Cert.KernelIdeal.Hand.mem_uc Cert.KernelIdeal.main_arg3 (by decide))).trans (Cert.KernelIdeal.Hand.Wv18_main_arg3 m c),
      (h c _ (Cert.KernelIdeal.Hand.mem_uc Cert.KernelIdeal.main_arg4 (by decide))).trans (Cert.KernelIdeal.Hand.Wv18_main_arg4 m c),
      (h c _ (Cert.KernelIdeal.Hand.mem_uc Cert.KernelIdeal.main_arg5 (by decide))).trans (Cert.KernelIdeal.Hand.Wv18_main_arg5 m c),
      (h c _ (Cert.KernelIdeal.Hand.mem_uc Cert.KernelIdeal.main_arg6 (by decide))).trans (Cert.KernelIdeal.Hand.Wv18_main_arg6 m c),
      (h c _ (Cert.KernelIdeal.Hand.mem_uc Cert.KernelIdeal.main_arg7 (by decide))).trans (Cert.KernelIdeal.Hand.Wv18_main_arg7 m c),
      (h c _ (Cert.KernelIdeal.Hand.mem_uc Cert.KernelIdeal.main_arg8 (by decide))).trans (Cert.KernelIdeal.Hand.Wv18_main_arg8 m c),
      (h c _ (Cert.KernelIdeal.Hand.mem_uc Cert.KernelIdeal.main_arg9 (by decide))).trans (Cert.KernelIdeal.Hand.Wv18_main_arg9 m c),
      (h c _ (Cert.KernelIdeal.Hand.mem_uc Cert.KernelIdeal.main_arg10 (by decide))).trans (Cert.KernelIdeal.Hand.Wv18_main_arg10 m c),
      (h c _ (Cert.KernelIdeal.Hand.mem_uc Cert.KernelIdeal.main_arg11 (by decide))).trans (Cert.KernelIdeal.Hand.Wv18_main_arg11 m c)⟩)
    (Cert.KernelIdeal.Hand.run (F := Ideal) m ρ)
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (run_ki m ρ)
theorem preserves : Cert.preserves_Kernel_KernelIdeal :=
  have s := IdealRules.named_const.statement Cert.KernelIdeal.κ "inv_50000" .f32 0x37A7C5AC#32 ((1 / 50000 : ℝ) : EReal) rfl
  ⟨s, s, s, s, s, s, s, s⟩
end Cert.Proof.KernelClaims
end
-- ==== Proof.RefOps.lean ====
import proofs.«166660_j61229053772418_1_alg».proof.Proof.Gen.ReferenceIdeal
import Idealize.ShloMosaic.Lib.StableHlo.Run

/-! The operations of the reference program, listed: each outlined function's as a function of its arguments and of one
    call's buffer record, @main's stretch by stretch between its calls, window by window, and all of them in order. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @relu's operations in order, over its arguments and one call's buffer record (a call it makes: the callee's list there). -/
abbrev reluOps (arg0 : StableHlo.TRef sig ⟨S50000x128, .f32⟩) (φ : fn_relu.Bufs) : List (HloOp τ sig (Elt F)) :=
  [ StableHlo.TRef.nullary φ.cst (constant S_ .f32 0x00000000#32),
    StableHlo.TRef.unary φ.cst φ.v0 (broadcastInDim S50000x128 ![] bcast_S_S50000x128),
    StableHlo.TRef.binary arg0 φ.v0 φ.v1 maximumf ]

/-- @where's operations in order, over its arguments and one call's buffer record (a call it makes: the callee's list there). -/
abbrev whereOps (arg0 : StableHlo.TRef sig ⟨S_, .i1⟩) (arg1 : StableHlo.TRef sig ⟨S128, .f32⟩) (arg2 : StableHlo.TRef sig ⟨S_, .f32⟩) (φ : fn_where.Bufs) : List (HloOp τ sig (Elt F)) :=
  [ StableHlo.TRef.unary arg2 φ.v0 id,
    StableHlo.TRef.unary φ.v0 φ.v1 (broadcastInDim S128 ![] bcast_S_S128),
    StableHlo.TRef.ternary arg0 arg1 φ.v1 φ.v2 (fun p a b => select (broadcastInDim S128 ![] bcast_S_S128 p) a b) ]

/-- @var, stretch 0: 19 operations in order, over its arguments and one call's buffer record. -/
abbrev var_s0 (arg0 : StableHlo.TRef sig ⟨S50000x128, .f32⟩) (arg1 : StableHlo.TRef sig ⟨S_, .i32⟩) (φ : fn_var.Bufs) : List (HloOp τ sig (Elt F)) :=
  [ StableHlo.TRef.nullary φ.cst (constant S_ .f32 0x00000000#32),
    StableHlo.TRef.binary arg0 φ.cst φ.v0 (fun x v => Host.reduceAdd x v reducesTo_S50000x128_S128_d0 h_S_),
    StableHlo.TRef.unary φ.v0 φ.v1 (broadcastInDim S1x128 ![1] bcast_S128_S1x128_1),
    StableHlo.TRef.nullary φ.cst_0 (constant S_ .f32 0x47435000#32),
    StableHlo.TRef.unary φ.cst_0 φ.v2 (broadcastInDim S1x128 ![] bcast_S_S1x128),
    StableHlo.TRef.binary φ.v1 φ.v2 φ.v3 Host.divf,
    StableHlo.TRef.unary φ.v3 φ.v4 (broadcastInDim S50000x128 ![0, 1] bcast_S1x128_S50000x128_0_1),
    StableHlo.TRef.binary arg0 φ.v4 φ.v5 subf,
    StableHlo.TRef.binary φ.v5 φ.v5 φ.v6 mulf,
    StableHlo.TRef.unary arg1 φ.v7 (sitofp .f32),
    StableHlo.TRef.nullary φ.cst_1 (constant S_ .f32 0x47435000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S50000x128_S128_d0 h_S_),
    StableHlo.TRef.unary φ.v8 φ.v10 (broadcastInDim S128 ![] bcast_S_S128),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32) ]

/-- @var's operations in order, over its arguments and one call's buffer record (a call it makes: the callee's list there). -/
abbrev varOps (arg0 : StableHlo.TRef sig ⟨S50000x128, .f32⟩) (arg1 : StableHlo.TRef sig ⟨S_, .i32⟩) (φ : fn_var.Bufs) : List (HloOp τ sig (Elt F)) :=
  var_s0 arg0 arg1 φ ++ (whereOps φ.v12 φ.v11 φ.cst_4 φ.call0)

/-- Window 0 of @main, stretch 0: 34 operations in order. -/
abbrev part0_s0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg2 main_v4 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v4 main_v5 rfl shapeCasts_S1x128x128_S128x128,
    StableHlo.unary main_arg3 main_v6 ((extractStridedSlice S1x128 ![0, 0] · slices_S4x128_S1x128_0_0) : (⟨S4x128, .f32⟩ : BufTy).Contents (Elt F) → (⟨S1x128, .f32⟩ : BufTy).Contents (Elt F)),
    StableHlo.reshape main_v6 main_v7 rfl shapeCasts_S1x128_S128,
    StableHlo.unary main_arg4 main_v8 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v8 main_v9 rfl shapeCasts_S1x128x128_S128x128,
    StableHlo.unary main_arg5 main_v10 ((extractStridedSlice S1x128 ![0, 0] · slices_S4x128_S1x128_0_0) : (⟨S4x128, .f32⟩ : BufTy).Contents (Elt F) → (⟨S1x128, .f32⟩ : BufTy).Contents (Elt F)),
    StableHlo.reshape main_v10 main_v11 rfl shapeCasts_S1x128_S128,
    StableHlo.unary main_arg6 main_v12 ((extractStridedSlice S1x128 ![0, 0] · slices_S4x128_S1x128_0_0) : (⟨S4x128, .f32⟩ : BufTy).Contents (Elt F) → (⟨S1x128, .f32⟩ : BufTy).Contents (Elt F)),
    StableHlo.reshape main_v12 main_v13 rfl shapeCasts_S1x128_S128,
    StableHlo.unary main_arg7 main_v14 ((extractStridedSlice S1x128 ![0, 0] · slices_S4x128_S1x128_0_0) : (⟨S4x128, .f32⟩ : BufTy).Contents (Elt F) → (⟨S1x128, .f32⟩ : BufTy).Contents (Elt F)),
    StableHlo.reshape main_v14 main_v15 rfl shapeCasts_S1x128_S128,
    StableHlo.nullary main_c (constantI S_ 32 0#32),
    StableHlo.unary main_c main_v16 (broadcastInDim S600000 ![] bcast_S_S600000 : (⟨S_, .i32⟩ : BufTy).Contents (Elt F) → (⟨S600000, .i32⟩ : BufTy).Contents (Elt F)),
    StableHlo.binary main_v1 main_v16 main_v17 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v18 (broadcastInDim S600000 ![] bcast_S_S600000 : (⟨S_, .i32⟩ : BufTy).Contents (Elt F) → (⟨S600000, .i32⟩ : BufTy).Contents (Elt F)),
    StableHlo.binary main_v1 main_v18 main_v19 (addi : (⟨S600000, .i32⟩ : BufTy).Contents (Elt F) → (⟨S600000, .i32⟩ : BufTy).Contents (Elt F) → (⟨S600000, .i32⟩ : BufTy).Contents (Elt F)),
    StableHlo.ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v20 main_v21 (broadcastInDim S600000x1 ![0] bcast_S600000_S600000x1_0 : (⟨S600000, .i32⟩ : BufTy).Contents (Elt F) → (⟨S600000x1, .i32⟩ : BufTy).Contents (Elt F)),
    StableHlo.binary main_arg0 main_v21 main_v22 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v23 (broadcastInDim S50000x128 ![] bcast_S_S50000x128 : (⟨S_, .f32⟩ : BufTy).Contents (Elt F) → (⟨S50000x128, .f32⟩ : BufTy).Contents (Elt F)),
    StableHlo.unary main_v3 main_v24 (broadcastInDim S600000x1 ![0] bcast_S600000_S600000x1_0 : (⟨S600000, .i32⟩ : BufTy).Contents (Elt F) → (⟨S600000x1, .i32⟩ : BufTy).Contents (Elt F)),
    StableHlo.ternary main_v23 main_v24 main_v22 main_v25 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v25 main_v26 (addf : (⟨S50000x128, .f32⟩ : BufTy).Contents (Elt F) → (⟨S50000x128, .f32⟩ : BufTy).Contents (Elt F) → (⟨S50000x128, .f32⟩ : BufTy).Contents (Elt F)),
    StableHlo.binary main_v26 main_v5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)) ]

/-- Window 0 of @main, stretch 1: 4 operations in order. -/
abbrev part0_s1 : List (HloOp τ sig (Elt F)) :=
  [ StableHlo.binary main_v31 main_v9 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v32 main_v34 main_v35 (addf : (⟨S50000x128, .f32⟩ : BufTy).Contents (Elt F) → (⟨S50000x128, .f32⟩ : BufTy).Contents (Elt F) → (⟨S50000x128, .f32⟩ : BufTy).Contents (Elt F)) ]

/-- Window 0 of @main, stretch 2: 6 operations in order. -/
abbrev part0_s2 : List (HloOp τ sig (Elt F)) :=
  [ StableHlo.nullary main_cst_1 (constant S_ .f32 0x00000000#32),
    StableHlo.binary main_v36 main_cst_1 main_v37 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32) ]

/-- Window 0 of @main, stretch 3: 13 operations in order. -/
abbrev part0_s3 : List (HloOp τ sig (Elt F)) :=
  [ StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v42 main_v43 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v48 main_v49 (mulf : (⟨S50000x128, .f32⟩ : BufTy).Contents (Elt F) → (⟨S50000x128, .f32⟩ : BufTy).Contents (Elt F) → (⟨S50000x128, .f32⟩ : BufTy).Contents (Elt F)),
    StableHlo.unary main_v13 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v51 main_v52 (mulf : (⟨S50000x128, .f32⟩ : BufTy).Contents (Elt F) → (⟨S50000x128, .f32⟩ : BufTy).Contents (Elt F) → (⟨S50000x128, .f32⟩ : BufTy).Contents (Elt F)) ]

/-- Window 0 of @main: its stretches and, at each call, the callee's operations. -/
abbrev ops0 : List (HloOp τ sig (Elt F)) :=
  part0_s0 ++ (reluOps (.of main_v30) main_call0 ++ (part0_s1 ++ (reluOps (.of main_v35) main_call1 ++ (part0_s2 ++ (varOps (.of main_v36) (.of main_c_3) main_call2 ++ (part0_s3))))))

/-- Window 1 of @main, stretch 0: 33 operations in order. -/
abbrev part1_s0 : List (HloOp τ sig (Elt F)) :=
  [ StableHlo.unary main_v15 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.unary main_arg2 main_v56 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v56 main_v57 rfl shapeCasts_S1x128x128_S128x128,
    StableHlo.unary main_arg3 main_v58 ((extractStridedSlice S1x128 ![1, 0] · slices_S4x128_S1x128_1_0) : (⟨S4x128, .f32⟩ : BufTy).Contents (Elt F) → (⟨S1x128, .f32⟩ : BufTy).Contents (Elt F)),
    StableHlo.reshape main_v58 main_v59 rfl shapeCasts_S1x128_S128,
    StableHlo.unary main_arg4 main_v60 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v60 main_v61 rfl shapeCasts_S1x128x128_S128x128,
    StableHlo.unary main_arg5 main_v62 ((extractStridedSlice S1x128 ![1, 0] · slices_S4x128_S1x128_1_0) : (⟨S4x128, .f32⟩ : BufTy).Contents (Elt F) → (⟨S1x128, .f32⟩ : BufTy).Contents (Elt F)),
    StableHlo.reshape main_v62 main_v63 rfl shapeCasts_S1x128_S128,
    StableHlo.unary main_arg6 main_v64 ((extractStridedSlice S1x128 ![1, 0] · slices_S4x128_S1x128_1_0) : (⟨S4x128, .f32⟩ : BufTy).Contents (Elt F) → (⟨S1x128, .f32⟩ : BufTy).Contents (Elt F)),
    StableHlo.reshape main_v64 main_v65 rfl shapeCasts_S1x128_S128,
    StableHlo.unary main_arg7 main_v66 ((extractStridedSlice S1x128 ![1, 0] · slices_S4x128_S1x128_1_0) : (⟨S4x128, .f32⟩ : BufTy).Contents (Elt F) → (⟨S1x128, .f32⟩ : BufTy).Contents (Elt F)),
    StableHlo.reshape main_v66 main_v67 rfl shapeCasts_S1x128_S128,
    StableHlo.nullary main_c_5 (constantI S_ 32 0#32),
    StableHlo.unary main_c_5 main_v68 (broadcastInDim S600000 ![] bcast_S_S600000 : (⟨S_, .i32⟩ : BufTy).Contents (Elt F) → (⟨S600000, .i32⟩ : BufTy).Contents (Elt F)),
    StableHlo.binary main_v1 main_v68 main_v69 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v70 (broadcastInDim S600000 ![] bcast_S_S600000 : (⟨S_, .i32⟩ : BufTy).Contents (Elt F) → (⟨S600000, .i32⟩ : BufTy).Contents (Elt F)),
    StableHlo.binary main_v1 main_v70 main_v71 (addi : (⟨S600000, .i32⟩ : BufTy).Contents (Elt F) → (⟨S600000, .i32⟩ : BufTy).Contents (Elt F) → (⟨S600000, .i32⟩ : BufTy).Contents (Elt F)),
    StableHlo.ternary main_v69 main_v71 main_v1 main_v72 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v72 main_v73 (broadcastInDim S600000x1 ![0] bcast_S600000_S600000x1_0 : (⟨S600000, .i32⟩ : BufTy).Contents (Elt F) → (⟨S600000x1, .i32⟩ : BufTy).Contents (Elt F)),
    StableHlo.binary main_v55 main_v73 main_v74 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v75 (broadcastInDim S50000x128 ![] bcast_S_S50000x128 : (⟨S_, .f32⟩ : BufTy).Contents (Elt F) → (⟨S50000x128, .f32⟩ : BufTy).Contents (Elt F)),
    StableHlo.unary main_v3 main_v76 (broadcastInDim S600000x1 ![0] bcast_S600000_S600000x1_0 : (⟨S600000, .i32⟩ : BufTy).Contents (Elt F) → (⟨S600000x1, .i32⟩ : BufTy).Contents (Elt F)),
    StableHlo.ternary main_v75 main_v76 main_v74 main_v77 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v55 main_v77 main_v78 (addf : (⟨S50000x128, .f32⟩ : BufTy).Contents (Elt F) → (⟨S50000x128, .f32⟩ : BufTy).Contents (Elt F) → (⟨S50000x128, .f32⟩ : BufTy).Contents (Elt F)),
    StableHlo.binary main_v78 main_v57 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v59 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S50000x128 ![0, 1] bcast_S1x128_S50000x128_0_1 : (⟨S1x128, .f32⟩ : BufTy).Contents (Elt F) → (⟨S50000x128, .f32⟩ : BufTy).Contents (Elt F)),
    StableHlo.binary main_v79 main_v81 main_v82 (addf : (⟨S50000x128, .f32⟩ : BufTy).Contents (Elt F) → (⟨S50000x128, .f32⟩ : BufTy).Contents (Elt F) → (⟨S50000x128, .f32⟩ : BufTy).Contents (Elt F)) ]

/-- Window 1 of @main, stretch 1: 4 operations in order. -/
abbrev part1_s1 : List (HloOp τ sig (Elt F)) :=
  [ StableHlo.binary main_v83 main_v61 main_v84 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v63 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v86 main_v87 (addf : (⟨S50000x128, .f32⟩ : BufTy).Contents (Elt F) → (⟨S50000x128, .f32⟩ : BufTy).Contents (Elt F) → (⟨S50000x128, .f32⟩ : BufTy).Contents (Elt F)) ]

/-- Window 1 of @main, stretch 2: 6 operations in order. -/
abbrev part1_s2 : List (HloOp τ sig (Elt F)) :=
  [ StableHlo.nullary main_cst_8 (constant S_ .f32 0x00000000#32),
    StableHlo.binary main_v88 main_cst_8 main_v89 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32) ]

/-- Window 1 of @main, stretch 3: 14 operations in order. -/
abbrev part1_s3 : List (HloOp τ sig (Elt F)) :=
  [ StableHlo.unary main_v91 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v88 main_v94 main_v95 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v96 (broadcastInDim S128 ![] bcast_S_S128 : (⟨S_, .f32⟩ : BufTy).Contents (Elt F) → (⟨S128, .f32⟩ : BufTy).Contents (Elt F)),
    StableHlo.binary main_v92 main_v96 main_v97 (addf : (⟨S128, .f32⟩ : BufTy).Contents (Elt F) → (⟨S128, .f32⟩ : BufTy).Contents (Elt F) → (⟨S128, .f32⟩ : BufTy).Contents (Elt F)),
    StableHlo.unary main_v97 main_v98 (Host.rsqrt : (⟨S128, .f32⟩ : BufTy).Contents (Elt F) → (⟨S128, .f32⟩ : BufTy).Contents (Elt F)),
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_v65 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (mulf : (⟨S50000x128, .f32⟩ : BufTy).Contents (Elt F) → (⟨S50000x128, .f32⟩ : BufTy).Contents (Elt F) → (⟨S50000x128, .f32⟩ : BufTy).Contents (Elt F)),
    StableHlo.unary main_v67 main_v105 (broadcastInDim S1x128 ![1] bcast_S128_S1x128_1 : (⟨S128, .f32⟩ : BufTy).Contents (Elt F) → (⟨S1x128, .f32⟩ : BufTy).Contents (Elt F)) ]

/-- Window 1 of @main: its stretches and, at each call, the callee's operations. -/
abbrev ops1 : List (HloOp τ sig (Elt F)) :=
  part1_s0 ++ (reluOps (.of main_v82) main_call3 ++ (part1_s1 ++ (reluOps (.of main_v87) main_call4 ++ (part1_s2 ++ (varOps (.of main_v88) (.of main_c_10) main_call5 ++ (part1_s3))))))

/-- Window 2 of @main, stretch 0: 32 operations in order. -/
abbrev part2_s0 : List (HloOp τ sig (Elt F)) :=
  [ StableHlo.unary main_v105 main_v106 (broadcastInDim S50000x128 ![0, 1] bcast_S1x128_S50000x128_0_1 : (⟨S1x128, .f32⟩ : BufTy).Contents (Elt F) → (⟨S50000x128, .f32⟩ : BufTy).Contents (Elt F)),
    StableHlo.binary main_v104 main_v106 main_v107 (addf : (⟨S50000x128, .f32⟩ : BufTy).Contents (Elt F) → (⟨S50000x128, .f32⟩ : BufTy).Contents (Elt F) → (⟨S50000x128, .f32⟩ : BufTy).Contents (Elt F)),
    StableHlo.unary main_arg2 main_v108 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v108 main_v109 rfl shapeCasts_S1x128x128_S128x128,
    StableHlo.unary main_arg3 main_v110 ((extractStridedSlice S1x128 ![2, 0] · slices_S4x128_S1x128_2_0) : (⟨S4x128, .f32⟩ : BufTy).Contents (Elt F) → (⟨S1x128, .f32⟩ : BufTy).Contents (Elt F)),
    StableHlo.reshape main_v110 main_v111 rfl shapeCasts_S1x128_S128,
    StableHlo.unary main_arg4 main_v112 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v112 main_v113 rfl shapeCasts_S1x128x128_S128x128,
    StableHlo.unary main_arg5 main_v114 ((extractStridedSlice S1x128 ![2, 0] · slices_S4x128_S1x128_2_0) : (⟨S4x128, .f32⟩ : BufTy).Contents (Elt F) → (⟨S1x128, .f32⟩ : BufTy).Contents (Elt F)),
    StableHlo.reshape main_v114 main_v115 rfl shapeCasts_S1x128_S128,
    StableHlo.unary main_arg6 main_v116 ((extractStridedSlice S1x128 ![2, 0] · slices_S4x128_S1x128_2_0) : (⟨S4x128, .f32⟩ : BufTy).Contents (Elt F) → (⟨S1x128, .f32⟩ : BufTy).Contents (Elt F)),
    StableHlo.reshape main_v116 main_v117 rfl shapeCasts_S1x128_S128,
    StableHlo.unary main_arg7 main_v118 ((extractStridedSlice S1x128 ![2, 0] · slices_S4x128_S1x128_2_0) : (⟨S4x128, .f32⟩ : BufTy).Contents (Elt F) → (⟨S1x128, .f32⟩ : BufTy).Contents (Elt F)),
    StableHlo.reshape main_v118 main_v119 rfl shapeCasts_S1x128_S128,
    StableHlo.nullary main_c_12 (constantI S_ 32 0#32),
    StableHlo.unary main_c_12 main_v120 (broadcastInDim S600000 ![] bcast_S_S600000 : (⟨S_, .i32⟩ : BufTy).Contents (Elt F) → (⟨S600000, .i32⟩ : BufTy).Contents (Elt F)),
    StableHlo.binary main_v1 main_v120 main_v121 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v122 (broadcastInDim S600000 ![] bcast_S_S600000 : (⟨S_, .i32⟩ : BufTy).Contents (Elt F) → (⟨S600000, .i32⟩ : BufTy).Contents (Elt F)),
    StableHlo.binary main_v1 main_v122 main_v123 (addi : (⟨S600000, .i32⟩ : BufTy).Contents (Elt F) → (⟨S600000, .i32⟩ : BufTy).Contents (Elt F) → (⟨S600000, .i32⟩ : BufTy).Contents (Elt F)),
    StableHlo.ternary main_v121 main_v123 main_v1 main_v124 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v124 main_v125 (broadcastInDim S600000x1 ![0] bcast_S600000_S600000x1_0 : (⟨S600000, .i32⟩ : BufTy).Contents (Elt F) → (⟨S600000x1, .i32⟩ : BufTy).Contents (Elt F)),
    StableHlo.binary main_v107 main_v125 main_v126 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_14 (constant S_ .f32 0x00000000#32),
    StableHlo.unary main_cst_14 main_v127 (broadcastInDim S50000x128 ![] bcast_S_S50000x128 : (⟨S_, .f32⟩ : BufTy).Contents (Elt F) → (⟨S50000x128, .f32⟩ : BufTy).Contents (Elt F)),
    StableHlo.unary main_v3 main_v128 (broadcastInDim S600000x1 ![0] bcast_S600000_S600000x1_0 : (⟨S600000, .i32⟩ : BufTy).Contents (Elt F) → (⟨S600000x1, .i32⟩ : BufTy).Contents (Elt F)),
    StableHlo.ternary main_v127 main_v128 main_v126 main_v129 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v107 main_v129 main_v130 (addf : (⟨S50000x128, .f32⟩ : BufTy).Contents (Elt F) → (⟨S50000x128, .f32⟩ : BufTy).Contents (Elt F) → (⟨S50000x128, .f32⟩ : BufTy).Contents (Elt F)),
    StableHlo.binary main_v130 main_v109 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v111 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v133 main_v134 (addf : (⟨S50000x128, .f32⟩ : BufTy).Contents (Elt F) → (⟨S50000x128, .f32⟩ : BufTy).Contents (Elt F) → (⟨S50000x128, .f32⟩ : BufTy).Contents (Elt F)) ]

/-- Window 2 of @main, stretch 1: 4 operations in order. -/
abbrev part2_s1 : List (HloOp τ sig (Elt F)) :=
  [ StableHlo.binary main_v135 main_v113 main_v136 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v115 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v138 main_v139 (addf : (⟨S50000x128, .f32⟩ : BufTy).Contents (Elt F) → (⟨S50000x128, .f32⟩ : BufTy).Contents (Elt F) → (⟨S50000x128, .f32⟩ : BufTy).Contents (Elt F)) ]

/-- Window 2 of @main, stretch 2: 6 operations in order. -/
abbrev part2_s2 : List (HloOp τ sig (Elt F)) :=
  [ StableHlo.nullary main_cst_15 (constant S_ .f32 0x00000000#32),
    StableHlo.binary main_v140 main_cst_15 main_v141 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v142 (broadcastInDim S128 ![] bcast_S_S128 : (⟨S_, .f32⟩ : BufTy).Contents (Elt F) → (⟨S128, .f32⟩ : BufTy).Contents (Elt F)),
    StableHlo.binary main_v141 main_v142 main_v143 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32) ]

/-- Window 2 of @main, stretch 3: 15 operations in order. -/
abbrev part2_s3 : List (HloOp τ sig (Elt F)) :=
  [ StableHlo.unary main_v143 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v146 main_v147 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v148 (broadcastInDim S128 ![] bcast_S_S128 : (⟨S_, .f32⟩ : BufTy).Contents (Elt F) → (⟨S128, .f32⟩ : BufTy).Contents (Elt F)),
    StableHlo.binary main_v144 main_v148 main_v149 (addf : (⟨S128, .f32⟩ : BufTy).Contents (Elt F) → (⟨S128, .f32⟩ : BufTy).Contents (Elt F) → (⟨S128, .f32⟩ : BufTy).Contents (Elt F)),
    StableHlo.unary main_v149 main_v150 (Host.rsqrt : (⟨S128, .f32⟩ : BufTy).Contents (Elt F) → (⟨S128, .f32⟩ : BufTy).Contents (Elt F)),
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v147 main_v152 main_v153 (mulf : (⟨S50000x128, .f32⟩ : BufTy).Contents (Elt F) → (⟨S50000x128, .f32⟩ : BufTy).Contents (Elt F) → (⟨S50000x128, .f32⟩ : BufTy).Contents (Elt F)),
    StableHlo.unary main_v117 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v155 main_v156 (mulf : (⟨S50000x128, .f32⟩ : BufTy).Contents (Elt F) → (⟨S50000x128, .f32⟩ : BufTy).Contents (Elt F) → (⟨S50000x128, .f32⟩ : BufTy).Contents (Elt F)),
    StableHlo.unary main_v119 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)) ]

/-- Window 2 of @main: its stretches and, at each call, the callee's operations. -/
abbrev ops2 : List (HloOp τ sig (Elt F)) :=
  part2_s0 ++ (reluOps (.of main_v134) main_call6 ++ (part2_s1 ++ (reluOps (.of main_v139) main_call7 ++ (part2_s2 ++ (varOps (.of main_v140) (.of main_c_17) main_call8 ++ (part2_s3))))))

/-- Window 3 of @main, stretch 0: 31 operations in order. -/
abbrev part3_s0 : List (HloOp τ sig (Elt F)) :=
  [ StableHlo.binary main_v156 main_v158 main_v159 (addf : (⟨S50000x128, .f32⟩ : BufTy).Contents (Elt F) → (⟨S50000x128, .f32⟩ : BufTy).Contents (Elt F) → (⟨S50000x128, .f32⟩ : BufTy).Contents (Elt F)),
    StableHlo.unary main_arg2 main_v160 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v160 main_v161 rfl shapeCasts_S1x128x128_S128x128,
    StableHlo.unary main_arg3 main_v162 ((extractStridedSlice S1x128 ![3, 0] · slices_S4x128_S1x128_3_0) : (⟨S4x128, .f32⟩ : BufTy).Contents (Elt F) → (⟨S1x128, .f32⟩ : BufTy).Contents (Elt F)),
    StableHlo.reshape main_v162 main_v163 rfl shapeCasts_S1x128_S128,
    StableHlo.unary main_arg4 main_v164 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v164 main_v165 rfl shapeCasts_S1x128x128_S128x128,
    StableHlo.unary main_arg5 main_v166 ((extractStridedSlice S1x128 ![3, 0] · slices_S4x128_S1x128_3_0) : (⟨S4x128, .f32⟩ : BufTy).Contents (Elt F) → (⟨S1x128, .f32⟩ : BufTy).Contents (Elt F)),
    StableHlo.reshape main_v166 main_v167 rfl shapeCasts_S1x128_S128,
    StableHlo.unary main_arg6 main_v168 ((extractStridedSlice S1x128 ![3, 0] · slices_S4x128_S1x128_3_0) : (⟨S4x128, .f32⟩ : BufTy).Contents (Elt F) → (⟨S1x128, .f32⟩ : BufTy).Contents (Elt F)),
    StableHlo.reshape main_v168 main_v169 rfl shapeCasts_S1x128_S128,
    StableHlo.unary main_arg7 main_v170 ((extractStridedSlice S1x128 ![3, 0] · slices_S4x128_S1x128_3_0) : (⟨S4x128, .f32⟩ : BufTy).Contents (Elt F) → (⟨S1x128, .f32⟩ : BufTy).Contents (Elt F)),
    StableHlo.reshape main_v170 main_v171 rfl shapeCasts_S1x128_S128,
    StableHlo.nullary main_c_19 (constantI S_ 32 0#32),
    StableHlo.unary main_c_19 main_v172 (broadcastInDim S600000 ![] bcast_S_S600000 : (⟨S_, .i32⟩ : BufTy).Contents (Elt F) → (⟨S600000, .i32⟩ : BufTy).Contents (Elt F)),
    StableHlo.binary main_v1 main_v172 main_v173 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v174 (broadcastInDim S600000 ![] bcast_S_S600000 : (⟨S_, .i32⟩ : BufTy).Contents (Elt F) → (⟨S600000, .i32⟩ : BufTy).Contents (Elt F)),
    StableHlo.binary main_v1 main_v174 main_v175 (addi : (⟨S600000, .i32⟩ : BufTy).Contents (Elt F) → (⟨S600000, .i32⟩ : BufTy).Contents (Elt F) → (⟨S600000, .i32⟩ : BufTy).Contents (Elt F)),
    StableHlo.ternary main_v173 main_v175 main_v1 main_v176 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v176 main_v177 (broadcastInDim S600000x1 ![0] bcast_S600000_S600000x1_0 : (⟨S600000, .i32⟩ : BufTy).Contents (Elt F) → (⟨S600000x1, .i32⟩ : BufTy).Contents (Elt F)),
    StableHlo.binary main_v159 main_v177 main_v178 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_21 (constant S_ .f32 0x00000000#32),
    StableHlo.unary main_cst_21 main_v179 (broadcastInDim S50000x128 ![] bcast_S_S50000x128 : (⟨S_, .f32⟩ : BufTy).Contents (Elt F) → (⟨S50000x128, .f32⟩ : BufTy).Contents (Elt F)),
    StableHlo.unary main_v3 main_v180 (broadcastInDim S600000x1 ![0] bcast_S600000_S600000x1_0 : (⟨S600000, .i32⟩ : BufTy).Contents (Elt F) → (⟨S600000x1, .i32⟩ : BufTy).Contents (Elt F)),
    StableHlo.ternary main_v179 main_v180 main_v178 main_v181 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v159 main_v181 main_v182 (addf : (⟨S50000x128, .f32⟩ : BufTy).Contents (Elt F) → (⟨S50000x128, .f32⟩ : BufTy).Contents (Elt F) → (⟨S50000x128, .f32⟩ : BufTy).Contents (Elt F)),
    StableHlo.binary main_v182 main_v161 main_v183 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v163 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v185 main_v186 (addf : (⟨S50000x128, .f32⟩ : BufTy).Contents (Elt F) → (⟨S50000x128, .f32⟩ : BufTy).Contents (Elt F) → (⟨S50000x128, .f32⟩ : BufTy).Contents (Elt F)) ]

/-- Window 3 of @main, stretch 1: 4 operations in order. -/
abbrev part3_s1 : List (HloOp τ sig (Elt F)) :=
  [ StableHlo.binary main_v187 main_v165 main_v188 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v167 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v190 main_v191 (addf : (⟨S50000x128, .f32⟩ : BufTy).Contents (Elt F) → (⟨S50000x128, .f32⟩ : BufTy).Contents (Elt F) → (⟨S50000x128, .f32⟩ : BufTy).Contents (Elt F)) ]

/-- Window 3 of @main, stretch 2: 6 operations in order. -/
abbrev part3_s2 : List (HloOp τ sig (Elt F)) :=
  [ StableHlo.nullary main_cst_22 (constant S_ .f32 0x00000000#32),
    StableHlo.binary main_v192 main_cst_22 main_v193 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v194 (broadcastInDim S128 ![] bcast_S_S128 : (⟨S_, .f32⟩ : BufTy).Contents (Elt F) → (⟨S128, .f32⟩ : BufTy).Contents (Elt F)),
    StableHlo.binary main_v193 main_v194 main_v195 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32) ]

/-- Window 3 of @main, stretch 3: 16 operations in order. -/
abbrev part3_s3 : List (HloOp τ sig (Elt F)) :=
  [ StableHlo.unary main_v195 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S50000x128 ![0, 1] bcast_S1x128_S50000x128_0_1 : (⟨S1x128, .f32⟩ : BufTy).Contents (Elt F) → (⟨S50000x128, .f32⟩ : BufTy).Contents (Elt F)),
    StableHlo.binary main_v192 main_v198 main_v199 (subf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v200 (broadcastInDim S128 ![] bcast_S_S128 : (⟨S_, .f32⟩ : BufTy).Contents (Elt F) → (⟨S128, .f32⟩ : BufTy).Contents (Elt F)),
    StableHlo.binary main_v196 main_v200 main_v201 (addf : (⟨S128, .f32⟩ : BufTy).Contents (Elt F) → (⟨S128, .f32⟩ : BufTy).Contents (Elt F) → (⟨S128, .f32⟩ : BufTy).Contents (Elt F)),
    StableHlo.unary main_v201 main_v202 (Host.rsqrt : (⟨S128, .f32⟩ : BufTy).Contents (Elt F) → (⟨S128, .f32⟩ : BufTy).Contents (Elt F)),
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v199 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_v169 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v205 main_v207 main_v208 (mulf : (⟨S50000x128, .f32⟩ : BufTy).Contents (Elt F) → (⟨S50000x128, .f32⟩ : BufTy).Contents (Elt F) → (⟨S50000x128, .f32⟩ : BufTy).Contents (Elt F)),
    StableHlo.unary main_v171 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v210 main_v211 (addf : (⟨S50000x128, .f32⟩ : BufTy).Contents (Elt F) → (⟨S50000x128, .f32⟩ : BufTy).Contents (Elt F) → (⟨S50000x128, .f32⟩ : BufTy).Contents (Elt F)) ]

/-- Window 3 of @main: its stretches and, at each call, the callee's operations. -/
abbrev ops3 : List (HloOp τ sig (Elt F)) :=
  part3_s0 ++ (reluOps (.of main_v186) main_call9 ++ (part3_s1 ++ (reluOps (.of main_v191) main_call10 ++ (part3_s2 ++ (varOps (.of main_v192) (.of main_c_24) main_call11 ++ (part3_s3))))))

/-- Window 4 of @main, stretch 0: 5 operations in order. -/
abbrev part4_s0 : List (HloOp τ sig (Elt F)) :=
  [ StableHlo.nary ![main_v55, main_v107, main_v159, main_v211] main_v212 (fun u => concatenate S50000x512 1 [⟨S50000x128, u 0⟩, ⟨S50000x128, u 1⟩, ⟨S50000x128, u 2⟩, ⟨S50000x128, u 3⟩] concatenates_S50000x128_S50000x128_S50000x128_S50000x128_S50000x512_d1),
    StableHlo.binary main_v212 main_arg8 main_v213 ((fun l r => Host.dotGeneral dot_S50000x512_S512x128_S50000x128_1_0_0_1_n_n none l r) : (⟨S50000x512, .f32⟩ : BufTy).Contents (Elt F) → (⟨S512x128, .f32⟩ : BufTy).Contents (Elt F) → (⟨S50000x128, .f32⟩ : BufTy).Contents (Elt F)),
    StableHlo.unary main_arg9 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S50000x128 ![0, 1] bcast_S1x128_S50000x128_0_1 : (⟨S1x128, .f32⟩ : BufTy).Contents (Elt F) → (⟨S50000x128, .f32⟩ : BufTy).Contents (Elt F)),
    StableHlo.binary main_v213 main_v215 main_v216 (addf : (⟨S50000x128, .f32⟩ : BufTy).Contents (Elt F) → (⟨S50000x128, .f32⟩ : BufTy).Contents (Elt F) → (⟨S50000x128, .f32⟩ : BufTy).Contents (Elt F)) ]

/-- Window 4 of @main, stretch 1: 4 operations in order. -/
abbrev part4_s1 : List (HloOp τ sig (Elt F)) :=
  [ StableHlo.binary main_v217 main_arg10 main_v218 ((fun l r => Host.dotGeneral dot_S50000x128_S128x8_S50000x8_1_0_0_1_n_n none l r) : (⟨S50000x128, .f32⟩ : BufTy).Contents (Elt F) → (⟨S128x8, .f32⟩ : BufTy).Contents (Elt F) → (⟨S50000x8, .f32⟩ : BufTy).Contents (Elt F)),
    StableHlo.unary main_arg11 main_v219 (broadcastInDim S1x8 ![1] bcast_S8_S1x8_1 : (⟨S8, .f32⟩ : BufTy).Contents (Elt F) → (⟨S1x8, .f32⟩ : BufTy).Contents (Elt F)),
    StableHlo.unary main_v219 main_v220 (broadcastInDim S50000x8 ![0, 1] bcast_S1x8_S50000x8_0_1 : (⟨S1x8, .f32⟩ : BufTy).Contents (Elt F) → (⟨S50000x8, .f32⟩ : BufTy).Contents (Elt F)),
    StableHlo.binary main_v218 main_v220 main_v221 (addf : (⟨S50000x8, .f32⟩ : BufTy).Contents (Elt F) → (⟨S50000x8, .f32⟩ : BufTy).Contents (Elt F) → (⟨S50000x8, .f32⟩ : BufTy).Contents (Elt F)) ]

/-- Window 4 of @main: its stretches and, at each call, the callee's operations. -/
abbrev ops4 : List (HloOp τ sig (Elt F)) :=
  part4_s0 ++ (reluOps (.of main_v216) main_call12 ++ (part4_s1))

/-- @main's operations in order, the outlined functions' operations at their call sites. -/
abbrev ops : List (HloOp τ sig (Elt F)) :=
  ops0 ++ (ops1 ++ (ops2 ++ (ops3 ++ (ops4))))

end Cert.ReferenceIdeal.Hand

end
-- ==== Proof.RefRun.lean ====
import proofs.«166660_j61229053772418_1_alg».proof.Proof.RefOps
noncomputable section
namespace Cert.ReferenceIdeal.Hand
open Cert.ReferenceIdeal Cert.ReferenceIdeal.Gen Idealize.ShloMosaic Idealize.ShloMosaic.TcCoe Idealize.SL.Sem Idealize.ShloMosaic.StableHlo
variable {F : FTy → Type} [FloatOps F]
section Line
variable {n : Nat} {t : Topo} {s : RefSig} {Val : EltTy → Type} {L : Labels}
def seqThen : List (HloOp t s Val) → Prog (TpuEff n t s Val L .tc) PUnit → Prog (TpuEff n t s Val L .tc) PUnit
  | [], k => k
  | op :: l, k => (hlo rfl op fun _ => .ret (⟨⟩ : PUnit)) >>= fun _ => seqThen l k
theorem seqThen_eq (l : List (HloOp t s Val)) (k : Prog (TpuEff n t s Val L .tc) PUnit) :
    seqThen l k = seq l >>= fun _ => k := by
  induction l with
  | nil => simp only [seqThen, seq, pure_bind]
  | cons op l ih => simp only [seqThen, seq, ih, bind_assoc]
theorem forall_append' {p : HloOp t s Val → Prop} {l₁ l₂ : List (HloOp t s Val)} (h₁ : l₁.Forall p) (h₂ : l₂.Forall p) :
    (l₁ ++ l₂).Forall p := List.forall_append.2 ⟨h₁, h₂⟩
end Line
theorem relu_eq (a : StableHlo.TRef sig ⟨S50000x128, .f32⟩) (φ : fn_relu.Bufs) :
    fn_relu.body (F := F) a φ = seq (reluOps a φ) := rfl
theorem where_eq (p : StableHlo.TRef sig ⟨S_, .i1⟩) (a : StableHlo.TRef sig ⟨S128, .f32⟩) (b : StableHlo.TRef sig ⟨S_, .f32⟩)
    (φ : fn_where.Bufs) : fn_where.body (F := F) p a b φ = seq (whereOps p a b φ) := rfl
theorem var_eq (a : StableHlo.TRef sig ⟨S50000x128, .f32⟩) (c : StableHlo.TRef sig ⟨S_, .i32⟩) (φ : fn_var.Bufs) :
    fn_var.body (F := F) a c φ = seq (varOps a c φ) := by
  have h : fn_var.body (F := F) a c φ
      = seqThen (var_s0 a c φ) (fn_where.body φ.v12 φ.v11 φ.cst_4 φ.call0 >>= fun _ => pure ⟨⟩) := rfl
  rw [h, bind_pure_unit, seqThen_eq, where_eq, ← seq_append]
theorem part0_eq (d : Dev nD) : main_part0 (F := F) d = seq ops0 := by
  have h : main_part0 (F := F) d
      = seqThen part0_s0 (fn_relu.body (.of main_v30) main_call0 >>= fun _ =>
        seqThen part0_s1 (fn_relu.body (.of main_v35) main_call1 >>= fun _ =>
        seqThen part0_s2 (fn_var.body (.of main_v36) (.of main_c_3) main_call2 >>= fun _ =>
        seq part0_s3))) := rfl
  rw [h]
  simp only [seqThen_eq, relu_eq, var_eq, seq_append]
theorem part1_eq (d : Dev nD) : main_part1 (F := F) d = seq ops1 := by
  have h : main_part1 (F := F) d
      = seqThen part1_s0 (fn_relu.body (.of main_v82) main_call3 >>= fun _ =>
        seqThen part1_s1 (fn_relu.body (.of main_v87) main_call4 >>= fun _ =>
        seqThen part1_s2 (fn_var.body (.of main_v88) (.of main_c_10) main_call5 >>= fun _ =>
        seq part1_s3))) := rfl
  rw [h]
  simp only [seqThen_eq, relu_eq, var_eq, seq_append]
theorem part2_eq (d : Dev nD) : main_part2 (F := F) d = seq ops2 := by
  have h : main_part2 (F := F) d
      = seqThen part2_s0 (fn_relu.body (.of main_v134) main_call6 >>= fun _ =>
        seqThen part2_s1 (fn_relu.body (.of main_v139) main_call7 >>= fun _ =>
        seqThen part2_s2 (fn_var.body (.of main_v140) (.of main_c_17) main_call8 >>= fun _ =>
        seq part2_s3))) := rfl
  rw [h]
  simp only [seqThen_eq, relu_eq, var_eq, seq_append]
theorem part3_eq (d : Dev nD) : main_part3 (F := F) d = seq ops3 := by
  have h : main_part3 (F := F) d
      = seqThen part3_s0 (fn_relu.body (.of main_v186) main_call9 >>= fun _ =>
        seqThen part3_s1 (fn_relu.body (.of main_v191) main_call10 >>= fun _ =>
        seqThen part3_s2 (fn_var.body (.of main_v192) (.of main_c_24) main_call11 >>= fun _ =>
        seq part3_s3))) := rfl
  rw [h]
  simp only [seqThen_eq, relu_eq, var_eq, seq_append]
theorem part4_eq (d : Dev nD) : main_part4 (F := F) d = seq ops4 := by
  have h : main_part4 (F := F) d
      = seqThen part4_s0 (fn_relu.body (.of main_v216) main_call12 >>= fun _ => seq part4_s1) := rfl
  rw [h]
  simp only [seqThen_eq, relu_eq, seq_append]
theorem main_eq (c : Dev nD) : main (F := F) c = seq ops := by
  have h : main (F := F) c
      = (main_part0 c >>= fun _ => main_part1 c >>= fun _ => main_part2 c >>= fun _ => main_part3 c >>= fun _ => main_part4 c) := rfl
  rw [h, part0_eq, part1_eq, part2_eq, part3_eq, part4_eq]
  simp only [seq_append]
macro "line_bufs_sub" : tactic =>
  `(tactic| simp only [List.Forall, List.forall_cons, nullary_bufs_sub, unary_bufs_sub, binary_bufs_sub, ternary_bufs_sub,
      reshape_bufs_sub, nary_bufs_sub, and_self])
macro "line_fresh" : tactic =>
  `(tactic| repeat' (first | exact rfl | refine ⟨?_, ?_⟩))
theorem relu_sub (a : StableHlo.TRef sig ⟨S50000x128, .f32⟩) (φ : fn_relu.Bufs) :
    (reluOps (F := F) a φ).Forall fun op => op.bufs ⊆ tcRefs τ sig := by line_bufs_sub
theorem where_sub (p : StableHlo.TRef sig ⟨S_, .i1⟩) (a : StableHlo.TRef sig ⟨S128, .f32⟩) (b : StableHlo.TRef sig ⟨S_, .f32⟩)
    (φ : fn_where.Bufs) : (whereOps (F := F) p a b φ).Forall fun op => op.bufs ⊆ tcRefs τ sig := by line_bufs_sub
theorem var_s0_sub (a : StableHlo.TRef sig ⟨S50000x128, .f32⟩) (c : StableHlo.TRef sig ⟨S_, .i32⟩) (φ : fn_var.Bufs) :
    (var_s0 (F := F) a c φ).Forall fun op => op.bufs ⊆ tcRefs τ sig := by line_bufs_sub
theorem var_sub (a : StableHlo.TRef sig ⟨S50000x128, .f32⟩) (c : StableHlo.TRef sig ⟨S_, .i32⟩) (φ : fn_var.Bufs) :
    (varOps (F := F) a c φ).Forall fun op => op.bufs ⊆ tcRefs τ sig :=
  forall_append' (var_s0_sub a c φ) (where_sub ..)
theorem relu_fresh (a : StableHlo.TRef sig ⟨S50000x128, .f32⟩) (φ : fn_relu.Bufs) :
    (reluOps (F := F) a φ).Forall fun op => op.fresh = ∅ := by line_fresh
theorem where_fresh (p : StableHlo.TRef sig ⟨S_, .i1⟩) (a : StableHlo.TRef sig ⟨S128, .f32⟩) (b : StableHlo.TRef sig ⟨S_, .f32⟩)
    (φ : fn_where.Bufs) : (whereOps (F := F) p a b φ).Forall fun op => op.fresh = ∅ := by line_fresh
theorem var_s0_fresh (a : StableHlo.TRef sig ⟨S50000x128, .f32⟩) (c : StableHlo.TRef sig ⟨S_, .i32⟩) (φ : fn_var.Bufs) :
    (var_s0 (F := F) a c φ).Forall fun op => op.fresh = ∅ := by line_fresh
theorem var_fresh (a : StableHlo.TRef sig ⟨S50000x128, .f32⟩) (c : StableHlo.TRef sig ⟨S_, .i32⟩) (φ : fn_var.Bufs) :
    (varOps (F := F) a c φ).Forall fun op => op.fresh = ∅ :=
  forall_append' (var_s0_fresh a c φ) (where_fresh ..)
theorem part0_s0_sub : (part0_s0 : List (HloOp τ sig (Elt F))).Forall fun op => op.bufs ⊆ tcRefs τ sig := by line_bufs_sub
theorem part0_s1_sub : (part0_s1 : List (HloOp τ sig (Elt F))).Forall fun op => op.bufs ⊆ tcRefs τ sig := by line_bufs_sub
theorem part0_s2_sub : (part0_s2 : List (HloOp τ sig (Elt F))).Forall fun op => op.bufs ⊆ tcRefs τ sig := by line_bufs_sub
theorem part0_s3_sub : (part0_s3 : List (HloOp τ sig (Elt F))).Forall fun op => op.bufs ⊆ tcRefs τ sig := by line_bufs_sub
theorem part1_s0_sub : (part1_s0 : List (HloOp τ sig (Elt F))).Forall fun op => op.bufs ⊆ tcRefs τ sig := by line_bufs_sub
theorem part1_s1_sub : (part1_s1 : List (HloOp τ sig (Elt F))).Forall fun op => op.bufs ⊆ tcRefs τ sig := by line_bufs_sub
theorem part1_s2_sub : (part1_s2 : List (HloOp τ sig (Elt F))).Forall fun op => op.bufs ⊆ tcRefs τ sig := by line_bufs_sub
theorem part1_s3_sub : (part1_s3 : List (HloOp τ sig (Elt F))).Forall fun op => op.bufs ⊆ tcRefs τ sig := by line_bufs_sub
theorem part2_s0_sub : (part2_s0 : List (HloOp τ sig (Elt F))).Forall fun op => op.bufs ⊆ tcRefs τ sig := by line_bufs_sub
theorem part2_s1_sub : (part2_s1 : List (HloOp τ sig (Elt F))).Forall fun op => op.bufs ⊆ tcRefs τ sig := by line_bufs_sub
theorem part2_s2_sub : (part2_s2 : List (HloOp τ sig (Elt F))).Forall fun op => op.bufs ⊆ tcRefs τ sig := by line_bufs_sub
theorem part2_s3_sub : (part2_s3 : List (HloOp τ sig (Elt F))).Forall fun op => op.bufs ⊆ tcRefs τ sig := by line_bufs_sub
theorem part3_s0_sub : (part3_s0 : List (HloOp τ sig (Elt F))).Forall fun op => op.bufs ⊆ tcRefs τ sig := by line_bufs_sub
theorem part3_s1_sub : (part3_s1 : List (HloOp τ sig (Elt F))).Forall fun op => op.bufs ⊆ tcRefs τ sig := by line_bufs_sub
theorem part3_s2_sub : (part3_s2 : List (HloOp τ sig (Elt F))).Forall fun op => op.bufs ⊆ tcRefs τ sig := by line_bufs_sub
theorem part3_s3_sub : (part3_s3 : List (HloOp τ sig (Elt F))).Forall fun op => op.bufs ⊆ tcRefs τ sig := by line_bufs_sub
theorem part4_s0_sub : (part4_s0 : List (HloOp τ sig (Elt F))).Forall fun op => op.bufs ⊆ tcRefs τ sig := by line_bufs_sub
theorem part4_s1_sub : (part4_s1 : List (HloOp τ sig (Elt F))).Forall fun op => op.bufs ⊆ tcRefs τ sig := by line_bufs_sub
theorem part0_s0_fresh : (part0_s0 : List (HloOp τ sig (Elt F))).Forall fun op => op.fresh = ∅ := by line_fresh
theorem part0_s1_fresh : (part0_s1 : List (HloOp τ sig (Elt F))).Forall fun op => op.fresh = ∅ := by line_fresh
theorem part0_s2_fresh : (part0_s2 : List (HloOp τ sig (Elt F))).Forall fun op => op.fresh = ∅ := by line_fresh
theorem part0_s3_fresh : (part0_s3 : List (HloOp τ sig (Elt F))).Forall fun op => op.fresh = ∅ := by line_fresh
theorem part1_s0_fresh : (part1_s0 : List (HloOp τ sig (Elt F))).Forall fun op => op.fresh = ∅ := by line_fresh
theorem part1_s1_fresh : (part1_s1 : List (HloOp τ sig (Elt F))).Forall fun op => op.fresh = ∅ := by line_fresh
theorem part1_s2_fresh : (part1_s2 : List (HloOp τ sig (Elt F))).Forall fun op => op.fresh = ∅ := by line_fresh
theorem part1_s3_fresh : (part1_s3 : List (HloOp τ sig (Elt F))).Forall fun op => op.fresh = ∅ := by line_fresh
theorem part2_s0_fresh : (part2_s0 : List (HloOp τ sig (Elt F))).Forall fun op => op.fresh = ∅ := by line_fresh
theorem part2_s1_fresh : (part2_s1 : List (HloOp τ sig (Elt F))).Forall fun op => op.fresh = ∅ := by line_fresh
theorem part2_s2_fresh : (part2_s2 : List (HloOp τ sig (Elt F))).Forall fun op => op.fresh = ∅ := by line_fresh
theorem part2_s3_fresh : (part2_s3 : List (HloOp τ sig (Elt F))).Forall fun op => op.fresh = ∅ := by line_fresh
theorem part3_s0_fresh : (part3_s0 : List (HloOp τ sig (Elt F))).Forall fun op => op.fresh = ∅ := by line_fresh
theorem part3_s1_fresh : (part3_s1 : List (HloOp τ sig (Elt F))).Forall fun op => op.fresh = ∅ := by line_fresh
theorem part3_s2_fresh : (part3_s2 : List (HloOp τ sig (Elt F))).Forall fun op => op.fresh = ∅ := by line_fresh
theorem part3_s3_fresh : (part3_s3 : List (HloOp τ sig (Elt F))).Forall fun op => op.fresh = ∅ := by line_fresh
theorem part4_s0_fresh : (part4_s0 : List (HloOp τ sig (Elt F))).Forall fun op => op.fresh = ∅ := by line_fresh
theorem part4_s1_fresh : (part4_s1 : List (HloOp τ sig (Elt F))).Forall fun op => op.fresh = ∅ := by line_fresh
theorem ops0_sub : (ops0 : List (HloOp τ sig (Elt F))).Forall fun op => op.bufs ⊆ tcRefs τ sig :=
  forall_append' part0_s0_sub (forall_append' (relu_sub ..) (forall_append' part0_s1_sub (forall_append' (relu_sub ..)
    (forall_append' part0_s2_sub (forall_append' (var_sub ..) part0_s3_sub)))))
theorem ops1_sub : (ops1 : List (HloOp τ sig (Elt F))).Forall fun op => op.bufs ⊆ tcRefs τ sig :=
  forall_append' part1_s0_sub (forall_append' (relu_sub ..) (forall_append' part1_s1_sub (forall_append' (relu_sub ..)
    (forall_append' part1_s2_sub (forall_append' (var_sub ..) part1_s3_sub)))))
theorem ops2_sub : (ops2 : List (HloOp τ sig (Elt F))).Forall fun op => op.bufs ⊆ tcRefs τ sig :=
  forall_append' part2_s0_sub (forall_append' (relu_sub ..) (forall_append' part2_s1_sub (forall_append' (relu_sub ..)
    (forall_append' part2_s2_sub (forall_append' (var_sub ..) part2_s3_sub)))))
theorem ops3_sub : (ops3 : List (HloOp τ sig (Elt F))).Forall fun op => op.bufs ⊆ tcRefs τ sig :=
  forall_append' part3_s0_sub (forall_append' (relu_sub ..) (forall_append' part3_s1_sub (forall_append' (relu_sub ..)
    (forall_append' part3_s2_sub (forall_append' (var_sub ..) part3_s3_sub)))))
theorem ops4_sub : (ops4 : List (HloOp τ sig (Elt F))).Forall fun op => op.bufs ⊆ tcRefs τ sig :=
  forall_append' part4_s0_sub (forall_append' (relu_sub ..) part4_s1_sub)
theorem ops0_fresh : (ops0 : List (HloOp τ sig (Elt F))).Forall fun op => op.fresh = ∅ :=
  forall_append' part0_s0_fresh (forall_append' (relu_fresh ..) (forall_append' part0_s1_fresh (forall_append' (relu_fresh ..)
    (forall_append' part0_s2_fresh (forall_append' (var_fresh ..) part0_s3_fresh)))))
theorem ops1_fresh : (ops1 : List (HloOp τ sig (Elt F))).Forall fun op => op.fresh = ∅ :=
  forall_append' part1_s0_fresh (forall_append' (relu_fresh ..) (forall_append' part1_s1_fresh (forall_append' (relu_fresh ..)
    (forall_append' part1_s2_fresh (forall_append' (var_fresh ..) part1_s3_fresh)))))
theorem ops2_fresh : (ops2 : List (HloOp τ sig (Elt F))).Forall fun op => op.fresh = ∅ :=
  forall_append' part2_s0_fresh (forall_append' (relu_fresh ..) (forall_append' part2_s1_fresh (forall_append' (relu_fresh ..)
    (forall_append' part2_s2_fresh (forall_append' (var_fresh ..) part2_s3_fresh)))))
theorem ops3_fresh : (ops3 : List (HloOp τ sig (Elt F))).Forall fun op => op.fresh = ∅ :=
  forall_append' part3_s0_fresh (forall_append' (relu_fresh ..) (forall_append' part3_s1_fresh (forall_append' (relu_fresh ..)
    (forall_append' part3_s2_fresh (forall_append' (var_fresh ..) part3_s3_fresh)))))
theorem ops4_fresh : (ops4 : List (HloOp τ sig (Elt F))).Forall fun op => op.fresh = ∅ :=
  forall_append' part4_s0_fresh (forall_append' (relu_fresh ..) part4_s1_fresh)
theorem ops_sub : (ops : List (HloOp τ sig (Elt F))).Forall fun op => op.bufs ⊆ tcRefs τ sig :=
  forall_append' ops0_sub (forall_append' ops1_sub (forall_append' ops2_sub (forall_append' ops3_sub ops4_sub)))
theorem ops_fresh : (ops : List (HloOp τ sig (Elt F))).Forall fun op => op.fresh = ∅ :=
  forall_append' ops0_fresh (forall_append' ops1_fresh (forall_append' ops2_fresh (forall_append' ops3_fresh ops4_fresh)))
theorem scopedRefs_eq : (Finset.univ.filter fun b : Ref sig .tc => b.isScoped) = ∅ := by decide
theorem scopedSems_eq : (Finset.univ.filter fun sm : SemLoc sig => sm.isScoped .tc) = ∅ := by decide
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)
end Cert.ReferenceIdeal.Hand
end
-- ==== Proof.Spec.lean ====
import Idealize.ShloMosaic.PureOps.Ideal
noncomputable section
namespace GinSpec
open Idealize.ShloMosaic
open scoped BigOperators
abbrev Mat (n k : ℕ) : Type := Fin n → Fin k → EReal
abbrev Row (k : ℕ) : Type := Fin k → EReal
def RealM {n k : ℕ} (h : Mat n k) : Prop := ∀ r j, ∃ a : ℝ, h r j = (a : EReal)
def RealR {k : ℕ} (b : Row k) : Prop := ∀ j, ∃ a : ℝ, b j = (a : EReal)
abbrev nodes : ℝ := 50000
def eps : EReal := Ideal.ofBits .f32 0x3727C5AC#32
def relu (a : EReal) : EReal := max a 0
def lin {n d e : ℕ} (p : Mat n d) (W : Mat d e) (b : Row e) : Mat n e :=
  fun r j => (∑ k : Fin d, p r k * W k j) + b j
def mlp {n d : ℕ} (p : Mat n d) (W1 : Mat d d) (b1 : Row d) (W2 : Mat d d) (b2 : Row d) : Mat n d :=
  fun r j => relu (lin (fun r' k => relu (lin p W1 b1 r' k)) W2 b2 r j)
def colSum {n d : ℕ} (h : Mat n d) : Row d := fun j => ∑ r : Fin n, h r j
def colSumSq {n d : ℕ} (h : Mat n d) : Row d := fun j => ∑ r : Fin n, h r j * h r j
def meanMul {n d : ℕ} (h : Mat n d) : Row d := fun j => colSum h j * ((1 / nodes : ℝ) : EReal)
def varMul {n d : ℕ} (h : Mat n d) : Row d :=
  fun j => colSumSq h j * ((1 / nodes : ℝ) : EReal) - meanMul h j * meanMul h j
def meanDiv {n d : ℕ} (h : Mat n d) : Row d := fun j => Ideal.div (colSum h j) ((nodes : ℝ) : EReal)
def varDiv {n d : ℕ} (h : Mat n d) : Row d :=
  fun j => Ideal.div (∑ r : Fin n, (h r j - meanDiv h j) * (h r j - meanDiv h j)) ((nodes : ℝ) : EReal)
def bn {n d : ℕ} (h : Mat n d) (mean var g bt : Row d) : Mat n d :=
  fun r j => (h r j - mean j) * Ideal.rsqrt (var j + eps) * g j + bt j
def hidden {n d : ℕ} (x a : Mat n d) (W1 : Mat d d) (b1 : Row d) (W2 : Mat d d) (b2 : Row d) : Mat n d :=
  mlp (fun r j => x r j + a r j) W1 b1 W2 b2
def layerMul {n d : ℕ} (x a : Mat n d) (W1 : Mat d d) (b1 : Row d) (W2 : Mat d d) (b2 g bt : Row d) : Mat n d :=
  bn (hidden x a W1 b1 W2 b2) (meanMul (hidden x a W1 b1 W2 b2)) (varMul (hidden x a W1 b1 W2 b2)) g bt
def layerDiv {n d : ℕ} (x a : Mat n d) (W1 : Mat d d) (b1 : Row d) (W2 : Mat d d) (b2 g bt : Row d) : Mat n d :=
  bn (hidden x a W1 b1 W2 b2) (meanDiv (hidden x a W1 b1 W2 b2)) (varDiv (hidden x a W1 b1 W2 b2)) g bt
def rowBlock {d e : ℕ} (L : Mat (4 * d) e) (q : Fin 4) : Mat d e :=
  fun l j => L ⟨q.val * d + l.val, by
    have := l.isLt; have := q.isLt; nlinarith⟩ j
def beside {n d : ℕ} (h : Fin 4 → Mat n d) : Mat n (4 * d) :=
  fun r l => h ⟨l.val / d, by
      have hl := l.isLt
      rcases Nat.eq_zero_or_pos d with hd | hd
      · subst hd; simp at hl
      · exact Nat.div_lt_of_lt_mul (by simpa [Nat.mul_comm] using hl)⟩ r
    ⟨l.val % d, by
      have hl := l.isLt
      rcases Nat.eq_zero_or_pos d with hd | hd
      · subst hd; simp at hl
      · exact Nat.mod_lt _ hd⟩
def headBlocks {n d o : ℕ} (h : Fin 4 → Mat n d) (L : Mat (4 * d) d) (b1 : Row d) (W2 : Mat d o) (b2 : Row o) : Mat n o :=
  fun r j => (∑ k : Fin d,
      relu (((((∑ l : Fin d, h 0 r l * rowBlock L 0 l k) + ∑ l : Fin d, h 1 r l * rowBlock L 1 l k)
          + ∑ l : Fin d, h 2 r l * rowBlock L 2 l k) + ∑ l : Fin d, h 3 r l * rowBlock L 3 l k) + b1 k) * W2 k j) + b2 j
def headWhole {n d o : ℕ} (h : Fin 4 → Mat n d) (L : Mat (4 * d) d) (b1 : Row d) (W2 : Mat d o) (b2 : Row o) : Mat n o :=
  fun r j => (∑ k : Fin d, relu ((∑ l : Fin (4 * d), beside h r l * L l k) + b1 k) * W2 k j) + b2 j
structure Params (d : ℕ) where
  W1 : Mat d d
  b1 : Row d
  W2 : Mat d d
  b2 : Row d
  g : Row d
  bt : Row d
def Params.Real {d : ℕ} (P : Params d) : Prop :=
  RealM P.W1 ∧ RealR P.b1 ∧ RealM P.W2 ∧ RealR P.b2 ∧ RealR P.g ∧ RealR P.bt
def featMul {n d : ℕ} (A : Mat n d → Mat n d) (x : Mat n d) (P : Fin 4 → Params d) : (l : ℕ) → l ≤ 4 → Mat n d
  | 0, _ => x
  | l + 1, hl =>
    let y := featMul A x P l (Nat.le_of_succ_le hl)
    layerMul y (A y) (P ⟨l, hl⟩).W1 (P ⟨l, hl⟩).b1 (P ⟨l, hl⟩).W2 (P ⟨l, hl⟩).b2 (P ⟨l, hl⟩).g (P ⟨l, hl⟩).bt
def featDiv {n d : ℕ} (A : Mat n d → Mat n d) (x : Mat n d) (P : Fin 4 → Params d) : (l : ℕ) → l ≤ 4 → Mat n d
  | 0, _ => x
  | l + 1, hl =>
    let y := featDiv A x P l (Nat.le_of_succ_le hl)
    layerDiv y (A y) (P ⟨l, hl⟩).W1 (P ⟨l, hl⟩).b1 (P ⟨l, hl⟩).W2 (P ⟨l, hl⟩).b2 (P ⟨l, hl⟩).g (P ⟨l, hl⟩).bt
def netMul {n d o : ℕ} (A : Mat n d → Mat n d) (x : Mat n d) (P : Fin 4 → Params d)
    (L : Mat (4 * d) d) (b1 : Row d) (W2 : Mat d o) (b2 : Row o) : Mat n o :=
  headBlocks (fun q => featMul A x P (q.val + 1) (Nat.succ_le_of_lt q.isLt)) L b1 W2 b2
def netDiv {n d o : ℕ} (A : Mat n d → Mat n d) (x : Mat n d) (P : Fin 4 → Params d)
    (L : Mat (4 * d) d) (b1 : Row d) (W2 : Mat d o) (b2 : Row o) : Mat n o :=
  headWhole (fun q => featDiv A x P (q.val + 1) (Nat.succ_le_of_lt q.isLt)) L b1 W2 b2
end GinSpec
end
-- ==== Proof.RefLayer.lean ====
import proofs.«166660_j61229053772418_1_alg».proof.ReferenceIdeal
import proofs.«166660_j61229053772418_1_alg».proof.Proof.Gen.ReferenceIdeal
import proofs.«166660_j61229053772418_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws
noncomputable section
namespace Cert.ReferenceIdeal.Hand.Layer
open Idealize.ShloMosaic Idealize.ShloMosaic.ValueIdx
open Cert.ReferenceIdeal Cert.ReferenceIdeal.Facts₀
open scoped BigOperators
abbrev m2 {α : Type} {n0 n1 : Nat} (a : (⟨2, ![n0, n1]⟩ : Shape).Idx → α) : Fin n0 → Fin n1 → α :=
  fun r j => a (ValueIdx.ix2 r j)
abbrev r1 {α : Type} {n : Nat} (a : (⟨1, ![n]⟩ : Shape).Idx → α) : Fin n → α :=
  fun j => a (ValueIdx.ix1 j)
section Terms
variable {F : FTy → Type} [FloatOps F]
def refHidden (h agg : FVec F S50000x128 .f32) (W1 : FVec F S128x128 .f32) (b1 : FVec F S128 .f32)
    (W2 : FVec F S128x128 .f32) (b2 : FVec F S128 .f32) : FVec F S50000x128 .f32 :=
  maximumf
    (addf
      (Host.dotGeneral dot_S50000x128_S128x128_S50000x128_1_0_0_1_n_n none
        (maximumf
          (addf
            (Host.dotGeneral dot_S50000x128_S128x128_S50000x128_1_0_0_1_n_n none (addf h agg) W1)
            (broadcastInDim S50000x128 ![0, 1] bcast_S1x128_S50000x128_0_1
              (broadcastInDim S1x128 ![1] bcast_S128_S1x128_1 b1)))
          (broadcastInDim S50000x128 ![] bcast_S_S50000x128 (constant S_ .f32 0x00000000#32)))
        W2)
      (broadcastInDim S50000x128 ![0, 1] bcast_S1x128_S50000x128_0_1
        (broadcastInDim S1x128 ![1] bcast_S128_S1x128_1 b2)))
    (broadcastInDim S50000x128 ![] bcast_S_S50000x128 (constant S_ .f32 0x00000000#32))
def refMean (h2 : FVec F S50000x128 .f32) : FVec F S128 .f32 :=
  Host.divf
    (Host.reduceAdd h2 (constant S_ .f32 0x00000000#32) reducesTo_S50000x128_S128_d0 h_S_)
    (broadcastInDim S128 ![] bcast_S_S128 (constant S_ .f32 0x47435000#32))
def refVar (h2 : FVec F S50000x128 .f32) : FVec F S128 .f32 :=
  select
    (broadcastInDim S128 ![] bcast_S_S128
      (cmpf (F := F) .ogt
        (subf (constant S_ .f32 0x47435000#32) (sitofp .f32 (constantI S_ 32 0#32)))
        (constant S_ .f32 0x00000000#32)))
    (Host.divf
      (Host.reduceAdd
        (mulf
          (subf h2
            (broadcastInDim S50000x128 ![0, 1] bcast_S1x128_S50000x128_0_1
              (Host.divf
                (broadcastInDim S1x128 ![1] bcast_S128_S1x128_1
                  (Host.reduceAdd h2 (constant S_ .f32 0x00000000#32) reducesTo_S50000x128_S128_d0 h_S_))
                (broadcastInDim S1x128 ![] bcast_S_S1x128 (constant S_ .f32 0x47435000#32)))))
          (subf h2
            (broadcastInDim S50000x128 ![0, 1] bcast_S1x128_S50000x128_0_1
              (Host.divf
                (broadcastInDim S1x128 ![1] bcast_S128_S1x128_1
                  (Host.reduceAdd h2 (constant S_ .f32 0x00000000#32) reducesTo_S50000x128_S128_d0 h_S_))
                (broadcastInDim S1x128 ![] bcast_S_S1x128 (constant S_ .f32 0x47435000#32))))))
        (constant S_ .f32 0x00000000#32) reducesTo_S50000x128_S128_d0 h_S_)
      (broadcastInDim S128 ![] bcast_S_S128
        (subf (constant S_ .f32 0x47435000#32) (sitofp .f32 (constantI S_ 32 0#32)))))
    (broadcastInDim S128 ![] bcast_S_S128 (id (constant S_ .f32 0x7FC00000#32)))
def refLayer (h agg : FVec F S50000x128 .f32) (W1 : FVec F S128x128 .f32) (b1 : FVec F S128 .f32)
    (W2 : FVec F S128x128 .f32) (b2 gamma beta : FVec F S128 .f32) : FVec F S50000x128 .f32 :=
  addf
    (mulf
      (mulf
        (subf (refHidden h agg W1 b1 W2 b2)
          (broadcastInDim S50000x128 ![0, 1] bcast_S1x128_S50000x128_0_1
            (broadcastInDim S1x128 ![1] bcast_S128_S1x128_1 (refMean (refHidden h agg W1 b1 W2 b2)))))
        (broadcastInDim S50000x128 ![0, 1] bcast_S1x128_S50000x128_0_1
          (broadcastInDim S1x128 ![1] bcast_S128_S1x128_1
            (Host.rsqrt
              (addf (refVar (refHidden h agg W1 b1 W2 b2))
                (broadcastInDim S128 ![] bcast_S_S128 (constant S_ .f32 0x3727C5AC#32)))))))
      (broadcastInDim S50000x128 ![0, 1] bcast_S1x128_S50000x128_0_1
        (broadcastInDim S1x128 ![1] bcast_S128_S1x128_1 gamma)))
    (broadcastInDim S50000x128 ![0, 1] bcast_S1x128_S50000x128_0_1
      (broadcastInDim S1x128 ![1] bcast_S128_S1x128_1 beta))
def refHead (y0 y1 y2 y3 : FVec F S50000x128 .f32) (L1 : FVec F S512x128 .f32) (lb1 : FVec F S128 .f32)
    (L2 : FVec F S128x8 .f32) (lb2 : FVec F S8 .f32) : FVec F S50000x8 .f32 :=
  addf
    (Host.dotGeneral dot_S50000x128_S128x8_S50000x8_1_0_0_1_n_n none
      (maximumf
        (addf
          (Host.dotGeneral dot_S50000x512_S512x128_S50000x128_1_0_0_1_n_n none
            (concatenate S50000x512 1 [⟨S50000x128, y0⟩, ⟨S50000x128, y1⟩, ⟨S50000x128, y2⟩, ⟨S50000x128, y3⟩]
              concatenates_S50000x128_S50000x128_S50000x128_S50000x128_S50000x512_d1)
            L1)
          (broadcastInDim S50000x128 ![0, 1] bcast_S1x128_S50000x128_0_1
            (broadcastInDim S1x128 ![1] bcast_S128_S1x128_1 lb1)))
        (broadcastInDim S50000x128 ![] bcast_S_S50000x128 (constant S_ .f32 0x00000000#32)))
      L2)
    (broadcastInDim S50000x8 ![0, 1] bcast_S1x8_S50000x8_0_1
      (broadcastInDim S1x8 ![1] bcast_S8_S1x8_1 lb2))
end Terms
section AtIdeal
theorem ofBits_50000 : Ideal.ofBits .f32 0x47435000#32 = ((50000 : ℝ) : EReal) := by
  simp [Ideal.ofBits, Ideal.ieee, -EReal.coe_mul]; norm_num
theorem row_apply {α : Type} {n : Nat} (hb : (⟨1, ![n]⟩ : Shape).BroadcastsInDim ⟨2, ![1, n]⟩ ![1])
    (b : (⟨1, ![n]⟩ : Shape).Idx → α) (j : Fin n) :
    broadcastInDim ⟨2, ![1, n]⟩ ![1] hb b (ix2 (0 : Fin 1) j) = b (ix1 j) := by
  refine broadcastInDim_apply ![1] hb b (ix2 (0 : Fin 1) j) (ix1 j) ?_
  intro a
  match a with
  | ⟨0, _⟩ =>
    show j.val = if n = 1 then 0 else j.val
    split_ifs with hn
    · have := j.isLt; omega
    · rfl
theorem bias_apply {α : Type} (b : S128.Idx → α) (r : Fin 50000) (j : Fin 128) :
    broadcastInDim S50000x128 ![0, 1] bcast_S1x128_S50000x128_0_1
      (broadcastInDim S1x128 ![1] bcast_S128_S1x128_1 b) (ix2 r j) = b (ix1 j) := by
  rw [broadcastInDim_oneRow_apply]
  exact row_apply _ b j
theorem bias8_apply {α : Type} (b : S8.Idx → α) (r : Fin 50000) (j : Fin 8) :
    broadcastInDim S50000x8 ![0, 1] bcast_S1x8_S50000x8_0_1
      (broadcastInDim S1x8 ![1] bcast_S8_S1x8_1 b) (ix2 r j) = b (ix1 j) := by
  rw [broadcastInDim_oneRow_apply]
  exact row_apply _ b j
theorem zero_apply (i : S50000x128.Idx) :
    broadcastInDim S50000x128 ![] bcast_S_S50000x128 (constant (F := Ideal) S_ .f32 0x00000000#32) i = 0 := by
  rw [broadcastInDim_scalar_apply]
  exact Ideal.ofBits_zero_f32
theorem dot128_apply (A : FVec Ideal S50000x128 .f32) (B : FVec Ideal S128x128 .f32) (r : Fin 50000) (j : Fin 128) :
    Host.dotGeneral dot_S50000x128_S128x128_S50000x128_1_0_0_1_n_n none A B (ix2 r j)
      = ∑ c : Fin 128, A (ix2 r c) * B (ix2 c j) :=
  StackMember.dotGeneral_plain_apply (m := 50000) (n := 128) (k := 128) none A B r j
theorem dot512_apply (A : FVec Ideal S50000x512 .f32) (B : FVec Ideal S512x128 .f32) (r : Fin 50000) (j : Fin 128) :
    Host.dotGeneral dot_S50000x512_S512x128_S50000x128_1_0_0_1_n_n none A B (ix2 r j)
      = ∑ c : Fin 512, A (ix2 r c) * B (ix2 c j) :=
  StackMember.dotGeneral_plain_apply (m := 50000) (n := 128) (k := 512) none A B r j
theorem dot8_apply (A : FVec Ideal S50000x128 .f32) (B : FVec Ideal S128x8 .f32) (r : Fin 50000) (j : Fin 8) :
    Host.dotGeneral dot_S50000x128_S128x8_S50000x8_1_0_0_1_n_n none A B (ix2 r j)
      = ∑ c : Fin 128, A (ix2 r c) * B (ix2 c j) :=
  StackMember.dotGeneral_plain_apply (m := 50000) (n := 8) (k := 128) none A B r j
theorem refHidden_apply (h agg : FVec Ideal S50000x128 .f32) (W1 : FVec Ideal S128x128 .f32) (b1 : FVec Ideal S128 .f32)
    (W2 : FVec Ideal S128x128 .f32) (b2 : FVec Ideal S128 .f32) (r : Fin 50000) (j : Fin 128) :
    refHidden (F := Ideal) h agg W1 b1 W2 b2 (ix2 r j)
      = GinSpec.hidden (m2 h) (m2 agg) (m2 W1) (r1 b1) (m2 W2) (r1 b2) r j := by
  unfold refHidden
  rw [maximumf_apply, addf_apply, dot128_apply, bias_apply, zero_apply]
  unfold GinSpec.hidden GinSpec.mlp GinSpec.lin GinSpec.relu
  refine congrArg (fun s => max (s + b2 (ix1 j)) 0) (Finset.sum_congr rfl fun c _ => ?_)
  rw [maximumf_apply, addf_apply, dot128_apply, bias_apply, zero_apply]
  rfl
theorem m2_refHidden (h agg : FVec Ideal S50000x128 .f32) (W1 : FVec Ideal S128x128 .f32) (b1 : FVec Ideal S128 .f32)
    (W2 : FVec Ideal S128x128 .f32) (b2 : FVec Ideal S128 .f32) :
    m2 (refHidden (F := Ideal) h agg W1 b1 W2 b2)
      = GinSpec.hidden (m2 h) (m2 agg) (m2 W1) (r1 b1) (m2 W2) (r1 b2) :=
  funext fun r => funext fun j => refHidden_apply h agg W1 b1 W2 b2 r j
theorem colSum_apply (x : FVec Ideal S50000x128 .f32) (j : Fin 128) :
    Host.reduceAdd x (constant S_ .f32 0x00000000#32) reducesTo_S50000x128_S128_d0 h_S_ (ix1 j)
      = ∑ r : Fin 50000, x (ix2 r j) := by
  have h2 : S50000x128.Reduces [0] S128 :=
    ⟨reducesTo_S50000x128_S128_d0.1, Nat.one_pos, reducesTo_S50000x128_S128_d0.2⟩
  show Ideal.hostReduceAdd reducesTo_S50000x128_S128_d0 x (Ideal.ofBits .f32 0x00000000#32) (ix1 j) = _
  rw [Ideal.hostReduceAdd_single reducesTo_S50000x128_S128_d0 h2, Ideal.ofBits_zero_f32, zero_add]
  refine Finset.sum_congr rfl fun k _ => congrArg x (funext fun a => Fin.ext ?_)
  match a with
  | ⟨0, _⟩ => rfl
  | ⟨1, _⟩ => rfl
theorem hdiv_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl
theorem refMean_apply (h2 : FVec Ideal S50000x128 .f32) (j : Fin 128) :
    refMean (F := Ideal) h2 (ix1 j) = GinSpec.meanDiv (m2 h2) j := by
  unfold refMean
  rw [hdiv_apply, colSum_apply, broadcastInDim_scalar_apply, constant_apply, ofBits_50000]
  rfl
theorem count_apply :
    subf (constant (F := Ideal) S_ .f32 0x47435000#32) (sitofp .f32 (constantI S_ 32 0#32)) ix0
      = ((50000 : ℝ) : EReal) := by
  show Ideal.ofBits .f32 0x47435000#32 - (((0#32 : BitVec 32).toInt : ℝ) : EReal) = _
  rw [ofBits_50000]
  simp
theorem count_pos_apply (i : S128.Idx) :
    broadcastInDim S128 ![] bcast_S_S128
      (cmpf (F := Ideal) .ogt
        (subf (constant S_ .f32 0x47435000#32) (sitofp .f32 (constantI S_ 32 0#32)))
        (constant S_ .f32 0x00000000#32)) i = 1#1 := by
  rw [broadcastInDim_scalar_apply, cmpf_apply, count_apply, constant_apply, Ideal.ofBits_zero_f32]
  show Ideal.cmp .ogt ((50000 : ℝ) : EReal) 0 = 1#1
  have hpos : (0 : EReal) < ((50000 : ℝ) : EReal) := EReal.coe_pos.mpr (by norm_num)
  simp [Ideal.cmp, hpos]
theorem centre_apply (h2 : FVec Ideal S50000x128 .f32) (r : Fin 50000) (j : Fin 128) :
    broadcastInDim S50000x128 ![0, 1] bcast_S1x128_S50000x128_0_1
      (Host.divf
        (broadcastInDim S1x128 ![1] bcast_S128_S1x128_1
          (Host.reduceAdd h2 (constant S_ .f32 0x00000000#32) reducesTo_S50000x128_S128_d0 h_S_))
        (broadcastInDim S1x128 ![] bcast_S_S1x128 (constant S_ .f32 0x47435000#32))) (ix2 r j)
      = GinSpec.meanDiv (m2 h2) j := by
  rw [broadcastInDim_oneRow_apply, hdiv_apply, row_apply, colSum_apply, broadcastInDim_scalar_apply, constant_apply,
    ofBits_50000]
  rfl
theorem refVar_apply (h2 : FVec Ideal S50000x128 .f32) (j : Fin 128) :
    refVar (F := Ideal) h2 (ix1 j) = GinSpec.varDiv (m2 h2) j := by
  unfold refVar
  rw [select_apply, count_pos_apply, select_one, hdiv_apply, colSum_apply, broadcastInDim_scalar_apply, count_apply]
  unfold GinSpec.varDiv
  refine congrArg (fun s => Ideal.div s ((50000 : ℝ) : EReal)) (Finset.sum_congr rfl fun r _ => ?_)
  rw [mulf_apply, subf_apply, centre_apply]
theorem eps_apply (i : S128.Idx) :
    broadcastInDim S128 ![] bcast_S_S128 (constant (F := Ideal) S_ .f32 0x3727C5AC#32) i = GinSpec.eps := by
  rw [broadcastInDim_scalar_apply]
  rfl
theorem refLayer_apply (h agg : FVec Ideal S50000x128 .f32) (W1 : FVec Ideal S128x128 .f32) (b1 : FVec Ideal S128 .f32)
    (W2 : FVec Ideal S128x128 .f32) (b2 gamma beta : FVec Ideal S128 .f32) (r : Fin 50000) (j : Fin 128) :
    refLayer (F := Ideal) h agg W1 b1 W2 b2 gamma beta (ValueIdx.ix2 r j)
      = GinSpec.layerDiv (m2 h) (m2 agg) (m2 W1) (r1 b1) (m2 W2) (r1 b2) (r1 gamma) (r1 beta) r j := by
  unfold refLayer
  rw [addf_apply, mulf_apply, mulf_apply, subf_apply, bias_apply, bias_apply, bias_apply, bias_apply, hrsqrt_apply,
    addf_apply, eps_apply, refMean_apply, refVar_apply, refHidden_apply, m2_refHidden]
  rfl
theorem beside_eq {n d : Nat} (h : Fin 4 → GinSpec.Mat n d) (r : Fin n) (l : Fin (4 * d)) (q : Fin 4) (c : Fin d)
    (hq : l.val / d = q.val) (hc : l.val % d = c.val) : GinSpec.beside h r l = h q r c := by
  unfold GinSpec.beside
  have key : ∀ (q' : Fin 4) (c' : Fin d), q' = q → c' = c → h q' r c' = h q r c := by
    rintro _ _ rfl rfl; rfl
  exact key _ _ (Fin.ext hq) (Fin.ext hc)
theorem concat_apply (y0 y1 y2 y3 : FVec Ideal S50000x128 .f32) (r : Fin 50000) (l : Fin 512) :
    concatenate S50000x512 1 [⟨S50000x128, y0⟩, ⟨S50000x128, y1⟩, ⟨S50000x128, y2⟩, ⟨S50000x128, y3⟩]
        concatenates_S50000x128_S50000x128_S50000x128_S50000x128_S50000x512_d1 (ix2 r l)
      = GinSpec.beside (fun q => m2 (![y0, y1, y2, y3] q)) r l := by
  have hl : l.val < 512 := l.isLt
  have hc : l.val % 128 < 128 := Nat.mod_lt _ (by norm_num)
  have hi : ∀ b : Fin S50000x128.rank, b.cast (rfl : S50000x128.rank = S50000x512.rank) ≠ (1 : Fin S50000x512.rank) →
      ((ix2 r (⟨l.val % 128, hc⟩ : Fin 128) : S50000x128.Idx) b).val
        = ((ix2 r l : S50000x512.Idx) (b.cast (rfl : S50000x128.rank = S50000x512.rank))).val := by
    intro b hb
    match b with
    | ⟨0, _⟩ => rfl
    | ⟨1, _⟩ => exact absurd rfl hb
  rcases (show l.val / 128 = 0 ∨ l.val / 128 = 1 ∨ l.val / 128 = 2 ∨ l.val / 128 = 3 by omega) with hq | hq | hq | hq
  · refine Eq.trans ?_ (beside_eq (fun q => m2 (![y0, y1, y2, y3] q)) r l 0 ⟨l.val % 128, hc⟩ hq rfl).symm
    exact concatenate_apply_piece 1 _ _ (ix2 r l) 0 (by show (0 : ℕ) < 4; norm_num) S50000x128 y0 rfl rfl 0 rfl
      (ix2 r (⟨l.val % 128, hc⟩ : Fin 128)) hi (by show 0 + l.val % 128 = l.val; omega)
  · refine Eq.trans ?_ (beside_eq (fun q => m2 (![y0, y1, y2, y3] q)) r l 1 ⟨l.val % 128, hc⟩ hq rfl).symm
    exact concatenate_apply_piece 1 _ _ (ix2 r l) 1 (by show (1 : ℕ) < 4; norm_num) S50000x128 y1 rfl rfl 128 rfl
      (ix2 r (⟨l.val % 128, hc⟩ : Fin 128)) hi (by show 128 + l.val % 128 = l.val; omega)
  · refine Eq.trans ?_ (beside_eq (fun q => m2 (![y0, y1, y2, y3] q)) r l 2 ⟨l.val % 128, hc⟩ hq rfl).symm
    exact concatenate_apply_piece 1 _ _ (ix2 r l) 2 (by show (2 : ℕ) < 4; norm_num) S50000x128 y2 rfl rfl 256 rfl
      (ix2 r (⟨l.val % 128, hc⟩ : Fin 128)) hi (by show 256 + l.val % 128 = l.val; omega)
  · refine Eq.trans ?_ (beside_eq (fun q => m2 (![y0, y1, y2, y3] q)) r l 3 ⟨l.val % 128, hc⟩ hq rfl).symm
    exact concatenate_apply_piece 1 _ _ (ix2 r l) 3 (by show (3 : ℕ) < 4; norm_num) S50000x128 y3 rfl rfl 384 rfl
      (ix2 r (⟨l.val % 128, hc⟩ : Fin 128)) hi (by show 384 + l.val % 128 = l.val; omega)
theorem refHead_apply (y0 y1 y2 y3 : FVec Ideal S50000x128 .f32) (L1 : FVec Ideal S512x128 .f32)
    (lb1 : FVec Ideal S128 .f32) (L2 : FVec Ideal S128x8 .f32) (lb2 : FVec Ideal S8 .f32) (r : Fin 50000) (o : Fin 8) :
    refHead (F := Ideal) y0 y1 y2 y3 L1 lb1 L2 lb2 (ValueIdx.ix2 r o)
      = GinSpec.headWhole (fun q => m2 (![y0, y1, y2, y3] q)) (m2 L1) (r1 lb1) (m2 L2) (r1 lb2) r o := by
  unfold refHead
  rw [addf_apply, dot8_apply, bias8_apply]
  unfold GinSpec.headWhole GinSpec.relu
  refine congrArg (fun s => s + lb2 (ix1 o)) (Finset.sum_congr rfl fun k _ => ?_)
  rw [maximumf_apply, addf_apply, dot512_apply, bias_apply, zero_apply]
  refine congrArg (fun s => max (s + lb1 (ix1 k)) 0 * L2 (ix2 k o)) (Finset.sum_congr rfl fun l _ => ?_)
  rw [concat_apply]
theorem m2_refLayer (h agg : FVec Ideal S50000x128 .f32) (W1 : FVec Ideal S128x128 .f32) (b1 : FVec Ideal S128 .f32)
    (W2 : FVec Ideal S128x128 .f32) (b2 gamma beta : FVec Ideal S128 .f32) :
    m2 (refLayer (F := Ideal) h agg W1 b1 W2 b2 gamma beta)
      = GinSpec.layerDiv (m2 h) (m2 agg) (m2 W1) (r1 b1) (m2 W2) (r1 b2) (r1 gamma) (r1 beta) :=
  funext fun r => funext fun j => refLayer_apply h agg W1 b1 W2 b2 gamma beta r j
end AtIdeal
end Cert.ReferenceIdeal.Hand.Layer
end
-- ==== Proof.Shared.lean ====
import proofs.«166660_j61229053772418_1_alg».proof.Proof.Spec
import Idealize.ShloMosaic.Lib.ValueIdx
noncomputable section
namespace GinSpec
open Idealize.ShloMosaic
def paramsOf (W1 : (⟨3, ![4, 128, 128]⟩ : Shape).Idx → EReal) (b1 : (⟨2, ![4, 128]⟩ : Shape).Idx → EReal)
    (W2 : (⟨3, ![4, 128, 128]⟩ : Shape).Idx → EReal) (b2 g bt : (⟨2, ![4, 128]⟩ : Shape).Idx → EReal) : Fin 4 → Params 128 :=
  fun l =>
    { W1 := fun j k => W1 (ValueIdx.ix3 l j k)
      b1 := fun k => b1 (ValueIdx.ix2 l k)
      W2 := fun j k => W2 (ValueIdx.ix3 l j k)
      b2 := fun k => b2 (ValueIdx.ix2 l k)
      g := fun k => g (ValueIdx.ix2 l k)
      bt := fun k => bt (ValueIdx.ix2 l k) }
def toArr {n k : ℕ} (y : Mat n k) : (⟨2, ![n, k]⟩ : Shape).Idx → EReal := fun i => y (i 0) (i 1)
def ofArr {n k : ℕ} (a : (⟨2, ![n, k]⟩ : Shape).Idx → EReal) : Mat n k := fun r j => a (ValueIdx.ix2 r j)
def ofVec {k : ℕ} (a : (⟨1, ![k]⟩ : Shape).Idx → EReal) : Row k := fun j => a (ValueIdx.ix1 j)
theorem toArr_ofArr {n k : ℕ} (a : (⟨2, ![n, k]⟩ : Shape).Idx → EReal) : toArr (ofArr a) = a := by
  funext i
  exact congrArg a (ValueIdx.eq_ix2 i).symm
end GinSpec
end
-- ==== Proof.RefValue.lean ====
import proofs.«166660_j61229053772418_1_alg».proof.Proof.RefRun
import proofs.«166660_j61229053772418_1_alg».proof.Proof.RefLayer
import proofs.«166660_j61229053772418_1_alg».proof.Proof.Shared
import Idealize.ShloMosaic.Lib.Pipeline.Frame
noncomputable section
namespace Cert.ReferenceIdeal.Hand
open Cert.ReferenceIdeal Cert.ReferenceIdeal.Gen Idealize.ShloMosaic Idealize.ShloMosaic.TcCoe Idealize.SL.Sem
  Idealize.ShloMosaic.StableHlo Idealize.ShloMosaic.ValueIdx
open Cert.ReferenceIdeal.Hand.Layer
section Terms
variable {F : FTy → Type} [FloatOps F]
def srcRow (ei : IVec S2x600000 32) : IVec S600000 32 :=
  shapeCast S600000 (extractStridedSlice S1x600000 ![0, 0] ei slices_S2x600000_S1x600000_0_0) shapeCasts_S1x600000_S600000
def dstRow (ei : IVec S2x600000 32) : IVec S600000 32 :=
  shapeCast S600000 (extractStridedSlice S1x600000 ![1, 0] ei slices_S2x600000_S1x600000_1_0) shapeCasts_S1x600000_S600000
def aggW (src dst : IVec S600000 32) (h : FVec F S50000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32)))
          src)))
def aggR (ei : IVec S2x600000 32) (h : FVec F S50000x128 .f32) : FVec F S50000x128 .f32 :=
  aggW (srcRow ei) (dstRow ei) h
def slabM (l : Fin 4) (W : FVec F S4x128x128 .f32) : FVec F S128x128 .f32 :=
  shapeCast S128x128
    (extractStridedSlice S1x128x128 ![l.val, 0, 0] W
      (by revert l; decide))
    shapeCasts_S1x128x128_S128x128
def slabV (l : Fin 4) (b : FVec F S4x128 .f32) : FVec F S128 .f32 :=
  shapeCast S128
    (extractStridedSlice S1x128 ![l.val, 0] b
      (by revert l; decide))
    shapeCasts_S1x128_S128
end Terms
section SlabRead
variable {α : Type}
theorem slabM_apply {F : FTy → Type} [FloatOps F] (l : Fin 4) (W : FVec F S4x128x128 .f32) (j k : Fin 128) :
    slabM l W (ix2 j k) = W (ix3 l j k) := by
  unfold slabM
  rw [shapeCast_1ab_ab_apply]
  refine extractStridedSlice_apply _ W _ _ _ fun a => ?_
  match a with
  | ⟨0, _⟩ => rfl
  | ⟨1, _⟩ => exact (Nat.zero_add _).symm
  | ⟨2, _⟩ => exact (Nat.zero_add _).symm
theorem slabV_apply {F : FTy → Type} [FloatOps F] (l : Fin 4) (b : FVec F S4x128 .f32) (k : Fin 128) :
    slabV l b (ix1 k) = b (ix2 l k) := by
  unfold slabV
  rw [shapeCast_1a_a_apply]
  refine extractStridedSlice_apply _ b _ _ _ fun a => ?_
  match a with
  | ⟨0, _⟩ => rfl
  | ⟨1, _⟩ => exact (Nat.zero_add _).symm
end SlabRead
theorem layer_step (l : Fin 4) (ei : IVec S2x600000 32) (h : FVec Ideal S50000x128 .f32) (y : GinSpec.Mat 50000 128)
    (hy : m2 h = y) (W1 : FVec Ideal S4x128x128 .f32) (b1 : FVec Ideal S4x128 .f32) (W2 : FVec Ideal S4x128x128 .f32)
    (b2 g bt : FVec Ideal S4x128 .f32) :
    m2 (refLayer (F := Ideal) h (aggR (F := Ideal) ei h) (slabM l W1) (slabV l b1) (slabM l W2) (slabV l b2) (slabV l g) (slabV l bt))
      = GinSpec.layerDiv y (GinSpec.ofArr (aggR (F := Ideal) ei (GinSpec.toArr y)))
          (GinSpec.paramsOf W1 b1 W2 b2 g bt l).W1 (GinSpec.paramsOf W1 b1 W2 b2 g bt l).b1
          (GinSpec.paramsOf W1 b1 W2 b2 g bt l).W2 (GinSpec.paramsOf W1 b1 W2 b2 g bt l).b2
          (GinSpec.paramsOf W1 b1 W2 b2 g bt l).g (GinSpec.paramsOf W1 b1 W2 b2 g bt l).bt := by
  subst hy
  rw [m2_refLayer]
  have hA : GinSpec.ofArr (aggR (F := Ideal) ei (GinSpec.toArr (m2 h))) = m2 (aggR (F := Ideal) ei h) := by
    rw [show GinSpec.toArr (m2 h) = h from GinSpec.toArr_ofArr h]; rfl
  rw [hA]
  have hM : ∀ W : FVec Ideal S4x128x128 .f32, m2 (slabM l W) = fun j k => W (ix3 l j k) :=
    fun W => funext fun j => funext fun k => slabM_apply l W j k
  have hV : ∀ b : FVec Ideal S4x128 .f32, r1 (slabV l b) = fun k => b (ix2 l k) :=
    fun b => funext fun k => slabV_apply l b k
  rw [hM, hM, hV, hV, hV, hV]
  rfl
section Lines
variable {F : FTy → Type} [FloatOps F]
abbrev tail1 : List (HloOp τ sig (Elt F)) :=
  reluOps (.of main_v82) main_call3 ++ (part1_s1 ++ (reluOps (.of main_v87) main_call4 ++ (part1_s2 ++ (varOps (.of main_v88) (.of main_c_10) main_call5 ++ part1_s3))))
abbrev tail2 : List (HloOp τ sig (Elt F)) :=
  reluOps (.of main_v134) main_call6 ++ (part2_s1 ++ (reluOps (.of main_v139) main_call7 ++ (part2_s2 ++ (varOps (.of main_v140) (.of main_c_17) main_call8 ++ part2_s3))))
abbrev tail3 : List (HloOp τ sig (Elt F)) :=
  reluOps (.of main_v186) main_call9 ++ (part3_s1 ++ (reluOps (.of main_v191) main_call10 ++ (part3_s2 ++ (varOps (.of main_v192) (.of main_c_24) main_call11 ++ part3_s3))))
def A0 : List (HloOp τ sig (Elt F)) := ops0 ++ part1_s0.take 3
def A1 : List (HloOp τ sig (Elt F)) := part1_s0.drop 3 ++ (tail1 ++ part2_s0.take 2)
def A2 : List (HloOp τ sig (Elt F)) := part2_s0.drop 2 ++ (tail2 ++ part3_s0.take 1)
def A3 : List (HloOp τ sig (Elt F)) := part3_s0.drop 1 ++ tail3
theorem after_take_drop (n : Nat) (l : List (HloOp τ sig (Elt F))) (X : Valuation τ sig (Elt F)) :
    after (l.drop n) (after (l.take n) X) = after l X := by
  rw [← after_append, List.take_append_drop]
theorem after_ops (V : Valuation τ sig (Elt F)) :
    after ops V = after ops4 (after A3 (after A2 (after A1 (after A0 V)))) := by
  simp only [ops, ops1, ops2, ops3, A0, A1, A2, A3, tail1, tail2, tail3, after_append, after_take_drop]
set_option maxHeartbeats 4000000 in
theorem layer0_read (W : Valuation τ sig (Elt F)) :
    after A0 W (no_index (Proc.devRef .tc main_v55))
      = refLayer (W (Proc.devRef .tc main_arg0)) (aggR (W (Proc.devRef .tc main_arg1)) (W (Proc.devRef .tc main_arg0)))
          (slabM 0 (W (Proc.devRef .tc main_arg2))) (slabV 0 (W (Proc.devRef .tc main_arg3)))
          (slabM 0 (W (Proc.devRef .tc main_arg4))) (slabV 0 (W (Proc.devRef .tc main_arg5)))
          (slabV 0 (W (Proc.devRef .tc main_arg6))) (slabV 0 (W (Proc.devRef .tc main_arg7))) := by
  simp only [A0, ops0, part0_s0, part0_s1, part0_s2, part0_s3, part1_s0, reluOps, varOps, var_s0, whereOps, List.drop_succ_cons, List.drop_zero,
    List.take_succ_cons, List.take_zero, after_append]
  after_results_simp
  rfl
set_option maxHeartbeats 4000000 in
theorem src_read (W : Valuation τ sig (Elt F)) :
    after A0 W (no_index (Proc.devRef .tc main_v1)) = srcRow (W (Proc.devRef .tc main_arg1)) := by
  simp only [A0, ops0, part0_s0, part0_s1, part0_s2, part0_s3, part1_s0, reluOps, varOps, var_s0, whereOps, List.drop_succ_cons, List.drop_zero,
    List.take_succ_cons, List.take_zero, after_append]
  after_results_simp
  rfl
set_option maxHeartbeats 4000000 in
theorem dst_read (W : Valuation τ sig (Elt F)) :
    after A0 W (no_index (Proc.devRef .tc main_v3)) = dstRow (W (Proc.devRef .tc main_arg1)) := by
  simp only [A0, ops0, part0_s0, part0_s1, part0_s2, part0_s3, part1_s0, reluOps, varOps, var_s0, whereOps, List.drop_succ_cons, List.drop_zero,
    List.take_succ_cons, List.take_zero, after_append]
  after_results_simp
  rfl
set_option maxHeartbeats 4000000 in
theorem layer1_read (W : Valuation τ sig (Elt F)) :
    after A1 W (no_index (Proc.devRef .tc main_v107))
      = refLayer (W (Proc.devRef .tc main_v55)) (aggW (W (Proc.devRef .tc main_v1)) (W (Proc.devRef .tc main_v3)) (W (Proc.devRef .tc main_v55)))
          (slabM 1 (W (Proc.devRef .tc main_arg2))) (slabV 1 (W (Proc.devRef .tc main_arg3)))
          (slabM 1 (W (Proc.devRef .tc main_arg4))) (slabV 1 (W (Proc.devRef .tc main_arg5)))
          (slabV 1 (W (Proc.devRef .tc main_arg6))) (slabV 1 (W (Proc.devRef .tc main_arg7))) := by
  simp only [A1, tail1, part1_s0, part1_s1, part1_s2, part1_s3, part2_s0, reluOps, varOps, var_s0, whereOps, List.drop_succ_cons, List.drop_zero,
    List.take_succ_cons, List.take_zero, after_append]
  after_results_simp
  rfl
set_option maxHeartbeats 4000000 in
theorem layer2_read (W : Valuation τ sig (Elt F)) :
    after A2 W (no_index (Proc.devRef .tc main_v159))
      = refLayer (W (Proc.devRef .tc main_v107)) (aggW (W (Proc.devRef .tc main_v1)) (W (Proc.devRef .tc main_v3)) (W (Proc.devRef .tc main_v107)))
          (slabM 2 (W (Proc.devRef .tc main_arg2))) (slabV 2 (W (Proc.devRef .tc main_arg3)))
          (slabM 2 (W (Proc.devRef .tc main_arg4))) (slabV 2 (W (Proc.devRef .tc main_arg5)))
          (slabV 2 (W (Proc.devRef .tc main_arg6))) (slabV 2 (W (Proc.devRef .tc main_arg7))) := by
  simp only [A2, tail2, part2_s0, part2_s1, part2_s2, part2_s3, part3_s0, reluOps, varOps, var_s0, whereOps, List.drop_succ_cons, List.drop_zero,
    List.take_succ_cons, List.take_zero, after_append]
  after_results_simp
  rfl
set_option maxHeartbeats 4000000 in
theorem layer3_read (W : Valuation τ sig (Elt F)) :
    after A3 W (no_index (Proc.devRef .tc main_v211))
      = refLayer (W (Proc.devRef .tc main_v159)) (aggW (W (Proc.devRef .tc main_v1)) (W (Proc.devRef .tc main_v3)) (W (Proc.devRef .tc main_v159)))
          (slabM 3 (W (Proc.devRef .tc main_arg2))) (slabV 3 (W (Proc.devRef .tc main_arg3)))
          (slabM 3 (W (Proc.devRef .tc main_arg4))) (slabV 3 (W (Proc.devRef .tc main_arg5)))
          (slabV 3 (W (Proc.devRef .tc main_arg6))) (slabV 3 (W (Proc.devRef .tc main_arg7))) := by
  simp only [A3, tail3, part3_s0, part3_s1, part3_s2, part3_s3, reluOps, varOps, var_s0, whereOps, List.drop_succ_cons, List.drop_zero,
    List.take_succ_cons, List.take_zero, after_append]
  after_results_simp
  rfl
set_option maxHeartbeats 4000000 in
theorem head_read (W : Valuation τ sig (Elt F)) :
    after ops4 W (no_index (Proc.devRef .tc main_v221))
      = refHead (W (Proc.devRef .tc main_v55)) (W (Proc.devRef .tc main_v107)) (W (Proc.devRef .tc main_v159)) (W (Proc.devRef .tc main_v211))
          (W (Proc.devRef .tc main_arg8)) (W (Proc.devRef .tc main_arg9)) (W (Proc.devRef .tc main_arg10)) (W (Proc.devRef .tc main_arg11)) := by
  simp only [ops4, part4_s0, part4_s1, reluOps, varOps, var_s0, whereOps, List.drop_succ_cons, List.drop_zero,
    List.take_succ_cons, List.take_zero, after_append]
  after_results_simp
  rfl
set_option maxHeartbeats 8000000 in
theorem keep0 (W : Valuation τ sig (Elt F)) :
    ∀ r ∈ ([main_arg0, main_arg1, main_arg2, main_arg3, main_arg4, main_arg5, main_arg6, main_arg7, main_arg8, main_arg9, main_arg10, main_arg11] :
      List (Ref sig .tc)), after A0 W (no_index (Proc.devRef .tc r)) = W (Proc.devRef .tc r) := by
  intro r hr
  simp only [List.mem_cons, List.mem_singleton, List.not_mem_nil, or_false] at hr
  rcases hr with rfl | rfl | rfl | rfl | rfl | rfl | rfl | rfl | rfl | rfl | rfl | rfl
  all_goals
    simp only [A0, ops0, part0_s0, part0_s1, part0_s2, part0_s3, part1_s0, reluOps, varOps, var_s0, whereOps, List.drop_succ_cons, List.drop_zero,
    List.take_succ_cons, List.take_zero, after_append]
    after_results_simp
set_option maxHeartbeats 8000000 in
theorem keep1 (W : Valuation τ sig (Elt F)) :
    ∀ r ∈ ([main_arg0, main_arg1, main_arg2, main_arg3, main_arg4, main_arg5, main_arg6, main_arg7, main_arg8, main_arg9, main_arg10, main_arg11,
      main_v1, main_v3, main_v55] : List (Ref sig .tc)), after A1 W (no_index (Proc.devRef .tc r)) = W (Proc.devRef .tc r) := by
  intro r hr
  simp only [List.mem_cons, List.mem_singleton, List.not_mem_nil, or_false] at hr
  rcases hr with rfl | rfl | rfl | rfl | rfl | rfl | rfl | rfl | rfl | rfl | rfl | rfl | rfl | rfl | rfl
  all_goals
    simp only [A1, tail1, part1_s0, part1_s1, part1_s2, part1_s3, part2_s0, reluOps, varOps, var_s0, whereOps, List.drop_succ_cons, List.drop_zero,
    List.take_succ_cons, List.take_zero, after_append]
    after_results_simp
set_option maxHeartbeats 8000000 in
theorem keep2 (W : Valuation τ sig (Elt F)) :
    ∀ r ∈ ([main_arg0, main_arg1, main_arg2, main_arg3, main_arg4, main_arg5, main_arg6, main_arg7, main_arg8, main_arg9, main_arg10, main_arg11,
      main_v1, main_v3, main_v55, main_v107] : List (Ref sig .tc)), after A2 W (no_index (Proc.devRef .tc r)) = W (Proc.devRef .tc r) := by
  intro r hr
  simp only [List.mem_cons, List.mem_singleton, List.not_mem_nil, or_false] at hr
  rcases hr with rfl | rfl | rfl | rfl | rfl | rfl | rfl | rfl | rfl | rfl | rfl | rfl | rfl | rfl | rfl | rfl
  all_goals
    simp only [A2, tail2, part2_s0, part2_s1, part2_s2, part2_s3, part3_s0, reluOps, varOps, var_s0, whereOps, List.drop_succ_cons, List.drop_zero,
    List.take_succ_cons, List.take_zero, after_append]
    after_results_simp
set_option maxHeartbeats 8000000 in
theorem keep3 (W : Valuation τ sig (Elt F)) :
    ∀ r ∈ ([main_arg0, main_arg1, main_arg2, main_arg3, main_arg4, main_arg5, main_arg6, main_arg7, main_arg8, main_arg9, main_arg10, main_arg11,
      main_v55, main_v107, main_v159] : List (Ref sig .tc)), after A3 W (no_index (Proc.devRef .tc r)) = W (Proc.devRef .tc r) := by
  intro r hr
  simp only [List.mem_cons, List.mem_singleton, List.not_mem_nil, or_false] at hr
  rcases hr with rfl | rfl | rfl | rfl | rfl | rfl | rfl | rfl | rfl | rfl | rfl | rfl | rfl | rfl | rfl
  all_goals
    simp only [A3, tail3, part3_s0, part3_s1, part3_s2, part3_s3, reluOps, varOps, var_s0, whereOps, List.drop_succ_cons, List.drop_zero,
    List.take_succ_cons, List.take_zero, after_append]
    after_results_simp
set_option maxHeartbeats 8000000 in
theorem keep4 (W : Valuation τ sig (Elt F)) :
    ∀ r ∈ ([main_arg0, main_arg1, main_arg2, main_arg3, main_arg4, main_arg5, main_arg6, main_arg7, main_arg8, main_arg9, main_arg10, main_arg11] : List (Ref sig .tc)), after ops4 W (no_index (Proc.devRef .tc r)) = W (Proc.devRef .tc r) := by
  intro r hr
  simp only [List.mem_cons, List.mem_singleton, List.not_mem_nil, or_false] at hr
  rcases hr with rfl | rfl | rfl | rfl | rfl | rfl | rfl | rfl | rfl | rfl | rfl | rfl
  all_goals
    simp only [ops4, part4_s0, part4_s1, reluOps, after_append]
    after_results_simp
theorem ref_arg (V : Valuation τ sig (Elt F)) :
    ∀ r ∈ ([main_arg0, main_arg1, main_arg2, main_arg3, main_arg4, main_arg5, main_arg6, main_arg7, main_arg8, main_arg9, main_arg10, main_arg11] : List (Ref sig .tc)), after ops V (Proc.devRef .tc r) = V (Proc.devRef .tc r) := by
  intro r hr
  have h0 := keep0 V r hr
  have h1 := keep1 (after A0 V) r (List.mem_append_left _ hr)
  have h2 := keep2 (after A1 (after A0 V)) r (List.mem_append_left _ hr)
  have h3 := keep3 (after A2 (after A1 (after A0 V))) r (List.mem_append_left _ hr)
  have h4 := keep4 (after A3 (after A2 (after A1 (after A0 V)))) r hr
  rw [after_ops]
  exact h4.trans (h3.trans (h2.trans (h1.trans h0)))
end Lines
section Whole
variable {F : FTy → Type} [FloatOps F]
def refLayerAt (l : Fin 4) (ei : IVec S2x600000 32) (W1 : FVec F S4x128x128 .f32) (b1 : FVec F S4x128 .f32)
    (W2 : FVec F S4x128x128 .f32) (b2 g bt : FVec F S4x128 .f32) (h : FVec F S50000x128 .f32) : FVec F S50000x128 .f32 :=
  refLayer h (aggR ei h) (slabM l W1) (slabV l b1) (slabM l W2) (slabV l b2) (slabV l g) (slabV l bt)
def feat1 (ei : IVec S2x600000 32) (W1 : FVec F S4x128x128 .f32) (b1 : FVec F S4x128 .f32) (W2 : FVec F S4x128x128 .f32)
    (b2 g bt : FVec F S4x128 .f32) (x : FVec F S50000x128 .f32) : FVec F S50000x128 .f32 :=
  refLayerAt 0 ei W1 b1 W2 b2 g bt x
@[inherit_doc feat1]
def feat2 (ei : IVec S2x600000 32) (W1 : FVec F S4x128x128 .f32) (b1 : FVec F S4x128 .f32) (W2 : FVec F S4x128x128 .f32)
    (b2 g bt : FVec F S4x128 .f32) (x : FVec F S50000x128 .f32) : FVec F S50000x128 .f32 :=
  refLayerAt 1 ei W1 b1 W2 b2 g bt (feat1 ei W1 b1 W2 b2 g bt x)
@[inherit_doc feat1]
def feat3 (ei : IVec S2x600000 32) (W1 : FVec F S4x128x128 .f32) (b1 : FVec F S4x128 .f32) (W2 : FVec F S4x128x128 .f32)
    (b2 g bt : FVec F S4x128 .f32) (x : FVec F S50000x128 .f32) : FVec F S50000x128 .f32 :=
  refLayerAt 2 ei W1 b1 W2 b2 g bt (feat2 ei W1 b1 W2 b2 g bt x)
@[inherit_doc feat1]
def feat4 (ei : IVec S2x600000 32) (W1 : FVec F S4x128x128 .f32) (b1 : FVec F S4x128 .f32) (W2 : FVec F S4x128x128 .f32)
    (b2 g bt : FVec F S4x128 .f32) (x : FVec F S50000x128 .f32) : FVec F S50000x128 .f32 :=
  refLayerAt 3 ei W1 b1 W2 b2 g bt (feat3 ei W1 b1 W2 b2 g bt x)
theorem ref_array (V : Valuation τ sig (Elt F)) :
    after ops V (Proc.devRef .tc main_v221)
      = refHead
          (feat1 (V (Proc.devRef .tc main_arg1)) (V (Proc.devRef .tc main_arg2)) (V (Proc.devRef .tc main_arg3)) (V (Proc.devRef .tc main_arg4))
            (V (Proc.devRef .tc main_arg5)) (V (Proc.devRef .tc main_arg6)) (V (Proc.devRef .tc main_arg7)) (V (Proc.devRef .tc main_arg0)))
          (feat2 (V (Proc.devRef .tc main_arg1)) (V (Proc.devRef .tc main_arg2)) (V (Proc.devRef .tc main_arg3)) (V (Proc.devRef .tc main_arg4))
            (V (Proc.devRef .tc main_arg5)) (V (Proc.devRef .tc main_arg6)) (V (Proc.devRef .tc main_arg7)) (V (Proc.devRef .tc main_arg0)))
          (feat3 (V (Proc.devRef .tc main_arg1)) (V (Proc.devRef .tc main_arg2)) (V (Proc.devRef .tc main_arg3)) (V (Proc.devRef .tc main_arg4))
            (V (Proc.devRef .tc main_arg5)) (V (Proc.devRef .tc main_arg6)) (V (Proc.devRef .tc main_arg7)) (V (Proc.devRef .tc main_arg0)))
          (feat4 (V (Proc.devRef .tc main_arg1)) (V (Proc.devRef .tc main_arg2)) (V (Proc.devRef .tc main_arg3)) (V (Proc.devRef .tc main_arg4))
            (V (Proc.devRef .tc main_arg5)) (V (Proc.devRef .tc main_arg6)) (V (Proc.devRef .tc main_arg7)) (V (Proc.devRef .tc main_arg0)))
          (V (Proc.devRef .tc main_arg8)) (V (Proc.devRef .tc main_arg9)) (V (Proc.devRef .tc main_arg10)) (V (Proc.devRef .tc main_arg11)) := by
  rw [after_ops, head_read]
  simp (disch := decide) only [keep3, keep2, keep1, keep0, layer3_read, layer2_read, layer1_read, layer0_read, src_read, dst_read]
  rfl
end Whole
section Value
open GinSpec in
theorem feats_eq (ei : IVec S2x600000 32) (W1 : FVec Ideal S4x128x128 .f32) (b1 : FVec Ideal S4x128 .f32)
    (W2 : FVec Ideal S4x128x128 .f32) (b2 g bt : FVec Ideal S4x128 .f32) (x : FVec Ideal S50000x128 .f32) :
    (fun q : Fin 4 => m2 (![feat1 (F := Ideal) ei W1 b1 W2 b2 g bt x, feat2 ei W1 b1 W2 b2 g bt x, feat3 ei W1 b1 W2 b2 g bt x,
        feat4 ei W1 b1 W2 b2 g bt x] q))
      = fun q : Fin 4 => featDiv (fun y => ofArr (aggR (F := Ideal) ei (toArr y))) (ofArr x) (paramsOf W1 b1 W2 b2 g bt)
          (q.val + 1) (Nat.succ_le_of_lt q.isLt) := by
  have h1 : m2 (feat1 (F := Ideal) ei W1 b1 W2 b2 g bt x)
      = featDiv (fun y => ofArr (aggR (F := Ideal) ei (toArr y))) (ofArr x) (paramsOf W1 b1 W2 b2 g bt) 1 (by decide) :=
    layer_step 0 ei x (ofArr x) rfl W1 b1 W2 b2 g bt
  have h2 : m2 (feat2 (F := Ideal) ei W1 b1 W2 b2 g bt x)
      = featDiv (fun y => ofArr (aggR (F := Ideal) ei (toArr y))) (ofArr x) (paramsOf W1 b1 W2 b2 g bt) 2 (by decide) :=
    layer_step 1 ei _ _ h1 W1 b1 W2 b2 g bt
  have h3 : m2 (feat3 (F := Ideal) ei W1 b1 W2 b2 g bt x)
      = featDiv (fun y => ofArr (aggR (F := Ideal) ei (toArr y))) (ofArr x) (paramsOf W1 b1 W2 b2 g bt) 3 (by decide) :=
    layer_step 2 ei _ _ h2 W1 b1 W2 b2 g bt
  have h4 : m2 (feat4 (F := Ideal) ei W1 b1 W2 b2 g bt x)
      = featDiv (fun y => ofArr (aggR (F := Ideal) ei (toArr y))) (ofArr x) (paramsOf W1 b1 W2 b2 g bt) 4 (by decide) :=
    layer_step 3 ei _ _ h3 W1 b1 W2 b2 g bt
  funext q
  match q with
  | ⟨0, _⟩ => exact h1
  | ⟨1, _⟩ => exact h2
  | ⟨2, _⟩ => exact h3
  | ⟨3, _⟩ => exact h4
theorem ref_value (m : (ℓ : Loc nD τ sig) → Buf (Elt Ideal) ℓ) (c : Dev nD) (r : Fin 50000) (o : Fin 8) :
    (after ops (launchContents m c) (Proc.devRef .tc main_v221)) (ix2 r o)
      = GinSpec.netDiv
          (fun y => GinSpec.ofArr (aggR (F := Ideal) (launchContents m c (Proc.devRef .tc main_arg1)) (GinSpec.toArr y)))
          (GinSpec.ofArr (launchContents m c (Proc.devRef .tc main_arg0)))
          (GinSpec.paramsOf (launchContents m c (Proc.devRef .tc main_arg2)) (launchContents m c (Proc.devRef .tc main_arg3))
            (launchContents m c (Proc.devRef .tc main_arg4)) (launchContents m c (Proc.devRef .tc main_arg5))
            (launchContents m c (Proc.devRef .tc main_arg6)) (launchContents m c (Proc.devRef .tc main_arg7)))
          (GinSpec.ofArr (launchContents m c (Proc.devRef .tc main_arg8))) (GinSpec.ofVec (launchContents m c (Proc.devRef .tc main_arg9)))
          (GinSpec.ofArr (launchContents m c (Proc.devRef .tc main_arg10))) (GinSpec.ofVec (launchContents m c (Proc.devRef .tc main_arg11)))
          r o := by
  rw [ref_array, refHead_apply, feats_eq]
  rfl
end Value
section Args
variable {F : FTy → Type} [FloatOps F]
theorem ref_arg0 (m : (ℓ : Loc nD τ sig) → Buf (Elt F) ℓ) (c : Dev nD) :
    after ops (launchContents m c) (Proc.devRef .tc main_arg0) = m ((c.tc : Thread nD τ).loc main_arg0) :=
  ref_arg (launchContents m c) main_arg0 (by decide)
theorem ref_arg1 (m : (ℓ : Loc nD τ sig) → Buf (Elt F) ℓ) (c : Dev nD) :
    after ops (launchContents m c) (Proc.devRef .tc main_arg1) = m ((c.tc : Thread nD τ).loc main_arg1) :=
  ref_arg (launchContents m c) main_arg1 (by decide)
theorem ref_arg2 (m : (ℓ : Loc nD τ sig) → Buf (Elt F) ℓ) (c : Dev nD) :
    after ops (launchContents m c) (Proc.devRef .tc main_arg2) = m ((c.tc : Thread nD τ).loc main_arg2) :=
  ref_arg (launchContents m c) main_arg2 (by decide)
theorem ref_arg3 (m : (ℓ : Loc nD τ sig) → Buf (Elt F) ℓ) (c : Dev nD) :
    after ops (launchContents m c) (Proc.devRef .tc main_arg3) = m ((c.tc : Thread nD τ).loc main_arg3) :=
  ref_arg (launchContents m c) main_arg3 (by decide)
theorem ref_arg4 (m : (ℓ : Loc nD τ sig) → Buf (Elt F) ℓ) (c : Dev nD) :
    after ops (launchContents m c) (Proc.devRef .tc main_arg4) = m ((c.tc : Thread nD τ).loc main_arg4) :=
  ref_arg (launchContents m c) main_arg4 (by decide)
theorem ref_arg5 (m : (ℓ : Loc nD τ sig) → Buf (Elt F) ℓ) (c : Dev nD) :
    after ops (launchContents m c) (Proc.devRef .tc main_arg5) = m ((c.tc : Thread nD τ).loc main_arg5) :=
  ref_arg (launchContents m c) main_arg5 (by decide)
theorem ref_arg6 (m : (ℓ : Loc nD τ sig) → Buf (Elt F) ℓ) (c : Dev nD) :
    after ops (launchContents m c) (Proc.devRef .tc main_arg6) = m ((c.tc : Thread nD τ).loc main_arg6) :=
  ref_arg (launchContents m c) main_arg6 (by decide)
theorem ref_arg7 (m : (ℓ : Loc nD τ sig) → Buf (Elt F) ℓ) (c : Dev nD) :
    after ops (launchContents m c) (Proc.devRef .tc main_arg7) = m ((c.tc : Thread nD τ).loc main_arg7) :=
  ref_arg (launchContents m c) main_arg7 (by decide)
theorem ref_arg8 (m : (ℓ : Loc nD τ sig) → Buf (Elt F) ℓ) (c : Dev nD) :
    after ops (launchContents m c) (Proc.devRef .tc main_arg8) = m ((c.tc : Thread nD τ).loc main_arg8) :=
  ref_arg (launchContents m c) main_arg8 (by decide)
theorem ref_arg9 (m : (ℓ : Loc nD τ sig) → Buf (Elt F) ℓ) (c : Dev nD) :
    after ops (launchContents m c) (Proc.devRef .tc main_arg9) = m ((c.tc : Thread nD τ).loc main_arg9) :=
  ref_arg (launchContents m c) main_arg9 (by decide)
theorem ref_arg10 (m : (ℓ : Loc nD τ sig) → Buf (Elt F) ℓ) (c : Dev nD) :
    after ops (launchContents m c) (Proc.devRef .tc main_arg10) = m ((c.tc : Thread nD τ).loc main_arg10) :=
  ref_arg (launchContents m c) main_arg10 (by decide)
theorem ref_arg11 (m : (ℓ : Loc nD τ sig) → Buf (Elt F) ℓ) (c : Dev nD) :
    after ops (launchContents m c) (Proc.devRef .tc main_arg11) = m ((c.tc : Thread nD τ).loc main_arg11) :=
  ref_arg (launchContents m c) main_arg11 (by decide)
end Args
end Cert.ReferenceIdeal.Hand
end
-- ==== Proof.RefClaims.lean ====
import proofs.«166660_j61229053772418_1_alg».proof.Defs
import proofs.«166660_j61229053772418_1_alg».proof.Proof.Gen.ReferenceIdeal
import proofs.«166660_j61229053772418_1_alg».proof.Proof.Gen.Pre_finite_inputs
import proofs.«166660_j61229053772418_1_alg».proof.Proof.RefValue
noncomputable section
namespace Cert.Proof.RefClaims
open Idealize.ShloMosaic Idealize.SL.Sem Idealize.ShloMosaic.StableHlo Cert.ReferenceIdeal.Hand
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono
    (fun _ h c => ⟨(h c Cert.ReferenceIdeal.main_arg0).trans (ref_arg0 m c),
      (h c Cert.ReferenceIdeal.main_arg1).trans (ref_arg1 m c),
      (h c Cert.ReferenceIdeal.main_arg2).trans (ref_arg2 m c),
      (h c Cert.ReferenceIdeal.main_arg3).trans (ref_arg3 m c),
      (h c Cert.ReferenceIdeal.main_arg4).trans (ref_arg4 m c),
      (h c Cert.ReferenceIdeal.main_arg5).trans (ref_arg5 m c),
      (h c Cert.ReferenceIdeal.main_arg6).trans (ref_arg6 m c),
      (h c Cert.ReferenceIdeal.main_arg7).trans (ref_arg7 m c),
      (h c Cert.ReferenceIdeal.main_arg8).trans (ref_arg8 m c),
      (h c Cert.ReferenceIdeal.main_arg9).trans (ref_arg9 m c),
      (h c Cert.ReferenceIdeal.main_arg10).trans (ref_arg10 m c),
      (h c Cert.ReferenceIdeal.main_arg11).trans (ref_arg11 m c)⟩)
    (run_after (F := Ideal) m ρ)
theorem ref_run_value
    (m' : (ℓ : Loc Cert.ReferenceIdeal.nD Cert.ReferenceIdeal.τ Cert.ReferenceIdeal.sig) → Buf (Elt Ideal) ℓ)
    (ρ' : Dev Cert.ReferenceIdeal.nD → PrngReg)
    (v0 : (c : Dev Cert.ReferenceIdeal.nD) →
      Buf (Elt Ideal) ((c.tc : Thread Cert.ReferenceIdeal.nD Cert.ReferenceIdeal.τ).loc Cert.ReferenceIdeal.main_v221))
    (hv : ∀ c, after ops (launchContents m' c) (Proc.devRef .tc Cert.ReferenceIdeal.main_v221) = v0 c) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v221) = v0 c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run (Cert.ReferenceIdeal.defs (F := Ideal)) _ _).mono
    (fun _ h c => ⟨(h c Cert.ReferenceIdeal.main_v221).trans (hv c),
      (h c Cert.ReferenceIdeal.main_arg0).trans (ref_arg0 m' c),
      (h c Cert.ReferenceIdeal.main_arg1).trans (ref_arg1 m' c),
      (h c Cert.ReferenceIdeal.main_arg2).trans (ref_arg2 m' c),
      (h c Cert.ReferenceIdeal.main_arg3).trans (ref_arg3 m' c),
      (h c Cert.ReferenceIdeal.main_arg4).trans (ref_arg4 m' c),
      (h c Cert.ReferenceIdeal.main_arg5).trans (ref_arg5 m' c),
      (h c Cert.ReferenceIdeal.main_arg6).trans (ref_arg6 m' c),
      (h c Cert.ReferenceIdeal.main_arg7).trans (ref_arg7 m' c),
      (h c Cert.ReferenceIdeal.main_arg8).trans (ref_arg8 m' c),
      (h c Cert.ReferenceIdeal.main_arg9).trans (ref_arg9 m' c),
      (h c Cert.ReferenceIdeal.main_arg10).trans (ref_arg10 m' c),
      (h c Cert.ReferenceIdeal.main_arg11).trans (ref_arg11 m' c)⟩)
    (run_after (F := Ideal) m' ρ')
end Cert.Proof.RefClaims
end
-- ==== Proof.KI.HostReads.lean ====
import proofs.«166660_j61229053772418_1_alg».proof.Proof.Gen.KernelIdeal.Launch
import proofs.«166660_j61229053772418_1_alg».proof.Proof.Gen.KernelIdeal.Regions
import proofs.«166660_j61229053772418_1_alg».proof.Proof.Shared
import Idealize.ShloMosaic.Lib.StableHlo.Run
import Idealize.ShloMosaic.Lib.Pipeline.Value
import Idealize.ShloMosaic.Lib.ValueIdx
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.StableHlo
open Idealize.ShloMosaic.ValueIdx
section HostReads
theorem slab3_apply {a b : ℕ} {α : Type} (o : ℕ) (l : Fin 4) (hl : l.val = o) (X : (⟨3, ![4, a, b]⟩ : Shape).Idx → α)
    (hs : (⟨3, ![4, a, b]⟩ : Shape).Slices ![o, 0, 0] ⟨3, ![1, a, b]⟩)
    (hc : (⟨3, ![1, a, b]⟩ : Shape).ShapeCasts ⟨2, ![a, b]⟩) (j : Fin a) (k : Fin b) :
    shapeCast ⟨2, ![a, b]⟩ (extractStridedSlice ⟨3, ![1, a, b]⟩ ![o, 0, 0] X hs) hc (ix2 j k) = X (ix3 l j k) := by
  rw [shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)
theorem slabRow_apply {b : ℕ} {α : Type} (o : ℕ) (l : Fin 4) (hl : l.val = o) (X : (⟨2, ![4, b]⟩ : Shape).Idx → α)
    (hs : (⟨2, ![4, b]⟩ : Shape).Slices ![o, 0] ⟨2, ![1, b]⟩)
    (hc1 : (⟨2, ![1, b]⟩ : Shape).ShapeCasts ⟨1, ![b]⟩) (hc2 : (⟨1, ![b]⟩ : Shape).ShapeCasts ⟨2, ![1, b]⟩)
    (u : Fin 1) (k : Fin b) :
    shapeCast ⟨2, ![1, b]⟩ (shapeCast ⟨1, ![b]⟩ (extractStridedSlice ⟨2, ![1, b]⟩ ![o, 0] X hs) hc1) hc2 (ix2 u k)
      = X (ix2 l k) := by
  rw [shapeCast_a_1a_apply, shapeCast_1a_a_apply, slice2_axis0_apply o X hs (0 : Fin 1) k l (hl.trans (Nat.add_zero _).symm)]
abbrev EdgeIdx : Type := (⟨S2x600000, .i32⟩ : BufTy).Contents (Elt Ideal)
abbrev EdgeRow : Type := (⟨S600000, .i32⟩ : BufTy).Contents (Elt Ideal)
def srcRow (ei : EdgeIdx) : EdgeRow :=
  shapeCast S600000 (extractStridedSlice S1x600000 ![0, 0] ei slices_S2x600000_S1x600000_0_0) shapeCasts_S1x600000_S600000
def dstRow (ei : EdgeIdx) : EdgeRow :=
  shapeCast S600000 (extractStridedSlice S1x600000 ![1, 0] ei slices_S2x600000_S1x600000_1_0) shapeCasts_S1x600000_S600000
def aggRows (src dst : EdgeRow) (h : FVec Ideal S50000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (Host.gather gather_S50000x128_S600000x1_S600000x128_1_0_n_n_0_1_1128 h
      (broadcastInDim S600000x1 ![0] bcast_S600000_S600000x1_0
        (select (cmpi .slt src (broadcastInDim S600000 ![] bcast_S_S600000 (constantI S_ 32 0#32)))
          (addi src (broadcastInDim S600000 ![] bcast_S_S600000 (constantI S_ 32 50000#32))) src)))
def aggK (ei : EdgeIdx) (h : FVec Ideal S50000x128 .f32) : FVec Ideal S50000x128 .f32 :=
  aggRows (srcRow ei) (dstRow ei) h
variable (W : Valuation τ sig (Elt Ideal))
theorem host0_v1 : StableHlo.after hostOps0 W (Proc.devRef .tc main_v1) = srcRow (W (Proc.devRef .tc main_arg1)) := by
  after_results; rfl
theorem host0_v3 : StableHlo.after hostOps0 W (Proc.devRef .tc main_v3) = dstRow (W (Proc.devRef .tc main_arg1)) := by
  after_results; rfl
set_option maxHeartbeats 2000000 in
theorem host0_v13 : StableHlo.after hostOps0 W (Proc.devRef .tc main_v13)
    = aggK (W (Proc.devRef .tc main_arg1)) (W (Proc.devRef .tc main_arg0)) := by
  after_results_simp; rfl
theorem host0_v15_apply (j k : Fin 128) :
    (StableHlo.after hostOps0 W (Proc.devRef .tc main_v15) : S128x128.Idx → EReal) (ix2 j k)
      = (W (Proc.devRef .tc main_arg2) : S4x128x128.Idx → EReal) (ix3 (0 : Fin 4) j k) := by
  have e : StableHlo.after hostOps0 W (Proc.devRef .tc main_v15)
      = shapeCast S128x128 (extractStridedSlice S1x128x128 ![0, 0, 0] (W (Proc.devRef .tc main_arg2)) slices_S4x128x128_S1x128x128_0_0_0) shapeCasts_S1x128x128_S128x128 := by
    after_results; rfl
  rw [e]
  exact slab3_apply 0 0 rfl _ _ _ j k
theorem host0_v22_apply (k : Fin 128) :
    (StableHlo.after hostOps0 W (Proc.devRef .tc main_v22) : S1x128.Idx → EReal) (ix2 (0 : Fin 1) k)
      = (W (Proc.devRef .tc main_arg3) : S4x128.Idx → EReal) (ix2 (0 : Fin 4) k) := by
  have e : StableHlo.after hostOps0 W (Proc.devRef .tc main_v22)
      = shapeCast S1x128 (shapeCast S128 (extractStridedSlice S1x128 ![0, 0] (W (Proc.devRef .tc main_arg3)) slices_S4x128_S1x128_0_0) shapeCasts_S1x128_S128) shapeCasts_S128_S1x128 := by
    after_results; rfl
  rw [e]
  exact slabRow_apply 0 0 rfl _ _ _ _ 0 k
theorem host0_v19_apply (j k : Fin 128) :
    (StableHlo.after hostOps0 W (Proc.devRef .tc main_v19) : S128x128.Idx → EReal) (ix2 j k)
      = (W (Proc.devRef .tc main_arg4) : S4x128x128.Idx → EReal) (ix3 (0 : Fin 4) j k) := by
  have e : StableHlo.after hostOps0 W (Proc.devRef .tc main_v19)
      = shapeCast S128x128 (extractStridedSlice S1x128x128 ![0, 0, 0] (W (Proc.devRef .tc main_arg4)) slices_S4x128x128_S1x128x128_0_0_0) shapeCasts_S1x128x128_S128x128 := by
    after_results; rfl
  rw [e]
  exact slab3_apply 0 0 rfl _ _ _ j k
theorem host0_v23_apply (k : Fin 128) :
    (StableHlo.after hostOps0 W (Proc.devRef .tc main_v23) : S1x128.Idx → EReal) (ix2 (0 : Fin 1) k)
      = (W (Proc.devRef .tc main_arg5) : S4x128.Idx → EReal) (ix2 (0 : Fin 4) k) := by
  have e : StableHlo.after hostOps0 W (Proc.devRef .tc main_v23)
      = shapeCast S1x128 (shapeCast S128 (extractStridedSlice S1x128 ![0, 0] (W (Proc.devRef .tc main_arg5)) slices_S4x128_S1x128_0_0) shapeCasts_S1x128_S128) shapeCasts_S128_S1x128 := by
    after_results; rfl
  rw [e]
  exact slabRow_apply 0 0 rfl _ _ _ _ 0 k
theorem host1_v29_apply (k : Fin 128) :
    (StableHlo.after hostOps1 W (Proc.devRef .tc main_v29) : S1x128.Idx → EReal) (ix2 (0 : Fin 1) k)
      = (W (Proc.devRef .tc main_arg6) : S4x128.Idx → EReal) (ix2 (0 : Fin 4) k) := by
  have e : StableHlo.after hostOps1 W (Proc.devRef .tc main_v29)
      = shapeCast S1x128 (shapeCast S128 (extractStridedSlice S1x128 ![0, 0] (W (Proc.devRef .tc main_arg6)) slices_S4x128_S1x128_0_0) shapeCasts_S1x128_S128) shapeCasts_S128_S1x128 := by
    after_results; rfl
  rw [e]
  exact slabRow_apply 0 0 rfl _ _ _ _ 0 k
theorem host1_v30_apply (k : Fin 128) :
    (StableHlo.after hostOps1 W (Proc.devRef .tc main_v30) : S1x128.Idx → EReal) (ix2 (0 : Fin 1) k)
      = (W (Proc.devRef .tc main_arg7) : S4x128.Idx → EReal) (ix2 (0 : Fin 4) k) := by
  have e : StableHlo.after hostOps1 W (Proc.devRef .tc main_v30)
      = shapeCast S1x128 (shapeCast S128 (extractStridedSlice S1x128 ![0, 0] (W (Proc.devRef .tc main_arg7)) slices_S4x128_S1x128_0_0) shapeCasts_S1x128_S128) shapeCasts_S128_S1x128 := by
    after_results; rfl
  rw [e]
  exact slabRow_apply 0 0 rfl _ _ _ _ 0 k
set_option maxHeartbeats 2000000 in
theorem host2_v41 : StableHlo.after hostOps2 W (Proc.devRef .tc main_v41)
    = aggRows (W (Proc.devRef .tc main_v1)) (W (Proc.devRef .tc main_v3)) (W (Proc.devRef .tc main_v31)) := by
  after_results_simp; rfl
theorem host2_v43_apply (j k : Fin 128) :
    (StableHlo.after hostOps2 W (Proc.devRef .tc main_v43) : S128x128.Idx → EReal) (ix2 j k)
      = (W (Proc.devRef .tc main_arg2) : S4x128x128.Idx → EReal) (ix3 (1 : Fin 4) j k) := by
  have e : StableHlo.after hostOps2 W (Proc.devRef .tc main_v43)
      = shapeCast S128x128 (extractStridedSlice S1x128x128 ![1, 0, 0] (W (Proc.devRef .tc main_arg2)) slices_S4x128x128_S1x128x128_1_0_0) shapeCasts_S1x128x128_S128x128 := by
    after_results; rfl
  rw [e]
  exact slab3_apply 1 1 rfl _ _ _ j k
theorem host2_v50_apply (k : Fin 128) :
    (StableHlo.after hostOps2 W (Proc.devRef .tc main_v50) : S1x128.Idx → EReal) (ix2 (0 : Fin 1) k)
      = (W (Proc.devRef .tc main_arg3) : S4x128.Idx → EReal) (ix2 (1 : Fin 4) k) := by
  have e : StableHlo.after hostOps2 W (Proc.devRef .tc main_v50)
      = shapeCast S1x128 (shapeCast S128 (extractStridedSlice S1x128 ![1, 0] (W (Proc.devRef .tc main_arg3)) slices_S4x128_S1x128_1_0) shapeCasts_S1x128_S128) shapeCasts_S128_S1x128 := by
    after_results; rfl
  rw [e]
  exact slabRow_apply 1 1 rfl _ _ _ _ 0 k
theorem host2_v47_apply (j k : Fin 128) :
    (StableHlo.after hostOps2 W (Proc.devRef .tc main_v47) : S128x128.Idx → EReal) (ix2 j k)
      = (W (Proc.devRef .tc main_arg4) : S4x128x128.Idx → EReal) (ix3 (1 : Fin 4) j k) := by
  have e : StableHlo.after hostOps2 W (Proc.devRef .tc main_v47)
      = shapeCast S128x128 (extractStridedSlice S1x128x128 ![1, 0, 0] (W (Proc.devRef .tc main_arg4)) slices_S4x128x128_S1x128x128_1_0_0) shapeCasts_S1x128x128_S128x128 := by
    after_results; rfl
  rw [e]
  exact slab3_apply 1 1 rfl _ _ _ j k
theorem host2_v51_apply (k : Fin 128) :
    (StableHlo.after hostOps2 W (Proc.devRef .tc main_v51) : S1x128.Idx → EReal) (ix2 (0 : Fin 1) k)
      = (W (Proc.devRef .tc main_arg5) : S4x128.Idx → EReal) (ix2 (1 : Fin 4) k) := by
  have e : StableHlo.after hostOps2 W (Proc.devRef .tc main_v51)
      = shapeCast S1x128 (shapeCast S128 (extractStridedSlice S1x128 ![1, 0] (W (Proc.devRef .tc main_arg5)) slices_S4x128_S1x128_1_0) shapeCasts_S1x128_S128) shapeCasts_S128_S1x128 := by
    after_results; rfl
  rw [e]
  exact slabRow_apply 1 1 rfl _ _ _ _ 0 k
theorem host3_v57_apply (k : Fin 128) :
    (StableHlo.after hostOps3 W (Proc.devRef .tc main_v57) : S1x128.Idx → EReal) (ix2 (0 : Fin 1) k)
      = (W (Proc.devRef .tc main_arg6) : S4x128.Idx → EReal) (ix2 (1 : Fin 4) k) := by
  have e : StableHlo.after hostOps3 W (Proc.devRef .tc main_v57)
      = shapeCast S1x128 (shapeCast S128 (extractStridedSlice S1x128 ![1, 0] (W (Proc.devRef .tc main_arg6)) slices_S4x128_S1x128_1_0) shapeCasts_S1x128_S128) shapeCasts_S128_S1x128 := by
    after_results; rfl
  rw [e]
  exact slabRow_apply 1 1 rfl _ _ _ _ 0 k
theorem host3_v58_apply (k : Fin 128) :
    (StableHlo.after hostOps3 W (Proc.devRef .tc main_v58) : S1x128.Idx → EReal) (ix2 (0 : Fin 1) k)
      = (W (Proc.devRef .tc main_arg7) : S4x128.Idx → EReal) (ix2 (1 : Fin 4) k) := by
  have e : StableHlo.after hostOps3 W (Proc.devRef .tc main_v58)
      = shapeCast S1x128 (shapeCast S128 (extractStridedSlice S1x128 ![1, 0] (W (Proc.devRef .tc main_arg7)) slices_S4x128_S1x128_1_0) shapeCasts_S1x128_S128) shapeCasts_S128_S1x128 := by
    after_results; rfl
  rw [e]
  exact slabRow_apply 1 1 rfl _ _ _ _ 0 k
set_option maxHeartbeats 2000000 in
theorem host4_v69 : StableHlo.after hostOps4 W (Proc.devRef .tc main_v69)
    = aggRows (W (Proc.devRef .tc main_v1)) (W (Proc.devRef .tc main_v3)) (W (Proc.devRef .tc main_v59)) := by
  after_results_simp; rfl
theorem host4_v71_apply (j k : Fin 128) :
    (StableHlo.after hostOps4 W (Proc.devRef .tc main_v71) : S128x128.Idx → EReal) (ix2 j k)
      = (W (Proc.devRef .tc main_arg2) : S4x128x128.Idx → EReal) (ix3 (2 : Fin 4) j k) := by
  have e : StableHlo.after hostOps4 W (Proc.devRef .tc main_v71)
      = shapeCast S128x128 (extractStridedSlice S1x128x128 ![2, 0, 0] (W (Proc.devRef .tc main_arg2)) slices_S4x128x128_S1x128x128_2_0_0) shapeCasts_S1x128x128_S128x128 := by
    after_results; rfl
  rw [e]
  exact slab3_apply 2 2 rfl _ _ _ j k
theorem host4_v78_apply (k : Fin 128) :
    (StableHlo.after hostOps4 W (Proc.devRef .tc main_v78) : S1x128.Idx → EReal) (ix2 (0 : Fin 1) k)
      = (W (Proc.devRef .tc main_arg3) : S4x128.Idx → EReal) (ix2 (2 : Fin 4) k) := by
  have e : StableHlo.after hostOps4 W (Proc.devRef .tc main_v78)
      = shapeCast S1x128 (shapeCast S128 (extractStridedSlice S1x128 ![2, 0] (W (Proc.devRef .tc main_arg3)) slices_S4x128_S1x128_2_0) shapeCasts_S1x128_S128) shapeCasts_S128_S1x128 := by
    after_results; rfl
  rw [e]
  exact slabRow_apply 2 2 rfl _ _ _ _ 0 k
theorem host4_v75_apply (j k : Fin 128) :
    (StableHlo.after hostOps4 W (Proc.devRef .tc main_v75) : S128x128.Idx → EReal) (ix2 j k)
      = (W (Proc.devRef .tc main_arg4) : S4x128x128.Idx → EReal) (ix3 (2 : Fin 4) j k) := by
  have e : StableHlo.after hostOps4 W (Proc.devRef .tc main_v75)
      = shapeCast S128x128 (extractStridedSlice S1x128x128 ![2, 0, 0] (W (Proc.devRef .tc main_arg4)) slices_S4x128x128_S1x128x128_2_0_0) shapeCasts_S1x128x128_S128x128 := by
    after_results; rfl
  rw [e]
  exact slab3_apply 2 2 rfl _ _ _ j k
theorem host4_v79_apply (k : Fin 128) :
    (StableHlo.after hostOps4 W (Proc.devRef .tc main_v79) : S1x128.Idx → EReal) (ix2 (0 : Fin 1) k)
      = (W (Proc.devRef .tc main_arg5) : S4x128.Idx → EReal) (ix2 (2 : Fin 4) k) := by
  have e : StableHlo.after hostOps4 W (Proc.devRef .tc main_v79)
      = shapeCast S1x128 (shapeCast S128 (extractStridedSlice S1x128 ![2, 0] (W (Proc.devRef .tc main_arg5)) slices_S4x128_S1x128_2_0) shapeCasts_S1x128_S128) shapeCasts_S128_S1x128 := by
    after_results; rfl
  rw [e]
  exact slabRow_apply 2 2 rfl _ _ _ _ 0 k
theorem host5_v85_apply (k : Fin 128) :
    (StableHlo.after hostOps5 W (Proc.devRef .tc main_v85) : S1x128.Idx → EReal) (ix2 (0 : Fin 1) k)
      = (W (Proc.devRef .tc main_arg6) : S4x128.Idx → EReal) (ix2 (2 : Fin 4) k) := by
  have e : StableHlo.after hostOps5 W (Proc.devRef .tc main_v85)
      = shapeCast S1x128 (shapeCast S128 (extractStridedSlice S1x128 ![2, 0] (W (Proc.devRef .tc main_arg6)) slices_S4x128_S1x128_2_0) shapeCasts_S1x128_S128) shapeCasts_S128_S1x128 := by
    after_results; rfl
  rw [e]
  exact slabRow_apply 2 2 rfl _ _ _ _ 0 k
theorem host5_v86_apply (k : Fin 128) :
    (StableHlo.after hostOps5 W (Proc.devRef .tc main_v86) : S1x128.Idx → EReal) (ix2 (0 : Fin 1) k)
      = (W (Proc.devRef .tc main_arg7) : S4x128.Idx → EReal) (ix2 (2 : Fin 4) k) := by
  have e : StableHlo.after hostOps5 W (Proc.devRef .tc main_v86)
      = shapeCast S1x128 (shapeCast S128 (extractStridedSlice S1x128 ![2, 0] (W (Proc.devRef .tc main_arg7)) slices_S4x128_S1x128_2_0) shapeCasts_S1x128_S128) shapeCasts_S128_S1x128 := by
    after_results; rfl
  rw [e]
  exact slabRow_apply 2 2 rfl _ _ _ _ 0 k
set_option maxHeartbeats 2000000 in
theorem host6_v97 : StableHlo.after hostOps6 W (Proc.devRef .tc main_v97)
    = aggRows (W (Proc.devRef .tc main_v1)) (W (Proc.devRef .tc main_v3)) (W (Proc.devRef .tc main_v87)) := by
  after_results_simp; rfl
theorem host6_v99_apply (j k : Fin 128) :
    (StableHlo.after hostOps6 W (Proc.devRef .tc main_v99) : S128x128.Idx → EReal) (ix2 j k)
      = (W (Proc.devRef .tc main_arg2) : S4x128x128.Idx → EReal) (ix3 (3 : Fin 4) j k) := by
  have e : StableHlo.after hostOps6 W (Proc.devRef .tc main_v99)
      = shapeCast S128x128 (extractStridedSlice S1x128x128 ![3, 0, 0] (W (Proc.devRef .tc main_arg2)) slices_S4x128x128_S1x128x128_3_0_0) shapeCasts_S1x128x128_S128x128 := by
    after_results; rfl
  rw [e]
  exact slab3_apply 3 3 rfl _ _ _ j k
theorem host6_v106_apply (k : Fin 128) :
    (StableHlo.after hostOps6 W (Proc.devRef .tc main_v106) : S1x128.Idx → EReal) (ix2 (0 : Fin 1) k)
      = (W (Proc.devRef .tc main_arg3) : S4x128.Idx → EReal) (ix2 (3 : Fin 4) k) := by
  have e : StableHlo.after hostOps6 W (Proc.devRef .tc main_v106)
      = shapeCast S1x128 (shapeCast S128 (extractStridedSlice S1x128 ![3, 0] (W (Proc.devRef .tc main_arg3)) slices_S4x128_S1x128_3_0) shapeCasts_S1x128_S128) shapeCasts_S128_S1x128 := by
    after_results; rfl
  rw [e]
  exact slabRow_apply 3 3 rfl _ _ _ _ 0 k
theorem host6_v103_apply (j k : Fin 128) :
    (StableHlo.after hostOps6 W (Proc.devRef .tc main_v103) : S128x128.Idx → EReal) (ix2 j k)
      = (W (Proc.devRef .tc main_arg4) : S4x128x128.Idx → EReal) (ix3 (3 : Fin 4) j k) := by
  have e : StableHlo.after hostOps6 W (Proc.devRef .tc main_v103)
      = shapeCast S128x128 (extractStridedSlice S1x128x128 ![3, 0, 0] (W (Proc.devRef .tc main_arg4)) slices_S4x128x128_S1x128x128_3_0_0) shapeCasts_S1x128x128_S128x128 := by
    after_results; rfl
  rw [e]
  exact slab3_apply 3 3 rfl _ _ _ j k
theorem host6_v107_apply (k : Fin 128) :
    (StableHlo.after hostOps6 W (Proc.devRef .tc main_v107) : S1x128.Idx → EReal) (ix2 (0 : Fin 1) k)
      = (W (Proc.devRef .tc main_arg5) : S4x128.Idx → EReal) (ix2 (3 : Fin 4) k) := by
  have e : StableHlo.after hostOps6 W (Proc.devRef .tc main_v107)
      = shapeCast S1x128 (shapeCast S128 (extractStridedSlice S1x128 ![3, 0] (W (Proc.devRef .tc main_arg5)) slices_S4x128_S1x128_3_0) shapeCasts_S1x128_S128) shapeCasts_S128_S1x128 := by
    after_results; rfl
  rw [e]
  exact slabRow_apply 3 3 rfl _ _ _ _ 0 k
theorem host7_v113_apply (k : Fin 128) :
    (StableHlo.after hostOps7 W (Proc.devRef .tc main_v113) : S1x128.Idx → EReal) (ix2 (0 : Fin 1) k)
      = (W (Proc.devRef .tc main_arg6) : S4x128.Idx → EReal) (ix2 (3 : Fin 4) k) := by
  have e : StableHlo.after hostOps7 W (Proc.devRef .tc main_v113)
      = shapeCast S1x128 (shapeCast S128 (extractStridedSlice S1x128 ![3, 0] (W (Proc.devRef .tc main_arg6)) slices_S4x128_S1x128_3_0) shapeCasts_S1x128_S128) shapeCasts_S128_S1x128 := by
    after_results; rfl
  rw [e]
  exact slabRow_apply 3 3 rfl _ _ _ _ 0 k
theorem host7_v114_apply (k : Fin 128) :
    (StableHlo.after hostOps7 W (Proc.devRef .tc main_v114) : S1x128.Idx → EReal) (ix2 (0 : Fin 1) k)
      = (W (Proc.devRef .tc main_arg7) : S4x128.Idx → EReal) (ix2 (3 : Fin 4) k) := by
  have e : StableHlo.after hostOps7 W (Proc.devRef .tc main_v114)
      = shapeCast S1x128 (shapeCast S128 (extractStridedSlice S1x128 ![3, 0] (W (Proc.devRef .tc main_arg7)) slices_S4x128_S1x128_3_0) shapeCasts_S1x128_S128) shapeCasts_S128_S1x128 := by
    after_results; rfl
  rw [e]
  exact slabRow_apply 3 3 rfl _ _ _ _ 0 k
theorem host8_v116_apply (l k : Fin 128) (r : Fin 512) (hr : r.val = 0 + l.val) :
    (StableHlo.after hostOps8 W (Proc.devRef .tc main_v116) : S128x128.Idx → EReal) (ix2 l k)
      = (W (Proc.devRef .tc main_arg8) : S512x128.Idx → EReal) (ix2 r k) := by
  have e : StableHlo.after hostOps8 W (Proc.devRef .tc main_v116)
      = extractStridedSlice S128x128 ![0, 0] (W (Proc.devRef .tc main_arg8)) slices_S512x128_S128x128_0_0 := by
    after_results
  rw [e]
  exact slice2_axis0_apply 0 _ _ l k r hr
theorem host8_v117_apply (l k : Fin 128) (r : Fin 512) (hr : r.val = 128 + l.val) :
    (StableHlo.after hostOps8 W (Proc.devRef .tc main_v117) : S128x128.Idx → EReal) (ix2 l k)
      = (W (Proc.devRef .tc main_arg8) : S512x128.Idx → EReal) (ix2 r k) := by
  have e : StableHlo.after hostOps8 W (Proc.devRef .tc main_v117)
      = extractStridedSlice S128x128 ![128, 0] (W (Proc.devRef .tc main_arg8)) slices_S512x128_S128x128_128_0 := by
    after_results
  rw [e]
  exact slice2_axis0_apply 128 _ _ l k r hr
theorem host8_v118_apply (l k : Fin 128) (r : Fin 512) (hr : r.val = 256 + l.val) :
    (StableHlo.after hostOps8 W (Proc.devRef .tc main_v118) : S128x128.Idx → EReal) (ix2 l k)
      = (W (Proc.devRef .tc main_arg8) : S512x128.Idx → EReal) (ix2 r k) := by
  have e : StableHlo.after hostOps8 W (Proc.devRef .tc main_v118)
      = extractStridedSlice S128x128 ![256, 0] (W (Proc.devRef .tc main_arg8)) slices_S512x128_S128x128_256_0 := by
    after_results
  rw [e]
  exact slice2_axis0_apply 256 _ _ l k r hr
theorem host8_v119_apply (l k : Fin 128) (r : Fin 512) (hr : r.val = 384 + l.val) :
    (StableHlo.after hostOps8 W (Proc.devRef .tc main_v119) : S128x128.Idx → EReal) (ix2 l k)
      = (W (Proc.devRef .tc main_arg8) : S512x128.Idx → EReal) (ix2 r k) := by
  have e : StableHlo.after hostOps8 W (Proc.devRef .tc main_v119)
      = extractStridedSlice S128x128 ![384, 0] (W (Proc.devRef .tc main_arg8)) slices_S512x128_S128x128_384_0 := by
    after_results
  rw [e]
  exact slice2_axis0_apply 384 _ _ l k r hr
theorem host8_v120_apply (k : Fin 128) :
    (StableHlo.after hostOps8 W (Proc.devRef .tc main_v120) : S1x128.Idx → EReal) (ix2 (0 : Fin 1) k)
      = (W (Proc.devRef .tc main_arg9) : S128.Idx → EReal) (ix1 k) := by
  have e : StableHlo.after hostOps8 W (Proc.devRef .tc main_v120) = shapeCast S1x128 (W (Proc.devRef .tc main_arg9)) shapeCasts_S128_S1x128 := by
    after_results; rfl
  rw [e]
  exact shapeCast_a_1a_apply _ _ 0 k
theorem host8_v121_apply (o : Fin 8) :
    (StableHlo.after hostOps8 W (Proc.devRef .tc main_v121) : S1x8.Idx → EReal) (ix2 (0 : Fin 1) o)
      = (W (Proc.devRef .tc main_arg11) : S8.Idx → EReal) (ix1 o) := by
  have e : StableHlo.after hostOps8 W (Proc.devRef .tc main_v121) = shapeCast S1x8 (W (Proc.devRef .tc main_arg11)) shapeCasts_S8_S1x8 := by
    after_results; rfl
  rw [e]
  exact shapeCast_a_1a_apply _ _ 0 o
end HostReads
end Cert.KernelIdeal.Hand
-- ==== Proof.KI.Bn1Value.lean ====
import proofs.«166660_j61229053772418_1_alg».proof.Proof.KI.Bn1
import proofs.«166660_j61229053772418_1_alg».proof.Proof.Spec
import Idealize.ShloMosaic.Lib.Pipeline.Value
import Idealize.ShloMosaic.Lib.ValueIdx
import Idealize.ShloMosaic.Lib.ValueLayout
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.Pipeline (Dat)
open Idealize.ShloMosaic.ValueIdx
section Bn1Value
theorem hz1 : (![0, 0] : Fin 2 → Nat) = fun _ => 0 := funext fun a => by fin_cases a <;> rfl
-- the payload through the whole-buffer loads: (h − mean) · rsqrt (var + ε) · scale + shift, the four rows broadcast down the block
theorem out1_5_apply (x0 : Vec Ideal S2000x128 .f32) (x1 x2 x3 x4 : Vec Ideal S1x128 .f32) (p : Fin 2000) (q : Fin 128) :
    out1_5 (F := Ideal) x0 x1 x2 x3 x4 (ix2 p q)
      = (x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q) := by
  unfold out1_5
  rw [View.canon_unit_zero hz1]
  simp only [View.ld_unit_zero (S := S2000x128) hz1, View.ld_unit_zero (S := S1x128) hz1]
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl
variable (V : (c : Dev nD) → (b : Ref sig .tc) → Buf (Elt Ideal) ((c : Thread nD τ).loc b))
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)
theorem iblk1_0_apply (c : Dev nD) (t : Fin cfg1.N) (p : Fin 2000) (q : Fin 128) (r : Fin 50000) (hr : r.val = t.val * 2000 + p.val) :
    (iblk1 V c 0 t : Vec Ideal S2000x128 .f32) (ix2 p q) = (V c main_v24_0 : S50000x128.Idx → EReal) (ix2 r q) := by
  obtain ⟨e0, e1, -⟩ := idx_facts1 t
  unfold iblk1
  rw [View.read_apply]
  show V c main_v24_0 _ = V c main_v24_0 _
  congr 1
  funext a
  apply Fin.ext
  match a with
  | ⟨0, _⟩ => show win1_0.index t 0 * 2000 + 1 * p.val = r.val; rw [e0, hr]; omega
  | ⟨1, _⟩ => show win1_0.index t 1 * 128 + 1 * q.val = q.val; rw [e1]; omega
-- each one-row window's block, at every point, is the whole one-row array
theorem iblk1_row_apply (c : Dev nD) (t : Fin cfg1.N) (q : Fin 128) :
    (iblk1 V c 1 t : Vec Ideal S1x128 .f32) (ix2 (0 : Fin 1) q) = (V c main_v24_1 : S1x128.Idx → EReal) (ix2 (0 : Fin 1) q)
    ∧ (iblk1 V c 2 t : Vec Ideal S1x128 .f32) (ix2 (0 : Fin 1) q) = (V c main_v24_2 : S1x128.Idx → EReal) (ix2 (0 : Fin 1) q) := by
  obtain ⟨-, -, a0, a1, b0, b1, -⟩ := idx_facts1 t
  unfold iblk1
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem iblk1_rows_apply (c : Dev nD) (t : Fin cfg1.N) (q : Fin 128) :
    (iblk1 V c 3 t : Vec Ideal S1x128 .f32) (ix2 (0 : Fin 1) q) = (V c main_v29 : S1x128.Idx → EReal) (ix2 (0 : Fin 1) q)
    ∧ (iblk1 V c 4 t : Vec Ideal S1x128 .f32) (ix2 (0 : Fin 1) q) = (V c main_v30 : S1x128.Idx → EReal) (ix2 (0 : Fin 1) q) := by
  obtain ⟨-, -, -, -, -, -, a0, a1, b0, b1, -⟩ := idx_facts1 t
  unfold iblk1
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem emb1_5 (t : Fin cfg1.N) (p : Fin 2000) (q : Fin 128) (r : Fin 50000) (hr : r.val = t.val * 2000 + p.val) :
    (((cfg1.win 5).blk t).view.emb (ix2 p q) : S50000x128.Idx) = ix2 r q := by
  obtain ⟨-, -, -, -, -, -, -, -, -, -, e0, e1⟩ := idx_facts1 t
  funext a
  apply Fin.ext
  match a with
  | ⟨0, _⟩ => show win1_5.index t 0 * 2000 + 1 * p.val = r.val; rw [e0, hr]; omega
  | ⟨1, _⟩ => show win1_5.index t 1 * 128 + 1 * q.val = q.val; rw [e1]; omega
theorem cover1_5_arr (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  have htv : t.val = (i 0).val / 2000 := rfl
  obtain ⟨-, -, -, -, -, -, -, -, -, -, e0, e1⟩ := idx_facts1 t
  refine ⟨t, flush1_5 t, ?_⟩
  show i ∈ ((View.whole main_v31).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000; rw [e0, htv]; omega
  | ⟨1, _⟩ => show win1_5.index t (1 : Fin 2) * 128 ≤ (i 1).val ∧ (i 1).val < win1_5.index t (1 : Fin 2) * 128 + 128; rw [e1]; omega
theorem final1 (c : Dev nD) (r : Fin 50000) (j : Fin 128) :
    (dat1 (F := Ideal) V c).arrAt 5 cfg1.N (ix2 r j)
      = GinSpec.bn (fun r j => V c main_v24_0 (ix2 r j)) (fun j => V c main_v24_1 (ix2 0 j)) (fun j => V c main_v24_2 (ix2 0 j))
          (fun j => V c main_v29 (ix2 0 j)) (fun j => V c main_v30 (ix2 0 j)) r j := by
  refine congrFun ((dat1 (F := Ideal) V c).arrAt_eq_of_cover 5 (fun i => GinSpec.bn (fun r j => V c main_v24_0 (ix2 r j)) (fun j => V c main_v24_1 (ix2 0 j))
    (fun j => V c main_v24_2 (ix2 0 j)) (fun j => V c main_v29 (ix2 0 j)) (fun j => V c main_v30 (ix2 0 j)) (i 0) (i 1)) (fun t _ => ?_) cover1_5_arr) _
  have ht : t.val < 25 := lt_of_lt_of_eq t.isLt N_1
  show (cfg1.win 5).cut (grid1.coords t) ((dat1 V c).after 5 t) = _
  rw [after1_5]
  funext j
  obtain ⟨p, q, rfl⟩ : ∃ (p : Fin 2000) (q : Fin 128), j = ix2 p q := ⟨j 0, j 1, eq_ix2 j⟩
  have hp : p.val < 2000 := p.isLt
  obtain ⟨h1, h2⟩ := iblk1_row_apply V c t q
  obtain ⟨h3, h4⟩ := iblk1_rows_apply V c t q
  rw [View.read_apply, emb1_5 t p q ⟨t.val * 2000 + p.val, by omega⟩ rfl]
  show out1_5 (F := Ideal) _ _ _ _ _ (ix2 p q) = _
  rw [out1_5_apply, iblk1_0_apply V c t p q ⟨t.val * 2000 + p.val, by omega⟩ rfl, h1, h2, h3, h4]
  rfl
end Bn1Value
end Cert.KernelIdeal.Hand
-- ==== Proof.KI.Bn3Value.lean ====
import proofs.«166660_j61229053772418_1_alg».proof.Proof.KI.Bn3
import proofs.«166660_j61229053772418_1_alg».proof.Proof.Spec
import Idealize.ShloMosaic.Lib.Pipeline.Value
import Idealize.ShloMosaic.Lib.ValueIdx
import Idealize.ShloMosaic.Lib.ValueLayout
import proofs.«166660_j61229053772418_1_alg».proof.Proof.KI.Bn1Value
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.Pipeline (Dat)
open Idealize.ShloMosaic.ValueIdx
section Bn1Value
variable (V : (c : Dev nD) → (b : Ref sig .tc) → Buf (Elt Ideal) ((c : Thread nD τ).loc b))
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)
theorem iblk3_0_apply (c : Dev nD) (t : Fin cfg3.N) (p : Fin 2000) (q : Fin 128) (r : Fin 50000) (hr : r.val = t.val * 2000 + p.val) :
    (iblk3 V c 0 t : Vec Ideal S2000x128 .f32) (ix2 p q) = (V c main_v52_0 : S50000x128.Idx → EReal) (ix2 r q) := by
  obtain ⟨e0, e1, -⟩ := idx_facts3 t
  unfold iblk3
  rw [View.read_apply]
  show V c main_v52_0 _ = V c main_v52_0 _
  congr 1
  funext a
  apply Fin.ext
  match a with
  | ⟨0, _⟩ => show win3_0.index t 0 * 2000 + 1 * p.val = r.val; rw [e0, hr]; omega
  | ⟨1, _⟩ => show win3_0.index t 1 * 128 + 1 * q.val = q.val; rw [e1]; omega
theorem iblk3_row_apply (c : Dev nD) (t : Fin cfg3.N) (q : Fin 128) :
    (iblk3 V c 1 t : Vec Ideal S1x128 .f32) (ix2 (0 : Fin 1) q) = (V c main_v52_1 : S1x128.Idx → EReal) (ix2 (0 : Fin 1) q)
    ∧ (iblk3 V c 2 t : Vec Ideal S1x128 .f32) (ix2 (0 : Fin 1) q) = (V c main_v52_2 : S1x128.Idx → EReal) (ix2 (0 : Fin 1) q) := by
  obtain ⟨-, -, a0, a1, b0, b1, -⟩ := idx_facts3 t
  unfold iblk3
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem iblk3_rows_apply (c : Dev nD) (t : Fin cfg3.N) (q : Fin 128) :
    (iblk3 V c 3 t : Vec Ideal S1x128 .f32) (ix2 (0 : Fin 1) q) = (V c main_v57 : S1x128.Idx → EReal) (ix2 (0 : Fin 1) q)
    ∧ (iblk3 V c 4 t : Vec Ideal S1x128 .f32) (ix2 (0 : Fin 1) q) = (V c main_v58 : S1x128.Idx → EReal) (ix2 (0 : Fin 1) q) := by
  obtain ⟨-, -, -, -, -, -, a0, a1, b0, b1, -⟩ := idx_facts3 t
  unfold iblk3
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem emb3_5 (t : Fin cfg3.N) (p : Fin 2000) (q : Fin 128) (r : Fin 50000) (hr : r.val = t.val * 2000 + p.val) :
    (((cfg3.win 5).blk t).view.emb (ix2 p q) : S50000x128.Idx) = ix2 r q := by
  obtain ⟨-, -, -, -, -, -, -, -, -, -, e0, e1⟩ := idx_facts3 t
  funext a
  apply Fin.ext
  match a with
  | ⟨0, _⟩ => show win3_5.index t 0 * 2000 + 1 * p.val = r.val; rw [e0, hr]; omega
  | ⟨1, _⟩ => show win3_5.index t 1 * 128 + 1 * q.val = q.val; rw [e1]; omega
theorem cover3_5_arr (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  have htv : t.val = (i 0).val / 2000 := rfl
  obtain ⟨-, -, -, -, -, -, -, -, -, -, e0, e1⟩ := idx_facts3 t
  refine ⟨t, flush1_5 t, ?_⟩
  show i ∈ ((View.whole main_v59).slice (win3_5.rect t)).set
  rw [View.set_slice_whole, Rect.mem_set_unit]
  intro a
  match a with
  | ⟨0, _⟩ => show win3_5.index t (0 : Fin 2) * 2000 ≤ (i 0).val ∧ (i 0).val < win3_5.index t (0 : Fin 2) * 2000 + 2000; rw [e0, htv]; omega
  | ⟨1, _⟩ => show win3_5.index t (1 : Fin 2) * 128 ≤ (i 1).val ∧ (i 1).val < win3_5.index t (1 : Fin 2) * 128 + 128; rw [e1]; omega
theorem final3 (c : Dev nD) (r : Fin 50000) (j : Fin 128) :
    (dat3 (F := Ideal) V c).arrAt 5 cfg3.N (ix2 r j)
      = GinSpec.bn (fun r j => V c main_v52_0 (ix2 r j)) (fun j => V c main_v52_1 (ix2 0 j)) (fun j => V c main_v52_2 (ix2 0 j))
          (fun j => V c main_v57 (ix2 0 j)) (fun j => V c main_v58 (ix2 0 j)) r j := by
  refine congrFun ((dat3 (F := Ideal) V c).arrAt_eq_of_cover 5 (fun i => GinSpec.bn (fun r j => V c main_v52_0 (ix2 r j)) (fun j => V c main_v52_1 (ix2 0 j))
    (fun j => V c main_v52_2 (ix2 0 j)) (fun j => V c main_v57 (ix2 0 j)) (fun j => V c main_v58 (ix2 0 j)) (i 0) (i 1)) (fun t _ => ?_) cover3_5_arr) _
  have ht : t.val < 25 := lt_of_lt_of_eq t.isLt N_3
  show (cfg3.win 5).cut (grid3.coords t) ((dat3 V c).after 5 t) = _
  rw [after3_5]
  funext j
  obtain ⟨p, q, rfl⟩ : ∃ (p : Fin 2000) (q : Fin 128), j = ix2 p q := ⟨j 0, j 1, eq_ix2 j⟩
  have hp : p.val < 2000 := p.isLt
  obtain ⟨h1, h2⟩ := iblk3_row_apply V c t q
  obtain ⟨h3, h4⟩ := iblk3_rows_apply V c t q
  rw [View.read_apply, emb3_5 t p q ⟨t.val * 2000 + p.val, by omega⟩ rfl]
  show out1_5 (F := Ideal) _ _ _ _ _ (ix2 p q) = _
  rw [out1_5_apply, iblk3_0_apply V c t p q ⟨t.val * 2000 + p.val, by omega⟩ rfl, h1, h2, h3, h4]
  rfl
end Bn1Value
end Cert.KernelIdeal.Hand
-- ==== Proof.KI.Bn5Value.lean ====
import proofs.«166660_j61229053772418_1_alg».proof.Proof.KI.Bn5
import proofs.«166660_j61229053772418_1_alg».proof.Proof.Spec
import Idealize.ShloMosaic.Lib.Pipeline.Value
import Idealize.ShloMosaic.Lib.ValueIdx
import Idealize.ShloMosaic.Lib.ValueLayout
import proofs.«166660_j61229053772418_1_alg».proof.Proof.KI.Bn1Value
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.Pipeline (Dat)
open Idealize.ShloMosaic.ValueIdx
section Bn1Value
variable (V : (c : Dev nD) → (b : Ref sig .tc) → Buf (Elt Ideal) ((c : Thread nD τ).loc b))
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)
theorem iblk5_0_apply (c : Dev nD) (t : Fin cfg5.N) (p : Fin 2000) (q : Fin 128) (r : Fin 50000) (hr : r.val = t.val * 2000 + p.val) :
    (iblk5 V c 0 t : Vec Ideal S2000x128 .f32) (ix2 p q) = (V c main_v80_0 : S50000x128.Idx → EReal) (ix2 r q) := by
  obtain ⟨e0, e1, -⟩ := idx_facts5 t
  unfold iblk5
  rw [View.read_apply]
  show V c main_v80_0 _ = V c main_v80_0 _
  congr 1
  funext a
  apply Fin.ext
  match a with
  | ⟨0, _⟩ => show win5_0.index t 0 * 2000 + 1 * p.val = r.val; rw [e0, hr]; omega
  | ⟨1, _⟩ => show win5_0.index t 1 * 128 + 1 * q.val = q.val; rw [e1]; omega
theorem iblk5_row_apply (c : Dev nD) (t : Fin cfg5.N) (q : Fin 128) :
    (iblk5 V c 1 t : Vec Ideal S1x128 .f32) (ix2 (0 : Fin 1) q) = (V c main_v80_1 : S1x128.Idx → EReal) (ix2 (0 : Fin 1) q)
    ∧ (iblk5 V c 2 t : Vec Ideal S1x128 .f32) (ix2 (0 : Fin 1) q) = (V c main_v80_2 : S1x128.Idx → EReal) (ix2 (0 : Fin 1) q) := by
  obtain ⟨-, -, a0, a1, b0, b1, -⟩ := idx_facts5 t
  unfold iblk5
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem iblk5_rows_apply (c : Dev nD) (t : Fin cfg5.N) (q : Fin 128) :
    (iblk5 V c 3 t : Vec Ideal S1x128 .f32) (ix2 (0 : Fin 1) q) = (V c main_v85 : S1x128.Idx → EReal) (ix2 (0 : Fin 1) q)
    ∧ (iblk5 V c 4 t : Vec Ideal S1x128 .f32) (ix2 (0 : Fin 1) q) = (V c main_v86 : S1x128.Idx → EReal) (ix2 (0 : Fin 1) q) := by
  obtain ⟨-, -, -, -, -, -, a0, a1, b0, b1, -⟩ := idx_facts5 t
  unfold iblk5
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem emb5_5 (t : Fin cfg5.N) (p : Fin 2000) (q : Fin 128) (r : Fin 50000) (hr : r.val = t.val * 2000 + p.val) :
    (((cfg5.win 5).blk t).view.emb (ix2 p q) : S50000x128.Idx) = ix2 r q := by
  obtain ⟨-, -, -, -, -, -, -, -, -, -, e0, e1⟩ := idx_facts5 t
  funext a
  apply Fin.ext
  match a with
  | ⟨0, _⟩ => show win5_5.index t 0 * 2000 + 1 * p.val = r.val; rw [e0, hr]; omega
  | ⟨1, _⟩ => show win5_5.index t 1 * 128 + 1 * q.val = q.val; rw [e1]; omega
theorem cover5_5_arr (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  let t : Fin cfg5.N := ⟨(i 0).val / 2000, by rw [hN]; omega⟩
  have htv : t.val = (i 0).val / 2000 := rfl
  obtain ⟨-, -, -, -, -, -, -, -, -, -, e0, e1⟩ := idx_facts5 t
  refine ⟨t, flush1_5 t, ?_⟩
  show i ∈ ((View.whole main_v87).slice (win5_5.rect t)).set
  rw [View.set_slice_whole, Rect.mem_set_unit]
  intro a
  match a with
  | ⟨0, _⟩ => show win5_5.index t (0 : Fin 2) * 2000 ≤ (i 0).val ∧ (i 0).val < win5_5.index t (0 : Fin 2) * 2000 + 2000; rw [e0, htv]; omega
  | ⟨1, _⟩ => show win5_5.index t (1 : Fin 2) * 128 ≤ (i 1).val ∧ (i 1).val < win5_5.index t (1 : Fin 2) * 128 + 128; rw [e1]; omega
theorem final5 (c : Dev nD) (r : Fin 50000) (j : Fin 128) :
    (dat5 (F := Ideal) V c).arrAt 5 cfg5.N (ix2 r j)
      = GinSpec.bn (fun r j => V c main_v80_0 (ix2 r j)) (fun j => V c main_v80_1 (ix2 0 j)) (fun j => V c main_v80_2 (ix2 0 j))
          (fun j => V c main_v85 (ix2 0 j)) (fun j => V c main_v86 (ix2 0 j)) r j := by
  refine congrFun ((dat5 (F := Ideal) V c).arrAt_eq_of_cover 5 (fun i => GinSpec.bn (fun r j => V c main_v80_0 (ix2 r j)) (fun j => V c main_v80_1 (ix2 0 j))
    (fun j => V c main_v80_2 (ix2 0 j)) (fun j => V c main_v85 (ix2 0 j)) (fun j => V c main_v86 (ix2 0 j)) (i 0) (i 1)) (fun t _ => ?_) cover5_5_arr) _
  have ht : t.val < 25 := lt_of_lt_of_eq t.isLt N_5
  show (cfg5.win 5).cut (grid5.coords t) ((dat5 V c).after 5 t) = _
  rw [after5_5]
  funext j
  obtain ⟨p, q, rfl⟩ : ∃ (p : Fin 2000) (q : Fin 128), j = ix2 p q := ⟨j 0, j 1, eq_ix2 j⟩
  have hp : p.val < 2000 := p.isLt
  obtain ⟨h1, h2⟩ := iblk5_row_apply V c t q
  obtain ⟨h3, h4⟩ := iblk5_rows_apply V c t q
  rw [View.read_apply, emb5_5 t p q ⟨t.val * 2000 + p.val, by omega⟩ rfl]
  show out1_5 (F := Ideal) _ _ _ _ _ (ix2 p q) = _
  rw [out1_5_apply, iblk5_0_apply V c t p q ⟨t.val * 2000 + p.val, by omega⟩ rfl, h1, h2, h3, h4]
  rfl
end Bn1Value
end Cert.KernelIdeal.Hand
-- ==== Proof.KI.Bn7Value.lean ====
import proofs.«166660_j61229053772418_1_alg».proof.Proof.KI.Bn7
import proofs.«166660_j61229053772418_1_alg».proof.Proof.Spec
import Idealize.ShloMosaic.Lib.Pipeline.Value
import Idealize.ShloMosaic.Lib.ValueIdx
import Idealize.ShloMosaic.Lib.ValueLayout
import proofs.«166660_j61229053772418_1_alg».proof.Proof.KI.Bn1Value
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.Pipeline (Dat)
open Idealize.ShloMosaic.ValueIdx
section Bn1Value
variable (V : (c : Dev nD) → (b : Ref sig .tc) → Buf (Elt Ideal) ((c : Thread nD τ).loc b))
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)
theorem iblk7_0_apply (c : Dev nD) (t : Fin cfg7.N) (p : Fin 2000) (q : Fin 128) (r : Fin 50000) (hr : r.val = t.val * 2000 + p.val) :
    (iblk7 V c 0 t : Vec Ideal S2000x128 .f32) (ix2 p q) = (V c main_v108_0 : S50000x128.Idx → EReal) (ix2 r q) := by
  obtain ⟨e0, e1, -⟩ := idx_facts7 t
  unfold iblk7
  rw [View.read_apply]
  show V c main_v108_0 _ = V c main_v108_0 _
  congr 1
  funext a
  apply Fin.ext
  match a with
  | ⟨0, _⟩ => show win7_0.index t 0 * 2000 + 1 * p.val = r.val; rw [e0, hr]; omega
  | ⟨1, _⟩ => show win7_0.index t 1 * 128 + 1 * q.val = q.val; rw [e1]; omega
theorem iblk7_row_apply (c : Dev nD) (t : Fin cfg7.N) (q : Fin 128) :
    (iblk7 V c 1 t : Vec Ideal S1x128 .f32) (ix2 (0 : Fin 1) q) = (V c main_v108_1 : S1x128.Idx → EReal) (ix2 (0 : Fin 1) q)
    ∧ (iblk7 V c 2 t : Vec Ideal S1x128 .f32) (ix2 (0 : Fin 1) q) = (V c main_v108_2 : S1x128.Idx → EReal) (ix2 (0 : Fin 1) q) := by
  obtain ⟨-, -, a0, a1, b0, b1, -⟩ := idx_facts7 t
  unfold iblk7
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem iblk7_rows_apply (c : Dev nD) (t : Fin cfg7.N) (q : Fin 128) :
    (iblk7 V c 3 t : Vec Ideal S1x128 .f32) (ix2 (0 : Fin 1) q) = (V c main_v113 : S1x128.Idx → EReal) (ix2 (0 : Fin 1) q)
    ∧ (iblk7 V c 4 t : Vec Ideal S1x128 .f32) (ix2 (0 : Fin 1) q) = (V c main_v114 : S1x128.Idx → EReal) (ix2 (0 : Fin 1) q) := by
  obtain ⟨-, -, -, -, -, -, a0, a1, b0, b1, -⟩ := idx_facts7 t
  unfold iblk7
  refine ⟨?_, ?_⟩ <;>
  · rw [View.read_apply]
    show V c _ _ = V c _ _
    congr 1
    funext a
    apply Fin.ext
    match a with
    | ⟨0, _⟩ => show _ * 1 + 1 * 0 = 0; exact (congrArg (· * 1 + 1 * 0) (by first | exact a0 | exact b0 : _ = 0)).trans rfl
    | ⟨1, _⟩ => show _ * 128 + 1 * q.val = q.val; exact (congrArg (· * 128 + 1 * q.val) (by first | exact a1 | exact b1 : _ = 0)).trans (by omega)
theorem emb7_5 (t : Fin cfg7.N) (p : Fin 2000) (q : Fin 128) (r : Fin 50000) (hr : r.val = t.val * 2000 + p.val) :
    (((cfg7.win 5).blk t).view.emb (ix2 p q) : S50000x128.Idx) = ix2 r q := by
  obtain ⟨-, -, -, -, -, -, -, -, -, -, e0, e1⟩ := idx_facts7 t
  funext a
  apply Fin.ext
  match a with
  | ⟨0, _⟩ => show win7_5.index t 0 * 2000 + 1 * p.val = r.val; rw [e0, hr]; omega
  | ⟨1, _⟩ => show win7_5.index t 1 * 128 + 1 * q.val = q.val; rw [e1]; omega
theorem cover7_5_arr (i : S50000x128.Idx) : ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 25 := N_7
  let t : Fin cfg7.N := ⟨(i 0).val / 2000, by rw [hN]; omega⟩
  have htv : t.val = (i 0).val / 2000 := rfl
  obtain ⟨-, -, -, -, -, -, -, -, -, -, e0, e1⟩ := idx_facts7 t
  refine ⟨t, flush1_5 t, ?_⟩
  show i ∈ ((View.whole main_v115).slice (win7_5.rect t)).set
  rw [View.set_slice_whole, Rect.mem_set_unit]
  intro a
  match a with
  | ⟨0, _⟩ => show win7_5.index t (0 : Fin 2) * 2000 ≤ (i 0).val ∧ (i 0).val < win7_5.index t (0 : Fin 2) * 2000 + 2000; rw [e0, htv]; omega
  | ⟨1, _⟩ => show win7_5.index t (1 : Fin 2) * 128 ≤ (i 1).val ∧ (i 1).val < win7_5.index t (1 : Fin 2) * 128 + 128; rw [e1]; omega
theorem final7 (c : Dev nD) (r : Fin 50000) (j : Fin 128) :
    (dat7 (F := Ideal) V c).arrAt 5 cfg7.N (ix2 r j)
      = GinSpec.bn (fun r j => V c main_v108_0 (ix2 r j)) (fun j => V c main_v108_1 (ix2 0 j)) (fun j => V c main_v108_2 (ix2 0 j))
          (fun j => V c main_v113 (ix2 0 j)) (fun j => V c main_v114 (ix2 0 j)) r j := by
  refine congrFun ((dat7 (F := Ideal) V c).arrAt_eq_of_cover 5 (fun i => GinSpec.bn (fun r j => V c main_v108_0 (ix2 r j)) (fun j => V c main_v108_1 (ix2 0 j))
    (fun j => V c main_v108_2 (ix2 0 j)) (fun j => V c main_v113 (ix2 0 j)) (fun j => V c main_v114 (ix2 0 j)) (i 0) (i 1)) (fun t _ => ?_) cover7_5_arr) _
  have ht : t.val < 25 := lt_of_lt_of_eq t.isLt N_7
  show (cfg7.win 5).cut (grid7.coords t) ((dat7 V c).after 5 t) = _
  rw [after7_5]
  funext j
  obtain ⟨p, q, rfl⟩ : ∃ (p : Fin 2000) (q : Fin 128), j = ix2 p q := ⟨j 0, j 1, eq_ix2 j⟩
  have hp : p.val < 2000 := p.isLt
  obtain ⟨h1, h2⟩ := iblk7_row_apply V c t q
  obtain ⟨h3, h4⟩ := iblk7_rows_apply V c t q
  rw [View.read_apply, emb7_5 t p q ⟨t.val * 2000 + p.val, by omega⟩ rfl]
  show out1_5 (F := Ideal) _ _ _ _ _ (ix2 p q) = _
  rw [out1_5_apply, iblk7_0_apply V c t p q ⟨t.val * 2000 + p.val, by omega⟩ rfl, h1, h2, h3, h4]
  rfl
end Bn1Value
end Cert.KernelIdeal.Hand
-- ==== Proof.KI.Head8Value.lean ====
import proofs.«166660_j61229053772418_1_alg».proof.Proof.KI.Head8
import proofs.«166660_j61229053772418_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
-- One lemma for both of the head's matrix products, which differ only in their extents.
theorem plain_matmul_apply {M K N : ℕ} (a : FVec Ideal ⟨2, ![M, K]⟩ .bf16) (b : FVec Ideal ⟨2, ![K, N]⟩ .bf16) (p : Fin M) (k : Fin N) :
    matmul (DotDims.plain M K N) none a b (constant (F := Ideal) ⟨2, ![M, N]⟩ .f32 0x00000000#32) (ix2 p k)
      = ∑ l : Fin K, a (ix2 p l) * b (ix2 l k) := by
  simp only [matmul]
  rw [Ideal.matmul_constant_zero_apply, ← Equiv.sum_comp (contrEquiv1 (DotDims.plain M K N) K rfl rfl).symm]
  refine Finset.sum_congr rfl fun l _ => ?_
  have hk := contrEquiv1_symm_val (DotDims.plain M K N) K rfl rfl l
  have el : (DotDims.plain M K N).lhsIdx (ix2 p k) ((contrEquiv1 (DotDims.plain M K N) K rfl rfl).symm l) = ix2 p l := funext fun a => Fin.ext (by
    match a with
    | ⟨0, _⟩ => rfl
    | ⟨1, _⟩ => exact ((DotDims.plain M K N).lhsIdx_val_of_single rfl _ _).trans hk)
  have er : (DotDims.plain M K N).rhsIdx (ix2 p k) ((contrEquiv1 (DotDims.plain M K N) K rfl rfl).symm l) = ix2 l k := funext fun a => Fin.ext (by
    match a with
    | ⟨0, _⟩ => exact ((DotDims.plain M K N).rhsIdx_val_of_single rfl _ _).trans hk
    | ⟨1, _⟩ => rfl)
  rw [el, er]
theorem mmA_apply (a : FVec Ideal S2000x128 .bf16) (b : FVec Ideal S128x128 .bf16) (p : Fin 2000) (k : Fin 128) :
    matmul dot_S2000x128_S128x128_S2000x128_1_0_0_1_n_n none a b (constant (F := Ideal) S2000x128 .f32 0x00000000#32) (ix2 p k)
      = ∑ l : Fin 128, a (ix2 p l) * b (ix2 l k) := plain_matmul_apply a b p k
theorem mmB_apply (a : FVec Ideal S2000x128 .bf16) (b : FVec Ideal S128x8 .bf16) (p : Fin 2000) (o : Fin 8) :
    matmul dot_S2000x128_S128x8_S2000x8_1_0_0_1_n_n none a b (constant (F := Ideal) S2000x8 .f32 0x00000000#32) (ix2 p o)
      = ∑ k : Fin 128, a (ix2 p k) * b (ix2 k o) := plain_matmul_apply a b p o
theorem pay2_apply (v0 : Vec Ideal S2000x128 .f32) (v3 : Vec Ideal S128x128 .f32) (v7 : Vec Ideal S2000x128 .f32) (v10 : Vec Ideal S128x128 .f32)
    (v15 : Vec Ideal S2000x128 .f32) (v18 : Vec Ideal S128x128 .f32) (v23 : Vec Ideal S2000x128 .f32) (v26 : Vec Ideal S128x128 .f32)
    (v31 : Vec Ideal S1x128 .f32) (p : Fin 2000) (k : Fin 128) :
    k8_pay2 (F := Ideal) v0 v3 v7 v10 v15 v18 v23 v26 v31 (ix2 p k)
      = ((((∑ l : Fin 128, v0 (ix2 p l) * v3 (ix2 l k)) + ∑ l : Fin 128, v7 (ix2 p l) * v10 (ix2 l k))
          + ∑ l : Fin 128, v15 (ix2 p l) * v18 (ix2 l k)) + ∑ l : Fin 128, v23 (ix2 p l) * v26 (ix2 l k)) + v31 (ix2 0 k) := by
  unfold k8_pay2
  simp only [shapeCast_self]
  rw [addf_apply, addf_apply, addf_apply, addf_apply, mmA_apply, mmA_apply, mmA_apply, mmA_apply]
  rw [broadcastTo_1b_ab_apply]
  rfl
theorem pay1_apply (v34 : FVec Ideal S2000x128 .f32) (v38 : Vec Ideal S128x8 .f32) (v41 : Vec Ideal S1x8 .f32) (p : Fin 2000) (o : Fin 8) :
    k8_pay1 (F := Ideal) v34 (k8_pay3 (F := Ideal)) v38 v41 (ix2 p o)
      = (∑ k : Fin 128, GinSpec.relu (v34 (ix2 p k)) * v38 (ix2 k o)) + v41 (ix2 0 o) := by
  unfold k8_pay1
  simp only [shapeCast_self]
  rw [addf_apply, mmB_apply, broadcastTo_1b_ab_apply]
  refine congrArg (· + v41 (ix2 0 o)) (Finset.sum_congr rfl fun k _ => ?_)
  show max (v34 (ix2 p k)) (Ideal.ofBits .f32 0x00000000#32) * v38 (ix2 k o) = _
  rw [Ideal.ofBits_zero_f32]
  rfl
abbrev mat2 {n k : ℕ} (A : (⟨2, ![n, k]⟩ : Shape).Idx → EReal) : GinSpec.Mat n k := fun r j => A (ix2 r j)
abbrev row2 {k : ℕ} (A : (⟨2, ![1, k]⟩ : Shape).Idx → EReal) : GinSpec.Row k := fun j => A (ix2 0 j)
def headPt (a0 a1 a2 a3 : Fin 128 → EReal) (w0 w1 w2 w3 : Fin 128 → Fin 128 → EReal) (b1 : Fin 128 → EReal)
    (w : Fin 128 → EReal) (b2 : EReal) : EReal :=
  (∑ k : Fin 128, GinSpec.relu (((((∑ l : Fin 128, a0 l * w0 l k) + ∑ l : Fin 128, a1 l * w1 l k)
      + ∑ l : Fin 128, a2 l * w2 l k) + ∑ l : Fin 128, a3 l * w3 l k) + b1 k) * w k) + b2
theorem headPt_congr {a0 a1 a2 a3 a0' a1' a2' a3' : Fin 128 → EReal} (h0 : a0 = a0') (h1 : a1 = a1') (h2 : a2 = a2') (h3 : a3 = a3')
    (w0 w1 w2 w3 : Fin 128 → Fin 128 → EReal) (b1 w : Fin 128 → EReal) (b2 : EReal) :
    headPt a0 a1 a2 a3 w0 w1 w2 w3 b1 w b2 = headPt a0' a1' a2' a3' w0 w1 w2 w3 b1 w b2 := by subst h0 h1 h2 h3; rfl
theorem hz8 : (![0, 0] : Fin 2 → Nat) = fun _ => 0 := funext fun a => by fin_cases a <;> rfl
theorem out8_11_apply (x0 x1 x2 x3 : Vec Ideal S2000x128 .f32) (x4 x5 x6 x7 : Vec Ideal S128x128 .f32) (x8 : Vec Ideal S1x128 .f32)
    (x9 : Vec Ideal S128x8 .f32) (x10 : Vec Ideal S1x8 .f32) (p : Fin 2000) (o : Fin 8) :
    out8_11 (F := Ideal) x0 x1 x2 x3 x4 x5 x6 x7 x8 x9 x10 (ix2 p o)
      = headPt (fun l => x0 (ix2 p l)) (fun l => x1 (ix2 p l)) (fun l => x2 (ix2 p l)) (fun l => x3 (ix2 p l))
          (fun l k => x4 (ix2 l k)) (fun l k => x5 (ix2 l k)) (fun l k => x6 (ix2 l k)) (fun l k => x7 (ix2 l k))
          (fun k => x8 (ix2 0 k)) (fun k => x9 (ix2 k o)) (x10 (ix2 0 o)) := by
  unfold out8_11 pre8
  rw [View.canon_unit_zero hz8]
  simp only [View.ld_unit_zero (S := S2000x128) hz8, View.ld_unit_zero (S := S128x128) hz8, View.ld_unit_zero (S := S1x128) hz8,
    View.ld_unit_zero (S := S128x8) hz8, View.ld_unit_zero (S := S1x8) hz8]
  rw [pay1_apply]
  simp only [pay2_apply]
  rfl
theorem idx8_11 : ∀ t : Fin cfg8.N, win8_11.index t (0 : Fin 2) = t.val ∧ win8_11.index t (1 : Fin 2) = 0 :=
  (by decide +kernel : ∀ t : Fin grid8.N, _)
-- The four row-blocked windows start block t at row 2000 t.
theorem idx8_row : ∀ (t : Fin cfg8.N) (w : Fin cfg8.W), w.val < 4 → ∀ a, (cfg8.win w).index t a * (cfg8.win w).size a = if a.val = 0 then 2000 * t.val else 0 :=
  (by decide +kernel : ∀ (t : Fin grid8.N) (w : Fin 12), _)
-- One fact for the seven windows whose block is their whole array, in place of one for each.
theorem idx8_whole : ∀ (t : Fin cfg8.N) (w : Fin cfg8.W), 4 ≤ w.val → w.val < 11 → ∀ a, (cfg8.win w).index t a = 0 :=
  (by decide +kernel : ∀ (t : Fin grid8.N) (w : Fin 12), _)
section Arrays
variable (V : (c : Dev nD) → (b : Ref sig .tc) → Buf (Elt Ideal) ((c : Thread nD τ).loc b))
theorem emb8_row (t : Fin cfg8.N) (w : Fin cfg8.W) (hw : w.val < 4) (y) (a) :
    (((cfg8.win w).rect t).emb y a : ℕ) = (if a.val = 0 then 2000 * t.val else 0) + y a := by
  rw [(cfg8.win w).rect_emb_val t y a, idx8_row t w hw a]
theorem iblk8_0_apply (c : Dev nD) (t : Fin cfg8.N) (y : S2000x128.Idx) (i : S50000x128.Idx)
    (h : ∀ a, (i a).val = (if a.val = 0 then 2000 * t.val else 0) + (y a).val) :
    (iblk8 V c 0 t : Vec Ideal S2000x128 .f32) y = (V c main_v31 : S50000x128.Idx → Elt Ideal .f32) i :=
  congrArg (V c main_v31 : S50000x128.Idx → Elt Ideal .f32) (funext fun a => Fin.ext ((emb8_row t 0 (by decide) y a).trans (h a).symm))
theorem iblk8_1_apply (c : Dev nD) (t : Fin cfg8.N) (y : S2000x128.Idx) (i : S50000x128.Idx)
    (h : ∀ a, (i a).val = (if a.val = 0 then 2000 * t.val else 0) + (y a).val) :
    (iblk8 V c 1 t : Vec Ideal S2000x128 .f32) y = (V c main_v59 : S50000x128.Idx → Elt Ideal .f32) i :=
  congrArg (V c main_v59 : S50000x128.Idx → Elt Ideal .f32) (funext fun a => Fin.ext ((emb8_row t 1 (by decide) y a).trans (h a).symm))
theorem iblk8_2_apply (c : Dev nD) (t : Fin cfg8.N) (y : S2000x128.Idx) (i : S50000x128.Idx)
    (h : ∀ a, (i a).val = (if a.val = 0 then 2000 * t.val else 0) + (y a).val) :
    (iblk8 V c 2 t : Vec Ideal S2000x128 .f32) y = (V c main_v87 : S50000x128.Idx → Elt Ideal .f32) i :=
  congrArg (V c main_v87 : S50000x128.Idx → Elt Ideal .f32) (funext fun a => Fin.ext ((emb8_row t 2 (by decide) y a).trans (h a).symm))
theorem iblk8_3_apply (c : Dev nD) (t : Fin cfg8.N) (y : S2000x128.Idx) (i : S50000x128.Idx)
    (h : ∀ a, (i a).val = (if a.val = 0 then 2000 * t.val else 0) + (y a).val) :
    (iblk8 V c 3 t : Vec Ideal S2000x128 .f32) y = (V c main_v115 : S50000x128.Idx → Elt Ideal .f32) i :=
  congrArg (V c main_v115 : S50000x128.Idx → Elt Ideal .f32) (funext fun a => Fin.ext ((emb8_row t 3 (by decide) y a).trans (h a).symm))
theorem emb8_whole (t : Fin cfg8.N) (w : Fin cfg8.W) (h4 : 4 ≤ w.val) (h11 : w.val < 11) (y) (a) : (((cfg8.win w).rect t).emb y a : ℕ) = y a :=
  (cfg8.win w).rect_emb_val_of_index_zero t a (idx8_whole t w h4 h11 a) y
theorem iblk8_4_eq (c : Dev nD) (t : Fin cfg8.N) : (iblk8 V c 4 t : Vec Ideal S128x128 .f32) = (V c main_v116 : S128x128.Idx → Elt Ideal .f32) :=
  funext fun y => congrArg (V c main_v116 : S128x128.Idx → Elt Ideal .f32) (funext fun a => Fin.ext (emb8_whole t 4 (by decide) (by decide) y a))
theorem iblk8_5_eq (c : Dev nD) (t : Fin cfg8.N) : (iblk8 V c 5 t : Vec Ideal S128x128 .f32) = (V c main_v117 : S128x128.Idx → Elt Ideal .f32) :=
  funext fun y => congrArg (V c main_v117 : S128x128.Idx → Elt Ideal .f32) (funext fun a => Fin.ext (emb8_whole t 5 (by decide) (by decide) y a))
theorem iblk8_6_eq (c : Dev nD) (t : Fin cfg8.N) : (iblk8 V c 6 t : Vec Ideal S128x128 .f32) = (V c main_v118 : S128x128.Idx → Elt Ideal .f32) :=
  funext fun y => congrArg (V c main_v118 : S128x128.Idx → Elt Ideal .f32) (funext fun a => Fin.ext (emb8_whole t 6 (by decide) (by decide) y a))
theorem iblk8_7_eq (c : Dev nD) (t : Fin cfg8.N) : (iblk8 V c 7 t : Vec Ideal S128x128 .f32) = (V c main_v119 : S128x128.Idx → Elt Ideal .f32) :=
  funext fun y => congrArg (V c main_v119 : S128x128.Idx → Elt Ideal .f32) (funext fun a => Fin.ext (emb8_whole t 7 (by decide) (by decide) y a))
theorem iblk8_8_eq (c : Dev nD) (t : Fin cfg8.N) : (iblk8 V c 8 t : Vec Ideal S1x128 .f32) = (V c main_v120 : S1x128.Idx → Elt Ideal .f32) :=
  funext fun y => congrArg (V c main_v120 : S1x128.Idx → Elt Ideal .f32) (funext fun a => Fin.ext (emb8_whole t 8 (by decide) (by decide) y a))
theorem iblk8_9_eq (c : Dev nD) (t : Fin cfg8.N) : (iblk8 V c 9 t : Vec Ideal S128x8 .f32) = (V c main_arg10 : S128x8.Idx → Elt Ideal .f32) :=
  funext fun y => congrArg (V c main_arg10 : S128x8.Idx → Elt Ideal .f32) (funext fun a => Fin.ext (emb8_whole t 9 (by decide) (by decide) y a))
theorem iblk8_10_eq (c : Dev nD) (t : Fin cfg8.N) : (iblk8 V c 10 t : Vec Ideal S1x8 .f32) = (V c main_v121 : S1x8.Idx → Elt Ideal .f32) :=
  funext fun y => congrArg (V c main_v121 : S1x8.Idx → Elt Ideal .f32) (funext fun a => Fin.ext (emb8_whole t 10 (by decide) (by decide) y a))
def head8 (c : Dev nD) : S50000x8.Idx → Elt Ideal .f32 := fun i =>
  headPt (fun l => (V c main_v31 : S50000x128.Idx → Elt Ideal .f32) (ix2 (i 0) l)) (fun l => (V c main_v59 : S50000x128.Idx → Elt Ideal .f32) (ix2 (i 0) l))
    (fun l => (V c main_v87 : S50000x128.Idx → Elt Ideal .f32) (ix2 (i 0) l)) (fun l => (V c main_v115 : S50000x128.Idx → Elt Ideal .f32) (ix2 (i 0) l))
    (fun l k => (V c main_v116 : S128x128.Idx → Elt Ideal .f32) (ix2 l k)) (fun l k => (V c main_v117 : S128x128.Idx → Elt Ideal .f32) (ix2 l k))
    (fun l k => (V c main_v118 : S128x128.Idx → Elt Ideal .f32) (ix2 l k)) (fun l k => (V c main_v119 : S128x128.Idx → Elt Ideal .f32) (ix2 l k))
    (fun k => (V c main_v120 : S1x128.Idx → Elt Ideal .f32) (ix2 0 k)) (fun k => (V c main_arg10 : S128x8.Idx → Elt Ideal .f32) (ix2 k (i 1)))
    ((V c main_v121 : S1x8.Idx → Elt Ideal .f32) (ix2 0 (i 1)))
theorem flushed8_eq (c : Dev nD) (t : Fin cfg8.N) :
    (dat8 (F := Ideal) V c).flushed 11 t = ((cfg8.win 11).blk t).view.read (Elt Ideal) (head8 V c) := by
  show (cfg8.win 11).cut (grid8.coords t) ((dat8 (F := Ideal) V c).after 11 t) = _
  dsimp only [dat8]
  funext j
  obtain ⟨p, o, rfl⟩ : ∃ (p : Fin 2000) (o : Fin 8), j = ix2 p o := ⟨j 0, j 1, eq_ix2 j⟩
  show out8_11 (F := Ideal) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) (ix2 p o)
    = head8 V c (((cfg8.win 11).blk t).view.emb (ix2 p o))
  rw [out8_11_apply]
  obtain ⟨e0, e1⟩ := idx8_11 t
  have hE0 : ((((cfg8.win 11).blk t).view.emb (ix2 p o)) 0).val = 2000 * t.val + p.val := by
    show win8_11.index t (0 : Fin 2) * 2000 + 1 * p.val = _; rw [e0]; omega
  have hE1 : ((((cfg8.win 11).blk t).view.emb (ix2 p o) : S50000x8.Idx) 1) = o := Fin.ext (by
    show win8_11.index t (1 : Fin 2) * 8 + 1 * o.val = _; rw [e1]; omega)
  unfold head8
  rw [hE1, iblk8_4_eq V c t, iblk8_5_eq V c t, iblk8_6_eq V c t, iblk8_7_eq V c t, iblk8_8_eq V c t, iblk8_9_eq V c t, iblk8_10_eq V c t]
  have hrow : ∀ (l : Fin 128) (a : Fin 2), ((ix2 ((((cfg8.win 11).blk t).view.emb (ix2 p o) : S50000x8.Idx) 0) l : S50000x128.Idx) a).val
      = (if a.val = 0 then 2000 * t.val else 0) + ((ix2 p l : S2000x128.Idx) a).val :=
    fun l a => match a with | ⟨0, _⟩ => hE0 | ⟨1, _⟩ => (Nat.zero_add _).symm
  exact headPt_congr (funext fun l => iblk8_0_apply V c t _ _ (hrow l)) (funext fun l => iblk8_1_apply V c t _ _ (hrow l))
    (funext fun l => iblk8_2_apply V c t _ _ (hrow l)) (funext fun l => iblk8_3_apply V c t _ _ (hrow l)) _ _ _ _ _ _ _
theorem mem_blk8 (t : Fin cfg8.N) (i : S50000x8.Idx) :
    i ∈ ((cfg8.win 11).blk t).view.set ↔ ∀ a : Fin 2, win8_11.index t a * S2000x8.size a ≤ (i a).val ∧ (i a).val < win8_11.index t a * S2000x8.size a + S2000x8.size a := by
  show i ∈ ((View.whole main_v122).slice (win8_11.rect t)).set ↔ _
  rw [View.set_slice_whole, Rect.mem_set_unit]
  exact Iff.rfl
theorem cover8 (i : S50000x8.Idx) : ∃ t : Fin cfg8.N, (cfg8.win 11).flush t = true ∧ i ∈ ((cfg8.win 11).blk t).view.set := by
  have hi0 : (i 0).val < 50000 := (i 0).isLt
  have hi1 : (i 1).val < 8 := (i 1).isLt
  have hN : cfg8.N = 25 := N_8
  refine ⟨⟨(i 0).val / 2000, by rw [hN]; omega⟩, flush8_11 _, ?_⟩
  obtain ⟨e0, e1⟩ := idx8_11 ⟨(i 0).val / 2000, by rw [hN]; omega⟩
  rw [mem_blk8]
  intro a
  match a with
  | ⟨0, _⟩ =>
    show win8_11.index ⟨(i 0).val / 2000, _⟩ (0 : Fin 2) * 2000 ≤ (i 0).val ∧ (i 0).val < win8_11.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win8_11.index ⟨(i 0).val / 2000, _⟩ (1 : Fin 2) * 8 ≤ (i 1).val ∧ (i 1).val < win8_11.index ⟨(i 0).val / 2000, _⟩ (1 : Fin 2) * 8 + 8
    rw [e1]; omega
theorem final8_arr (c : Dev nD) : (dat8 (F := Ideal) V c).arrAt 11 cfg8.N = head8 V c :=
  (dat8 (F := Ideal) V c).arrAt_eq_of_cover 11 (head8 V c) (fun t _ => flushed8_eq V c t) cover8
theorem final8 (c : Dev nD) (r : Fin 50000) (o : Fin 8) :
    (dat8 (F := Ideal) V c).arrAt 11 cfg8.N (ix2 r o)
      = (∑ k : Fin 128, GinSpec.relu (((((∑ l : Fin 128, mat2 (V c main_v31) r l * mat2 (V c main_v116) l k)
            + ∑ l : Fin 128, mat2 (V c main_v59) r l * mat2 (V c main_v117) l k)
            + ∑ l : Fin 128, mat2 (V c main_v87) r l * mat2 (V c main_v118) l k)
            + ∑ l : Fin 128, mat2 (V c main_v115) r l * mat2 (V c main_v119) l k)
            + row2 (V c main_v120) k) * mat2 (V c main_arg10) k o)
          + row2 (V c main_v121) o := by
  rw [final8_arr]
  rfl
end Arrays
end Cert.KernelIdeal.Hand
end
-- ==== Proof.KI.StatsPayLib.lean ====
import proofs.«166660_j61229053772418_1_alg».proof.Proof.Gen.KernelIdeal.Skeleton
import proofs.«166660_j61229053772418_1_alg».proof.Proof.Shared
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Idealize.ShloMosaic.PureOps.IdealRules
noncomputable section
namespace Cert.KernelIdeal.Hand
open Cert.KernelIdeal Cert.KernelIdeal.Gen
open Idealize.ShloMosaic Idealize.ShloMosaic.ValueIdx
open scoped BigOperators
theorem stats_inv_named :
    Named.named (F := Ideal) Cert.KernelIdeal.κ "inv_50000" (φ := .f32) 0x37A7C5AC#32 = ((1 / 50000 : ℝ) : EReal) :=
  IdealRules.named_const.ideal_named_scalar _ _ _ _ rfl
theorem stats_zero_apply {s : Shape} (i : s.Idx) : broadcast s (Scalar.ofBits (F := Ideal) .f32 0x00000000#32) i = 0 :=
  Ideal.ofBits_zero_f32
theorem stats_mm_apply {φ₁ φ₂ : FTy} (L : FVec Ideal S2000x128 φ₁) (R : FVec Ideal S128x128 φ₂) (q : Fin 2000)
    (j : Fin 128) :
    matmul dot_S2000x128_S128x128_S2000x128_1_0_0_1_n_n none L R (constant S2000x128 .f32 0x00000000#32) (ix2 q j)
      = ∑ c : Fin 128, L (ix2 q c) * R (ix2 c j) := by
  rw [matmul_zero_eq_dotGeneral]
  exact StackMember.dotGeneral_plain_apply (m := 2000) (n := 128) (k := 128) none L R q j
theorem stats_colSum_apply (h : FVec Ideal S2000x128 .f32) (u : Fin 1) (j : Fin 128) :
    shapeCast S1x128
        (multiReduction (F := Ideal) .add [0] S128 h 0x00000000#32 reduces_S2000x128_S128 (.inl rfl) rfl)
        shapeCasts_S128_S1x128 (ix2 u j)
      = ∑ q : Fin 2000, h (ix2 q j) :=
  (shapeCast_a_1a_apply _ shapeCasts_S128_S1x128 u j).trans
    ((Ideal.multiReduction_add_single h 0x00000000#32 reduces_S2000x128_S128 (.inl rfl) rfl (ix1 j)).trans
      (Finset.sum_congr rfl fun k _ => congrArg h (Shape.idx_ext₂ rfl rfl)))
-- one layer of the perceptron: the rows times the weights plus the bias row, clamped below at zero
def statsLayer (p : FVec Ideal S2000x128 .f32) (W : FVec Ideal S128x128 .f32) (b : FVec Ideal S1x128 .f32) :
    FVec Ideal S2000x128 .f32 :=
  maximumf
    (addf
      (matmul dot_S2000x128_S128x128_S2000x128_1_0_0_1_n_n none (truncf .bf16 p bitsLt_bf16_f32)
        (truncf .bf16 W bitsLt_bf16_f32) (constant S2000x128 .f32 0x00000000#32))
      (broadcastTo S2000x128 b broadcasts_S1x128_S2000x128))
    (broadcast S2000x128 (Scalar.ofBits .f32 0x00000000#32))
theorem statsLayer_apply (p : FVec Ideal S2000x128 .f32) (W : FVec Ideal S128x128 .f32) (b : FVec Ideal S1x128 .f32)
    (q : Fin 2000) (j : Fin 128) :
    statsLayer p W b (ix2 q j) = max ((∑ c : Fin 128, p (ix2 q c) * W (ix2 c j)) + b (ix2 (0 : Fin 1) j)) 0 := by
  unfold statsLayer
  rw [maximumf_apply, addf_apply, stats_mm_apply, broadcastTo_1b_ab_apply, stats_zero_apply]
  rfl
-- the perceptron is the layer applied twice to the sum of the two row inputs
theorem statsHidden_apply (x a : FVec Ideal S2000x128 .f32) (W1 : FVec Ideal S128x128 .f32) (b1 : FVec Ideal S1x128 .f32)
    (W2 : FVec Ideal S128x128 .f32) (b2 : FVec Ideal S1x128 .f32) (q : Fin 2000) (j : Fin 128) :
    statsLayer (statsLayer (addf x a) W1 b1) W2 b2 (ix2 q j)
      = GinSpec.hidden (GinSpec.ofArr x) (GinSpec.ofArr a) (GinSpec.ofArr W1) (fun k => b1 (ValueIdx.ix2 0 k))
          (GinSpec.ofArr W2) (fun k => b2 (ValueIdx.ix2 0 k)) q j := by
  rw [statsLayer_apply]
  unfold GinSpec.hidden GinSpec.mlp GinSpec.lin GinSpec.relu
  refine congrArg (fun s => max (s + b2 (ix2 (0 : Fin 1) j)) 0) (Finset.sum_congr rfl fun c _ => ?_)
  rw [statsLayer_apply]
  rfl
end Cert.KernelIdeal.Hand
end
-- ==== Proof.KI.Stats0Pay.lean ====
import proofs.«166660_j61229053772418_1_alg».proof.Proof.Gen.KernelIdeal.Skeleton
import proofs.«166660_j61229053772418_1_alg».proof.Proof.Shared
import proofs.«166660_j61229053772418_1_alg».proof.Proof.KI.StatsPayLib
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
noncomputable section
namespace Cert.KernelIdeal.Hand
open Cert.KernelIdeal Cert.KernelIdeal.Gen
open Idealize.ShloMosaic Idealize.ShloMosaic.ValueIdx
open scoped BigOperators
variable (x a : Vec Ideal S2000x128 .f32) (W1 : Vec Ideal S128x128 .f32) (b1 : Vec Ideal S1x128 .f32)
  (W2 : Vec Ideal S128x128 .f32) (b2 : Vec Ideal S1x128 .f32)
theorem pay_h2_0 (q : Fin 2000) (j : Fin 128) :
    k0_pay7 (F := Ideal) x a W1 b1 W2 b2 (ValueIdx.ix2 q j)
      = GinSpec.hidden (GinSpec.ofArr x) (GinSpec.ofArr a) (GinSpec.ofArr W1) (fun k => b1 (ValueIdx.ix2 0 k))
          (GinSpec.ofArr W2) (fun k => b2 (ValueIdx.ix2 0 k)) q j := by
  simp only [k0_pay7, shapeCast_self]
  exact statsHidden_apply x a W1 b1 W2 b2 q j
theorem pay_sum_apply0 (s : Vec Ideal S1x128 .f32) (j : Fin 128) :
    k0_pay1 (F := Ideal) (k0_pay8 (F := Ideal) x a W1 b1 W2 b2 s) (ValueIdx.ix2 0 j)
      = s (ValueIdx.ix2 0 j) + ∑ q : Fin 2000, k0_pay7 (F := Ideal) x a W1 b1 W2 b2 (ValueIdx.ix2 q j) := by
  simp only [k0_pay1, k0_pay8, shapeCast_self, addf_apply]
  rw [stats_colSum_apply]
theorem pay_sumsq_apply0 (h2 : FVec Ideal S2000x128 .f32) (s2 : Vec Ideal S1x128 .f32) (j : Fin 128) :
    k0_pay2 (F := Ideal) h2 s2 (ValueIdx.ix2 0 j)
      = s2 (ValueIdx.ix2 0 j) + ∑ q : Fin 2000, h2 (ValueIdx.ix2 q j) * h2 (ValueIdx.ix2 q j) := by
  simp only [k0_pay2, shapeCast_self, addf_apply]
  rw [stats_colSum_apply]
  rfl
theorem pay_reset_sum_apply0 (i : S1x128.Idx) : k0_pay5 (F := Ideal) i = 0 := by
  simp only [k0_pay5, shapeCast_self]
  exact Ideal.ofBits_zero_f32
theorem pay_reset_sumsq_apply0 (i : S1x128.Idx) : k0_pay6 (F := Ideal) i = 0 :=
  pay_reset_sum_apply0 i
theorem pay_mean_apply0 (s : Vec Ideal S1x128 .f32) (i : S1x128.Idx) :
    k0_pay3 (F := Ideal) s i = s i * ((1 / 50000 : ℝ) : EReal) :=
  congrArg (s i * ·) stats_inv_named
theorem pay_var_apply0 (s s2 : Vec Ideal S1x128 .f32) (i : S1x128.Idx) :
    k0_pay4 (F := Ideal) s s2 i
      = s2 i * ((1 / 50000 : ℝ) : EReal) - (s i * ((1 / 50000 : ℝ) : EReal)) * (s i * ((1 / 50000 : ℝ) : EReal)) :=
  congrArg₂ (fun u v => s2 i * u - v * v) stats_inv_named (pay_mean_apply0 s i)
end Cert.KernelIdeal.Hand
end
-- ==== Proof.BlockSums.lean ====
import proofs.«166660_j61229053772418_1_alg».proof.Proof.Spec
import Mathlib.Algebra.BigOperators.Fin
noncomputable section
namespace GinSpec
open Idealize.ShloMosaic
open scoped BigOperators
def blockRow (t : Fin 25) (q : Fin 2000) : Fin 50000 :=
  ⟨2000 * t.val + q.val, by have := t.isLt; have := q.isLt; omega⟩
def blockEquiv : Fin 25 × Fin 2000 ≃ Fin 50000 where
  toFun p := blockRow p.1 p.2
  invFun r := (⟨r.val / 2000, by have := r.isLt; omega⟩, ⟨r.val % 2000, by omega⟩)
  left_inv := by
    rintro ⟨t, q⟩
    have := t.isLt; have := q.isLt
    refine Prod.ext (Fin.ext ?_) (Fin.ext ?_)
    · show (2000 * t.val + q.val) / 2000 = t.val
      omega
    · show (2000 * t.val + q.val) % 2000 = q.val
      omega
  right_inv := by
    intro r
    apply Fin.ext
    show 2000 * (r.val / 2000) + r.val % 2000 = r.val
    omega
theorem block_of_row (r : Fin 50000) : ∃ t q, blockRow t q = r :=
  ⟨(blockEquiv.symm r).1, (blockEquiv.symm r).2, blockEquiv.apply_symm_apply r⟩
theorem sum_blocks {M : Type*} [AddCommMonoid M] (f : Fin 50000 → M) :
    (∑ t : Fin 25, ∑ q : Fin 2000, f (blockRow t q)) = ∑ r : Fin 50000, f r := by
  rw [← blockEquiv.sum_comp, Fintype.sum_prod_type]
  rfl
def accAt {M : Type*} [AddCommMonoid M] (b : Fin 25 → M) : (n : ℕ) → n < 25 → M
  | 0, h => 0 + b ⟨0, h⟩
  | n+1, h => accAt b n (Nat.lt_of_succ_lt h) + b ⟨n+1, h⟩
theorem accAt_eq {M : Type*} [AddCommMonoid M] (b : Fin 25 → M) (n : ℕ) (h : n < 25) :
    accAt b n h = ∑ i : Fin (n + 1), b ⟨i.val, lt_of_le_of_lt (Nat.le_of_lt_succ i.isLt) h⟩ := by
  induction n with
  | zero => simp [accAt]
  | succ n ih =>
    conv_rhs => rw [Fin.sum_univ_castSucc]
    rw [accAt, ih (Nat.lt_of_succ_lt h)]
    rfl
theorem accAt_last {M : Type*} [AddCommMonoid M] (b : Fin 25 → M) : accAt b 24 (by norm_num) = ∑ t : Fin 25, b t := by
  rw [accAt_eq]
theorem colSum_blocks (h : Mat 50000 128) (j : Fin 128) :
    accAt (fun t => ∑ q : Fin 2000, h (blockRow t q) j) 24 (by norm_num) = colSum h j :=
  (accAt_last _).trans (sum_blocks fun r => h r j)
theorem colSumSq_blocks (h : Mat 50000 128) (j : Fin 128) :
    accAt (fun t => ∑ q : Fin 2000, h (blockRow t q) j * h (blockRow t q) j) 24 (by norm_num) = colSumSq h j :=
  (accAt_last _).trans (sum_blocks fun r => h r j * h r j)
end GinSpec
end
-- ==== Proof.KI.Stats0Value.lean ====
import proofs.«166660_j61229053772418_1_alg».proof.Proof.KI.Stats0
import proofs.«166660_j61229053772418_1_alg».proof.Proof.KI.Stats0Pay
import proofs.«166660_j61229053772418_1_alg».proof.Proof.KI.Head8Value
import proofs.«166660_j61229053772418_1_alg».proof.Proof.BlockSums
import proofs.«166660_j61229053772418_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
theorem idx0 : ∀ (w : Fin cfg0.W) (t : Fin cfg0.N) (a : Fin (cfg0.win w).shape.rank),
    (cfg0.win w).index t a = if (w = 0 ∨ w = 1 ∨ w = 6) ∧ a.val = 0 then t.val else 0 :=
  (by decide +kernel : ∀ (w : Fin cfg0.W) (t : Fin grid0.N) (a : Fin (cfg0.win w).shape.rank), _)
abbrev blkNo0 (t : Fin cfg0.N) : Fin 25 := ⟨t.val, lt_of_lt_of_eq t.isLt N_0⟩
-- under a row block an element sits in its block's row of the array
theorem emb0_0 (t : Fin cfg0.N) (q : Fin 2000) (j : Fin 128) :
    ((cfg0.win 0).blk t).view.emb (ix2 q j) = ix2 (GinSpec.blockRow (blkNo0 t) q) j := by
  have e0 : win0_0.index t (0 : Fin 2) = t.val := idx0 0 t (0 : Fin 2)
  have e1 : win0_0.index t (1 : Fin 2) = 0 := idx0 0 t (1 : Fin 2)
  refine Shape.idx_ext₂ ?_ ?_
  · show win0_0.index t (0 : Fin 2) * 2000 + 1 * q.val = 2000 * t.val + q.val; rw [e0]; omega
  · show win0_0.index t (1 : Fin 2) * 128 + 1 * j.val = j.val; rw [e1]; omega
theorem emb0_1 (t : Fin cfg0.N) (q : Fin 2000) (j : Fin 128) :
    ((cfg0.win 1).blk t).view.emb (ix2 q j) = ix2 (GinSpec.blockRow (blkNo0 t) q) j := by
  have e0 : win0_1.index t (0 : Fin 2) = t.val := idx0 1 t (0 : Fin 2)
  have e1 : win0_1.index t (1 : Fin 2) = 0 := idx0 1 t (1 : Fin 2)
  refine Shape.idx_ext₂ ?_ ?_
  · show win0_1.index t (0 : Fin 2) * 2000 + 1 * q.val = 2000 * t.val + q.val; rw [e0]; omega
  · show win0_1.index t (1 : Fin 2) * 128 + 1 * j.val = j.val; rw [e1]; omega
theorem emb0_6 (t : Fin cfg0.N) (q : Fin 2000) (j : Fin 128) :
    ((cfg0.win 6).blk t).view.emb (ix2 q j) = ix2 (GinSpec.blockRow (blkNo0 t) q) j := by
  have e0 : win0_6.index t (0 : Fin 2) = t.val := idx0 6 t (0 : Fin 2)
  have e1 : win0_6.index t (1 : Fin 2) = 0 := idx0 6 t (1 : Fin 2)
  refine Shape.idx_ext₂ ?_ ?_
  · show win0_6.index t (0 : Fin 2) * 2000 + 1 * q.val = 2000 * t.val + q.val; rw [e0]; omega
  · show win0_6.index t (1 : Fin 2) * 128 + 1 * j.val = j.val; rw [e1]; omega
-- under a whole-array block an element sits where it is
theorem emb0_2 (t : Fin cfg0.N) (y : S128x128.Idx) : ((cfg0.win 2).blk t).view.emb y = y :=
  funext fun a => Fin.ext (win0_2.rect_emb_val_of_index_zero t a (idx0 2 t a) y)
theorem emb0_3 (t : Fin cfg0.N) (y : S1x128.Idx) : ((cfg0.win 3).blk t).view.emb y = y :=
  funext fun a => Fin.ext (win0_3.rect_emb_val_of_index_zero t a (idx0 3 t a) y)
theorem emb0_4 (t : Fin cfg0.N) (y : S128x128.Idx) : ((cfg0.win 4).blk t).view.emb y = y :=
  funext fun a => Fin.ext (win0_4.rect_emb_val_of_index_zero t a (idx0 4 t a) y)
theorem emb0_5 (t : Fin cfg0.N) (y : S1x128.Idx) : ((cfg0.win 5).blk t).view.emb y = y :=
  funext fun a => Fin.ext (win0_5.rect_emb_val_of_index_zero t a (idx0 5 t a) y)
theorem emb0_7 (t : Fin cfg0.N) (y : S1x128.Idx) : ((cfg0.win 7).blk t).view.emb y = y :=
  funext fun a => Fin.ext (win0_7.rect_emb_val_of_index_zero t a (idx0 7 t a) y)
theorem emb0_8 (t : Fin cfg0.N) (y : S1x128.Idx) : ((cfg0.win 8).blk t).view.emb y = y :=
  funext fun a => Fin.ext (win0_8.rect_emb_val_of_index_zero t a (idx0 8 t a) y)
theorem hidden_congr0 {n d : ℕ} {x x' a a' : GinSpec.Mat n d} {W1 W1' W2 W2' : GinSpec.Mat d d} {b1 b1' b2 b2' : GinSpec.Row d}
    (hx : ∀ r k, x r k = x' r k) (ha : ∀ r k, a r k = a' r k) (hW1 : ∀ l k, W1 l k = W1' l k) (hb1 : ∀ k, b1 k = b1' k)
    (hW2 : ∀ l k, W2 l k = W2' l k) (hb2 : ∀ k, b2 k = b2' k) :
    GinSpec.hidden x a W1 b1 W2 b2 = GinSpec.hidden x' a' W1' b1' W2' b2' := by
  rw [funext₂ hx, funext₂ ha, funext₂ hW1, funext hb1, funext₂ hW2, funext hb2]
section Arrays
variable (V : (c : Dev nD) → (b : Ref sig .tc) → Buf (Elt Ideal) ((c : Thread nD τ).loc b)) (c : Dev nD)
def hid0 : GinSpec.Mat 50000 128 :=
  GinSpec.hidden (mat2 (V c main_arg0)) (mat2 (V c main_v13)) (mat2 (V c main_v15)) (row2 (V c main_v22))
    (mat2 (V c main_v19)) (row2 (V c main_v23))
-- the perceptron acts row by row: on the blocks of point `t` it gives block `t` of the whole output
theorem h2Of0_apply (t : Fin cfg0.N) (q : Fin 2000) (j : Fin 128) :
    h2Of0 (F := Ideal) (xb0_0 V c t) (xb0_1 V c t) (xb0_2 V c t) (xb0_3 V c t) (xb0_4 V c t) (xb0_5 V c t) (ix2 q j) = hid0 V c (GinSpec.blockRow (blkNo0 t) q) j := by
  refine (pay_h2_0 _ _ _ _ _ _ q j).trans ((congrFun (congrFun (hidden_congr0
    (fun q' k => congrArg (V c main_arg0) (emb0_0 t q' k)) (fun q' k => congrArg (V c main_v13) (emb0_1 t q' k))
    (fun l k => congrArg (V c main_v15) (emb0_2 t (ix2 l k))) (fun k => congrArg (V c main_v22) (emb0_3 t (ix2 0 k)))
    (fun l k => congrArg (V c main_v19) (emb0_4 t (ix2 l k))) (fun k => congrArg (V c main_v23) (emb0_5 t (ix2 0 k)))) q) j).trans ?_)
  rfl
theorem sumAt0_apply (j : Fin 128) : ∀ (n : ℕ) (hn : n < cfg0.N),
    sumAt0 (F := Ideal) V c n hn (ix2 0 j)
      = GinSpec.accAt (fun t => ∑ q : Fin 2000, hid0 V c (GinSpec.blockRow t q) j) n (lt_of_lt_of_eq hn N_0)
  | 0, hn => by
    rw [sumAt0, GinSpec.accAt, sumOf0, pay_sum_apply0, pay_reset_sum_apply0]
    exact congrArg (0 + ·) (Finset.sum_congr rfl fun q _ => h2Of0_apply V c ⟨0, hn⟩ q j)
  | n + 1, hn => by
    rw [sumAt0, GinSpec.accAt, sumOf0, pay_sum_apply0, sumAt0_apply j n (Nat.lt_of_succ_lt hn)]
    exact congrArg (_ + ·) (Finset.sum_congr rfl fun q _ => h2Of0_apply V c ⟨n + 1, hn⟩ q j)
theorem sqAt0_apply (j : Fin 128) : ∀ (n : ℕ) (hn : n < cfg0.N),
    sqAt0 (F := Ideal) V c n hn (ix2 0 j)
      = GinSpec.accAt (fun t => ∑ q : Fin 2000, hid0 V c (GinSpec.blockRow t q) j * hid0 V c (GinSpec.blockRow t q) j) n
          (lt_of_lt_of_eq hn N_0)
  | 0, hn => by
    rw [sqAt0, GinSpec.accAt, sqOf0, pay_sumsq_apply0, pay_reset_sumsq_apply0]
    exact congrArg (0 + ·) (Finset.sum_congr rfl fun q _ => congrArg (fun u => u * u) (h2Of0_apply V c ⟨0, hn⟩ q j))
  | n + 1, hn => by
    rw [sqAt0, GinSpec.accAt, sqOf0, pay_sumsq_apply0, sqAt0_apply j n (Nat.lt_of_succ_lt hn)]
    exact congrArg (_ + ·) (Finset.sum_congr rfl fun q _ => congrArg (fun u => u * u) (h2Of0_apply V c ⟨n + 1, hn⟩ q j))
theorem sumAt0_last (j : Fin 128) (h : 24 < cfg0.N) :
    sumAt0 (F := Ideal) V c 24 h (ix2 0 j) = GinSpec.colSum (hid0 V c) j :=
  (sumAt0_apply V c j 24 h).trans (GinSpec.colSum_blocks (hid0 V c) j)
theorem sqAt0_last (j : Fin 128) (h : 24 < cfg0.N) :
    sqAt0 (F := Ideal) V c 24 h (ix2 0 j) = GinSpec.colSumSq (hid0 V c) j :=
  (sqAt0_apply V c j 24 h).trans (GinSpec.colSumSq_blocks (hid0 V c) j)
def hidArr0 : S50000x128.Idx → Elt Ideal .f32 := fun i => hid0 V c (i 0) (i 1)
def meanArr0 : S1x128.Idx → Elt Ideal .f32 := fun i => GinSpec.meanMul (hid0 V c) (i 1)
def varArr0 : S1x128.Idx → Elt Ideal .f32 := fun i => GinSpec.varMul (hid0 V c) (i 1)
theorem flushed0_6_eq (t : Fin cfg0.N) :
    (dat0 (F := Ideal) V c).flushed 6 t = ((cfg0.win 6).blk t).view.read (Elt Ideal) (hidArr0 V c) := by
  show (cfg0.win 6).cut (grid0.coords t) ((dat0 (F := Ideal) V c).after 6 t) = _
  rw [after0_6]
  funext y
  obtain ⟨q, j, rfl⟩ : ∃ (q : Fin 2000) (j : Fin 128), y = ix2 q j := ⟨y 0, y 1, eq_ix2 y⟩
  exact (h2Of0_apply V c t q j).trans (congrArg (hidArr0 V c) (emb0_6 t q j)).symm
-- every row lies in a block, so the first output's blocks cover it
theorem cover0_6 (i : S50000x128.Idx) : ∃ t : Fin cfg0.N, (cfg0.win 6).flush t = true ∧ i ∈ ((cfg0.win 6).blk t).view.set := by
  obtain ⟨t, q, h⟩ := GinSpec.block_of_row (i 0)
  exact ⟨t.cast N_0.symm, flush0_6 _, Eq.subst (motive := (· ∈ ((cfg0.win 6).blk (t.cast N_0.symm)).view.set))
    ((emb0_6 _ q (i 1)).trans ((congrArg (ix2 · (i 1)) h).trans (eq_ix2 i).symm)) (View.emb_mem_set _ _)⟩
theorem final0_h2 (r : Fin 50000) (j : Fin 128) :
    (dat0 (F := Ideal) V c).arrAt 6 cfg0.N (ix2 r j) = hid0 V c r j :=
  congrFun ((dat0 (F := Ideal) V c).arrAt_eq_of_cover 6 (hidArr0 V c) (fun t _ => flushed0_6_eq V c t) cover0_6) (ix2 r j)
-- below 25 only 24 leaves the remainder 24
theorem last0 (t : Fin cfg0.N) (h : t.val % 25 = 24) : t.val = 24 := by
  have := t.isLt; have hN : cfg0.N = 25 := N_0; omega
theorem flushed0_7_eq (t : Fin cfg0.N) (hf : (cfg0.win 7).flush t = true) :
    (dat0 (F := Ideal) V c).flushed 7 t = ((cfg0.win 7).blk t).view.read (Elt Ideal) (meanArr0 V c) := by
  obtain ⟨n, hn⟩ := t
  obtain rfl : n = 24 := last0 _ ((flush0_7 _).mp hf)
  show (cfg0.win 7).cut (grid0.coords ⟨24, hn⟩) ((dat0 (F := Ideal) V c).after 7 ⟨24, hn⟩) = _
  rw [after0_7]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (meanArr0 V c) (emb0_7 ⟨24, hn⟩ (ix2 0 j))).symm
  show meanOf0 (F := Ideal) (sumAt0 (F := Ideal) V c 24 hn) (ix2 0 j) = _
  unfold meanOf0 meanArr0
  rw [pay_mean_apply0, sumAt0_last]
  rfl
theorem cover0_7 (i : S1x128.Idx) : ∃ t : Fin cfg0.N, (cfg0.win 7).flush t = true ∧ i ∈ ((cfg0.win 7).blk t).view.set := by
  have h : 24 < cfg0.N := lt_of_lt_of_eq (by decide) N_0.symm
  have := ((cfg0.win 7).blk ⟨24, h⟩).view.emb_mem_set i
  rw [emb0_7] at this
  exact ⟨⟨24, h⟩, (flush0_7 _).mpr rfl, this⟩
theorem flushed0_8_eq (t : Fin cfg0.N) (hf : (cfg0.win 8).flush t = true) :
    (dat0 (F := Ideal) V c).flushed 8 t = ((cfg0.win 8).blk t).view.read (Elt Ideal) (varArr0 V c) := by
  obtain ⟨n, hn⟩ := t
  obtain rfl : n = 24 := last0 _ ((flush0_8 _).mp hf)
  show (cfg0.win 8).cut (grid0.coords ⟨24, hn⟩) ((dat0 (F := Ideal) V c).after 8 ⟨24, hn⟩) = _
  rw [after0_8]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (varArr0 V c) (emb0_8 ⟨24, hn⟩ (ix2 0 j))).symm
  show varOf0 (F := Ideal) (sumAt0 (F := Ideal) V c 24 hn) (sqAt0 (F := Ideal) V c 24 hn) (ix2 0 j) = _
  unfold varOf0 varArr0
  rw [pay_var_apply0, sumAt0_last, sqAt0_last]
  rfl
theorem cover0_8 (i : S1x128.Idx) : ∃ t : Fin cfg0.N, (cfg0.win 8).flush t = true ∧ i ∈ ((cfg0.win 8).blk t).view.set := by
  have h : 24 < cfg0.N := lt_of_lt_of_eq (by decide) N_0.symm
  have := ((cfg0.win 8).blk ⟨24, h⟩).view.emb_mem_set i
  rw [emb0_8] at this
  exact ⟨⟨24, h⟩, (flush0_8 _).mpr rfl, this⟩
theorem final0_mean (j : Fin 128) :
    (dat0 (F := Ideal) V c).arrAt 7 cfg0.N (ix2 0 j) = GinSpec.meanMul (hid0 V c) j :=
  congrFun ((dat0 (F := Ideal) V c).arrAt_eq_of_cover 7 (meanArr0 V c) (flushed0_7_eq V c) cover0_7) (ix2 0 j)
theorem final0_var (j : Fin 128) :
    (dat0 (F := Ideal) V c).arrAt 8 cfg0.N (ix2 0 j) = GinSpec.varMul (hid0 V c) j :=
  congrFun ((dat0 (F := Ideal) V c).arrAt_eq_of_cover 8 (varArr0 V c) (flushed0_8_eq V c) cover0_8) (ix2 0 j)
end Arrays
end Cert.KernelIdeal.Hand
end
-- ==== Proof.KI.Stats2Pay.lean ====
import proofs.«166660_j61229053772418_1_alg».proof.Proof.Gen.KernelIdeal.Skeleton
import proofs.«166660_j61229053772418_1_alg».proof.Proof.Shared
import proofs.«166660_j61229053772418_1_alg».proof.Proof.KI.StatsPayLib
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
noncomputable section
namespace Cert.KernelIdeal.Hand
open Cert.KernelIdeal Cert.KernelIdeal.Gen
open Idealize.ShloMosaic Idealize.ShloMosaic.ValueIdx
open scoped BigOperators
variable (x a : Vec Ideal S2000x128 .f32) (W1 : Vec Ideal S128x128 .f32) (b1 : Vec Ideal S1x128 .f32)
  (W2 : Vec Ideal S128x128 .f32) (b2 : Vec Ideal S1x128 .f32)
theorem pay_h2_2 (q : Fin 2000) (j : Fin 128) :
    k2_pay7 (F := Ideal) x a W1 b1 W2 b2 (ValueIdx.ix2 q j)
      = GinSpec.hidden (GinSpec.ofArr x) (GinSpec.ofArr a) (GinSpec.ofArr W1) (fun k => b1 (ValueIdx.ix2 0 k))
          (GinSpec.ofArr W2) (fun k => b2 (ValueIdx.ix2 0 k)) q j := by
  simp only [k2_pay7, shapeCast_self]
  exact statsHidden_apply x a W1 b1 W2 b2 q j
theorem pay_sum_apply2 (s : Vec Ideal S1x128 .f32) (j : Fin 128) :
    k2_pay1 (F := Ideal) s (k2_pay8 (F := Ideal) x a W1 b1 W2 b2) (ValueIdx.ix2 0 j)
      = s (ValueIdx.ix2 0 j) + ∑ q : Fin 2000, k2_pay7 (F := Ideal) x a W1 b1 W2 b2 (ValueIdx.ix2 q j) := by
  simp only [k2_pay1, k2_pay8, shapeCast_self, addf_apply]
  rw [stats_colSum_apply]
theorem pay_sumsq_apply2 (h2 : FVec Ideal S2000x128 .f32) (s2 : Vec Ideal S1x128 .f32) (j : Fin 128) :
    k2_pay2 (F := Ideal) h2 s2 (ValueIdx.ix2 0 j)
      = s2 (ValueIdx.ix2 0 j) + ∑ q : Fin 2000, h2 (ValueIdx.ix2 q j) * h2 (ValueIdx.ix2 q j) := by
  simp only [k2_pay2, shapeCast_self, addf_apply]
  rw [stats_colSum_apply]
  rfl
theorem pay_reset_sum_apply2 (i : S1x128.Idx) : k2_pay5 (F := Ideal) i = 0 := by
  simp only [k2_pay5, shapeCast_self]
  exact Ideal.ofBits_zero_f32
theorem pay_reset_sumsq_apply2 (i : S1x128.Idx) : k2_pay6 (F := Ideal) i = 0 :=
  pay_reset_sum_apply2 i
theorem pay_mean_apply2 (s : Vec Ideal S1x128 .f32) (i : S1x128.Idx) :
    k2_pay3 (F := Ideal) s i = s i * ((1 / 50000 : ℝ) : EReal) :=
  congrArg (s i * ·) stats_inv_named
theorem pay_var_apply2 (s s2 : Vec Ideal S1x128 .f32) (i : S1x128.Idx) :
    k2_pay4 (F := Ideal) s s2 i
      = s2 i * ((1 / 50000 : ℝ) : EReal) - (s i * ((1 / 50000 : ℝ) : EReal)) * (s i * ((1 / 50000 : ℝ) : EReal)) :=
  congrArg₂ (fun u v => s2 i * u - v * v) stats_inv_named (pay_mean_apply2 s i)
end Cert.KernelIdeal.Hand
end
-- ==== Proof.KI.Stats2Value.lean ====
import proofs.«166660_j61229053772418_1_alg».proof.Proof.KI.Stats2
import proofs.«166660_j61229053772418_1_alg».proof.Proof.KI.Stats2Pay
import proofs.«166660_j61229053772418_1_alg».proof.Proof.KI.Head8Value
import proofs.«166660_j61229053772418_1_alg».proof.Proof.BlockSums
import proofs.«166660_j61229053772418_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
theorem idx2 : ∀ (w : Fin cfg2.W) (t : Fin cfg2.N) (a : Fin (cfg2.win w).shape.rank),
    (cfg2.win w).index t a = if (w = 0 ∨ w = 1 ∨ w = 6) ∧ a.val = 0 then t.val else 0 :=
  (by decide +kernel : ∀ (w : Fin cfg2.W) (t : Fin grid2.N) (a : Fin (cfg2.win w).shape.rank), _)
abbrev blkNo2 (t : Fin cfg2.N) : Fin 25 := ⟨t.val, lt_of_lt_of_eq t.isLt N_2⟩
theorem emb2_0 (t : Fin cfg2.N) (q : Fin 2000) (j : Fin 128) :
    ((cfg2.win 0).blk t).view.emb (ix2 q j) = ix2 (GinSpec.blockRow (blkNo2 t) q) j := by
  have e0 : win2_0.index t (0 : Fin 2) = t.val := idx2 0 t (0 : Fin 2)
  have e1 : win2_0.index t (1 : Fin 2) = 0 := idx2 0 t (1 : Fin 2)
  refine Shape.idx_ext₂ ?_ ?_
  · show win2_0.index t (0 : Fin 2) * 2000 + 1 * q.val = 2000 * t.val + q.val; rw [e0]; omega
  · show win2_0.index t (1 : Fin 2) * 128 + 1 * j.val = j.val; rw [e1]; omega
theorem emb2_1 (t : Fin cfg2.N) (q : Fin 2000) (j : Fin 128) :
    ((cfg2.win 1).blk t).view.emb (ix2 q j) = ix2 (GinSpec.blockRow (blkNo2 t) q) j := by
  have e0 : win2_1.index t (0 : Fin 2) = t.val := idx2 1 t (0 : Fin 2)
  have e1 : win2_1.index t (1 : Fin 2) = 0 := idx2 1 t (1 : Fin 2)
  refine Shape.idx_ext₂ ?_ ?_
  · show win2_1.index t (0 : Fin 2) * 2000 + 1 * q.val = 2000 * t.val + q.val; rw [e0]; omega
  · show win2_1.index t (1 : Fin 2) * 128 + 1 * j.val = j.val; rw [e1]; omega
theorem emb2_6 (t : Fin cfg2.N) (q : Fin 2000) (j : Fin 128) :
    ((cfg2.win 6).blk t).view.emb (ix2 q j) = ix2 (GinSpec.blockRow (blkNo2 t) q) j := by
  have e0 : win2_6.index t (0 : Fin 2) = t.val := idx2 6 t (0 : Fin 2)
  have e1 : win2_6.index t (1 : Fin 2) = 0 := idx2 6 t (1 : Fin 2)
  refine Shape.idx_ext₂ ?_ ?_
  · show win2_6.index t (0 : Fin 2) * 2000 + 1 * q.val = 2000 * t.val + q.val; rw [e0]; omega
  · show win2_6.index t (1 : Fin 2) * 128 + 1 * j.val = j.val; rw [e1]; omega
theorem emb2_2 (t : Fin cfg2.N) (y : S128x128.Idx) : ((cfg2.win 2).blk t).view.emb y = y :=
  funext fun a => Fin.ext (win2_2.rect_emb_val_of_index_zero t a (idx2 2 t a) y)
theorem emb2_3 (t : Fin cfg2.N) (y : S1x128.Idx) : ((cfg2.win 3).blk t).view.emb y = y :=
  funext fun a => Fin.ext (win2_3.rect_emb_val_of_index_zero t a (idx2 3 t a) y)
theorem emb2_4 (t : Fin cfg2.N) (y : S128x128.Idx) : ((cfg2.win 4).blk t).view.emb y = y :=
  funext fun a => Fin.ext (win2_4.rect_emb_val_of_index_zero t a (idx2 4 t a) y)
theorem emb2_5 (t : Fin cfg2.N) (y : S1x128.Idx) : ((cfg2.win 5).blk t).view.emb y = y :=
  funext fun a => Fin.ext (win2_5.rect_emb_val_of_index_zero t a (idx2 5 t a) y)
theorem emb2_7 (t : Fin cfg2.N) (y : S1x128.Idx) : ((cfg2.win 7).blk t).view.emb y = y :=
  funext fun a => Fin.ext (win2_7.rect_emb_val_of_index_zero t a (idx2 7 t a) y)
theorem emb2_8 (t : Fin cfg2.N) (y : S1x128.Idx) : ((cfg2.win 8).blk t).view.emb y = y :=
  funext fun a => Fin.ext (win2_8.rect_emb_val_of_index_zero t a (idx2 8 t a) y)
theorem hidden_congr2 {n d : ℕ} {x x' a a' : GinSpec.Mat n d} {W1 W1' W2 W2' : GinSpec.Mat d d} {b1 b1' b2 b2' : GinSpec.Row d}
    (hx : ∀ r k, x r k = x' r k) (ha : ∀ r k, a r k = a' r k) (hW1 : ∀ l k, W1 l k = W1' l k) (hb1 : ∀ k, b1 k = b1' k)
    (hW2 : ∀ l k, W2 l k = W2' l k) (hb2 : ∀ k, b2 k = b2' k) :
    GinSpec.hidden x a W1 b1 W2 b2 = GinSpec.hidden x' a' W1' b1' W2' b2' := by
  rw [funext₂ hx, funext₂ ha, funext₂ hW1, funext hb1, funext₂ hW2, funext hb2]
section Arrays
variable (V : (c : Dev nD) → (b : Ref sig .tc) → Buf (Elt Ideal) ((c : Thread nD τ).loc b)) (c : Dev nD)
def hid2 : GinSpec.Mat 50000 128 :=
  GinSpec.hidden (mat2 (V c main_v31)) (mat2 (V c main_v41)) (mat2 (V c main_v43)) (row2 (V c main_v50))
    (mat2 (V c main_v47)) (row2 (V c main_v51))
theorem h2Of2_apply (t : Fin cfg2.N) (q : Fin 2000) (j : Fin 128) :
    h2Of2 (F := Ideal) (xb2_0 V c t) (xb2_1 V c t) (xb2_2 V c t) (xb2_3 V c t) (xb2_4 V c t) (xb2_5 V c t) (ix2 q j) = hid2 V c (GinSpec.blockRow (blkNo2 t) q) j := by
  refine (pay_h2_2 _ _ _ _ _ _ q j).trans ((congrFun (congrFun (hidden_congr2
    (fun q' k => congrArg (V c main_v31) (emb2_0 t q' k)) (fun q' k => congrArg (V c main_v41) (emb2_1 t q' k))
    (fun l k => congrArg (V c main_v43) (emb2_2 t (ix2 l k))) (fun k => congrArg (V c main_v50) (emb2_3 t (ix2 0 k)))
    (fun l k => congrArg (V c main_v47) (emb2_4 t (ix2 l k))) (fun k => congrArg (V c main_v51) (emb2_5 t (ix2 0 k)))) q) j).trans ?_)
  rfl
theorem sumAt2_apply (j : Fin 128) : ∀ (n : ℕ) (hn : n < cfg2.N),
    sumAt2 (F := Ideal) V c n hn (ix2 0 j)
      = GinSpec.accAt (fun t => ∑ q : Fin 2000, hid2 V c (GinSpec.blockRow t q) j) n (lt_of_lt_of_eq hn N_2)
  | 0, hn => by
    rw [sumAt2, GinSpec.accAt, sumOf2, pay_sum_apply2, pay_reset_sum_apply2]
    exact congrArg (0 + ·) (Finset.sum_congr rfl fun q _ => h2Of2_apply V c ⟨0, hn⟩ q j)
  | n + 1, hn => by
    rw [sumAt2, GinSpec.accAt, sumOf2, pay_sum_apply2, sumAt2_apply j n (Nat.lt_of_succ_lt hn)]
    exact congrArg (_ + ·) (Finset.sum_congr rfl fun q _ => h2Of2_apply V c ⟨n + 1, hn⟩ q j)
theorem sqAt2_apply (j : Fin 128) : ∀ (n : ℕ) (hn : n < cfg2.N),
    sqAt2 (F := Ideal) V c n hn (ix2 0 j)
      = GinSpec.accAt (fun t => ∑ q : Fin 2000, hid2 V c (GinSpec.blockRow t q) j * hid2 V c (GinSpec.blockRow t q) j) n
          (lt_of_lt_of_eq hn N_2)
  | 0, hn => by
    rw [sqAt2, GinSpec.accAt, sqOf2, pay_sumsq_apply2, pay_reset_sumsq_apply2]
    exact congrArg (0 + ·) (Finset.sum_congr rfl fun q _ => congrArg (fun u => u * u) (h2Of2_apply V c ⟨0, hn⟩ q j))
  | n + 1, hn => by
    rw [sqAt2, GinSpec.accAt, sqOf2, pay_sumsq_apply2, sqAt2_apply j n (Nat.lt_of_succ_lt hn)]
    exact congrArg (_ + ·) (Finset.sum_congr rfl fun q _ => congrArg (fun u => u * u) (h2Of2_apply V c ⟨n + 1, hn⟩ q j))
theorem sumAt2_last (j : Fin 128) (h : 24 < cfg2.N) :
    sumAt2 (F := Ideal) V c 24 h (ix2 0 j) = GinSpec.colSum (hid2 V c) j :=
  (sumAt2_apply V c j 24 h).trans (GinSpec.colSum_blocks (hid2 V c) j)
theorem sqAt2_last (j : Fin 128) (h : 24 < cfg2.N) :
    sqAt2 (F := Ideal) V c 24 h (ix2 0 j) = GinSpec.colSumSq (hid2 V c) j :=
  (sqAt2_apply V c j 24 h).trans (GinSpec.colSumSq_blocks (hid2 V c) j)
def hidArr2 : S50000x128.Idx → Elt Ideal .f32 := fun i => hid2 V c (i 0) (i 1)
def meanArr2 : S1x128.Idx → Elt Ideal .f32 := fun i => GinSpec.meanMul (hid2 V c) (i 1)
def varArr2 : S1x128.Idx → Elt Ideal .f32 := fun i => GinSpec.varMul (hid2 V c) (i 1)
theorem flushed2_6_eq (t : Fin cfg2.N) :
    (dat2 (F := Ideal) V c).flushed 6 t = ((cfg2.win 6).blk t).view.read (Elt Ideal) (hidArr2 V c) := by
  show (cfg2.win 6).cut (grid2.coords t) ((dat2 (F := Ideal) V c).after 6 t) = _
  rw [after2_6]
  funext y
  obtain ⟨q, j, rfl⟩ : ∃ (q : Fin 2000) (j : Fin 128), y = ix2 q j := ⟨y 0, y 1, eq_ix2 y⟩
  exact (h2Of2_apply V c t q j).trans (congrArg (hidArr2 V c) (emb2_6 t q j)).symm
theorem cover2_6 (i : S50000x128.Idx) : ∃ t : Fin cfg2.N, (cfg2.win 6).flush t = true ∧ i ∈ ((cfg2.win 6).blk t).view.set := by
  obtain ⟨t, q, h⟩ := GinSpec.block_of_row (i 0)
  exact ⟨t.cast N_2.symm, flush2_6 _, Eq.subst (motive := (· ∈ ((cfg2.win 6).blk (t.cast N_2.symm)).view.set))
    ((emb2_6 _ q (i 1)).trans ((congrArg (ix2 · (i 1)) h).trans (eq_ix2 i).symm)) (View.emb_mem_set _ _)⟩
theorem final2_h2 (r : Fin 50000) (j : Fin 128) :
    (dat2 (F := Ideal) V c).arrAt 6 cfg2.N (ix2 r j) = hid2 V c r j :=
  congrFun ((dat2 (F := Ideal) V c).arrAt_eq_of_cover 6 (hidArr2 V c) (fun t _ => flushed2_6_eq V c t) cover2_6) (ix2 r j)
theorem last2 (t : Fin cfg2.N) (h : t.val % 25 = 24) : t.val = 24 := by
  have := t.isLt; have hN : cfg2.N = 25 := N_2; omega
theorem flushed2_7_eq (t : Fin cfg2.N) (hf : (cfg2.win 7).flush t = true) :
    (dat2 (F := Ideal) V c).flushed 7 t = ((cfg2.win 7).blk t).view.read (Elt Ideal) (meanArr2 V c) := by
  obtain ⟨n, hn⟩ := t
  obtain rfl : n = 24 := last2 _ ((flush2_7 _).mp hf)
  show (cfg2.win 7).cut (grid2.coords ⟨24, hn⟩) ((dat2 (F := Ideal) V c).after 7 ⟨24, hn⟩) = _
  rw [after2_7]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (meanArr2 V c) (emb2_7 ⟨24, hn⟩ (ix2 0 j))).symm
  show meanOf2 (F := Ideal) (sumAt2 (F := Ideal) V c 24 hn) (ix2 0 j) = _
  unfold meanOf2 meanArr2
  rw [pay_mean_apply2, sumAt2_last]
  rfl
theorem cover2_7 (i : S1x128.Idx) : ∃ t : Fin cfg2.N, (cfg2.win 7).flush t = true ∧ i ∈ ((cfg2.win 7).blk t).view.set := by
  have h : 24 < cfg2.N := lt_of_lt_of_eq (by decide) N_2.symm
  have := ((cfg2.win 7).blk ⟨24, h⟩).view.emb_mem_set i
  rw [emb2_7] at this
  exact ⟨⟨24, h⟩, (flush2_7 _).mpr rfl, this⟩
theorem flushed2_8_eq (t : Fin cfg2.N) (hf : (cfg2.win 8).flush t = true) :
    (dat2 (F := Ideal) V c).flushed 8 t = ((cfg2.win 8).blk t).view.read (Elt Ideal) (varArr2 V c) := by
  obtain ⟨n, hn⟩ := t
  obtain rfl : n = 24 := last2 _ ((flush2_8 _).mp hf)
  show (cfg2.win 8).cut (grid2.coords ⟨24, hn⟩) ((dat2 (F := Ideal) V c).after 8 ⟨24, hn⟩) = _
  rw [after2_8]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (varArr2 V c) (emb2_8 ⟨24, hn⟩ (ix2 0 j))).symm
  show varOf2 (F := Ideal) (sumAt2 (F := Ideal) V c 24 hn) (sqAt2 (F := Ideal) V c 24 hn) (ix2 0 j) = _
  unfold varOf2 varArr2
  rw [pay_var_apply2, sumAt2_last, sqAt2_last]
  rfl
theorem cover2_8 (i : S1x128.Idx) : ∃ t : Fin cfg2.N, (cfg2.win 8).flush t = true ∧ i ∈ ((cfg2.win 8).blk t).view.set := by
  have h : 24 < cfg2.N := lt_of_lt_of_eq (by decide) N_2.symm
  have := ((cfg2.win 8).blk ⟨24, h⟩).view.emb_mem_set i
  rw [emb2_8] at this
  exact ⟨⟨24, h⟩, (flush2_8 _).mpr rfl, this⟩
theorem final2_mean (j : Fin 128) :
    (dat2 (F := Ideal) V c).arrAt 7 cfg2.N (ix2 0 j) = GinSpec.meanMul (hid2 V c) j :=
  congrFun ((dat2 (F := Ideal) V c).arrAt_eq_of_cover 7 (meanArr2 V c) (flushed2_7_eq V c) cover2_7) (ix2 0 j)
theorem final2_var (j : Fin 128) :
    (dat2 (F := Ideal) V c).arrAt 8 cfg2.N (ix2 0 j) = GinSpec.varMul (hid2 V c) j :=
  congrFun ((dat2 (F := Ideal) V c).arrAt_eq_of_cover 8 (varArr2 V c) (flushed2_8_eq V c) cover2_8) (ix2 0 j)
end Arrays
end Cert.KernelIdeal.Hand
end
-- ==== Proof.KI.Stats4Value.lean ====
import proofs.«166660_j61229053772418_1_alg».proof.Proof.KI.Stats4
import proofs.«166660_j61229053772418_1_alg».proof.Proof.KI.Stats2Pay
import proofs.«166660_j61229053772418_1_alg».proof.Proof.KI.Head8Value
import proofs.«166660_j61229053772418_1_alg».proof.Proof.BlockSums
import proofs.«166660_j61229053772418_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
theorem idx4 : ∀ (w : Fin cfg4.W) (t : Fin cfg4.N) (a : Fin (cfg4.win w).shape.rank),
    (cfg4.win w).index t a = if (w = 0 ∨ w = 1 ∨ w = 6) ∧ a.val = 0 then t.val else 0 :=
  (by decide +kernel : ∀ (w : Fin cfg4.W) (t : Fin grid4.N) (a : Fin (cfg4.win w).shape.rank), _)
abbrev blkNo4 (t : Fin cfg4.N) : Fin 25 := ⟨t.val, lt_of_lt_of_eq t.isLt N_4⟩
theorem emb4_0 (t : Fin cfg4.N) (q : Fin 2000) (j : Fin 128) :
    ((cfg4.win 0).blk t).view.emb (ix2 q j) = ix2 (GinSpec.blockRow (blkNo4 t) q) j := by
  have e0 : win4_0.index t (0 : Fin 2) = t.val := idx4 0 t (0 : Fin 2)
  have e1 : win4_0.index t (1 : Fin 2) = 0 := idx4 0 t (1 : Fin 2)
  refine Shape.idx_ext₂ ?_ ?_
  · show win4_0.index t (0 : Fin 2) * 2000 + 1 * q.val = 2000 * t.val + q.val; rw [e0]; omega
  · show win4_0.index t (1 : Fin 2) * 128 + 1 * j.val = j.val; rw [e1]; omega
theorem emb4_1 (t : Fin cfg4.N) (q : Fin 2000) (j : Fin 128) :
    ((cfg4.win 1).blk t).view.emb (ix2 q j) = ix2 (GinSpec.blockRow (blkNo4 t) q) j := by
  have e0 : win4_1.index t (0 : Fin 2) = t.val := idx4 1 t (0 : Fin 2)
  have e1 : win4_1.index t (1 : Fin 2) = 0 := idx4 1 t (1 : Fin 2)
  refine Shape.idx_ext₂ ?_ ?_
  · show win4_1.index t (0 : Fin 2) * 2000 + 1 * q.val = 2000 * t.val + q.val; rw [e0]; omega
  · show win4_1.index t (1 : Fin 2) * 128 + 1 * j.val = j.val; rw [e1]; omega
theorem emb4_6 (t : Fin cfg4.N) (q : Fin 2000) (j : Fin 128) :
    ((cfg4.win 6).blk t).view.emb (ix2 q j) = ix2 (GinSpec.blockRow (blkNo4 t) q) j := by
  have e0 : win4_6.index t (0 : Fin 2) = t.val := idx4 6 t (0 : Fin 2)
  have e1 : win4_6.index t (1 : Fin 2) = 0 := idx4 6 t (1 : Fin 2)
  refine Shape.idx_ext₂ ?_ ?_
  · show win4_6.index t (0 : Fin 2) * 2000 + 1 * q.val = 2000 * t.val + q.val; rw [e0]; omega
  · show win4_6.index t (1 : Fin 2) * 128 + 1 * j.val = j.val; rw [e1]; omega
theorem emb4_2 (t : Fin cfg4.N) (y : S128x128.Idx) : ((cfg4.win 2).blk t).view.emb y = y :=
  funext fun a => Fin.ext (win4_2.rect_emb_val_of_index_zero t a (idx4 2 t a) y)
theorem emb4_3 (t : Fin cfg4.N) (y : S1x128.Idx) : ((cfg4.win 3).blk t).view.emb y = y :=
  funext fun a => Fin.ext (win4_3.rect_emb_val_of_index_zero t a (idx4 3 t a) y)
theorem emb4_4 (t : Fin cfg4.N) (y : S128x128.Idx) : ((cfg4.win 4).blk t).view.emb y = y :=
  funext fun a => Fin.ext (win4_4.rect_emb_val_of_index_zero t a (idx4 4 t a) y)
theorem emb4_5 (t : Fin cfg4.N) (y : S1x128.Idx) : ((cfg4.win 5).blk t).view.emb y = y :=
  funext fun a => Fin.ext (win4_5.rect_emb_val_of_index_zero t a (idx4 5 t a) y)
theorem emb4_7 (t : Fin cfg4.N) (y : S1x128.Idx) : ((cfg4.win 7).blk t).view.emb y = y :=
  funext fun a => Fin.ext (win4_7.rect_emb_val_of_index_zero t a (idx4 7 t a) y)
theorem emb4_8 (t : Fin cfg4.N) (y : S1x128.Idx) : ((cfg4.win 8).blk t).view.emb y = y :=
  funext fun a => Fin.ext (win4_8.rect_emb_val_of_index_zero t a (idx4 8 t a) y)
theorem hidden_congr4 {n d : ℕ} {x x' a a' : GinSpec.Mat n d} {W1 W1' W2 W2' : GinSpec.Mat d d} {b1 b1' b2 b2' : GinSpec.Row d}
    (hx : ∀ r k, x r k = x' r k) (ha : ∀ r k, a r k = a' r k) (hW1 : ∀ l k, W1 l k = W1' l k) (hb1 : ∀ k, b1 k = b1' k)
    (hW2 : ∀ l k, W2 l k = W2' l k) (hb2 : ∀ k, b2 k = b2' k) :
    GinSpec.hidden x a W1 b1 W2 b2 = GinSpec.hidden x' a' W1' b1' W2' b2' := by
  rw [funext₂ hx, funext₂ ha, funext₂ hW1, funext hb1, funext₂ hW2, funext hb2]
section Arrays
variable (V : (c : Dev nD) → (b : Ref sig .tc) → Buf (Elt Ideal) ((c : Thread nD τ).loc b)) (c : Dev nD)
def hid4 : GinSpec.Mat 50000 128 :=
  GinSpec.hidden (mat2 (V c main_v59)) (mat2 (V c main_v69)) (mat2 (V c main_v71)) (row2 (V c main_v78))
    (mat2 (V c main_v75)) (row2 (V c main_v79))
theorem h2Of4_apply (t : Fin cfg4.N) (q : Fin 2000) (j : Fin 128) :
    h2Of2 (F := Ideal) (xb4_0 V c t) (xb4_1 V c t) (xb4_2 V c t) (xb4_3 V c t) (xb4_4 V c t) (xb4_5 V c t) (ix2 q j) = hid4 V c (GinSpec.blockRow (blkNo4 t) q) j := by
  refine (pay_h2_2 _ _ _ _ _ _ q j).trans ((congrFun (congrFun (hidden_congr4
    (fun q' k => congrArg (V c main_v59) (emb4_0 t q' k)) (fun q' k => congrArg (V c main_v69) (emb4_1 t q' k))
    (fun l k => congrArg (V c main_v71) (emb4_2 t (ix2 l k))) (fun k => congrArg (V c main_v78) (emb4_3 t (ix2 0 k)))
    (fun l k => congrArg (V c main_v75) (emb4_4 t (ix2 l k))) (fun k => congrArg (V c main_v79) (emb4_5 t (ix2 0 k)))) q) j).trans ?_)
  rfl
theorem sumAt4_apply (j : Fin 128) : ∀ (n : ℕ) (hn : n < cfg4.N),
    sumAt4 (F := Ideal) V c n hn (ix2 0 j)
      = GinSpec.accAt (fun t => ∑ q : Fin 2000, hid4 V c (GinSpec.blockRow t q) j) n (lt_of_lt_of_eq hn N_4)
  | 0, hn => by
    rw [sumAt4, GinSpec.accAt, sumOf2, pay_sum_apply2, pay_reset_sum_apply2]
    exact congrArg (0 + ·) (Finset.sum_congr rfl fun q _ => h2Of4_apply V c ⟨0, hn⟩ q j)
  | n + 1, hn => by
    rw [sumAt4, GinSpec.accAt, sumOf2, pay_sum_apply2, sumAt4_apply j n (Nat.lt_of_succ_lt hn)]
    exact congrArg (_ + ·) (Finset.sum_congr rfl fun q _ => h2Of4_apply V c ⟨n + 1, hn⟩ q j)
theorem sqAt4_apply (j : Fin 128) : ∀ (n : ℕ) (hn : n < cfg4.N),
    sqAt4 (F := Ideal) V c n hn (ix2 0 j)
      = GinSpec.accAt (fun t => ∑ q : Fin 2000, hid4 V c (GinSpec.blockRow t q) j * hid4 V c (GinSpec.blockRow t q) j) n
          (lt_of_lt_of_eq hn N_4)
  | 0, hn => by
    rw [sqAt4, GinSpec.accAt, sqOf2, pay_sumsq_apply2, pay_reset_sumsq_apply2]
    exact congrArg (0 + ·) (Finset.sum_congr rfl fun q _ => congrArg (fun u => u * u) (h2Of4_apply V c ⟨0, hn⟩ q j))
  | n + 1, hn => by
    rw [sqAt4, GinSpec.accAt, sqOf2, pay_sumsq_apply2, sqAt4_apply j n (Nat.lt_of_succ_lt hn)]
    exact congrArg (_ + ·) (Finset.sum_congr rfl fun q _ => congrArg (fun u => u * u) (h2Of4_apply V c ⟨n + 1, hn⟩ q j))
theorem sumAt4_last (j : Fin 128) (h : 24 < cfg4.N) :
    sumAt4 (F := Ideal) V c 24 h (ix2 0 j) = GinSpec.colSum (hid4 V c) j :=
  (sumAt4_apply V c j 24 h).trans (GinSpec.colSum_blocks (hid4 V c) j)
theorem sqAt4_last (j : Fin 128) (h : 24 < cfg4.N) :
    sqAt4 (F := Ideal) V c 24 h (ix2 0 j) = GinSpec.colSumSq (hid4 V c) j :=
  (sqAt4_apply V c j 24 h).trans (GinSpec.colSumSq_blocks (hid4 V c) j)
def hidArr4 : S50000x128.Idx → Elt Ideal .f32 := fun i => hid4 V c (i 0) (i 1)
def meanArr4 : S1x128.Idx → Elt Ideal .f32 := fun i => GinSpec.meanMul (hid4 V c) (i 1)
def varArr4 : S1x128.Idx → Elt Ideal .f32 := fun i => GinSpec.varMul (hid4 V c) (i 1)
theorem flushed4_6_eq (t : Fin cfg4.N) :
    (dat4 (F := Ideal) V c).flushed 6 t = ((cfg4.win 6).blk t).view.read (Elt Ideal) (hidArr4 V c) := by
  show (cfg4.win 6).cut (grid4.coords t) ((dat4 (F := Ideal) V c).after 6 t) = _
  rw [after4_6]
  funext y
  obtain ⟨q, j, rfl⟩ : ∃ (q : Fin 2000) (j : Fin 128), y = ix2 q j := ⟨y 0, y 1, eq_ix2 y⟩
  exact (h2Of4_apply V c t q j).trans (congrArg (hidArr4 V c) (emb4_6 t q j)).symm
theorem cover4_6 (i : S50000x128.Idx) : ∃ t : Fin cfg4.N, (cfg4.win 6).flush t = true ∧ i ∈ ((cfg4.win 6).blk t).view.set := by
  obtain ⟨t, q, h⟩ := GinSpec.block_of_row (i 0)
  exact ⟨t.cast N_4.symm, flush2_6 _, Eq.subst (motive := (· ∈ ((cfg4.win 6).blk (t.cast N_4.symm)).view.set))
    ((emb4_6 _ q (i 1)).trans ((congrArg (ix2 · (i 1)) h).trans (eq_ix2 i).symm)) (View.emb_mem_set _ _)⟩
theorem final4_h2 (r : Fin 50000) (j : Fin 128) :
    (dat4 (F := Ideal) V c).arrAt 6 cfg4.N (ix2 r j) = hid4 V c r j :=
  congrFun ((dat4 (F := Ideal) V c).arrAt_eq_of_cover 6 (hidArr4 V c) (fun t _ => flushed4_6_eq V c t) cover4_6) (ix2 r j)
theorem last4 (t : Fin cfg4.N) (h : t.val % 25 = 24) : t.val = 24 := by
  have := t.isLt; have hN : cfg4.N = 25 := N_4; omega
theorem flushed4_7_eq (t : Fin cfg4.N) (hf : (cfg4.win 7).flush t = true) :
    (dat4 (F := Ideal) V c).flushed 7 t = ((cfg4.win 7).blk t).view.read (Elt Ideal) (meanArr4 V c) := by
  obtain ⟨n, hn⟩ := t
  obtain rfl : n = 24 := last4 _ ((flush2_7 _).mp hf)
  show (cfg4.win 7).cut (grid4.coords ⟨24, hn⟩) ((dat4 (F := Ideal) V c).after 7 ⟨24, hn⟩) = _
  rw [after4_7]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (meanArr4 V c) (emb4_7 ⟨24, hn⟩ (ix2 0 j))).symm
  show meanOf2 (F := Ideal) (sumAt4 (F := Ideal) V c 24 hn) (ix2 0 j) = _
  unfold meanOf2 meanArr4
  rw [pay_mean_apply2, sumAt4_last]
  rfl
theorem cover4_7 (i : S1x128.Idx) : ∃ t : Fin cfg4.N, (cfg4.win 7).flush t = true ∧ i ∈ ((cfg4.win 7).blk t).view.set := by
  have h : 24 < cfg4.N := lt_of_lt_of_eq (by decide) N_4.symm
  have := ((cfg4.win 7).blk ⟨24, h⟩).view.emb_mem_set i
  rw [emb4_7] at this
  exact ⟨⟨24, h⟩, (flush2_7 _).mpr rfl, this⟩
theorem flushed4_8_eq (t : Fin cfg4.N) (hf : (cfg4.win 8).flush t = true) :
    (dat4 (F := Ideal) V c).flushed 8 t = ((cfg4.win 8).blk t).view.read (Elt Ideal) (varArr4 V c) := by
  obtain ⟨n, hn⟩ := t
  obtain rfl : n = 24 := last4 _ ((flush2_8 _).mp hf)
  show (cfg4.win 8).cut (grid4.coords ⟨24, hn⟩) ((dat4 (F := Ideal) V c).after 8 ⟨24, hn⟩) = _
  rw [after4_8]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (varArr4 V c) (emb4_8 ⟨24, hn⟩ (ix2 0 j))).symm
  show varOf2 (F := Ideal) (sumAt4 (F := Ideal) V c 24 hn) (sqAt4 (F := Ideal) V c 24 hn) (ix2 0 j) = _
  unfold varOf2 varArr4
  rw [pay_var_apply2, sumAt4_last, sqAt4_last]
  rfl
theorem cover4_8 (i : S1x128.Idx) : ∃ t : Fin cfg4.N, (cfg4.win 8).flush t = true ∧ i ∈ ((cfg4.win 8).blk t).view.set := by
  have h : 24 < cfg4.N := lt_of_lt_of_eq (by decide) N_4.symm
  have := ((cfg4.win 8).blk ⟨24, h⟩).view.emb_mem_set i
  rw [emb4_8] at this
  exact ⟨⟨24, h⟩, (flush2_8 _).mpr rfl, this⟩
theorem final4_mean (j : Fin 128) :
    (dat4 (F := Ideal) V c).arrAt 7 cfg4.N (ix2 0 j) = GinSpec.meanMul (hid4 V c) j :=
  congrFun ((dat4 (F := Ideal) V c).arrAt_eq_of_cover 7 (meanArr4 V c) (flushed4_7_eq V c) cover4_7) (ix2 0 j)
theorem final4_var (j : Fin 128) :
    (dat4 (F := Ideal) V c).arrAt 8 cfg4.N (ix2 0 j) = GinSpec.varMul (hid4 V c) j :=
  congrFun ((dat4 (F := Ideal) V c).arrAt_eq_of_cover 8 (varArr4 V c) (flushed4_8_eq V c) cover4_8) (ix2 0 j)
end Arrays
end Cert.KernelIdeal.Hand
end
-- ==== Proof.KI.Stats6Value.lean ====
import proofs.«166660_j61229053772418_1_alg».proof.Proof.KI.Stats6
import proofs.«166660_j61229053772418_1_alg».proof.Proof.KI.Stats2Pay
import proofs.«166660_j61229053772418_1_alg».proof.Proof.KI.Head8Value
import proofs.«166660_j61229053772418_1_alg».proof.Proof.BlockSums
import proofs.«166660_j61229053772418_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators
theorem idx6 : ∀ (w : Fin cfg6.W) (t : Fin cfg6.N) (a : Fin (cfg6.win w).shape.rank),
    (cfg6.win w).index t a = if (w = 0 ∨ w = 1 ∨ w = 6) ∧ a.val = 0 then t.val else 0 :=
  (by decide +kernel : ∀ (w : Fin cfg6.W) (t : Fin grid6.N) (a : Fin (cfg6.win w).shape.rank), _)
abbrev blkNo6 (t : Fin cfg6.N) : Fin 25 := ⟨t.val, lt_of_lt_of_eq t.isLt N_6⟩
theorem emb6_0 (t : Fin cfg6.N) (q : Fin 2000) (j : Fin 128) :
    ((cfg6.win 0).blk t).view.emb (ix2 q j) = ix2 (GinSpec.blockRow (blkNo6 t) q) j := by
  have e0 : win6_0.index t (0 : Fin 2) = t.val := idx6 0 t (0 : Fin 2)
  have e1 : win6_0.index t (1 : Fin 2) = 0 := idx6 0 t (1 : Fin 2)
  refine Shape.idx_ext₂ ?_ ?_
  · show win6_0.index t (0 : Fin 2) * 2000 + 1 * q.val = 2000 * t.val + q.val; rw [e0]; omega
  · show win6_0.index t (1 : Fin 2) * 128 + 1 * j.val = j.val; rw [e1]; omega
theorem emb6_1 (t : Fin cfg6.N) (q : Fin 2000) (j : Fin 128) :
    ((cfg6.win 1).blk t).view.emb (ix2 q j) = ix2 (GinSpec.blockRow (blkNo6 t) q) j := by
  have e0 : win6_1.index t (0 : Fin 2) = t.val := idx6 1 t (0 : Fin 2)
  have e1 : win6_1.index t (1 : Fin 2) = 0 := idx6 1 t (1 : Fin 2)
  refine Shape.idx_ext₂ ?_ ?_
  · show win6_1.index t (0 : Fin 2) * 2000 + 1 * q.val = 2000 * t.val + q.val; rw [e0]; omega
  · show win6_1.index t (1 : Fin 2) * 128 + 1 * j.val = j.val; rw [e1]; omega
theorem emb6_6 (t : Fin cfg6.N) (q : Fin 2000) (j : Fin 128) :
    ((cfg6.win 6).blk t).view.emb (ix2 q j) = ix2 (GinSpec.blockRow (blkNo6 t) q) j := by
  have e0 : win6_6.index t (0 : Fin 2) = t.val := idx6 6 t (0 : Fin 2)
  have e1 : win6_6.index t (1 : Fin 2) = 0 := idx6 6 t (1 : Fin 2)
  refine Shape.idx_ext₂ ?_ ?_
  · show win6_6.index t (0 : Fin 2) * 2000 + 1 * q.val = 2000 * t.val + q.val; rw [e0]; omega
  · show win6_6.index t (1 : Fin 2) * 128 + 1 * j.val = j.val; rw [e1]; omega
theorem emb6_2 (t : Fin cfg6.N) (y : S128x128.Idx) : ((cfg6.win 2).blk t).view.emb y = y :=
  funext fun a => Fin.ext (win6_2.rect_emb_val_of_index_zero t a (idx6 2 t a) y)
theorem emb6_3 (t : Fin cfg6.N) (y : S1x128.Idx) : ((cfg6.win 3).blk t).view.emb y = y :=
  funext fun a => Fin.ext (win6_3.rect_emb_val_of_index_zero t a (idx6 3 t a) y)
theorem emb6_4 (t : Fin cfg6.N) (y : S128x128.Idx) : ((cfg6.win 4).blk t).view.emb y = y :=
  funext fun a => Fin.ext (win6_4.rect_emb_val_of_index_zero t a (idx6 4 t a) y)
theorem emb6_5 (t : Fin cfg6.N) (y : S1x128.Idx) : ((cfg6.win 5).blk t).view.emb y = y :=
  funext fun a => Fin.ext (win6_5.rect_emb_val_of_index_zero t a (idx6 5 t a) y)
theorem emb6_7 (t : Fin cfg6.N) (y : S1x128.Idx) : ((cfg6.win 7).blk t).view.emb y = y :=
  funext fun a => Fin.ext (win6_7.rect_emb_val_of_index_zero t a (idx6 7 t a) y)
theorem emb6_8 (t : Fin cfg6.N) (y : S1x128.Idx) : ((cfg6.win 8).blk t).view.emb y = y :=
  funext fun a => Fin.ext (win6_8.rect_emb_val_of_index_zero t a (idx6 8 t a) y)
theorem hidden_congr6 {n d : ℕ} {x x' a a' : GinSpec.Mat n d} {W1 W1' W2 W2' : GinSpec.Mat d d} {b1 b1' b2 b2' : GinSpec.Row d}
    (hx : ∀ r k, x r k = x' r k) (ha : ∀ r k, a r k = a' r k) (hW1 : ∀ l k, W1 l k = W1' l k) (hb1 : ∀ k, b1 k = b1' k)
    (hW2 : ∀ l k, W2 l k = W2' l k) (hb2 : ∀ k, b2 k = b2' k) :
    GinSpec.hidden x a W1 b1 W2 b2 = GinSpec.hidden x' a' W1' b1' W2' b2' := by
  rw [funext₂ hx, funext₂ ha, funext₂ hW1, funext hb1, funext₂ hW2, funext hb2]
section Arrays
variable (V : (c : Dev nD) → (b : Ref sig .tc) → Buf (Elt Ideal) ((c : Thread nD τ).loc b)) (c : Dev nD)
def hid6 : GinSpec.Mat 50000 128 :=
  GinSpec.hidden (mat2 (V c main_v87)) (mat2 (V c main_v97)) (mat2 (V c main_v99)) (row2 (V c main_v106))
    (mat2 (V c main_v103)) (row2 (V c main_v107))
theorem h2Of6_apply (t : Fin cfg6.N) (q : Fin 2000) (j : Fin 128) :
    h2Of2 (F := Ideal) (xb6_0 V c t) (xb6_1 V c t) (xb6_2 V c t) (xb6_3 V c t) (xb6_4 V c t) (xb6_5 V c t) (ix2 q j) = hid6 V c (GinSpec.blockRow (blkNo6 t) q) j := by
  refine (pay_h2_2 _ _ _ _ _ _ q j).trans ((congrFun (congrFun (hidden_congr6
    (fun q' k => congrArg (V c main_v87) (emb6_0 t q' k)) (fun q' k => congrArg (V c main_v97) (emb6_1 t q' k))
    (fun l k => congrArg (V c main_v99) (emb6_2 t (ix2 l k))) (fun k => congrArg (V c main_v106) (emb6_3 t (ix2 0 k)))
    (fun l k => congrArg (V c main_v103) (emb6_4 t (ix2 l k))) (fun k => congrArg (V c main_v107) (emb6_5 t (ix2 0 k)))) q) j).trans ?_)
  rfl
theorem sumAt6_apply (j : Fin 128) : ∀ (n : ℕ) (hn : n < cfg6.N),
    sumAt6 (F := Ideal) V c n hn (ix2 0 j)
      = GinSpec.accAt (fun t => ∑ q : Fin 2000, hid6 V c (GinSpec.blockRow t q) j) n (lt_of_lt_of_eq hn N_6)
  | 0, hn => by
    rw [sumAt6, GinSpec.accAt, sumOf2, pay_sum_apply2, pay_reset_sum_apply2]
    exact congrArg (0 + ·) (Finset.sum_congr rfl fun q _ => h2Of6_apply V c ⟨0, hn⟩ q j)
  | n + 1, hn => by
    rw [sumAt6, GinSpec.accAt, sumOf2, pay_sum_apply2, sumAt6_apply j n (Nat.lt_of_succ_lt hn)]
    exact congrArg (_ + ·) (Finset.sum_congr rfl fun q _ => h2Of6_apply V c ⟨n + 1, hn⟩ q j)
theorem sqAt6_apply (j : Fin 128) : ∀ (n : ℕ) (hn : n < cfg6.N),
    sqAt6 (F := Ideal) V c n hn (ix2 0 j)
      = GinSpec.accAt (fun t => ∑ q : Fin 2000, hid6 V c (GinSpec.blockRow t q) j * hid6 V c (GinSpec.blockRow t q) j) n
          (lt_of_lt_of_eq hn N_6)
  | 0, hn => by
    rw [sqAt6, GinSpec.accAt, sqOf2, pay_sumsq_apply2, pay_reset_sumsq_apply2]
    exact congrArg (0 + ·) (Finset.sum_congr rfl fun q _ => congrArg (fun u => u * u) (h2Of6_apply V c ⟨0, hn⟩ q j))
  | n + 1, hn => by
    rw [sqAt6, GinSpec.accAt, sqOf2, pay_sumsq_apply2, sqAt6_apply j n (Nat.lt_of_succ_lt hn)]
    exact congrArg (_ + ·) (Finset.sum_congr rfl fun q _ => congrArg (fun u => u * u) (h2Of6_apply V c ⟨n + 1, hn⟩ q j))
theorem sumAt6_last (j : Fin 128) (h : 24 < cfg6.N) :
    sumAt6 (F := Ideal) V c 24 h (ix2 0 j) = GinSpec.colSum (hid6 V c) j :=
  (sumAt6_apply V c j 24 h).trans (GinSpec.colSum_blocks (hid6 V c) j)
theorem sqAt6_last (j : Fin 128) (h : 24 < cfg6.N) :
    sqAt6 (F := Ideal) V c 24 h (ix2 0 j) = GinSpec.colSumSq (hid6 V c) j :=
  (sqAt6_apply V c j 24 h).trans (GinSpec.colSumSq_blocks (hid6 V c) j)
def hidArr6 : S50000x128.Idx → Elt Ideal .f32 := fun i => hid6 V c (i 0) (i 1)
def meanArr6 : S1x128.Idx → Elt Ideal .f32 := fun i => GinSpec.meanMul (hid6 V c) (i 1)
def varArr6 : S1x128.Idx → Elt Ideal .f32 := fun i => GinSpec.varMul (hid6 V c) (i 1)
theorem flushed6_6_eq (t : Fin cfg6.N) :
    (dat6 (F := Ideal) V c).flushed 6 t = ((cfg6.win 6).blk t).view.read (Elt Ideal) (hidArr6 V c) := by
  show (cfg6.win 6).cut (grid6.coords t) ((dat6 (F := Ideal) V c).after 6 t) = _
  rw [after6_6]
  funext y
  obtain ⟨q, j, rfl⟩ : ∃ (q : Fin 2000) (j : Fin 128), y = ix2 q j := ⟨y 0, y 1, eq_ix2 y⟩
  exact (h2Of6_apply V c t q j).trans (congrArg (hidArr6 V c) (emb6_6 t q j)).symm
theorem cover6_6 (i : S50000x128.Idx) : ∃ t : Fin cfg6.N, (cfg6.win 6).flush t = true ∧ i ∈ ((cfg6.win 6).blk t).view.set := by
  obtain ⟨t, q, h⟩ := GinSpec.block_of_row (i 0)
  exact ⟨t.cast N_6.symm, flush2_6 _, Eq.subst (motive := (· ∈ ((cfg6.win 6).blk (t.cast N_6.symm)).view.set))
    ((emb6_6 _ q (i 1)).trans ((congrArg (ix2 · (i 1)) h).trans (eq_ix2 i).symm)) (View.emb_mem_set _ _)⟩
theorem final6_h2 (r : Fin 50000) (j : Fin 128) :
    (dat6 (F := Ideal) V c).arrAt 6 cfg6.N (ix2 r j) = hid6 V c r j :=
  congrFun ((dat6 (F := Ideal) V c).arrAt_eq_of_cover 6 (hidArr6 V c) (fun t _ => flushed6_6_eq V c t) cover6_6) (ix2 r j)
theorem last6 (t : Fin cfg6.N) (h : t.val % 25 = 24) : t.val = 24 := by
  have := t.isLt; have hN : cfg6.N = 25 := N_6; omega
theorem flushed6_7_eq (t : Fin cfg6.N) (hf : (cfg6.win 7).flush t = true) :
    (dat6 (F := Ideal) V c).flushed 7 t = ((cfg6.win 7).blk t).view.read (Elt Ideal) (meanArr6 V c) := by
  obtain ⟨n, hn⟩ := t
  obtain rfl : n = 24 := last6 _ ((flush2_7 _).mp hf)
  show (cfg6.win 7).cut (grid6.coords ⟨24, hn⟩) ((dat6 (F := Ideal) V c).after 7 ⟨24, hn⟩) = _
  rw [after6_7]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (meanArr6 V c) (emb6_7 ⟨24, hn⟩ (ix2 0 j))).symm
  show meanOf2 (F := Ideal) (sumAt6 (F := Ideal) V c 24 hn) (ix2 0 j) = _
  unfold meanOf2 meanArr6
  rw [pay_mean_apply2, sumAt6_last]
  rfl
theorem cover6_7 (i : S1x128.Idx) : ∃ t : Fin cfg6.N, (cfg6.win 7).flush t = true ∧ i ∈ ((cfg6.win 7).blk t).view.set := by
  have h : 24 < cfg6.N := lt_of_lt_of_eq (by decide) N_6.symm
  have := ((cfg6.win 7).blk ⟨24, h⟩).view.emb_mem_set i
  rw [emb6_7] at this
  exact ⟨⟨24, h⟩, (flush2_7 _).mpr rfl, this⟩
theorem flushed6_8_eq (t : Fin cfg6.N) (hf : (cfg6.win 8).flush t = true) :
    (dat6 (F := Ideal) V c).flushed 8 t = ((cfg6.win 8).blk t).view.read (Elt Ideal) (varArr6 V c) := by
  obtain ⟨n, hn⟩ := t
  obtain rfl : n = 24 := last6 _ ((flush2_8 _).mp hf)
  show (cfg6.win 8).cut (grid6.coords ⟨24, hn⟩) ((dat6 (F := Ideal) V c).after 8 ⟨24, hn⟩) = _
  rw [after6_8]
  funext y
  obtain ⟨u, j, rfl⟩ : ∃ (u : Fin 1) (j : Fin 128), y = ix2 u j := ⟨y 0, y 1, eq_ix2 y⟩
  obtain rfl : u = 0 := Subsingleton.elim _ _
  refine Eq.trans ?_ (congrArg (varArr6 V c) (emb6_8 ⟨24, hn⟩ (ix2 0 j))).symm
  show varOf2 (F := Ideal) (sumAt6 (F := Ideal) V c 24 hn) (sqAt6 (F := Ideal) V c 24 hn) (ix2 0 j) = _
  unfold varOf2 varArr6
  rw [pay_var_apply2, sumAt6_last, sqAt6_last]
  rfl
theorem cover6_8 (i : S1x128.Idx) : ∃ t : Fin cfg6.N, (cfg6.win 8).flush t = true ∧ i ∈ ((cfg6.win 8).blk t).view.set := by
  have h : 24 < cfg6.N := lt_of_lt_of_eq (by decide) N_6.symm
  have := ((cfg6.win 8).blk ⟨24, h⟩).view.emb_mem_set i
  rw [emb6_8] at this
  exact ⟨⟨24, h⟩, (flush2_8 _).mpr rfl, this⟩
theorem final6_mean (j : Fin 128) :
    (dat6 (F := Ideal) V c).arrAt 7 cfg6.N (ix2 0 j) = GinSpec.meanMul (hid6 V c) j :=
  congrFun ((dat6 (F := Ideal) V c).arrAt_eq_of_cover 7 (meanArr6 V c) (flushed6_7_eq V c) cover6_7) (ix2 0 j)
theorem final6_var (j : Fin 128) :
    (dat6 (F := Ideal) V c).arrAt 8 cfg6.N (ix2 0 j) = GinSpec.varMul (hid6 V c) j :=
  congrFun ((dat6 (F := Ideal) V c).arrAt_eq_of_cover 8 (varArr6 V c) (flushed6_8_eq V c) cover6_8) (ix2 0 j)
end Arrays
end Cert.KernelIdeal.Hand
end
-- ==== Proof.KI.Value.lean ====
import proofs.«166660_j61229053772418_1_alg».proof.Proof.KI.RunChain
import proofs.«166660_j61229053772418_1_alg».proof.Proof.KI.HostReads
import proofs.«166660_j61229053772418_1_alg».proof.Proof.KI.Bn1Value
import proofs.«166660_j61229053772418_1_alg».proof.Proof.KI.Bn3Value
import proofs.«166660_j61229053772418_1_alg».proof.Proof.KI.Bn5Value
import proofs.«166660_j61229053772418_1_alg».proof.Proof.KI.Bn7Value
import proofs.«166660_j61229053772418_1_alg».proof.Proof.KI.Head8Value
import proofs.«166660_j61229053772418_1_alg».proof.Proof.KI.Stats0Value
import proofs.«166660_j61229053772418_1_alg».proof.Proof.KI.Stats2Value
import proofs.«166660_j61229053772418_1_alg».proof.Proof.KI.Stats4Value
import proofs.«166660_j61229053772418_1_alg».proof.Proof.KI.Stats6Value
import proofs.«166660_j61229053772418_1_alg».proof.Proof.Shared
import proofs.«166660_j61229053772418_1_alg».proof.Proof.Spec
set_option maxRecDepth 16384
noncomputable section
namespace Cert.KernelIdeal.Hand
open Cert.KernelIdeal Cert.KernelIdeal.Gen
open Idealize.ShloMosaic Idealize.ShloMosaic.TcCoe Idealize.SL.Sem
open Idealize.ShloMosaic.StableHlo
open Idealize.ShloMosaic.Pipeline (Dat)
open Idealize.ShloMosaic.ValueIdx
open scoped BigOperators
theorem bn_congr {n d : ℕ} {h h' : GinSpec.Mat n d} {mu mu' va va' g g' bt bt' : GinSpec.Row d}
    (e0 : h = h') (e1 : mu = mu') (e2 : va = va') (e3 : g = g') (e4 : bt = bt') :
    GinSpec.bn h mu va g bt = GinSpec.bn h' mu' va' g' bt' := by
  subst e0 e1 e2 e3 e4; rfl
theorem hidden_congr {n d : ℕ} {x x' a a' : GinSpec.Mat n d} {W1 W1' W2 W2' : GinSpec.Mat d d} {b1 b1' b2 b2' : GinSpec.Row d}
    (e0 : x = x') (e1 : a = a') (e2 : W1 = W1') (e3 : b1 = b1') (e4 : W2 = W2') (e5 : b2 = b2') :
    GinSpec.hidden x a W1 b1 W2 b2 = GinSpec.hidden x' a' W1' b1' W2' b2' := by
  subst e0 e1 e2 e3 e4 e5; rfl
theorem featMul_succ {n d : ℕ} (A : GinSpec.Mat n d → GinSpec.Mat n d) (x : GinSpec.Mat n d) (P : Fin 4 → GinSpec.Params d)
    (l : ℕ) (hl : l + 1 ≤ 4) :
    GinSpec.featMul A x P (l + 1) hl
      = GinSpec.layerMul (GinSpec.featMul A x P l (Nat.le_of_succ_le hl)) (A (GinSpec.featMul A x P l (Nat.le_of_succ_le hl)))
          (P ⟨l, hl⟩).W1 (P ⟨l, hl⟩).b1 (P ⟨l, hl⟩).W2 (P ⟨l, hl⟩).b2 (P ⟨l, hl⟩).g (P ⟨l, hl⟩).bt := rfl
theorem head_eq {n d o : ℕ} (h : Fin 4 → GinSpec.Mat n d) (L : GinSpec.Mat (4 * d) d) (b1 : GinSpec.Row d) (W2 : GinSpec.Mat d o)
    (b2 : GinSpec.Row o) (H0 H1 H2 H3 : GinSpec.Mat n d) (L0 L1 L2 L3 : GinSpec.Mat d d) (B1 : GinSpec.Row d)
    (W : GinSpec.Mat d o) (B2 : GinSpec.Row o)
    (e0 : H0 = h 0) (e1 : H1 = h 1) (e2 : H2 = h 2) (e3 : H3 = h 3)
    (f0 : L0 = GinSpec.rowBlock L 0) (f1 : L1 = GinSpec.rowBlock L 1) (f2 : L2 = GinSpec.rowBlock L 2) (f3 : L3 = GinSpec.rowBlock L 3)
    (g1 : B1 = b1) (g2 : W = W2) (g3 : B2 = b2) (r : Fin n) (j : Fin o) :
    (∑ k : Fin d, GinSpec.relu (((((∑ l : Fin d, H0 r l * L0 l k) + ∑ l : Fin d, H1 r l * L1 l k)
        + ∑ l : Fin d, H2 r l * L2 l k) + ∑ l : Fin d, H3 r l * L3 l k) + B1 k) * W k j) + B2 j
      = GinSpec.headBlocks h L b1 W2 b2 r j := by
  subst e0 e1 e2 e3 f0 f1 f2 f3 g1 g2 g3; rfl
section Chain
variable (m : (ℓ : Loc nD τ sig) → Buf (Elt Ideal) ℓ) (c : Dev nD)
abbrev AggM : GinSpec.Mat 50000 128 → GinSpec.Mat 50000 128 :=
  fun y => GinSpec.ofArr (aggK (m (c, main_arg1)) (GinSpec.toArr y))
abbrev X0 : GinSpec.Mat 50000 128 := GinSpec.ofArr (m (c, main_arg0))
abbrev Ps : Fin 4 → GinSpec.Params 128 :=
  GinSpec.paramsOf (m (c, main_arg2)) (m (c, main_arg3)) (m (c, main_arg4)) (m (c, main_arg5)) (m (c, main_arg6)) (m (c, main_arg7))
abbrev feat (l : ℕ) (hl : l ≤ 4) : GinSpec.Mat 50000 128 := GinSpec.featMul (AggM m c) (X0 m c) (Ps m c) l hl
theorem aggRows_congr {s s' d d' : EdgeRow} {h h' : FVec Ideal S50000x128 .f32} (e1 : s = s') (e2 : d = d') (e3 : h = h') :
    aggRows s d h = aggRows s' d' h' := by subst e1 e2 e3; rfl
theorem src_at4 : Wv4 m c main_v1 = srcRow (m (c, main_arg1)) :=
  ((Wv4_keep m c main_v1 (by decide)).trans <| (Wv3_of m c main_v1 (by decide)).trans <| (Wv2_keep m c main_v1 (by decide))).trans (host0_v1 (Wv0 m c))
theorem dst_at4 : Wv4 m c main_v3 = dstRow (m (c, main_arg1)) :=
  ((Wv4_keep m c main_v3 (by decide)).trans <| (Wv3_of m c main_v3 (by decide)).trans <| (Wv2_keep m c main_v3 (by decide))).trans (host0_v3 (Wv0 m c))
theorem src_at8 : Wv8 m c main_v1 = srcRow (m (c, main_arg1)) :=
  ((Wv8_keep m c main_v1 (by decide)).trans <| (Wv7_of m c main_v1 (by decide)).trans <| (Wv6_keep m c main_v1 (by decide)).trans <| (Wv5_of m c main_v1 (by decide)).trans <| (Wv4_keep m c main_v1 (by decide)).trans <| (Wv3_of m c main_v1 (by decide)).trans <| (Wv2_keep m c main_v1 (by decide))).trans (host0_v1 (Wv0 m c))
theorem dst_at8 : Wv8 m c main_v3 = dstRow (m (c, main_arg1)) :=
  ((Wv8_keep m c main_v3 (by decide)).trans <| (Wv7_of m c main_v3 (by decide)).trans <| (Wv6_keep m c main_v3 (by decide)).trans <| (Wv5_of m c main_v3 (by decide)).trans <| (Wv4_keep m c main_v3 (by decide)).trans <| (Wv3_of m c main_v3 (by decide)).trans <| (Wv2_keep m c main_v3 (by decide))).trans (host0_v3 (Wv0 m c))
theorem src_at12 : Wv12 m c main_v1 = srcRow (m (c, main_arg1)) :=
  ((Wv12_keep m c main_v1 (by decide)).trans <| (Wv11_of m c main_v1 (by decide)).trans <| (Wv10_keep m c main_v1 (by decide)).trans <| (Wv9_of m c main_v1 (by decide)).trans <| (Wv8_keep m c main_v1 (by decide)).trans <| (Wv7_of m c main_v1 (by decide)).trans <| (Wv6_keep m c main_v1 (by decide)).trans <| (Wv5_of m c main_v1 (by decide)).trans <| (Wv4_keep m c main_v1 (by decide)).trans <| (Wv3_of m c main_v1 (by decide)).trans <| (Wv2_keep m c main_v1 (by decide))).trans (host0_v1 (Wv0 m c))
theorem dst_at12 : Wv12 m c main_v3 = dstRow (m (c, main_arg1)) :=
  ((Wv12_keep m c main_v3 (by decide)).trans <| (Wv11_of m c main_v3 (by decide)).trans <| (Wv10_keep m c main_v3 (by decide)).trans <| (Wv9_of m c main_v3 (by decide)).trans <| (Wv8_keep m c main_v3 (by decide)).trans <| (Wv7_of m c main_v3 (by decide)).trans <| (Wv6_keep m c main_v3 (by decide)).trans <| (Wv5_of m c main_v3 (by decide)).trans <| (Wv4_keep m c main_v3 (by decide)).trans <| (Wv3_of m c main_v3 (by decide)).trans <| (Wv2_keep m c main_v3 (by decide))).trans (host0_v3 (Wv0 m c))
theorem in0_eq : mat2 (Vr1 m c main_arg0) = feat m c 0 (by decide) := by
  funext r j
  refine (congrFun ((Wv1_of m c main_arg0 (by decide))) (ix2 r j)).trans ?_
  rfl
theorem agg0_eq : mat2 (Vr1 m c main_v13) = AggM m c (feat m c 0 (by decide)) := by
  have e : (Wv1 m c main_v13 : S50000x128.Idx → EReal) = aggK (m (c, main_arg1)) (GinSpec.toArr (feat m c 0 (by decide))) := by
    refine (host0_v13 (Wv0 m c)).trans ?_
    exact congrArg (aggK (m (c, main_arg1))) (GinSpec.toArr_ofArr _).symm
  funext r j
  exact congrFun e (ix2 r j)
theorem W1_0_eq : mat2 (Vr1 m c main_v15) = (Ps m c ⟨0, by decide⟩).W1 := by
  funext j k
  refine (host0_v15_apply (Wv0 m c) j k).trans ?_
  exact congrFun (rfl) (ix3 (0 : Fin 4) j k)
theorem b1_0_eq : row2 (Vr1 m c main_v22) = (Ps m c ⟨0, by decide⟩).b1 := by
  funext k
  refine (host0_v22_apply (Wv0 m c) k).trans ?_
  exact congrFun (rfl) (ix2 (0 : Fin 4) k)
theorem W2_0_eq : mat2 (Vr1 m c main_v19) = (Ps m c ⟨0, by decide⟩).W2 := by
  funext j k
  refine (host0_v19_apply (Wv0 m c) j k).trans ?_
  exact congrFun (rfl) (ix3 (0 : Fin 4) j k)
theorem b2_0_eq : row2 (Vr1 m c main_v23) = (Ps m c ⟨0, by decide⟩).b2 := by
  funext k
  refine (host0_v23_apply (Wv0 m c) k).trans ?_
  exact congrFun (rfl) (ix2 (0 : Fin 4) k)
theorem H0_eq : hid0 (Vr1 m) c
    = GinSpec.hidden (feat m c 0 (by decide)) (AggM m c (feat m c 0 (by decide))) (Ps m c ⟨0, by decide⟩).W1 (Ps m c ⟨0, by decide⟩).b1 (Ps m c ⟨0, by decide⟩).W2 (Ps m c ⟨0, by decide⟩).b2 :=
  hidden_congr (in0_eq m c) (agg0_eq m c) (W1_0_eq m c) (b1_0_eq m c) (W2_0_eq m c) (b2_0_eq m c)
theorem h2_0_eq : (fun r j => Vr3 m c main_v24_0 (ix2 r j)) = GinSpec.hidden (feat m c 0 (by decide)) (AggM m c (feat m c 0 (by decide))) (Ps m c ⟨0, by decide⟩).W1 (Ps m c ⟨0, by decide⟩).b1 (Ps m c ⟨0, by decide⟩).W2 (Ps m c ⟨0, by decide⟩).b2 := by
  funext r j
  refine (congrFun (Wv3_of m c main_v24_0 (by decide)) (ix2 r j)).trans ?_
  refine (congrFun (Wv2_arr m c 6) (ix2 r j)).trans ?_
  refine (final0_h2 (Vr1 m) c r j).trans ?_
  exact congrFun (congrFun (H0_eq m c) r) j
theorem mean_0_eq : (fun j => Vr3 m c main_v24_1 (ix2 0 j)) = GinSpec.meanMul (GinSpec.hidden (feat m c 0 (by decide)) (AggM m c (feat m c 0 (by decide))) (Ps m c ⟨0, by decide⟩).W1 (Ps m c ⟨0, by decide⟩).b1 (Ps m c ⟨0, by decide⟩).W2 (Ps m c ⟨0, by decide⟩).b2) := by
  funext j
  refine (congrFun (Wv3_of m c main_v24_1 (by decide)) (ix2 0 j)).trans ?_
  refine (congrFun (Wv2_arr m c 7) (ix2 0 j)).trans ?_
  refine (final0_mean (Vr1 m) c j).trans ?_
  exact congrFun (congrArg GinSpec.meanMul (H0_eq m c)) j
theorem var_0_eq : (fun j => Vr3 m c main_v24_2 (ix2 0 j)) = GinSpec.varMul (GinSpec.hidden (feat m c 0 (by decide)) (AggM m c (feat m c 0 (by decide))) (Ps m c ⟨0, by decide⟩).W1 (Ps m c ⟨0, by decide⟩).b1 (Ps m c ⟨0, by decide⟩).W2 (Ps m c ⟨0, by decide⟩).b2) := by
  funext j
  refine (congrFun (Wv3_of m c main_v24_2 (by decide)) (ix2 0 j)).trans ?_
  refine (congrFun (Wv2_arr m c 8) (ix2 0 j)).trans ?_
  refine (final0_var (Vr1 m) c j).trans ?_
  exact congrFun (congrArg GinSpec.varMul (H0_eq m c)) j
theorem g_0_eq : (fun j => Vr3 m c main_v29 (ix2 0 j)) = (Ps m c ⟨0, by decide⟩).g := by
  funext j
  refine (host1_v29_apply (Wv2 m c) j).trans ?_
  exact congrFun ((Wv2_keep m c main_arg6 (by decide)).trans <| (Wv1_of m c main_arg6 (by decide))) (ix2 (0 : Fin 4) j)
theorem bt_0_eq : (fun j => Vr3 m c main_v30 (ix2 0 j)) = (Ps m c ⟨0, by decide⟩).bt := by
  funext j
  refine (host1_v30_apply (Wv2 m c) j).trans ?_
  exact congrFun ((Wv2_keep m c main_arg7 (by decide)).trans <| (Wv1_of m c main_arg7 (by decide))) (ix2 (0 : Fin 4) j)
theorem layer0_apply (r : Fin 50000) (j : Fin 128) :
    (Wv4 m c main_v31 : S50000x128.Idx → EReal) (ix2 r j) = feat m c 1 (by decide) r j := by
  refine (congrFun (Wv4_arr m c 5) (ix2 r j)).trans ?_
  refine (final1 (Vr3 m) c r j).trans ?_
  refine (congrFun (congrFun (bn_congr (h2_0_eq m c) (mean_0_eq m c) (var_0_eq m c) (g_0_eq m c) (bt_0_eq m c)) r) j).trans ?_
  exact (congrFun (congrFun (featMul_succ (AggM m c) (X0 m c) (Ps m c) 0 (by decide)) r) j).symm
theorem layer0 : (Wv4 m c main_v31 : S50000x128.Idx → EReal) = GinSpec.toArr (feat m c 1 (by decide)) :=
  funext fun i => (congrArg (Wv4 m c main_v31 : S50000x128.Idx → EReal) (eq_ix2 i)).trans (layer0_apply m c (i 0) (i 1))
theorem in1_eq : mat2 (Vr5 m c main_v31) = feat m c 1 (by decide) := by
  funext r j
  refine (congrFun ((Wv5_of m c main_v31 (by decide))) (ix2 r j)).trans ?_
  exact layer0_apply m c r j
theorem agg1_eq : mat2 (Vr5 m c main_v41) = AggM m c (feat m c 1 (by decide)) := by
  have e : (Wv5 m c main_v41 : S50000x128.Idx → EReal) = aggK (m (c, main_arg1)) (GinSpec.toArr (feat m c 1 (by decide))) := by
    refine (host2_v41 (Wv4 m c)).trans ?_
    exact aggRows_congr (src_at4 m c) (dst_at4 m c) (layer0 m c)
  funext r j
  exact congrFun e (ix2 r j)
theorem W1_1_eq : mat2 (Vr5 m c main_v43) = (Ps m c ⟨1, by decide⟩).W1 := by
  funext j k
  refine (host2_v43_apply (Wv4 m c) j k).trans ?_
  exact congrFun ((Wv4_keep m c main_arg2 (by decide)).trans <| (Wv3_of m c main_arg2 (by decide)).trans <| (Wv2_keep m c main_arg2 (by decide)).trans <| (Wv1_of m c main_arg2 (by decide))) (ix3 (1 : Fin 4) j k)
theorem b1_1_eq : row2 (Vr5 m c main_v50) = (Ps m c ⟨1, by decide⟩).b1 := by
  funext k
  refine (host2_v50_apply (Wv4 m c) k).trans ?_
  exact congrFun ((Wv4_keep m c main_arg3 (by decide)).trans <| (Wv3_of m c main_arg3 (by decide)).trans <| (Wv2_keep m c main_arg3 (by decide)).trans <| (Wv1_of m c main_arg3 (by decide))) (ix2 (1 : Fin 4) k)
theorem W2_1_eq : mat2 (Vr5 m c main_v47) = (Ps m c ⟨1, by decide⟩).W2 := by
  funext j k
  refine (host2_v47_apply (Wv4 m c) j k).trans ?_
  exact congrFun ((Wv4_keep m c main_arg4 (by decide)).trans <| (Wv3_of m c main_arg4 (by decide)).trans <| (Wv2_keep m c main_arg4 (by decide)).trans <| (Wv1_of m c main_arg4 (by decide))) (ix3 (1 : Fin 4) j k)
theorem b2_1_eq : row2 (Vr5 m c main_v51) = (Ps m c ⟨1, by decide⟩).b2 := by
  funext k
  refine (host2_v51_apply (Wv4 m c) k).trans ?_
  exact congrFun ((Wv4_keep m c main_arg5 (by decide)).trans <| (Wv3_of m c main_arg5 (by decide)).trans <| (Wv2_keep m c main_arg5 (by decide)).trans <| (Wv1_of m c main_arg5 (by decide))) (ix2 (1 : Fin 4) k)
theorem H1_eq : hid2 (Vr5 m) c
    = GinSpec.hidden (feat m c 1 (by decide)) (AggM m c (feat m c 1 (by decide))) (Ps m c ⟨1, by decide⟩).W1 (Ps m c ⟨1, by decide⟩).b1 (Ps m c ⟨1, by decide⟩).W2 (Ps m c ⟨1, by decide⟩).b2 :=
  hidden_congr (in1_eq m c) (agg1_eq m c) (W1_1_eq m c) (b1_1_eq m c) (W2_1_eq m c) (b2_1_eq m c)
theorem h2_1_eq : (fun r j => Vr7 m c main_v52_0 (ix2 r j)) = GinSpec.hidden (feat m c 1 (by decide)) (AggM m c (feat m c 1 (by decide))) (Ps m c ⟨1, by decide⟩).W1 (Ps m c ⟨1, by decide⟩).b1 (Ps m c ⟨1, by decide⟩).W2 (Ps m c ⟨1, by decide⟩).b2 := by
  funext r j
  refine (congrFun (Wv7_of m c main_v52_0 (by decide)) (ix2 r j)).trans ?_
  refine (congrFun (Wv6_arr m c 6) (ix2 r j)).trans ?_
  refine (final2_h2 (Vr5 m) c r j).trans ?_
  exact congrFun (congrFun (H1_eq m c) r) j
theorem mean_1_eq : (fun j => Vr7 m c main_v52_1 (ix2 0 j)) = GinSpec.meanMul (GinSpec.hidden (feat m c 1 (by decide)) (AggM m c (feat m c 1 (by decide))) (Ps m c ⟨1, by decide⟩).W1 (Ps m c ⟨1, by decide⟩).b1 (Ps m c ⟨1, by decide⟩).W2 (Ps m c ⟨1, by decide⟩).b2) := by
  funext j
  refine (congrFun (Wv7_of m c main_v52_1 (by decide)) (ix2 0 j)).trans ?_
  refine (congrFun (Wv6_arr m c 7) (ix2 0 j)).trans ?_
  refine (final2_mean (Vr5 m) c j).trans ?_
  exact congrFun (congrArg GinSpec.meanMul (H1_eq m c)) j
theorem var_1_eq : (fun j => Vr7 m c main_v52_2 (ix2 0 j)) = GinSpec.varMul (GinSpec.hidden (feat m c 1 (by decide)) (AggM m c (feat m c 1 (by decide))) (Ps m c ⟨1, by decide⟩).W1 (Ps m c ⟨1, by decide⟩).b1 (Ps m c ⟨1, by decide⟩).W2 (Ps m c ⟨1, by decide⟩).b2) := by
  funext j
  refine (congrFun (Wv7_of m c main_v52_2 (by decide)) (ix2 0 j)).trans ?_
  refine (congrFun (Wv6_arr m c 8) (ix2 0 j)).trans ?_
  refine (final2_var (Vr5 m) c j).trans ?_
  exact congrFun (congrArg GinSpec.varMul (H1_eq m c)) j
theorem g_1_eq : (fun j => Vr7 m c main_v57 (ix2 0 j)) = (Ps m c ⟨1, by decide⟩).g := by
  funext j
  refine (host3_v57_apply (Wv6 m c) j).trans ?_
  exact congrFun ((Wv6_keep m c main_arg6 (by decide)).trans <| (Wv5_of m c main_arg6 (by decide)).trans <| (Wv4_keep m c main_arg6 (by decide)).trans <| (Wv3_of m c main_arg6 (by decide)).trans <| (Wv2_keep m c main_arg6 (by decide)).trans <| (Wv1_of m c main_arg6 (by decide))) (ix2 (1 : Fin 4) j)
theorem bt_1_eq : (fun j => Vr7 m c main_v58 (ix2 0 j)) = (Ps m c ⟨1, by decide⟩).bt := by
  funext j
  refine (host3_v58_apply (Wv6 m c) j).trans ?_
  exact congrFun ((Wv6_keep m c main_arg7 (by decide)).trans <| (Wv5_of m c main_arg7 (by decide)).trans <| (Wv4_keep m c main_arg7 (by decide)).trans <| (Wv3_of m c main_arg7 (by decide)).trans <| (Wv2_keep m c main_arg7 (by decide)).trans <| (Wv1_of m c main_arg7 (by decide))) (ix2 (1 : Fin 4) j)
theorem layer1_apply (r : Fin 50000) (j : Fin 128) :
    (Wv8 m c main_v59 : S50000x128.Idx → EReal) (ix2 r j) = feat m c 2 (by decide) r j := by
  refine (congrFun (Wv8_arr m c 5) (ix2 r j)).trans ?_
  refine (final3 (Vr7 m) c r j).trans ?_
  refine (congrFun (congrFun (bn_congr (h2_1_eq m c) (mean_1_eq m c) (var_1_eq m c) (g_1_eq m c) (bt_1_eq m c)) r) j).trans ?_
  exact (congrFun (congrFun (featMul_succ (AggM m c) (X0 m c) (Ps m c) 1 (by decide)) r) j).symm
theorem layer1 : (Wv8 m c main_v59 : S50000x128.Idx → EReal) = GinSpec.toArr (feat m c 2 (by decide)) :=
  funext fun i => (congrArg (Wv8 m c main_v59 : S50000x128.Idx → EReal) (eq_ix2 i)).trans (layer1_apply m c (i 0) (i 1))
theorem in2_eq : mat2 (Vr9 m c main_v59) = feat m c 2 (by decide) := by
  funext r j
  refine (congrFun ((Wv9_of m c main_v59 (by decide))) (ix2 r j)).trans ?_
  exact layer1_apply m c r j
theorem agg2_eq : mat2 (Vr9 m c main_v69) = AggM m c (feat m c 2 (by decide)) := by
  have e : (Wv9 m c main_v69 : S50000x128.Idx → EReal) = aggK (m (c, main_arg1)) (GinSpec.toArr (feat m c 2 (by decide))) := by
    refine (host4_v69 (Wv8 m c)).trans ?_
    exact aggRows_congr (src_at8 m c) (dst_at8 m c) (layer1 m c)
  funext r j
  exact congrFun e (ix2 r j)
theorem W1_2_eq : mat2 (Vr9 m c main_v71) = (Ps m c ⟨2, by decide⟩).W1 := by
  funext j k
  refine (host4_v71_apply (Wv8 m c) j k).trans ?_
  exact congrFun ((Wv8_keep m c main_arg2 (by decide)).trans <| (Wv7_of m c main_arg2 (by decide)).trans <| (Wv6_keep m c main_arg2 (by decide)).trans <| (Wv5_of m c main_arg2 (by decide)).trans <| (Wv4_keep m c main_arg2 (by decide)).trans <| (Wv3_of m c main_arg2 (by decide)).trans <| (Wv2_keep m c main_arg2 (by decide)).trans <| (Wv1_of m c main_arg2 (by decide))) (ix3 (2 : Fin 4) j k)
theorem b1_2_eq : row2 (Vr9 m c main_v78) = (Ps m c ⟨2, by decide⟩).b1 := by
  funext k
  refine (host4_v78_apply (Wv8 m c) k).trans ?_
  exact congrFun ((Wv8_keep m c main_arg3 (by decide)).trans <| (Wv7_of m c main_arg3 (by decide)).trans <| (Wv6_keep m c main_arg3 (by decide)).trans <| (Wv5_of m c main_arg3 (by decide)).trans <| (Wv4_keep m c main_arg3 (by decide)).trans <| (Wv3_of m c main_arg3 (by decide)).trans <| (Wv2_keep m c main_arg3 (by decide)).trans <| (Wv1_of m c main_arg3 (by decide))) (ix2 (2 : Fin 4) k)
theorem W2_2_eq : mat2 (Vr9 m c main_v75) = (Ps m c ⟨2, by decide⟩).W2 := by
  funext j k
  refine (host4_v75_apply (Wv8 m c) j k).trans ?_
  exact congrFun ((Wv8_keep m c main_arg4 (by decide)).trans <| (Wv7_of m c main_arg4 (by decide)).trans <| (Wv6_keep m c main_arg4 (by decide)).trans <| (Wv5_of m c main_arg4 (by decide)).trans <| (Wv4_keep m c main_arg4 (by decide)).trans <| (Wv3_of m c main_arg4 (by decide)).trans <| (Wv2_keep m c main_arg4 (by decide)).trans <| (Wv1_of m c main_arg4 (by decide))) (ix3 (2 : Fin 4) j k)
theorem b2_2_eq : row2 (Vr9 m c main_v79) = (Ps m c ⟨2, by decide⟩).b2 := by
  funext k
  refine (host4_v79_apply (Wv8 m c) k).trans ?_
  exact congrFun ((Wv8_keep m c main_arg5 (by decide)).trans <| (Wv7_of m c main_arg5 (by decide)).trans <| (Wv6_keep m c main_arg5 (by decide)).trans <| (Wv5_of m c main_arg5 (by decide)).trans <| (Wv4_keep m c main_arg5 (by decide)).trans <| (Wv3_of m c main_arg5 (by decide)).trans <| (Wv2_keep m c main_arg5 (by decide)).trans <| (Wv1_of m c main_arg5 (by decide))) (ix2 (2 : Fin 4) k)
theorem H2_eq : hid4 (Vr9 m) c
    = GinSpec.hidden (feat m c 2 (by decide)) (AggM m c (feat m c 2 (by decide))) (Ps m c ⟨2, by decide⟩).W1 (Ps m c ⟨2, by decide⟩).b1 (Ps m c ⟨2, by decide⟩).W2 (Ps m c ⟨2, by decide⟩).b2 :=
  hidden_congr (in2_eq m c) (agg2_eq m c) (W1_2_eq m c) (b1_2_eq m c) (W2_2_eq m c) (b2_2_eq m c)
theorem h2_2_eq : (fun r j => Vr11 m c main_v80_0 (ix2 r j)) = GinSpec.hidden (feat m c 2 (by decide)) (AggM m c (feat m c 2 (by decide))) (Ps m c ⟨2, by decide⟩).W1 (Ps m c ⟨2, by decide⟩).b1 (Ps m c ⟨2, by decide⟩).W2 (Ps m c ⟨2, by decide⟩).b2 := by
  funext r j
  refine (congrFun (Wv11_of m c main_v80_0 (by decide)) (ix2 r j)).trans ?_
  refine (congrFun (Wv10_arr m c 6) (ix2 r j)).trans ?_
  refine (final4_h2 (Vr9 m) c r j).trans ?_
  exact congrFun (congrFun (H2_eq m c) r) j
theorem mean_2_eq : (fun j => Vr11 m c main_v80_1 (ix2 0 j)) = GinSpec.meanMul (GinSpec.hidden (feat m c 2 (by decide)) (AggM m c (feat m c 2 (by decide))) (Ps m c ⟨2, by decide⟩).W1 (Ps m c ⟨2, by decide⟩).b1 (Ps m c ⟨2, by decide⟩).W2 (Ps m c ⟨2, by decide⟩).b2) := by
  funext j
  refine (congrFun (Wv11_of m c main_v80_1 (by decide)) (ix2 0 j)).trans ?_
  refine (congrFun (Wv10_arr m c 7) (ix2 0 j)).trans ?_
  refine (final4_mean (Vr9 m) c j).trans ?_
  exact congrFun (congrArg GinSpec.meanMul (H2_eq m c)) j
theorem var_2_eq : (fun j => Vr11 m c main_v80_2 (ix2 0 j)) = GinSpec.varMul (GinSpec.hidden (feat m c 2 (by decide)) (AggM m c (feat m c 2 (by decide))) (Ps m c ⟨2, by decide⟩).W1 (Ps m c ⟨2, by decide⟩).b1 (Ps m c ⟨2, by decide⟩).W2 (Ps m c ⟨2, by decide⟩).b2) := by
  funext j
  refine (congrFun (Wv11_of m c main_v80_2 (by decide)) (ix2 0 j)).trans ?_
  refine (congrFun (Wv10_arr m c 8) (ix2 0 j)).trans ?_
  refine (final4_var (Vr9 m) c j).trans ?_
  exact congrFun (congrArg GinSpec.varMul (H2_eq m c)) j
theorem g_2_eq : (fun j => Vr11 m c main_v85 (ix2 0 j)) = (Ps m c ⟨2, by decide⟩).g := by
  funext j
  refine (host5_v85_apply (Wv10 m c) j).trans ?_
  exact congrFun ((Wv10_keep m c main_arg6 (by decide)).trans <| (Wv9_of m c main_arg6 (by decide)).trans <| (Wv8_keep m c main_arg6 (by decide)).trans <| (Wv7_of m c main_arg6 (by decide)).trans <| (Wv6_keep m c main_arg6 (by decide)).trans <| (Wv5_of m c main_arg6 (by decide)).trans <| (Wv4_keep m c main_arg6 (by decide)).trans <| (Wv3_of m c main_arg6 (by decide)).trans <| (Wv2_keep m c main_arg6 (by decide)).trans <| (Wv1_of m c main_arg6 (by decide))) (ix2 (2 : Fin 4) j)
theorem bt_2_eq : (fun j => Vr11 m c main_v86 (ix2 0 j)) = (Ps m c ⟨2, by decide⟩).bt := by
  funext j
  refine (host5_v86_apply (Wv10 m c) j).trans ?_
  exact congrFun ((Wv10_keep m c main_arg7 (by decide)).trans <| (Wv9_of m c main_arg7 (by decide)).trans <| (Wv8_keep m c main_arg7 (by decide)).trans <| (Wv7_of m c main_arg7 (by decide)).trans <| (Wv6_keep m c main_arg7 (by decide)).trans <| (Wv5_of m c main_arg7 (by decide)).trans <| (Wv4_keep m c main_arg7 (by decide)).trans <| (Wv3_of m c main_arg7 (by decide)).trans <| (Wv2_keep m c main_arg7 (by decide)).trans <| (Wv1_of m c main_arg7 (by decide))) (ix2 (2 : Fin 4) j)
theorem layer2_apply (r : Fin 50000) (j : Fin 128) :
    (Wv12 m c main_v87 : S50000x128.Idx → EReal) (ix2 r j) = feat m c 3 (by decide) r j := by
  refine (congrFun (Wv12_arr m c 5) (ix2 r j)).trans ?_
  refine (final5 (Vr11 m) c r j).trans ?_
  refine (congrFun (congrFun (bn_congr (h2_2_eq m c) (mean_2_eq m c) (var_2_eq m c) (g_2_eq m c) (bt_2_eq m c)) r) j).trans ?_
  exact (congrFun (congrFun (featMul_succ (AggM m c) (X0 m c) (Ps m c) 2 (by decide)) r) j).symm
theorem layer2 : (Wv12 m c main_v87 : S50000x128.Idx → EReal) = GinSpec.toArr (feat m c 3 (by decide)) :=
  funext fun i => (congrArg (Wv12 m c main_v87 : S50000x128.Idx → EReal) (eq_ix2 i)).trans (layer2_apply m c (i 0) (i 1))
theorem in3_eq : mat2 (Vr13 m c main_v87) = feat m c 3 (by decide) := by
  funext r j
  refine (congrFun ((Wv13_of m c main_v87 (by decide))) (ix2 r j)).trans ?_
  exact layer2_apply m c r j
theorem agg3_eq : mat2 (Vr13 m c main_v97) = AggM m c (feat m c 3 (by decide)) := by
  have e : (Wv13 m c main_v97 : S50000x128.Idx → EReal) = aggK (m (c, main_arg1)) (GinSpec.toArr (feat m c 3 (by decide))) := by
    refine (host6_v97 (Wv12 m c)).trans ?_
    exact aggRows_congr (src_at12 m c) (dst_at12 m c) (layer2 m c)
  funext r j
  exact congrFun e (ix2 r j)
theorem W1_3_eq : mat2 (Vr13 m c main_v99) = (Ps m c ⟨3, by decide⟩).W1 := by
  funext j k
  refine (host6_v99_apply (Wv12 m c) j k).trans ?_
  exact congrFun ((Wv12_keep m c main_arg2 (by decide)).trans <| (Wv11_of m c main_arg2 (by decide)).trans <| (Wv10_keep m c main_arg2 (by decide)).trans <| (Wv9_of m c main_arg2 (by decide)).trans <| (Wv8_keep m c main_arg2 (by decide)).trans <| (Wv7_of m c main_arg2 (by decide)).trans <| (Wv6_keep m c main_arg2 (by decide)).trans <| (Wv5_of m c main_arg2 (by decide)).trans <| (Wv4_keep m c main_arg2 (by decide)).trans <| (Wv3_of m c main_arg2 (by decide)).trans <| (Wv2_keep m c main_arg2 (by decide)).trans <| (Wv1_of m c main_arg2 (by decide))) (ix3 (3 : Fin 4) j k)
theorem b1_3_eq : row2 (Vr13 m c main_v106) = (Ps m c ⟨3, by decide⟩).b1 := by
  funext k
  refine (host6_v106_apply (Wv12 m c) k).trans ?_
  exact congrFun ((Wv12_keep m c main_arg3 (by decide)).trans <| (Wv11_of m c main_arg3 (by decide)).trans <| (Wv10_keep m c main_arg3 (by decide)).trans <| (Wv9_of m c main_arg3 (by decide)).trans <| (Wv8_keep m c main_arg3 (by decide)).trans <| (Wv7_of m c main_arg3 (by decide)).trans <| (Wv6_keep m c main_arg3 (by decide)).trans <| (Wv5_of m c main_arg3 (by decide)).trans <| (Wv4_keep m c main_arg3 (by decide)).trans <| (Wv3_of m c main_arg3 (by decide)).trans <| (Wv2_keep m c main_arg3 (by decide)).trans <| (Wv1_of m c main_arg3 (by decide))) (ix2 (3 : Fin 4) k)
theorem W2_3_eq : mat2 (Vr13 m c main_v103) = (Ps m c ⟨3, by decide⟩).W2 := by
  funext j k
  refine (host6_v103_apply (Wv12 m c) j k).trans ?_
  exact congrFun ((Wv12_keep m c main_arg4 (by decide)).trans <| (Wv11_of m c main_arg4 (by decide)).trans <| (Wv10_keep m c main_arg4 (by decide)).trans <| (Wv9_of m c main_arg4 (by decide)).trans <| (Wv8_keep m c main_arg4 (by decide)).trans <| (Wv7_of m c main_arg4 (by decide)).trans <| (Wv6_keep m c main_arg4 (by decide)).trans <| (Wv5_of m c main_arg4 (by decide)).trans <| (Wv4_keep m c main_arg4 (by decide)).trans <| (Wv3_of m c main_arg4 (by decide)).trans <| (Wv2_keep m c main_arg4 (by decide)).trans <| (Wv1_of m c main_arg4 (by decide))) (ix3 (3 : Fin 4) j k)
theorem b2_3_eq : row2 (Vr13 m c main_v107) = (Ps m c ⟨3, by decide⟩).b2 := by
  funext k
  refine (host6_v107_apply (Wv12 m c) k).trans ?_
  exact congrFun ((Wv12_keep m c main_arg5 (by decide)).trans <| (Wv11_of m c main_arg5 (by decide)).trans <| (Wv10_keep m c main_arg5 (by decide)).trans <| (Wv9_of m c main_arg5 (by decide)).trans <| (Wv8_keep m c main_arg5 (by decide)).trans <| (Wv7_of m c main_arg5 (by decide)).trans <| (Wv6_keep m c main_arg5 (by decide)).trans <| (Wv5_of m c main_arg5 (by decide)).trans <| (Wv4_keep m c main_arg5 (by decide)).trans <| (Wv3_of m c main_arg5 (by decide)).trans <| (Wv2_keep m c main_arg5 (by decide)).trans <| (Wv1_of m c main_arg5 (by decide))) (ix2 (3 : Fin 4) k)
theorem H3_eq : hid6 (Vr13 m) c
    = GinSpec.hidden (feat m c 3 (by decide)) (AggM m c (feat m c 3 (by decide))) (Ps m c ⟨3, by decide⟩).W1 (Ps m c ⟨3, by decide⟩).b1 (Ps m c ⟨3, by decide⟩).W2 (Ps m c ⟨3, by decide⟩).b2 :=
  hidden_congr (in3_eq m c) (agg3_eq m c) (W1_3_eq m c) (b1_3_eq m c) (W2_3_eq m c) (b2_3_eq m c)
theorem h2_3_eq : (fun r j => Vr15 m c main_v108_0 (ix2 r j)) = GinSpec.hidden (feat m c 3 (by decide)) (AggM m c (feat m c 3 (by decide))) (Ps m c ⟨3, by decide⟩).W1 (Ps m c ⟨3, by decide⟩).b1 (Ps m c ⟨3, by decide⟩).W2 (Ps m c ⟨3, by decide⟩).b2 := by
  funext r j
  refine (congrFun (Wv15_of m c main_v108_0 (by decide)) (ix2 r j)).trans ?_
  refine (congrFun (Wv14_arr m c 6) (ix2 r j)).trans ?_
  refine (final6_h2 (Vr13 m) c r j).trans ?_
  exact congrFun (congrFun (H3_eq m c) r) j
theorem mean_3_eq : (fun j => Vr15 m c main_v108_1 (ix2 0 j)) = GinSpec.meanMul (GinSpec.hidden (feat m c 3 (by decide)) (AggM m c (feat m c 3 (by decide))) (Ps m c ⟨3, by decide⟩).W1 (Ps m c ⟨3, by decide⟩).b1 (Ps m c ⟨3, by decide⟩).W2 (Ps m c ⟨3, by decide⟩).b2) := by
  funext j
  refine (congrFun (Wv15_of m c main_v108_1 (by decide)) (ix2 0 j)).trans ?_
  refine (congrFun (Wv14_arr m c 7) (ix2 0 j)).trans ?_
  refine (final6_mean (Vr13 m) c j).trans ?_
  exact congrFun (congrArg GinSpec.meanMul (H3_eq m c)) j
theorem var_3_eq : (fun j => Vr15 m c main_v108_2 (ix2 0 j)) = GinSpec.varMul (GinSpec.hidden (feat m c 3 (by decide)) (AggM m c (feat m c 3 (by decide))) (Ps m c ⟨3, by decide⟩).W1 (Ps m c ⟨3, by decide⟩).b1 (Ps m c ⟨3, by decide⟩).W2 (Ps m c ⟨3, by decide⟩).b2) := by
  funext j
  refine (congrFun (Wv15_of m c main_v108_2 (by decide)) (ix2 0 j)).trans ?_
  refine (congrFun (Wv14_arr m c 8) (ix2 0 j)).trans ?_
  refine (final6_var (Vr13 m) c j).trans ?_
  exact congrFun (congrArg GinSpec.varMul (H3_eq m c)) j
theorem g_3_eq : (fun j => Vr15 m c main_v113 (ix2 0 j)) = (Ps m c ⟨3, by decide⟩).g := by
  funext j
  refine (host7_v113_apply (Wv14 m c) j).trans ?_
  exact congrFun ((Wv14_keep m c main_arg6 (by decide)).trans <| (Wv13_of m c main_arg6 (by decide)).trans <| (Wv12_keep m c main_arg6 (by decide)).trans <| (Wv11_of m c main_arg6 (by decide)).trans <| (Wv10_keep m c main_arg6 (by decide)).trans <| (Wv9_of m c main_arg6 (by decide)).trans <| (Wv8_keep m c main_arg6 (by decide)).trans <| (Wv7_of m c main_arg6 (by decide)).trans <| (Wv6_keep m c main_arg6 (by decide)).trans <| (Wv5_of m c main_arg6 (by decide)).trans <| (Wv4_keep m c main_arg6 (by decide)).trans <| (Wv3_of m c main_arg6 (by decide)).trans <| (Wv2_keep m c main_arg6 (by decide)).trans <| (Wv1_of m c main_arg6 (by decide))) (ix2 (3 : Fin 4) j)
theorem bt_3_eq : (fun j => Vr15 m c main_v114 (ix2 0 j)) = (Ps m c ⟨3, by decide⟩).bt := by
  funext j
  refine (host7_v114_apply (Wv14 m c) j).trans ?_
  exact congrFun ((Wv14_keep m c main_arg7 (by decide)).trans <| (Wv13_of m c main_arg7 (by decide)).trans <| (Wv12_keep m c main_arg7 (by decide)).trans <| (Wv11_of m c main_arg7 (by decide)).trans <| (Wv10_keep m c main_arg7 (by decide)).trans <| (Wv9_of m c main_arg7 (by decide)).trans <| (Wv8_keep m c main_arg7 (by decide)).trans <| (Wv7_of m c main_arg7 (by decide)).trans <| (Wv6_keep m c main_arg7 (by decide)).trans <| (Wv5_of m c main_arg7 (by decide)).trans <| (Wv4_keep m c main_arg7 (by decide)).trans <| (Wv3_of m c main_arg7 (by decide)).trans <| (Wv2_keep m c main_arg7 (by decide)).trans <| (Wv1_of m c main_arg7 (by decide))) (ix2 (3 : Fin 4) j)
theorem layer3_apply (r : Fin 50000) (j : Fin 128) :
    (Wv16 m c main_v115 : S50000x128.Idx → EReal) (ix2 r j) = feat m c 4 (by decide) r j := by
  refine (congrFun (Wv16_arr m c 5) (ix2 r j)).trans ?_
  refine (final7 (Vr15 m) c r j).trans ?_
  refine (congrFun (congrFun (bn_congr (h2_3_eq m c) (mean_3_eq m c) (var_3_eq m c) (g_3_eq m c) (bt_3_eq m c)) r) j).trans ?_
  exact (congrFun (congrFun (featMul_succ (AggM m c) (X0 m c) (Ps m c) 3 (by decide)) r) j).symm
theorem hd0_eq : mat2 (Vr17 m c main_v31) = feat m c 1 (by decide) := by
  funext r j
  exact (congrFun ((Wv17_of m c main_v31 (by decide)).trans <| (Wv16_keep m c main_v31 (by decide)).trans <| (Wv15_of m c main_v31 (by decide)).trans <| (Wv14_keep m c main_v31 (by decide)).trans <| (Wv13_of m c main_v31 (by decide)).trans <| (Wv12_keep m c main_v31 (by decide)).trans <| (Wv11_of m c main_v31 (by decide)).trans <| (Wv10_keep m c main_v31 (by decide)).trans <| (Wv9_of m c main_v31 (by decide)).trans <| (Wv8_keep m c main_v31 (by decide)).trans <| (Wv7_of m c main_v31 (by decide)).trans <| (Wv6_keep m c main_v31 (by decide)).trans <| (Wv5_of m c main_v31 (by decide))) (ix2 r j)).trans (layer0_apply m c r j)
theorem blk0_eq : mat2 (Vr17 m c main_v116) = GinSpec.rowBlock (GinSpec.ofArr (m (c, main_arg8))) 0 := by
  funext l k
  refine (host8_v116_apply (Wv16 m c) l k ⟨0 + l.val, by have := l.isLt; omega⟩ rfl).trans ?_
  exact congrFun ((Wv16_keep m c main_arg8 (by decide)).trans <| (Wv15_of m c main_arg8 (by decide)).trans <| (Wv14_keep m c main_arg8 (by decide)).trans <| (Wv13_of m c main_arg8 (by decide)).trans <| (Wv12_keep m c main_arg8 (by decide)).trans <| (Wv11_of m c main_arg8 (by decide)).trans <| (Wv10_keep m c main_arg8 (by decide)).trans <| (Wv9_of m c main_arg8 (by decide)).trans <| (Wv8_keep m c main_arg8 (by decide)).trans <| (Wv7_of m c main_arg8 (by decide)).trans <| (Wv6_keep m c main_arg8 (by decide)).trans <| (Wv5_of m c main_arg8 (by decide)).trans <| (Wv4_keep m c main_arg8 (by decide)).trans <| (Wv3_of m c main_arg8 (by decide)).trans <| (Wv2_keep m c main_arg8 (by decide)).trans <| (Wv1_of m c main_arg8 (by decide))) (ix2 _ k)
theorem hd1_eq : mat2 (Vr17 m c main_v59) = feat m c 2 (by decide) := by
  funext r j
  exact (congrFun ((Wv17_of m c main_v59 (by decide)).trans <| (Wv16_keep m c main_v59 (by decide)).trans <| (Wv15_of m c main_v59 (by decide)).trans <| (Wv14_keep m c main_v59 (by decide)).trans <| (Wv13_of m c main_v59 (by decide)).trans <| (Wv12_keep m c main_v59 (by decide)).trans <| (Wv11_of m c main_v59 (by decide)).trans <| (Wv10_keep m c main_v59 (by decide)).trans <| (Wv9_of m c main_v59 (by decide))) (ix2 r j)).trans (layer1_apply m c r j)
theorem blk1_eq : mat2 (Vr17 m c main_v117) = GinSpec.rowBlock (GinSpec.ofArr (m (c, main_arg8))) 1 := by
  funext l k
  refine (host8_v117_apply (Wv16 m c) l k ⟨128 + l.val, by have := l.isLt; omega⟩ rfl).trans ?_
  exact congrFun ((Wv16_keep m c main_arg8 (by decide)).trans <| (Wv15_of m c main_arg8 (by decide)).trans <| (Wv14_keep m c main_arg8 (by decide)).trans <| (Wv13_of m c main_arg8 (by decide)).trans <| (Wv12_keep m c main_arg8 (by decide)).trans <| (Wv11_of m c main_arg8 (by decide)).trans <| (Wv10_keep m c main_arg8 (by decide)).trans <| (Wv9_of m c main_arg8 (by decide)).trans <| (Wv8_keep m c main_arg8 (by decide)).trans <| (Wv7_of m c main_arg8 (by decide)).trans <| (Wv6_keep m c main_arg8 (by decide)).trans <| (Wv5_of m c main_arg8 (by decide)).trans <| (Wv4_keep m c main_arg8 (by decide)).trans <| (Wv3_of m c main_arg8 (by decide)).trans <| (Wv2_keep m c main_arg8 (by decide)).trans <| (Wv1_of m c main_arg8 (by decide))) (ix2 _ k)
theorem hd2_eq : mat2 (Vr17 m c main_v87) = feat m c 3 (by decide) := by
  funext r j
  exact (congrFun ((Wv17_of m c main_v87 (by decide)).trans <| (Wv16_keep m c main_v87 (by decide)).trans <| (Wv15_of m c main_v87 (by decide)).trans <| (Wv14_keep m c main_v87 (by decide)).trans <| (Wv13_of m c main_v87 (by decide))) (ix2 r j)).trans (layer2_apply m c r j)
theorem blk2_eq : mat2 (Vr17 m c main_v118) = GinSpec.rowBlock (GinSpec.ofArr (m (c, main_arg8))) 2 := by
  funext l k
  refine (host8_v118_apply (Wv16 m c) l k ⟨256 + l.val, by have := l.isLt; omega⟩ rfl).trans ?_
  exact congrFun ((Wv16_keep m c main_arg8 (by decide)).trans <| (Wv15_of m c main_arg8 (by decide)).trans <| (Wv14_keep m c main_arg8 (by decide)).trans <| (Wv13_of m c main_arg8 (by decide)).trans <| (Wv12_keep m c main_arg8 (by decide)).trans <| (Wv11_of m c main_arg8 (by decide)).trans <| (Wv10_keep m c main_arg8 (by decide)).trans <| (Wv9_of m c main_arg8 (by decide)).trans <| (Wv8_keep m c main_arg8 (by decide)).trans <| (Wv7_of m c main_arg8 (by decide)).trans <| (Wv6_keep m c main_arg8 (by decide)).trans <| (Wv5_of m c main_arg8 (by decide)).trans <| (Wv4_keep m c main_arg8 (by decide)).trans <| (Wv3_of m c main_arg8 (by decide)).trans <| (Wv2_keep m c main_arg8 (by decide)).trans <| (Wv1_of m c main_arg8 (by decide))) (ix2 _ k)
theorem hd3_eq : mat2 (Vr17 m c main_v115) = feat m c 4 (by decide) := by
  funext r j
  exact (congrFun ((Wv17_of m c main_v115 (by decide))) (ix2 r j)).trans (layer3_apply m c r j)
theorem blk3_eq : mat2 (Vr17 m c main_v119) = GinSpec.rowBlock (GinSpec.ofArr (m (c, main_arg8))) 3 := by
  funext l k
  refine (host8_v119_apply (Wv16 m c) l k ⟨384 + l.val, by have := l.isLt; omega⟩ rfl).trans ?_
  exact congrFun ((Wv16_keep m c main_arg8 (by decide)).trans <| (Wv15_of m c main_arg8 (by decide)).trans <| (Wv14_keep m c main_arg8 (by decide)).trans <| (Wv13_of m c main_arg8 (by decide)).trans <| (Wv12_keep m c main_arg8 (by decide)).trans <| (Wv11_of m c main_arg8 (by decide)).trans <| (Wv10_keep m c main_arg8 (by decide)).trans <| (Wv9_of m c main_arg8 (by decide)).trans <| (Wv8_keep m c main_arg8 (by decide)).trans <| (Wv7_of m c main_arg8 (by decide)).trans <| (Wv6_keep m c main_arg8 (by decide)).trans <| (Wv5_of m c main_arg8 (by decide)).trans <| (Wv4_keep m c main_arg8 (by decide)).trans <| (Wv3_of m c main_arg8 (by decide)).trans <| (Wv2_keep m c main_arg8 (by decide)).trans <| (Wv1_of m c main_arg8 (by decide))) (ix2 _ k)
theorem hb1_eq : row2 (Vr17 m c main_v120) = GinSpec.ofVec (m (c, main_arg9)) := by
  funext k
  refine (host8_v120_apply (Wv16 m c) k).trans ?_
  exact congrFun ((Wv16_keep m c main_arg9 (by decide)).trans <| (Wv15_of m c main_arg9 (by decide)).trans <| (Wv14_keep m c main_arg9 (by decide)).trans <| (Wv13_of m c main_arg9 (by decide)).trans <| (Wv12_keep m c main_arg9 (by decide)).trans <| (Wv11_of m c main_arg9 (by decide)).trans <| (Wv10_keep m c main_arg9 (by decide)).trans <| (Wv9_of m c main_arg9 (by decide)).trans <| (Wv8_keep m c main_arg9 (by decide)).trans <| (Wv7_of m c main_arg9 (by decide)).trans <| (Wv6_keep m c main_arg9 (by decide)).trans <| (Wv5_of m c main_arg9 (by decide)).trans <| (Wv4_keep m c main_arg9 (by decide)).trans <| (Wv3_of m c main_arg9 (by decide)).trans <| (Wv2_keep m c main_arg9 (by decide)).trans <| (Wv1_of m c main_arg9 (by decide))) (ix1 k)
theorem hW2_eq : mat2 (Vr17 m c main_arg10) = GinSpec.ofArr (m (c, main_arg10)) := by
  funext k o
  exact congrFun ((Wv17_of m c main_arg10 (by decide)).trans <| (Wv16_keep m c main_arg10 (by decide)).trans <| (Wv15_of m c main_arg10 (by decide)).trans <| (Wv14_keep m c main_arg10 (by decide)).trans <| (Wv13_of m c main_arg10 (by decide)).trans <| (Wv12_keep m c main_arg10 (by decide)).trans <| (Wv11_of m c main_arg10 (by decide)).trans <| (Wv10_keep m c main_arg10 (by decide)).trans <| (Wv9_of m c main_arg10 (by decide)).trans <| (Wv8_keep m c main_arg10 (by decide)).trans <| (Wv7_of m c main_arg10 (by decide)).trans <| (Wv6_keep m c main_arg10 (by decide)).trans <| (Wv5_of m c main_arg10 (by decide)).trans <| (Wv4_keep m c main_arg10 (by decide)).trans <| (Wv3_of m c main_arg10 (by decide)).trans <| (Wv2_keep m c main_arg10 (by decide)).trans <| (Wv1_of m c main_arg10 (by decide))) (ix2 k o)
theorem hb2_eq : row2 (Vr17 m c main_v121) = GinSpec.ofVec (m (c, main_arg11)) := by
  funext o
  refine (host8_v121_apply (Wv16 m c) o).trans ?_
  exact congrFun ((Wv16_keep m c main_arg11 (by decide)).trans <| (Wv15_of m c main_arg11 (by decide)).trans <| (Wv14_keep m c main_arg11 (by decide)).trans <| (Wv13_of m c main_arg11 (by decide)).trans <| (Wv12_keep m c main_arg11 (by decide)).trans <| (Wv11_of m c main_arg11 (by decide)).trans <| (Wv10_keep m c main_arg11 (by decide)).trans <| (Wv9_of m c main_arg11 (by decide)).trans <| (Wv8_keep m c main_arg11 (by decide)).trans <| (Wv7_of m c main_arg11 (by decide)).trans <| (Wv6_keep m c main_arg11 (by decide)).trans <| (Wv5_of m c main_arg11 (by decide)).trans <| (Wv4_keep m c main_arg11 (by decide)).trans <| (Wv3_of m c main_arg11 (by decide)).trans <| (Wv2_keep m c main_arg11 (by decide)).trans <| (Wv1_of m c main_arg11 (by decide))) (ix1 o)
theorem kernel_value (r : Fin 50000) (o : Fin 8) :
    (Wv18 (F := Ideal) m c (Proc.devRef .tc main_v122)) (ValueIdx.ix2 r o)
      = GinSpec.netMul (fun y => GinSpec.ofArr (aggK (m (c, main_arg1)) (GinSpec.toArr y))) (GinSpec.ofArr (m (c, main_arg0)))
          (GinSpec.paramsOf (m (c, main_arg2)) (m (c, main_arg3)) (m (c, main_arg4)) (m (c, main_arg5)) (m (c, main_arg6)) (m (c, main_arg7)))
          (GinSpec.ofArr (m (c, main_arg8))) (GinSpec.ofVec (m (c, main_arg9))) (GinSpec.ofArr (m (c, main_arg10))) (GinSpec.ofVec (m (c, main_arg11))) r o := by
  refine (congrFun (Wv18_result m c) (ix2 r o)).trans ?_
  refine (final8 (Vr17 m) c r o).trans ?_
  exact head_eq (fun q : Fin 4 => feat m c (q.val + 1) (Nat.succ_le_of_lt q.isLt)) (GinSpec.ofArr (m (c, main_arg8)))
    (GinSpec.ofVec (m (c, main_arg9))) (GinSpec.ofArr (m (c, main_arg10))) (GinSpec.ofVec (m (c, main_arg11)))
    _ _ _ _ _ _ _ _ _ _ _
    (hd0_eq m c) (hd1_eq m c) (hd2_eq m c) (hd3_eq m c) (blk0_eq m c) (blk1_eq m c) (blk2_eq m c) (blk3_eq m c)
    (hb1_eq m c) (hW2_eq m c) (hb2_eq m c) r o
end Chain
end Cert.KernelIdeal.Hand
-- ==== Proof.LibRealValued.lean ====
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost
namespace RealValued
open Idealize.ShloMosaic
open scoped BigOperators
def IsReal {ι : Type*} (v : ι → EReal) : Prop := ∀ i, ∃ r : ℝ, v i = (r : EReal)
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩
theorem isReal_of_finite {ι : Type*} {x : ι → EReal} (h : ∀ i, x i ≠ ⊤ ∧ x i ≠ ⊥) : IsReal x :=
  (isReal_iff_ne x).mpr h
theorem IsReal.ne_top {ι : Type*} {v : ι → EReal} (h : IsReal v) (i : ι) : v i ≠ ⊤ :=
  ((isReal_iff_ne v).mp h i).1
theorem IsReal.ne_bot {ι : Type*} {v : ι → EReal} (h : IsReal v) (i : ι) : v i ≠ ⊥ :=
  ((isReal_iff_ne v).mp h i).2
theorem IsReal.coe_toReal {ι : Type*} {v : ι → EReal} (h : IsReal v) (i : ι) : ((v i).toReal : EReal) = v i :=
  EReal.coe_toReal (h.ne_top i) (h.ne_bot i)
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩
theorem real_neg {a : EReal} (ha : ∃ r : ℝ, a = (r : EReal)) : ∃ r : ℝ, -a = (r : EReal) := by
  obtain ⟨p, rfl⟩ := ha
  exact ⟨-p, (EReal.coe_neg p).symm⟩
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k
section Elementwise
variable {s : Shape} {φ : FTy}
theorem isReal_addf {x y : FVec Ideal s φ} (hx : IsReal x) (hy : IsReal y) : IsReal (addf (F := Ideal) x y) :=
  fun i => real_add (hx i) (hy i)
theorem isReal_subf {x y : FVec Ideal s φ} (hx : IsReal x) (hy : IsReal y) : IsReal (subf (F := Ideal) x y) :=
  fun i => real_sub (hx i) (hy i)
theorem isReal_mulf {x y : FVec Ideal s φ} (hx : IsReal x) (hy : IsReal y) : IsReal (mulf (F := Ideal) x y) :=
  fun i => real_mul (hx i) (hy i)
theorem isReal_maximumf {x y : FVec Ideal s φ} (hx : IsReal x) (hy : IsReal y) :
    IsReal (maximumf (F := Ideal) x y) :=
  fun i => real_max (hx i) (hy i)
theorem isReal_minimumf {x y : FVec Ideal s φ} (hx : IsReal x) (hy : IsReal y) :
    IsReal (minimumf (F := Ideal) x y) :=
  fun i => real_min (hx i) (hy i)
theorem isReal_negf {x : FVec Ideal s φ} (hx : IsReal x) : IsReal (negf (F := Ideal) x) :=
  fun i => real_neg (hx i)
theorem isReal_hostNegf {x : FVec Ideal s φ} (hx : IsReal x) : IsReal (Host.negf (F := Ideal) x) :=
  fun i => real_neg (hx i)
end Elementwise
section Constants
variable {s : Shape} {φ : FTy}
theorem isReal_const_of {w : BitVec φ.bits} {r : ℝ} (h : Ideal.ofBits φ w = (r : EReal)) :
    IsReal (constant (F := Ideal) s φ w) :=
  fun _ => ⟨r, h⟩
theorem ofBits_4096_f32 : Ideal.ofBits .f32 0x45800000#32 = ((4096 : ℝ) : EReal) := by
  simp [Ideal.ofBits, Ideal.ieee, -EReal.coe_mul]; norm_num
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]
theorem isReal_const_zero : IsReal (constant (F := Ideal) s .f32 0x00000000#32) :=
  isReal_const_of (r := 0) Ideal.ofBits_zero_f32
theorem isReal_const_one : IsReal (constant (F := Ideal) s .f32 0x3F800000#32) :=
  isReal_const_of (r := 1) Ideal.ofBits_one_f32
theorem isReal_const_4096 : IsReal (constant (F := Ideal) s .f32 0x45800000#32) :=
  isReal_const_of ofBits_4096_f32
theorem isReal_const_1em6 : IsReal (constant (F := Ideal) s .f32 0x358637BD#32) :=
  isReal_const_of ofBits_1em6_f32
end Constants
section Reindex
variable {s t : Shape}
theorem isReal_broadcastInDim {dims : Fin s.rank → Fin t.rank} {h : s.BroadcastsInDim t dims} {x : s.Idx → EReal}
    (hx : IsReal x) : IsReal (broadcastInDim t dims h x) :=
  fun _ => hx _
theorem isReal_shapeCast {h : s.ShapeCasts t} {x : s.Idx → EReal} (hx : IsReal x) : IsReal (shapeCast t x h) :=
  fun _ => hx _
theorem isReal_transpose {perm : List (Fin s.rank)} {h : s.Transposes perm t} {x : s.Idx → EReal} (hx : IsReal x) :
    IsReal (transpose t perm x h) :=
  fun _ => hx _
theorem isReal_gather {si : Shape} {w : Nat} (d : GatherDims s si t) {x : s.Idx → EReal} (idx : IVec si w)
    (hx : IsReal x) : IsReal (Host.gather d x idx) :=
  fun _ => hx _
end Reindex
section Sums
variable {s : Shape} {φ : FTy}
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))
theorem isReal_sitofp {w : Nat} (v : IVec s w) : IsReal (sitofp (F := Ideal) φ v) :=
  fun i => ⟨((v i).toInt : ℝ), rfl⟩
theorem isReal_uitofp {w : Nat} (v : IVec s w) : IsReal (uitofp (F := Ideal) φ v) :=
  fun i => ⟨((v i).toNat : ℝ), rfl⟩
end Sums
section Degree
variable {s : Shape} {φ : FTy}
def IsPos {ι : Type*} (v : ι → EReal) : Prop := ∀ i, ∃ r : ℝ, 0 < r ∧ v i = (r : EReal)
theorem IsPos.isReal {ι : Type*} {v : ι → EReal} (h : IsPos v) : IsReal v :=
  fun i => let ⟨r, _, hr⟩ := h i; ⟨r, hr⟩
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']
theorem isPos_rsqrt {x : FVec Ideal s φ} (hx : IsPos x) : IsPos (Host.rsqrt (F := Ideal) x) :=
  fun i => rsqrt_of_pos (hx i)
theorem isReal_rsqrt_of_pos {x : FVec Ideal s φ} (hx : IsPos x) : IsReal (Host.rsqrt (F := Ideal) x) :=
  (isPos_rsqrt hx).isReal
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]
theorem isPos_gather {t si : Shape} {w : Nat} (d : GatherDims s si t) {x : s.Idx → EReal} (idx : IVec si w)
    (hx : IsPos x) : IsPos (Host.gather d x idx) :=
  fun _ => hx _
theorem isPos_broadcastInDim {t : Shape} {dims : Fin s.rank → Fin t.rank} {h : s.BroadcastsInDim t dims}
    {x : s.Idx → EReal} (hx : IsPos x) : IsPos (broadcastInDim t dims h x) :=
  fun _ => hx _
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal
end Degree
section More
variable {s : Shape} {φ : FTy}
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]
theorem isReal_hostExp {x : FVec Ideal s φ} (hx : IsReal x) : IsReal (Host.exp (F := Ideal) x) :=
  (isPos_hostExp hx).isReal
end More
syntax (name := realValuedTac) "real_valued" : tactic
macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))
section Usage
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued
example (v : IVec SN 32) : IsReal (Host.negf (F := Ideal) (sitofp .f32 v)) := by
  real_valued
example (x y : FVec Ideal SN .f32) (hx : IsReal x) (hy : ∀ i, y i ≠ ⊤ ∧ y i ≠ ⊥) :
    IsReal (addf (F := Ideal) x (mulf y x)) := by
  real_valued
  exact isReal_of_finite hy
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued
end Usage
end RealValued
-- ==== Proof.KI.AggReal.lean ====
import proofs.«166660_j61229053772418_1_alg».proof.Proof.KI.HostReads
import proofs.«166660_j61229053772418_1_alg».proof.Proof.LibRealValued
noncomputable section
namespace Cert.KernelIdeal.Hand
open Cert.KernelIdeal Cert.KernelIdeal.Gen
open Idealize.ShloMosaic Idealize.ShloMosaic.TcCoe Idealize.SL.Sem
open Idealize.ShloMosaic.StableHlo
open Idealize.ShloMosaic.ValueIdx
theorem isReal_aggRows (src dst : EdgeRow) (h : FVec Ideal S50000x128 .f32) (hh : RealValued.IsReal h) :
    RealValued.IsReal (aggRows src dst h) := by
  unfold aggRows
  exact RealValued.isReal_scatterAdd _ _ (RealValued.isReal_broadcastInDim RealValued.isReal_const_zero)
    (RealValued.isReal_gather _ _ hh)
theorem isReal_aggK (ei : EdgeIdx) (h : FVec Ideal S50000x128 .f32) (hh : RealValued.IsReal h) :
    RealValued.IsReal (aggK ei h) :=
  isReal_aggRows (srcRow ei) (dstRow ei) h hh
end Cert.KernelIdeal.Hand
end
-- ==== Proof.AggSame.lean ====
import proofs.«166660_j61229053772418_1_alg».proof.Proof.KI.HostReads
import proofs.«166660_j61229053772418_1_alg».proof.Proof.RefValue
noncomputable section
namespace Cert.Proof.AggSame
open Idealize.ShloMosaic
theorem gather_eq [Cert.KernelIdeal.Facts₀] [Cert.ReferenceIdeal.Facts₀] :
    Cert.KernelIdeal.gather_S50000x128_S600000x1_S600000x128_1_0_n_n_0_1_1128
      = Cert.ReferenceIdeal.gather_S50000x128_S600000x1_S600000x128_1_0_n_n_0_1_1128 := rfl
theorem scatter_eq [Cert.KernelIdeal.Facts₀] [Cert.ReferenceIdeal.Facts₀] :
    Cert.KernelIdeal.scatter_S50000x128_S600000x1_S600000x128_1_0_0_1
      = Cert.ReferenceIdeal.scatter_S50000x128_S600000x1_S600000x128_1_0_0_1 := rfl
theorem srcRow_eq (ei : Cert.KernelIdeal.Hand.EdgeIdx) :
    Cert.KernelIdeal.Hand.srcRow ei = Cert.ReferenceIdeal.Hand.srcRow ei := rfl
theorem dstRow_eq (ei : Cert.KernelIdeal.Hand.EdgeIdx) :
    Cert.KernelIdeal.Hand.dstRow ei = Cert.ReferenceIdeal.Hand.dstRow ei := rfl
theorem aggRows_eq_aggW (src dst : Cert.KernelIdeal.Hand.EdgeRow) (h : FVec Ideal Cert.KernelIdeal.S50000x128 .f32) :
    Cert.KernelIdeal.Hand.aggRows src dst h = Cert.ReferenceIdeal.Hand.aggW (F := Ideal) src dst h := by
  unfold Cert.KernelIdeal.Hand.aggRows Cert.ReferenceIdeal.Hand.aggW
  rw [gather_eq, scatter_eq]
theorem aggK_eq_aggR (ei : Cert.KernelIdeal.Hand.EdgeIdx) (h : FVec Ideal Cert.KernelIdeal.S50000x128 .f32) :
    Cert.KernelIdeal.Hand.aggK ei h = Cert.ReferenceIdeal.Hand.aggR (F := Ideal) ei h := by
  unfold Cert.KernelIdeal.Hand.aggK Cert.ReferenceIdeal.Hand.aggR
  rw [srcRow_eq, dstRow_eq]
  exact aggRows_eq_aggW _ _ h
end Cert.Proof.AggSame
end
-- ==== Proof.SpecLaws.lean ====
import proofs.«166660_j61229053772418_1_alg».proof.Proof.Spec
import proofs.«166660_j61229053772418_1_alg».proof.Proof.LibRealValued
noncomputable section
namespace GinSpec
open Idealize.ShloMosaic
open scoped BigOperators
theorem meanMul_eq_meanDiv {n d : ℕ} (h : Mat n d) : meanMul h = meanDiv h := by
  funext j
  unfold meanMul meanDiv
  rw [Ideal.div_coe (by norm_num : (nodes : ℝ) ≠ 0)]
theorem beside_apply {n d : ℕ} (h : Fin 4 → Mat n d) (r : Fin n) (q : Fin 4) (l : Fin d)
    (hlt : q.val * d + l.val < 4 * d) : beside h r ⟨q.val * d + l.val, hlt⟩ = h q r l := by
  have hd : 0 < d := Nat.pos_of_ne_zero fun e => by have := l.isLt; omega
  have e1 : (q.val * d + l.val) / d = q.val := by
    rw [Nat.add_comm, Nat.add_mul_div_right _ _ hd, Nat.div_eq_of_lt l.isLt, Nat.zero_add]
  have e2 : (q.val * d + l.val) % d = l.val := by
    rw [Nat.add_comm, Nat.add_mul_mod_self_right, Nat.mod_eq_of_lt l.isLt]
  simp only [beside, e1, e2]
theorem sum_beside {n d : ℕ} (h : Fin 4 → Mat n d) (L : Mat (4 * d) d) (r : Fin n) (k : Fin d) :
    ∑ l : Fin (4 * d), beside h r l * L l k = ∑ q : Fin 4, ∑ l : Fin d, h q r l * rowBlock L q l k := by
  rw [← (finProdFinEquiv (m := 4) (n := d)).sum_comp, Fintype.sum_prod_type]
  refine Finset.sum_congr rfl fun q _ => Finset.sum_congr rfl fun l _ => ?_
  have hlt : q.val * d + l.val < 4 * d := by
    have := l.isLt; have := q.isLt; nlinarith
  have e : finProdFinEquiv (q, l) = (⟨q.val * d + l.val, hlt⟩ : Fin (4 * d)) := by
    apply Fin.ext
    simp only [finProdFinEquiv, Equiv.coe_fn_mk]
    rw [Nat.add_comm, Nat.mul_comm]
  rw [e, beside_apply]
  rfl
theorem headBlocks_eq_headWhole {n d o : ℕ} (h : Fin 4 → Mat n d) (L : Mat (4 * d) d) (b1 : Row d) (W2 : Mat d o) (b2 : Row o) :
    headBlocks h L b1 W2 b2 = headWhole h L b1 W2 b2 := by
  funext r j
  unfold headBlocks headWhole
  congr 1
  refine Finset.sum_congr rfl fun k _ => ?_
  rw [sum_beside, Fin.sum_univ_four]
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
theorem RealM.exists_eq {n k : ℕ} {h : Mat n k} (hh : RealM h) : ∃ f : Fin n → Fin k → ℝ, h = fun r j => ((f r j : ℝ) : EReal) := by
  choose f hf using hh
  exact ⟨f, funext fun r => funext fun j => hf r j⟩
theorem sum_sq_dev {N : ℕ} (f : Fin N → ℝ) (m : ℝ) :
    ∑ r, (f r - m) * (f r - m) = (∑ r, f r * f r) - 2 * m * (∑ r, f r) + (N : ℝ) * (m * m) := by
  have e : ∀ r, (f r - m) * (f r - m) = f r * f r - 2 * m * f r + m * m := fun r => by ring
  simp only [e]
  rw [Finset.sum_add_distrib, Finset.sum_sub_distrib, ← Finset.mul_sum, Finset.sum_const, Finset.card_univ,
    Fintype.card_fin, nsmul_eq_mul]
theorem varDiv_coe {d : ℕ} (f : Fin 50000 → Fin d → ℝ) (j : Fin d) :
    varDiv (fun r j => ((f r j : ℝ) : EReal)) j
      = (((∑ r, (f r j - (∑ r, f r j) * (1 / nodes)) * (f r j - (∑ r, f r j) * (1 / nodes))) * (1 / nodes) : ℝ) : EReal) := by
  unfold varDiv meanDiv colSum
  rw [Ideal.div_coe (by norm_num : (nodes : ℝ) ≠ 0), Ideal.div_coe (by norm_num : (nodes : ℝ) ≠ 0)]
  simp only [coe_sum, ← EReal.coe_mul, ← EReal.coe_sub]
theorem varMul_coe {d : ℕ} (f : Fin 50000 → Fin d → ℝ) (j : Fin d) :
    varMul (fun r j => ((f r j : ℝ) : EReal)) j
      = (((∑ r, f r j * f r j) * (1 / nodes) - (∑ r, f r j) * (1 / nodes) * ((∑ r, f r j) * (1 / nodes)) : ℝ) : EReal) := by
  unfold varMul meanMul colSumSq colSum
  simp only [coe_sum, ← EReal.coe_mul, ← EReal.coe_sub]
theorem varMul_eq_varDiv {d : ℕ} (h : Mat 50000 d) (hh : RealM h) : varMul h = varDiv h := by
  obtain ⟨f, rfl⟩ := hh.exists_eq
  funext j
  rw [varMul_coe, varDiv_coe, sum_sq_dev]
  congr 1
  unfold nodes
  push_cast
  ring
theorem real_relu {a : EReal} (ha : ∃ r : ℝ, a = (r : EReal)) : ∃ r : ℝ, relu a = (r : EReal) :=
  RealValued.real_max ha ⟨0, rfl⟩
theorem real_lin {n d e : ℕ} {p : Mat n d} {W : Mat d e} {b : Row e} (hp : RealM p) (hW : RealM W) (hb : RealR b) :
    RealM (lin p W b) :=
  fun r j => RealValued.real_add (RealValued.isReal_sum_univ _ fun k => RealValued.real_mul (hp r k) (hW k j)) (hb j)
theorem real_mlp {n d : ℕ} {p : Mat n d} {W1 : Mat d d} {b1 : Row d} {W2 : Mat d d} {b2 : Row d}
    (hp : RealM p) (hW1 : RealM W1) (hb1 : RealR b1) (hW2 : RealM W2) (hb2 : RealR b2) : RealM (mlp p W1 b1 W2 b2) :=
  fun r j => real_relu (real_lin (fun r' k => real_relu (real_lin hp hW1 hb1 r' k)) hW2 hb2 r j)
theorem real_hidden {n d : ℕ} (x a : Mat n d) (W1 : Mat d d) (b1 : Row d) (W2 : Mat d d) (b2 : Row d)
    (hx : RealM x) (ha : RealM a) (hW1 : RealM W1) (hb1 : RealR b1) (hW2 : RealM W2) (hb2 : RealR b2) : RealM (hidden x a W1 b1 W2 b2) :=
  real_mlp (fun r j => RealValued.real_add (hx r j) (ha r j)) hW1 hb1 hW2 hb2
theorem layerMul_eq_layerDiv {d : ℕ} (x a : Mat 50000 d) (P : Params d) (hx : RealM x) (ha : RealM a) (hP : P.Real) :
    layerMul x a P.W1 P.b1 P.W2 P.b2 P.g P.bt = layerDiv x a P.W1 P.b1 P.W2 P.b2 P.g P.bt := by
  obtain ⟨hW1, hb1, hW2, hb2, -, -⟩ := hP
  unfold layerMul layerDiv
  rw [meanMul_eq_meanDiv, varMul_eq_varDiv _ (real_hidden x a P.W1 P.b1 P.W2 P.b2 hx ha hW1 hb1 hW2 hb2)]
theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]
theorem real_bn {n d : ℕ} {h : Mat n d} {mean var g bt : Row d} (hh : RealM h) (hm : RealR mean)
    (hv : ∀ j, ∃ v : ℝ, 0 ≤ v ∧ var j = (v : EReal)) (hg : RealR g) (hbt : RealR bt) : RealM (bn h mean var g bt) := by
  intro r j
  obtain ⟨v, hv0, hv⟩ := hv j
  obtain ⟨e, he0, he⟩ := eps_pos
  obtain ⟨s, -, hs⟩ := RealValued.rsqrt_of_pos (a := var j + eps)
    ⟨v + e, by linarith, by rw [hv, he, EReal.coe_add]⟩
  unfold bn
  exact RealValued.real_add (RealValued.real_mul (RealValued.real_mul (RealValued.real_sub (hh r j) (hm j)) ⟨s, hs⟩) (hg j)) (hbt j)
theorem real_layerDiv {d : ℕ} (x a : Mat 50000 d) (P : Params d) (hx : RealM x) (ha : RealM a) (hP : P.Real) :
    RealM (layerDiv x a P.W1 P.b1 P.W2 P.b2 P.g P.bt) := by
  obtain ⟨hW1, hb1, hW2, hb2, hg, hbt⟩ := hP
  have hh := real_hidden x a P.W1 P.b1 P.W2 P.b2 hx ha hW1 hb1 hW2 hb2
  unfold layerDiv
  generalize hidden x a P.W1 P.b1 P.W2 P.b2 = H at hh ⊢
  obtain ⟨f, rfl⟩ := hh.exists_eq
  refine real_bn hh (fun j => ?_) (fun j => ?_) hg hbt
  · rw [← meanMul_eq_meanDiv]
    exact RealValued.real_mul (RealValued.isReal_sum_univ _ fun r => hh r j) ⟨_, rfl⟩
  · exact ⟨_, mul_nonneg (Finset.sum_nonneg fun r _ => mul_self_nonneg _) (by norm_num), varDiv_coe f j⟩
theorem feat_eq {d : ℕ} (A : Mat 50000 d → Mat 50000 d) (hA : ∀ y, RealM y → RealM (A y)) (x : Mat 50000 d) (hx : RealM x)
    (P : Fin 4 → Params d) (hP : ∀ q, (P q).Real) (l : ℕ) (hl : l ≤ 4) :
    featMul A x P l hl = featDiv A x P l hl ∧ RealM (featDiv A x P l hl) := by
  induction l with
  | zero => exact ⟨rfl, hx⟩
  | succ l ih =>
    obtain ⟨e, hr⟩ := ih (Nat.le_of_succ_le hl)
    simp only [featMul, featDiv]
    rw [e]
    exact ⟨layerMul_eq_layerDiv _ _ _ hr (hA _ hr) (hP _), real_layerDiv _ _ _ hr (hA _ hr) (hP _)⟩
theorem netMul_eq_netDiv {d o : ℕ} (A : Mat 50000 d → Mat 50000 d) (hA : ∀ y, RealM y → RealM (A y)) (x : Mat 50000 d) (hx : RealM x)
    (P : Fin 4 → Params d) (hP : ∀ q, (P q).Real) (L : Mat (4 * d) d) (b1 : Row d) (W2 : Mat d o) (b2 : Row o) :
    netMul A x P L b1 W2 b2 = netDiv A x P L b1 W2 b2 := by
  unfold netMul netDiv
  rw [headBlocks_eq_headWhole]
  congr 1
  funext q
  exact (feat_eq A hA x hx P hP _ _).1
end GinSpec
end
-- ==== Proof.BridgeLemmas.lean ====
import proofs.«166660_j61229053772418_1_alg».proof.Proof.Shared
import proofs.«166660_j61229053772418_1_alg».proof.Proof.SpecLaws
import proofs.«166660_j61229053772418_1_alg».proof.Proof.LibRealValued
noncomputable section
namespace GinSpec
open Idealize.ShloMosaic
open scoped BigOperators
theorem realM_ofArr {n k : ℕ} {a : (⟨2, ![n, k]⟩ : Shape).Idx → EReal} (h : RealValued.IsReal a) : RealM (ofArr a) :=
  fun r j => h (ValueIdx.ix2 r j)
theorem isReal_toArr {n k : ℕ} {y : Mat n k} (h : RealM y) : RealValued.IsReal (toArr y) :=
  fun i => h (i 0) (i 1)
theorem paramsOf_real {W1 : (⟨3, ![4, 128, 128]⟩ : Shape).Idx → EReal} {b1 : (⟨2, ![4, 128]⟩ : Shape).Idx → EReal}
    {W2 : (⟨3, ![4, 128, 128]⟩ : Shape).Idx → EReal} {b2 g bt : (⟨2, ![4, 128]⟩ : Shape).Idx → EReal}
    (h1 : RealValued.IsReal W1) (h2 : RealValued.IsReal b1) (h3 : RealValued.IsReal W2) (h4 : RealValued.IsReal b2)
    (h5 : RealValued.IsReal g) (h6 : RealValued.IsReal bt) : ∀ q, (paramsOf W1 b1 W2 b2 g bt q).Real :=
  fun q => ⟨fun j k => h1 (ValueIdx.ix3 q j k), fun k => h2 (ValueIdx.ix2 q k), fun j k => h3 (ValueIdx.ix3 q j k),
    fun k => h4 (ValueIdx.ix2 q k), fun k => h5 (ValueIdx.ix2 q k), fun k => h6 (ValueIdx.ix2 q k)⟩
theorem net_bridge (agg : ((⟨2, ![50000, 128]⟩ : Shape).Idx → EReal) → ((⟨2, ![50000, 128]⟩ : Shape).Idx → EReal))
    (hagg : ∀ h, RealValued.IsReal h → RealValued.IsReal (agg h))
    (x : (⟨2, ![50000, 128]⟩ : Shape).Idx → EReal) (W1 : (⟨3, ![4, 128, 128]⟩ : Shape).Idx → EReal)
    (b1 : (⟨2, ![4, 128]⟩ : Shape).Idx → EReal) (W2 : (⟨3, ![4, 128, 128]⟩ : Shape).Idx → EReal)
    (b2 g bt : (⟨2, ![4, 128]⟩ : Shape).Idx → EReal)
    (L : (⟨2, ![512, 128]⟩ : Shape).Idx → EReal) (lb1 : (⟨1, ![128]⟩ : Shape).Idx → EReal)
    (L2 : (⟨2, ![128, 8]⟩ : Shape).Idx → EReal) (lb2 : (⟨1, ![8]⟩ : Shape).Idx → EReal)
    (hx : RealValued.IsReal x) (hW1 : RealValued.IsReal W1) (hb1 : RealValued.IsReal b1) (hW2 : RealValued.IsReal W2)
    (hb2 : RealValued.IsReal b2) (hg : RealValued.IsReal g) (hbt : RealValued.IsReal bt) :
    netMul (fun y => ofArr (agg (toArr y))) (ofArr x) (paramsOf W1 b1 W2 b2 g bt) (ofArr L) (ofVec lb1) (ofArr L2) (ofVec lb2)
      = netDiv (fun y => ofArr (agg (toArr y))) (ofArr x) (paramsOf W1 b1 W2 b2 g bt) (ofArr L) (ofVec lb1) (ofArr L2) (ofVec lb2) :=
  netMul_eq_netDiv (fun y => ofArr (agg (toArr y))) (fun _ hy => realM_ofArr (hagg _ (isReal_toArr hy))) (ofArr x)
    (realM_ofArr hx) (paramsOf W1 b1 W2 b2 g bt) (paramsOf_real hW1 hb1 hW2 hb2 hg hbt) (ofArr L) (ofVec lb1) (ofArr L2) (ofVec lb2)
end GinSpec
end
-- ==== Proof.Finite.lean ====
import proofs.«166660_j61229053772418_1_alg».proof.Defs
import proofs.«166660_j61229053772418_1_alg».proof.Proof.Gen.Pre_finite_inputs
import proofs.«166660_j61229053772418_1_alg».proof.Proof.Gen.KernelIdeal
import proofs.«166660_j61229053772418_1_alg».proof.Proof.LibRealValued
import Idealize.ShloMosaic.Lib.ReduceAll
import Idealize.ShloMosaic.Lib.ValueIdx
import Idealize.ShloMosaic.PureOps.Ideal
noncomputable section
namespace Cert.Proof.Finite
open Idealize.ShloMosaic Idealize.SL.Sem
theorem ofBits_inf_f32 : Ideal.ofBits .f32 0x7F800000#32 = (⊤ : EReal) := by
  simp [Ideal.ofBits, Ideal.ieee]
instance subsingleton_scalar_idx : Subsingleton (⟨0, ![]⟩ : Shape).Idx :=
  ⟨fun a b => funext fun d => d.elim0⟩
theorem isReal_of_all_abs_lt_inf {s t u S0 : Shape} [Subsingleton t.Idx] {axes : List (Fin s.rank)}
    {dims : Fin S0.rank → Fin s.rank} (x : FVec Ideal s .f32) (bc : S0.BroadcastsInDim s dims)
    (init : u.Idx → BitVec 1) (h : s.ReducesTo axes t) (hu : 0 < u.numel) (j : t.Idx)
    (e : Host.reduce IntOp.andi
          (cmpf (F := Ideal) .olt (Host.absf (F := Ideal) x)
            (broadcastInDim s dims bc (constant (F := Ideal) S0 .f32 0x7F800000#32))) init h hu j = 1#1) :
    RealValued.IsReal x := by
  refine RealValued.isReal_of_abs_lt_top fun i => ?_
  have hi := Host.reduce_andi_all _ init h hu j e i
  have hc : Ideal.cmp .olt (max (x i) (-(x i))) (Ideal.ofBits .f32 0x7F800000#32) = 1#1 := hi
  rw [ofBits_inf_f32] at hc
  have hb : BitVec.ofBool (decide (max (x i) (-(x i)) < (⊤ : EReal))) = 1#1 := hc
  by_contra hn
  rw [decide_eq_false hn] at hb
  exact absurd hb (by decide)
theorem real_args [hPre : Cert.Pre_finite_inputs.Facts] [hK : Cert.KernelIdeal.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      RealValued.IsReal (m ((c.tc : Thread Cert.KernelIdeal.nD Cert.KernelIdeal.τ).loc Cert.KernelIdeal.main_arg0))
      ∧ RealValued.IsReal (m ((c.tc : Thread Cert.KernelIdeal.nD Cert.KernelIdeal.τ).loc Cert.KernelIdeal.main_arg2))
      ∧ RealValued.IsReal (m ((c.tc : Thread Cert.KernelIdeal.nD Cert.KernelIdeal.τ).loc Cert.KernelIdeal.main_arg3))
      ∧ RealValued.IsReal (m ((c.tc : Thread Cert.KernelIdeal.nD Cert.KernelIdeal.τ).loc Cert.KernelIdeal.main_arg4))
      ∧ RealValued.IsReal (m ((c.tc : Thread Cert.KernelIdeal.nD Cert.KernelIdeal.τ).loc Cert.KernelIdeal.main_arg5))
      ∧ RealValued.IsReal (m ((c.tc : Thread Cert.KernelIdeal.nD Cert.KernelIdeal.τ).loc Cert.KernelIdeal.main_arg6))
      ∧ RealValued.IsReal (m ((c.tc : Thread Cert.KernelIdeal.nD Cert.KernelIdeal.τ).loc Cert.KernelIdeal.main_arg7))
      ∧ RealValued.IsReal (m ((c.tc : Thread Cert.KernelIdeal.nD Cert.KernelIdeal.τ).loc Cert.KernelIdeal.main_arg8))
      ∧ RealValued.IsReal (m ((c.tc : Thread Cert.KernelIdeal.nD Cert.KernelIdeal.τ).loc Cert.KernelIdeal.main_arg9))
      ∧ RealValued.IsReal (m ((c.tc : Thread Cert.KernelIdeal.nD Cert.KernelIdeal.τ).loc Cert.KernelIdeal.main_arg10))
      ∧ RealValued.IsReal (m ((c.tc : Thread Cert.KernelIdeal.nD Cert.KernelIdeal.τ).loc Cert.KernelIdeal.main_arg11)) := by
  have e := congrFun (h c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨e0, e2⟩, e3⟩, e4⟩, e5⟩, e6⟩, e7⟩, e8⟩, e9⟩, e10⟩, e11⟩ := e
  exact ⟨isReal_of_all_abs_lt_inf _ _ _ _ _ _ e0, isReal_of_all_abs_lt_inf _ _ _ _ _ _ e2,
    isReal_of_all_abs_lt_inf _ _ _ _ _ _ e3, isReal_of_all_abs_lt_inf _ _ _ _ _ _ e4,
    isReal_of_all_abs_lt_inf _ _ _ _ _ _ e5, isReal_of_all_abs_lt_inf _ _ _ _ _ _ e6,
    isReal_of_all_abs_lt_inf _ _ _ _ _ _ e7, isReal_of_all_abs_lt_inf _ _ _ _ _ _ e8,
    isReal_of_all_abs_lt_inf _ _ _ _ _ _ e9, isReal_of_all_abs_lt_inf _ _ _ _ _ _ e10,
    isReal_of_all_abs_lt_inf _ _ _ _ _ _ e11⟩
end Cert.Proof.Finite
end
-- ==== Proof.Bridge.lean ====
import proofs.«166660_j61229053772418_1_alg».proof.Defs
import proofs.«166660_j61229053772418_1_alg».proof.Proof.KernelClaims
import proofs.«166660_j61229053772418_1_alg».proof.Proof.RefClaims
import proofs.«166660_j61229053772418_1_alg».proof.Proof.KI.Value
import proofs.«166660_j61229053772418_1_alg».proof.Proof.KI.AggReal
import proofs.«166660_j61229053772418_1_alg».proof.Proof.AggSame
import proofs.«166660_j61229053772418_1_alg».proof.Proof.BridgeLemmas
import proofs.«166660_j61229053772418_1_alg».proof.Proof.Finite
noncomputable section
namespace Cert.Proof.Bridge
open Idealize.ShloMosaic Idealize.ShloMosaic.TcCoe Idealize.SL.Sem
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (c : Dev Cert.KernelIdeal.nD) :
    StableHlo.after Cert.ReferenceIdeal.Hand.ops (StableHlo.launchContents m' c) (Proc.devRef .tc Cert.ReferenceIdeal.main_v221)
      = Cert.KernelIdeal.Hand.Wv18 (F := Ideal) m c (Proc.devRef .tc Cert.KernelIdeal.main_v122) := by
  obtain ⟨a0, a1, a2, a3, a4, a5, a6, a7, a8, a9, a10, a11⟩ := hagree c
  obtain ⟨r0, r2, r3, r4, r5, r6, r7, r8, r9, r10, r11⟩ := Cert.Proof.Finite.real_args (hPre := Cert.Pre_finite_inputs.Gen.facts) (hK := Cert.KernelIdeal.Gen.facts) m hpre c
  funext i
  obtain ⟨r, o, rfl⟩ : ∃ (r : Fin 50000) (o : Fin 8), i = ValueIdx.ix2 r o := ⟨i 0, i 1, ValueIdx.eq_ix2 i⟩
  refine (Cert.ReferenceIdeal.Hand.ref_value m' c r o).trans ?_
  refine Eq.trans ?_ (Cert.KernelIdeal.Hand.kernel_value m c r o).symm
  have e0 : StableHlo.launchContents m' c (Proc.devRef .tc Cert.ReferenceIdeal.main_arg0) = m (c, Proc.devRef .tc Cert.KernelIdeal.main_arg0) := a0
  have e1 : StableHlo.launchContents m' c (Proc.devRef .tc Cert.ReferenceIdeal.main_arg1) = m (c, Proc.devRef .tc Cert.KernelIdeal.main_arg1) := a1
  have e2 : StableHlo.launchContents m' c (Proc.devRef .tc Cert.ReferenceIdeal.main_arg2) = m (c, Proc.devRef .tc Cert.KernelIdeal.main_arg2) := a2
  have e3 : StableHlo.launchContents m' c (Proc.devRef .tc Cert.ReferenceIdeal.main_arg3) = m (c, Proc.devRef .tc Cert.KernelIdeal.main_arg3) := a3
  have e4 : StableHlo.launchContents m' c (Proc.devRef .tc Cert.ReferenceIdeal.main_arg4) = m (c, Proc.devRef .tc Cert.KernelIdeal.main_arg4) := a4
  have e5 : StableHlo.launchContents m' c (Proc.devRef .tc Cert.ReferenceIdeal.main_arg5) = m (c, Proc.devRef .tc Cert.KernelIdeal.main_arg5) := a5
  have e6 : StableHlo.launchContents m' c (Proc.devRef .tc Cert.ReferenceIdeal.main_arg6) = m (c, Proc.devRef .tc Cert.KernelIdeal.main_arg6) := a6
  have e7 : StableHlo.launchContents m' c (Proc.devRef .tc Cert.ReferenceIdeal.main_arg7) = m (c, Proc.devRef .tc Cert.KernelIdeal.main_arg7) := a7
  have e8 : StableHlo.launchContents m' c (Proc.devRef .tc Cert.ReferenceIdeal.main_arg8) = m (c, Proc.devRef .tc Cert.KernelIdeal.main_arg8) := a8
  have e9 : StableHlo.launchContents m' c (Proc.devRef .tc Cert.ReferenceIdeal.main_arg9) = m (c, Proc.devRef .tc Cert.KernelIdeal.main_arg9) := a9
  have e10 : StableHlo.launchContents m' c (Proc.devRef .tc Cert.ReferenceIdeal.main_arg10) = m (c, Proc.devRef .tc Cert.KernelIdeal.main_arg10) := a10
  have e11 : StableHlo.launchContents m' c (Proc.devRef .tc Cert.ReferenceIdeal.main_arg11) = m (c, Proc.devRef .tc Cert.KernelIdeal.main_arg11) := a11
  rw [e0, e1, e2, e3, e4, e5, e6, e7, e8, e9, e10, e11]
  have hagg : (fun y : GinSpec.Mat 50000 128 => GinSpec.ofArr (Cert.ReferenceIdeal.Hand.aggR (F := Ideal) (m (c, Proc.devRef .tc Cert.KernelIdeal.main_arg1)) (GinSpec.toArr y)))
      = fun y => GinSpec.ofArr (Cert.KernelIdeal.Hand.aggK (m (c, Proc.devRef .tc Cert.KernelIdeal.main_arg1)) (GinSpec.toArr y)) := by
    funext y; rw [Cert.Proof.AggSame.aggK_eq_aggR]
  rw [hagg]
  exact (congrFun (congrFun (GinSpec.net_bridge (Cert.KernelIdeal.Hand.aggK (m (c, Proc.devRef .tc Cert.KernelIdeal.main_arg1)))
    (fun h hh => Cert.KernelIdeal.Hand.isReal_aggK _ h hh) _ _ _ _ _ _ _ _ _ _ _ r0 r2 r3 r4 r5 r6 r7) r) o).symm
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := fun m ρ m' ρ' hpre hagree =>
  ⟨fun c => Cert.KernelIdeal.Hand.Wv18 (F := Ideal) m c (Proc.devRef .tc Cert.KernelIdeal.main_v122), Cert.Proof.KernelClaims.run_ki m ρ,
    Cert.Proof.RefClaims.ref_run_value m' ρ' _ (fun c => value_eq m m' hpre hagree c)⟩
end Cert.Proof.Bridge
end
-- ==== Proof.lean ====
import proofs.«166660_j61229053772418_1_alg».proof.Defs
import proofs.«166660_j61229053772418_1_alg».proof.Proof.Gen.Kernel
import proofs.«166660_j61229053772418_1_alg».proof.Proof.Gen.KernelIdeal
import proofs.«166660_j61229053772418_1_alg».proof.Proof.Gen.ReferenceIdeal
import proofs.«166660_j61229053772418_1_alg».proof.Proof.Gen.Pre_finite_inputs
import proofs.«166660_j61229053772418_1_alg».proof.Proof.KernelClaims
import proofs.«166660_j61229053772418_1_alg».proof.Proof.RefClaims
import proofs.«166660_j61229053772418_1_alg».proof.Proof.Bridge
noncomputable section
namespace Cert.Proof
theorem claim : Cert.Claim :=
  ⟨Cert.Kernel.Gen.facts, Cert.KernelIdeal.Gen.facts, Cert.ReferenceIdeal.Gen.facts, Cert.Pre_finite_inputs.Gen.facts,
    Cert.Proof.KernelClaims.frame_k, Cert.Proof.KernelClaims.frame_ki, Cert.Proof.RefClaims.frame_ri,
    Cert.Proof.KernelClaims.preserves, Cert.Proof.Bridge.algebraic⟩
end Cert.Proof
end
